-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S256x512 : Shape := ⟨2, ![256, 512]⟩
abbrev S128x512 : Shape := ⟨2, ![128, 512]⟩
abbrev S48 : Shape := ⟨1, ![48]⟩
abbrev S_ : Shape := ⟨0, ![]⟩
abbrev S32x512 : Shape := ⟨2, ![32, 512]⟩
abbrev S1 : Shape := ⟨1, ![1]⟩

abbrev nBuf : Space → Nat
  | .hbm => 2
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S1024x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_20 : BitVec 32 := 1#32
  let v51 : BitVec 32 := Scalar.muli v48 c1_i32_20
  let v52 : BitVec 32 := Scalar.addi c0_i32_21 v51
  v52.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_23 : BitVec 32 := 1#32
  let v53 : BitVec 32 := Scalar.muli v49 c1_i32_23
  let v54 : BitVec 32 := Scalar.addi c0_i32_24 v53
  v54.toNat
def k0_off1 (d0 : Dev nD) (c0_i32_27 : BitVec 32) : Fin 2 → Nat :=
  let c0_i32_29 : BitVec 32 := 0#32
  let c1_i32_28 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v58 : BitVec 32 := Scalar.subi c1_i32_28 v19
  let c256_i32 : BitVec 32 := 256#32
  let v59 : BitVec 32 := Scalar.muli v58 c256_i32
  let v60 : BitVec 32 := Scalar.addi c0_i32_29 v59
  let c1_i32_26 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v55 : BitVec 32 := Scalar.subi c1_i32_26 v47
  let c128_i32 : BitVec 32 := 128#32
  let v56 : BitVec 32 := Scalar.muli v55 c128_i32
  let v57 : BitVec 32 := Scalar.addi v56 c0_i32_27
  let v61 : BitVec 32 := Scalar.addi v60 v57
  let v62 : Index := Scalar.indexCast v61
  let c0 : Index := 0#32
  ![v62.toNat, 0]
def k0_off2 (d0 : Dev nD) (c0_i32_27 : BitVec 32) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v55 : BitVec 32 := Scalar.subi c1_i32_26 v47
  let c128_i32 : BitVec 32 := 128#32
  let v56 : BitVec 32 := Scalar.muli v55 c128_i32
  let v57 : BitVec 32 := Scalar.addi v56 c0_i32_27
  let v66 : Index := Scalar.indexCast v57
  let c0_30 : Index := 0#32
  ![v66.toNat, 0]
def k0_off3 (d0 : Dev nD) (c0_i32_27 : BitVec 32) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v55 : BitVec 32 := Scalar.subi c1_i32_26 v47
  let c128_i32 : BitVec 32 := 128#32
  let v56 : BitVec 32 := Scalar.muli v55 c128_i32
  let v57 : BitVec 32 := Scalar.addi v56 c0_i32_27
  let c0_i32_35 : BitVec 32 := 0#32
  ![v57.toNat, 0]
def k0_dev3 (d0 : Dev nD) : Nat :=
  let c0_i32_34 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_33 : BitVec 32 := 1#32
  let v70 : BitVec 32 := Scalar.muli v48 c1_i32_33
  let v71 : BitVec 32 := Scalar.addi c0_i32_34 v70
  v71.toNat
def k0_off4 (d0 : Dev nD) (c0_i32_39 : BitVec 32) : Fin 2 → Nat :=
  let c512_i32 : BitVec 32 := 512#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v81 : BitVec 32 := Scalar.subi c1_i32_40 v47
  let c256_i32_41 : BitVec 32 := 256#32
  let v82 : BitVec 32 := Scalar.muli v81 c256_i32_41
  let v83 : BitVec 32 := Scalar.addi c512_i32 v82
  let c1_i32_37 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v78 : BitVec 32 := Scalar.subi c1_i32_37 v19
  let c128_i32_38 : BitVec 32 := 128#32
  let v79 : BitVec 32 := Scalar.muli v78 c128_i32_38
  let v80 : BitVec 32 := Scalar.addi v79 c0_i32_39
  let v84 : BitVec 32 := Scalar.addi v83 v80
  let v85 : Index := Scalar.indexCast v84
  let c0_42 : Index := 0#32
  ![v85.toNat, 0]
def k0_off5 (d0 : Dev nD) (c0_i32_39 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v78 : BitVec 32 := Scalar.subi c1_i32_37 v19
  let c128_i32_38 : BitVec 32 := 128#32
  let v79 : BitVec 32 := Scalar.muli v78 c128_i32_38
  let v80 : BitVec 32 := Scalar.addi v79 c0_i32_39
  let v89 : Index := Scalar.indexCast v80
  let c0_43 : Index := 0#32
  ![v89.toNat, 0]
def k0_off6 (d0 : Dev nD) (c0_i32_39 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v78 : BitVec 32 := Scalar.subi c1_i32_37 v19
  let c128_i32_38 : BitVec 32 := 128#32
  let v79 : BitVec 32 := Scalar.muli v78 c128_i32_38
  let v80 : BitVec 32 := Scalar.addi v79 c0_i32_39
  let c0_i32_48 : BitVec 32 := 0#32
  ![v80.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_46 : BitVec 32 := 1#32
  let v93 : BitVec 32 := Scalar.muli v49 c1_i32_46
  let v94 : BitVec 32 := Scalar.addi c0_i32_47 v93
  v94.toNat
def k0_dev5 (d0 : Dev nD) : Nat :=
  let c0_i32_60 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_59 : BitVec 32 := 1#32
  let v116 : BitVec 32 := Scalar.muli v48 c1_i32_59
  let v117 : BitVec 32 := Scalar.addi c0_i32_60 v116
  v117.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_73 : BitVec 32 := 1#32
  let v139 : BitVec 32 := Scalar.muli v49 c1_i32_73
  let v140 : BitVec 32 := Scalar.addi c0_i32_74 v139
  v140.toNat
def k0_dev7 (d0 : Dev nD) : Nat :=
  let c0_i32_87 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_86 : BitVec 32 := 1#32
  let v162 : BitVec 32 := Scalar.muli v48 c1_i32_86
  let v163 : BitVec 32 := Scalar.addi c0_i32_87 v162
  v163.toNat
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_99 : BitVec 32 := 1#32
  let v185 : BitVec 32 := Scalar.muli v49 c1_i32_99
  let v186 : BitVec 32 := Scalar.addi c0_i32_100 v185
  v186.toNat
def k0_dev9 (d0 : Dev nD) : Nat :=
  let c0_i32_112 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_111 : BitVec 32 := 1#32
  let v208 : BitVec 32 := Scalar.muli v48 c1_i32_111
  let v209 : BitVec 32 := Scalar.addi c0_i32_112 v208
  v209.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_124 : BitVec 32 := 1#32
  let v231 : BitVec 32 := Scalar.muli v49 c1_i32_124
  let v232 : BitVec 32 := Scalar.addi c0_i32_125 v231
  v232.toNat
def k0_off7 (d0 : Dev nD) (c0_i32_129 : BitVec 32) : Fin 2 → Nat :=
  let c0_i32_132 : BitVec 32 := 0#32
  let c1_i32_130 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v241 : BitVec 32 := Scalar.subi c1_i32_130 v19
  let c256_i32_131 : BitVec 32 := 256#32
  let v242 : BitVec 32 := Scalar.muli v241 c256_i32_131
  let v243 : BitVec 32 := Scalar.addi c0_i32_132 v242
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c128_i32_128 : BitVec 32 := 128#32
  let v239 : BitVec 32 := Scalar.muli v47 c128_i32_128
  let v240 : BitVec 32 := Scalar.addi v239 c0_i32_129
  let v244 : BitVec 32 := Scalar.addi v243 v240
  let v245 : Index := Scalar.indexCast v244
  let c0_133 : Index := 0#32
  ![v245.toNat, 0]
def k0_off8 (d0 : Dev nD) (c0_i32_129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c128_i32_128 : BitVec 32 := 128#32
  let v239 : BitVec 32 := Scalar.muli v47 c128_i32_128
  let v240 : BitVec 32 := Scalar.addi v239 c0_i32_129
  let v249 : Index := Scalar.indexCast v240
  let c0_134 : Index := 0#32
  ![v249.toNat, 0]
def k0_off9 (d0 : Dev nD) (c0_i32_129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c128_i32_128 : BitVec 32 := 128#32
  let v239 : BitVec 32 := Scalar.muli v47 c128_i32_128
  let v240 : BitVec 32 := Scalar.addi v239 c0_i32_129
  let c0_i32_138 : BitVec 32 := 0#32
  ![v240.toNat, 0]
def k0_dev11 (d0 : Dev nD) : Nat :=
  let c0_i32_137 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_136 : BitVec 32 := 1#32
  let v253 : BitVec 32 := Scalar.muli v48 c1_i32_136
  let v254 : BitVec 32 := Scalar.addi c0_i32_137 v253
  v254.toNat
def k0_off10 (d0 : Dev nD) (c0_i32_141 : BitVec 32) : Fin 2 → Nat :=
  let c512_i32_144 : BitVec 32 := 512#32
  let c1_i32_142 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v263 : BitVec 32 := Scalar.subi c1_i32_142 v47
  let c256_i32_143 : BitVec 32 := 256#32
  let v264 : BitVec 32 := Scalar.muli v263 c256_i32_143
  let v265 : BitVec 32 := Scalar.addi c512_i32_144 v264
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_140 : BitVec 32 := 128#32
  let v261 : BitVec 32 := Scalar.muli v19 c128_i32_140
  let v262 : BitVec 32 := Scalar.addi v261 c0_i32_141
  let v266 : BitVec 32 := Scalar.addi v265 v262
  let v267 : Index := Scalar.indexCast v266
  let c0_145 : Index := 0#32
  ![v267.toNat, 0]
def k0_off11 (d0 : Dev nD) (c0_i32_141 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_140 : BitVec 32 := 128#32
  let v261 : BitVec 32 := Scalar.muli v19 c128_i32_140
  let v262 : BitVec 32 := Scalar.addi v261 c0_i32_141
  let v271 : Index := Scalar.indexCast v262
  let c0_146 : Index := 0#32
  ![v271.toNat, 0]
def k0_off12 (d0 : Dev nD) (c0_i32_141 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_140 : BitVec 32 := 128#32
  let v261 : BitVec 32 := Scalar.muli v19 c128_i32_140
  let v262 : BitVec 32 := Scalar.addi v261 c0_i32_141
  let c0_i32_150 : BitVec 32 := 0#32
  ![v262.toNat, 0]
def k0_dev12 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_148 : BitVec 32 := 1#32
  let v275 : BitVec 32 := Scalar.muli v49 c1_i32_148
  let v276 : BitVec 32 := Scalar.addi c0_i32_149 v275
  v276.toNat
def k0_dev13 (d0 : Dev nD) : Nat :=
  let c0_i32_161 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_160 : BitVec 32 := 1#32
  let v297 : BitVec 32 := Scalar.muli v48 c1_i32_160
  let v298 : BitVec 32 := Scalar.addi c0_i32_161 v297
  v298.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_172 : BitVec 32 := 1#32
  let v319 : BitVec 32 := Scalar.muli v49 c1_i32_172
  let v320 : BitVec 32 := Scalar.addi c0_i32_173 v319
  v320.toNat
def k0_dev15 (d0 : Dev nD) : Nat :=
  let c0_i32_185 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_184 : BitVec 32 := 1#32
  let v341 : BitVec 32 := Scalar.muli v48 c1_i32_184
  let v342 : BitVec 32 := Scalar.addi c0_i32_185 v341
  v342.toNat
def k0_dev16 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_196 : BitVec 32 := 1#32
  let v363 : BitVec 32 := Scalar.muli v49 c1_i32_196
  let v364 : BitVec 32 := Scalar.addi c0_i32_197 v363
  v364.toNat
def k0_dev17 (d0 : Dev nD) : Nat :=
  let c0_i32_209 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_208 : BitVec 32 := 1#32
  let v385 : BitVec 32 := Scalar.muli v48 c1_i32_208
  let v386 : BitVec 32 := Scalar.addi c0_i32_209 v385
  v386.toNat
def k0_dev18 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_220 : BitVec 32 := 1#32
  let v407 : BitVec 32 := Scalar.muli v49 c1_i32_220
  let v408 : BitVec 32 := Scalar.addi c0_i32_221 v407
  v408.toNat
def k0_off13 (d0 : Dev nD) (c0_i32_226 : BitVec 32) : Fin 2 → Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_233 : BitVec 32 := 256#32
  let v424 : BitVec 32 := Scalar.muli v19 c256_i32_233
  let v425 : BitVec 32 := Scalar.addi c0_i32_234 v424
  let c1_i32_224 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v415 : BitVec 32 := Scalar.subi c1_i32_224 v47
  let c128_i32_225 : BitVec 32 := 128#32
  let v416 : BitVec 32 := Scalar.muli v415 c128_i32_225
  let v417 : BitVec 32 := Scalar.addi v416 c0_i32_226
  let v426 : BitVec 32 := Scalar.addi v425 v417
  let v427 : Index := Scalar.indexCast v426
  let c0_235 : Index := 0#32
  ![v427.toNat, 0]
def k0_dev19 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_240 : BitVec 32 := 1#32
  let v438 : BitVec 32 := Scalar.muli v49 c1_i32_240
  let v439 : BitVec 32 := Scalar.addi c0_i32_241 v438
  v439.toNat
def k0_off14 (d0 : Dev nD) (c0_i32_248 : BitVec 32) : Fin 2 → Nat :=
  let c512_i32_256 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c256_i32_255 : BitVec 32 := 256#32
  let v455 : BitVec 32 := Scalar.muli v47 c256_i32_255
  let v456 : BitVec 32 := Scalar.addi c512_i32_256 v455
  let c1_i32_246 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v446 : BitVec 32 := Scalar.subi c1_i32_246 v19
  let c128_i32_247 : BitVec 32 := 128#32
  let v447 : BitVec 32 := Scalar.muli v446 c128_i32_247
  let v448 : BitVec 32 := Scalar.addi v447 c0_i32_248
  let v457 : BitVec 32 := Scalar.addi v456 v448
  let v458 : Index := Scalar.indexCast v457
  let c0_257 : Index := 0#32
  ![v458.toNat, 0]
def k0_dev20 (d0 : Dev nD) : Nat :=
  let c0_i32_263 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_262 : BitVec 32 := 1#32
  let v469 : BitVec 32 := Scalar.muli v48 c1_i32_262
  let v470 : BitVec 32 := Scalar.addi c0_i32_263 v469
  v470.toNat
def k0_dev21 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_283 : BitVec 32 := 1#32
  let v500 : BitVec 32 := Scalar.muli v49 c1_i32_283
  let v501 : BitVec 32 := Scalar.addi c0_i32_284 v500
  v501.toNat
def k0_dev22 (d0 : Dev nD) : Nat :=
  let c0_i32_306 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_305 : BitVec 32 := 1#32
  let v531 : BitVec 32 := Scalar.muli v48 c1_i32_305
  let v532 : BitVec 32 := Scalar.addi c0_i32_306 v531
  v532.toNat
def k0_dev23 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_326 : BitVec 32 := 1#32
  let v562 : BitVec 32 := Scalar.muli v49 c1_i32_326
  let v563 : BitVec 32 := Scalar.addi c0_i32_327 v562
  v563.toNat
def k0_dev24 (d0 : Dev nD) : Nat :=
  let c0_i32_349 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_348 : BitVec 32 := 1#32
  let v593 : BitVec 32 := Scalar.muli v48 c1_i32_348
  let v594 : BitVec 32 := Scalar.addi c0_i32_349 v593
  v594.toNat
def k0_dev25 (d0 : Dev nD) : Nat :=
  let c0_i32_370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_369 : BitVec 32 := 1#32
  let v624 : BitVec 32 := Scalar.muli v49 c1_i32_369
  let v625 : BitVec 32 := Scalar.addi c0_i32_370 v624
  v625.toNat
def k0_dev26 (d0 : Dev nD) : Nat :=
  let c0_i32_392 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_391 : BitVec 32 := 1#32
  let v655 : BitVec 32 := Scalar.muli v48 c1_i32_391
  let v656 : BitVec 32 := Scalar.addi c0_i32_392 v655
  v656.toNat
def k0_off15 (d0 : Dev nD) (c0_i32_399 : BitVec 32) : Fin 2 → Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_414 : BitVec 32 := 256#32
  let v679 : BitVec 32 := Scalar.muli v19 c256_i32_414
  let v680 : BitVec 32 := Scalar.addi c0_i32_415 v679
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c128_i32_398 : BitVec 32 := 128#32
  let v665 : BitVec 32 := Scalar.muli v47 c128_i32_398
  let v666 : BitVec 32 := Scalar.addi v665 c0_i32_399
  let v681 : BitVec 32 := Scalar.addi v680 v666
  let v682 : Index := Scalar.indexCast v681
  let c0_416 : Index := 0#32
  ![v682.toNat, 0]
def k0_off16 (d0 : Dev nD) (c0_i32_422 : BitVec 32) : Fin 2 → Nat :=
  let c0_i32_421 : BitVec 32 := 0#32
  let c2_i32_397 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v663 : BitVec 32 := Scalar.muli c2_i32_397 v19
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v664 : BitVec 32 := Scalar.addi v663 v47
  let c128_i32_420 : BitVec 32 := 128#32
  let v700 : BitVec 32 := Scalar.muli v664 c128_i32_420
  let v701 : BitVec 32 := Scalar.addi c0_i32_421 v700
  let v702 : BitVec 32 := Scalar.addi v701 c0_i32_422
  let v703 : Index := Scalar.indexCast v702
  let c0_423 : Index := 0#32
  ![v703.toNat, 0]
def k0_off17 (d0 : Dev nD) (c0_i32_422 : BitVec 32) : Fin 2 → Nat :=
  let c0_i32_421 : BitVec 32 := 0#32
  let c2_i32_397 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v663 : BitVec 32 := Scalar.muli c2_i32_397 v19
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v664 : BitVec 32 := Scalar.addi v663 v47
  let c128_i32_420 : BitVec 32 := 128#32
  let v700 : BitVec 32 := Scalar.muli v664 c128_i32_420
  let v701 : BitVec 32 := Scalar.addi c0_i32_421 v700
  let v702 : BitVec 32 := Scalar.addi v701 c0_i32_422
  let c0_i32_428 : BitVec 32 := 0#32
  ![v702.toNat, 0]
def k0_dev27 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_426 : BitVec 32 := 1#32
  let v710 : BitVec 32 := Scalar.muli v49 c1_i32_426
  let v711 : BitVec 32 := Scalar.addi c0_i32_427 v710
  v711.toNat
def k0_dev28 (d0 : Dev nD) : Nat :=
  let c0_i32_432 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_431 : BitVec 32 := 1#32
  let v718 : BitVec 32 := Scalar.muli v48 c1_i32_431
  let v719 : BitVec 32 := Scalar.addi c0_i32_432 v718
  v719.toNat
def k0_off18 (d0 : Dev nD) (c0_i32_437 : BitVec 32) : Fin 2 → Nat :=
  let c512_i32_453 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c256_i32_452 : BitVec 32 := 256#32
  let v742 : BitVec 32 := Scalar.muli v47 c256_i32_452
  let v743 : BitVec 32 := Scalar.addi c512_i32_453 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_436 : BitVec 32 := 128#32
  let v728 : BitVec 32 := Scalar.muli v19 c128_i32_436
  let v729 : BitVec 32 := Scalar.addi v728 c0_i32_437
  let v744 : BitVec 32 := Scalar.addi v743 v729
  let v745 : Index := Scalar.indexCast v744
  let c0_454 : Index := 0#32
  ![v745.toNat, 0]
def k0_off19 (d0 : Dev nD) (c0_i32_461 : BitVec 32) : Fin 2 → Nat :=
  let c512_i32_460 : BitVec 32 := 512#32
  let c2_i32_435 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v726 : BitVec 32 := Scalar.muli c2_i32_435 v47
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v727 : BitVec 32 := Scalar.addi v726 v19
  let c128_i32_459 : BitVec 32 := 128#32
  let v763 : BitVec 32 := Scalar.muli v727 c128_i32_459
  let v764 : BitVec 32 := Scalar.addi c512_i32_460 v763
  let v765 : BitVec 32 := Scalar.addi v764 c0_i32_461
  let v766 : Index := Scalar.indexCast v765
  let c0_462 : Index := 0#32
  ![v766.toNat, 0]
def k0_off20 (d0 : Dev nD) (c0_i32_461 : BitVec 32) : Fin 2 → Nat :=
  let c512_i32_460 : BitVec 32 := 512#32
  let c2_i32_435 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v726 : BitVec 32 := Scalar.muli c2_i32_435 v47
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v727 : BitVec 32 := Scalar.addi v726 v19
  let c128_i32_459 : BitVec 32 := 128#32
  let v763 : BitVec 32 := Scalar.muli v727 c128_i32_459
  let v764 : BitVec 32 := Scalar.addi c512_i32_460 v763
  let v765 : BitVec 32 := Scalar.addi v764 c0_i32_461
  let c0_i32_467 : BitVec 32 := 0#32
  ![v765.toNat, 0]
def k0_dev29 (d0 : Dev nD) : Nat :=
  let c0_i32_466 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_465 : BitVec 32 := 1#32
  let v773 : BitVec 32 := Scalar.muli v48 c1_i32_465
  let v774 : BitVec 32 := Scalar.addi c0_i32_466 v773
  v774.toNat
def k0_dev30 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_470 : BitVec 32 := 1#32
  let v781 : BitVec 32 := Scalar.muli v49 c1_i32_470
  let v782 : BitVec 32 := Scalar.addi c0_i32_471 v781
  v782.toNat
def k0_dev31 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_504 : BitVec 32 := 1#32
  let v836 : BitVec 32 := Scalar.muli v49 c1_i32_504
  let v837 : BitVec 32 := Scalar.addi c0_i32_505 v836
  v837.toNat
def k0_dev32 (d0 : Dev nD) : Nat :=
  let c0_i32_510 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_509 : BitVec 32 := 1#32
  let v844 : BitVec 32 := Scalar.muli v48 c1_i32_509
  let v845 : BitVec 32 := Scalar.addi c0_i32_510 v844
  v845.toNat
def k0_dev33 (d0 : Dev nD) : Nat :=
  let c0_i32_544 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_543 : BitVec 32 := 1#32
  let v899 : BitVec 32 := Scalar.muli v48 c1_i32_543
  let v900 : BitVec 32 := Scalar.addi c0_i32_544 v899
  v900.toNat
def k0_dev34 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_548 : BitVec 32 := 1#32
  let v907 : BitVec 32 := Scalar.muli v49 c1_i32_548
  let v908 : BitVec 32 := Scalar.addi c0_i32_549 v907
  v908.toNat
def k0_dev35 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_583 : BitVec 32 := 1#32
  let v962 : BitVec 32 := Scalar.muli v49 c1_i32_583
  let v963 : BitVec 32 := Scalar.addi c0_i32_584 v962
  v963.toNat
def k0_dev36 (d0 : Dev nD) : Nat :=
  let c0_i32_589 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_588 : BitVec 32 := 1#32
  let v970 : BitVec 32 := Scalar.muli v48 c1_i32_588
  let v971 : BitVec 32 := Scalar.addi c0_i32_589 v970
  v971.toNat
def k0_dev37 (d0 : Dev nD) : Nat :=
  let c0_i32_623 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_622 : BitVec 32 := 1#32
  let v1025 : BitVec 32 := Scalar.muli v48 c1_i32_622
  let v1026 : BitVec 32 := Scalar.addi c0_i32_623 v1025
  v1026.toNat
def k0_dev38 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_627 : BitVec 32 := 1#32
  let v1033 : BitVec 32 := Scalar.muli v49 c1_i32_627
  let v1034 : BitVec 32 := Scalar.addi c0_i32_628 v1033
  v1034.toNat
def k0_dev39 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_661 : BitVec 32 := 1#32
  let v1088 : BitVec 32 := Scalar.muli v49 c1_i32_661
  let v1089 : BitVec 32 := Scalar.addi c0_i32_662 v1088
  v1089.toNat
def k0_dev40 (d0 : Dev nD) : Nat :=
  let c0_i32_667 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_666 : BitVec 32 := 1#32
  let v1096 : BitVec 32 := Scalar.muli v48 c1_i32_666
  let v1097 : BitVec 32 := Scalar.addi c0_i32_667 v1096
  v1097.toNat
def k0_dev41 (d0 : Dev nD) : Nat :=
  let c0_i32_701 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_700 : BitVec 32 := 1#32
  let v1151 : BitVec 32 := Scalar.muli v48 c1_i32_700
  let v1152 : BitVec 32 := Scalar.addi c0_i32_701 v1151
  v1152.toNat
def k0_dev42 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_705 : BitVec 32 := 1#32
  let v1159 : BitVec 32 := Scalar.muli v49 c1_i32_705
  let v1160 : BitVec 32 := Scalar.addi c0_i32_706 v1159
  v1160.toNat
def k0_off21 (d0 : Dev nD) (c0_i32_713 : BitVec 32) : Fin 2 → Nat :=
  let c0_i32_712 : BitVec 32 := 0#32
  let c2_i32_709 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1167 : BitVec 32 := Scalar.muli c2_i32_709 v19
  let c1_i32_710 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1168 : BitVec 32 := Scalar.subi c1_i32_710 v47
  let v1169 : BitVec 32 := Scalar.addi v1167 v1168
  let c128_i32_711 : BitVec 32 := 128#32
  let v1170 : BitVec 32 := Scalar.muli v1169 c128_i32_711
  let v1171 : BitVec 32 := Scalar.addi c0_i32_712 v1170
  let v1172 : BitVec 32 := Scalar.addi v1171 c0_i32_713
  let c0_i32_723 : BitVec 32 := 0#32
  ![v1172.toNat, 0]
def k0_dev43 (d0 : Dev nD) : Nat :=
  let c0_i32_722 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_721 : BitVec 32 := 1#32
  let v1179 : BitVec 32 := Scalar.muli v48 c1_i32_721
  let v1180 : BitVec 32 := Scalar.addi c0_i32_722 v1179
  v1180.toNat
def k0_off22 (d0 : Dev nD) (c0_i32_713 : BitVec 32) : Fin 2 → Nat :=
  let c0_i32_712 : BitVec 32 := 0#32
  let c2_i32_709 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1167 : BitVec 32 := Scalar.muli c2_i32_709 v19
  let c1_i32_710 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1168 : BitVec 32 := Scalar.subi c1_i32_710 v47
  let v1169 : BitVec 32 := Scalar.addi v1167 v1168
  let c128_i32_711 : BitVec 32 := 128#32
  let v1170 : BitVec 32 := Scalar.muli v1169 c128_i32_711
  let v1171 : BitVec 32 := Scalar.addi c0_i32_712 v1170
  let v1172 : BitVec 32 := Scalar.addi v1171 c0_i32_713
  let v1187 : Index := Scalar.indexCast v1172
  let c0_725 : Index := 0#32
  ![v1187.toNat, 0]
def k0_off23 (d0 : Dev nD) (c0_i32_731 : BitVec 32) : Fin 2 → Nat :=
  let c512_i32_730 : BitVec 32 := 512#32
  let c2_i32_727 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1192 : BitVec 32 := Scalar.muli c2_i32_727 v47
  let c1_i32_728 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1193 : BitVec 32 := Scalar.subi c1_i32_728 v19
  let v1194 : BitVec 32 := Scalar.addi v1192 v1193
  let c128_i32_729 : BitVec 32 := 128#32
  let v1195 : BitVec 32 := Scalar.muli v1194 c128_i32_729
  let v1196 : BitVec 32 := Scalar.addi c512_i32_730 v1195
  let v1197 : BitVec 32 := Scalar.addi v1196 c0_i32_731
  let c0_i32_741 : BitVec 32 := 0#32
  ![v1197.toNat, 0]
def k0_dev44 (d0 : Dev nD) : Nat :=
  let c0_i32_740 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_739 : BitVec 32 := 1#32
  let v1204 : BitVec 32 := Scalar.muli v49 c1_i32_739
  let v1205 : BitVec 32 := Scalar.addi c0_i32_740 v1204
  v1205.toNat
def k0_off24 (d0 : Dev nD) (c0_i32_731 : BitVec 32) : Fin 2 → Nat :=
  let c512_i32_730 : BitVec 32 := 512#32
  let c2_i32_727 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1192 : BitVec 32 := Scalar.muli c2_i32_727 v47
  let c1_i32_728 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1193 : BitVec 32 := Scalar.subi c1_i32_728 v19
  let v1194 : BitVec 32 := Scalar.addi v1192 v1193
  let c128_i32_729 : BitVec 32 := 128#32
  let v1195 : BitVec 32 := Scalar.muli v1194 c128_i32_729
  let v1196 : BitVec 32 := Scalar.addi c512_i32_730 v1195
  let v1197 : BitVec 32 := Scalar.addi v1196 c0_i32_731
  let v1212 : Index := Scalar.indexCast v1197
  let c0_743 : Index := 0#32
  ![v1212.toNat, 0]
def k0_dev45 (d0 : Dev nD) : Nat :=
  let c0_i32_758 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_757 : BitVec 32 := 1#32
  let v1229 : BitVec 32 := Scalar.muli v48 c1_i32_757
  let v1230 : BitVec 32 := Scalar.addi c0_i32_758 v1229
  v1230.toNat
def k0_dev46 (d0 : Dev nD) : Nat :=
  let c0_i32_776 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_775 : BitVec 32 := 1#32
  let v1254 : BitVec 32 := Scalar.muli v49 c1_i32_775
  let v1255 : BitVec 32 := Scalar.addi c0_i32_776 v1254
  v1255.toNat
def k0_dev47 (d0 : Dev nD) : Nat :=
  let c0_i32_794 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_793 : BitVec 32 := 1#32
  let v1279 : BitVec 32 := Scalar.muli v48 c1_i32_793
  let v1280 : BitVec 32 := Scalar.addi c0_i32_794 v1279
  v1280.toNat
def k0_dev48 (d0 : Dev nD) : Nat :=
  let c0_i32_812 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_811 : BitVec 32 := 1#32
  let v1304 : BitVec 32 := Scalar.muli v49 c1_i32_811
  let v1305 : BitVec 32 := Scalar.addi c0_i32_812 v1304
  v1305.toNat
def k0_dev49 (d0 : Dev nD) : Nat :=
  let c0_i32_830 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.subi c3_i32 v2
  let c1_i32_829 : BitVec 32 := 1#32
  let v1329 : BitVec 32 := Scalar.muli v48 c1_i32_829
  let v1330 : BitVec 32 := Scalar.addi c0_i32_830 v1329
  v1330.toNat
def k0_dev50 (d0 : Dev nD) : Nat :=
  let c0_i32_848 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v49 : BitVec 32 := Scalar.xori v2 c1_i32_18
  let c1_i32_847 : BitVec 32 := 1#32
  let v1354 : BitVec 32 := Scalar.muli v49 c1_i32_847
  let v1355 : BitVec 32 := Scalar.addi c0_i32_848 v1354
  v1355.toNat
def k0_off25 (d0 : Dev nD) (c0_i32_857 : BitVec 32) : Fin 2 → Nat :=
  let c0_i32_856 : BitVec 32 := 0#32
  let c2_i32_854 : BitVec 32 := 2#32
  let c1_i32_853 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1367 : BitVec 32 := Scalar.subi c1_i32_853 v19
  let v1368 : BitVec 32 := Scalar.muli c2_i32_854 v1367
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1369 : BitVec 32 := Scalar.addi v1368 v47
  let c128_i32_855 : BitVec 32 := 128#32
  let v1370 : BitVec 32 := Scalar.muli v1369 c128_i32_855
  let v1371 : BitVec 32 := Scalar.addi c0_i32_856 v1370
  let v1372 : BitVec 32 := Scalar.addi v1371 c0_i32_857
  let v1379 : Index := Scalar.indexCast v1372
  let c0_864 : Index := 0#32
  ![v1379.toNat, 0]
def k0_off26 (d0 : Dev nD) (c0_i32_870 : BitVec 32) : Fin 2 → Nat :=
  let c512_i32_869 : BitVec 32 := 512#32
  let c2_i32_867 : BitVec 32 := 2#32
  let c1_i32_866 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1384 : BitVec 32 := Scalar.subi c1_i32_866 v47
  let v1385 : BitVec 32 := Scalar.muli c2_i32_867 v1384
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1386 : BitVec 32 := Scalar.addi v1385 v19
  let c128_i32_868 : BitVec 32 := 128#32
  let v1387 : BitVec 32 := Scalar.muli v1386 c128_i32_868
  let v1388 : BitVec 32 := Scalar.addi c512_i32_869 v1387
  let v1389 : BitVec 32 := Scalar.addi v1388 c0_i32_870
  let v1396 : Index := Scalar.indexCast v1389
  let c0_877 : Index := 0#32
  ![v1396.toNat, 0]
def k0_off27 (d0 : Dev nD) (c0_i32_962 : BitVec 32) : Fin 2 → Nat :=
  let c0_i32_961 : BitVec 32 := 0#32
  let c2_i32_958 : BitVec 32 := 2#32
  let c1_i32_957 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1503 : BitVec 32 := Scalar.subi c1_i32_957 v19
  let v1504 : BitVec 32 := Scalar.muli c2_i32_958 v1503
  let c1_i32_959 : BitVec 32 := 1#32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1505 : BitVec 32 := Scalar.subi c1_i32_959 v47
  let v1506 : BitVec 32 := Scalar.addi v1504 v1505
  let c128_i32_960 : BitVec 32 := 128#32
  let v1507 : BitVec 32 := Scalar.muli v1506 c128_i32_960
  let v1508 : BitVec 32 := Scalar.addi c0_i32_961 v1507
  let v1509 : BitVec 32 := Scalar.addi v1508 c0_i32_962
  let v1516 : Index := Scalar.indexCast v1509
  let c0_969 : Index := 0#32
  ![v1516.toNat, 0]
def k0_off28 (d0 : Dev nD) (c0_i32_976 : BitVec 32) : Fin 2 → Nat :=
  let c512_i32_975 : BitVec 32 := 512#32
  let c2_i32_972 : BitVec 32 := 2#32
  let c1_i32_971 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c2_i32_5 : BitVec 32 := 2#32
  let c0_i32_8 : BitVec 32 := 0#32
  let v26 : BitVec 1 := Scalar.cmpi .sgt c2_i32_5 c0_i32_8
  let v27 : BitVec 32 := Scalar.extui v26
  let c0_i32_9 : BitVec 32 := 0#32
  let v28 : BitVec 1 := Scalar.cmpi .slt c2_i32_5 c0_i32_9
  let v29 : BitVec 32 := Scalar.extui v28
  let v30 : BitVec 32 := Scalar.subi v27 v29
  let v31 : BitVec 1 := Scalar.cmpi .ne v25 v30
  let v32 : BitVec 32 := Scalar.remsi v2 c2_i32_5
  let c0_i32_10 : BitVec 32 := 0#32
  let v33 : BitVec 1 := Scalar.cmpi .ne v32 c0_i32_10
  let v34 : BitVec 1 := Scalar.andi v31 v33
  let v20 : BitVec 32 := Scalar.divsi v2 c2_i32_5
  let c1_i32_11 : BitVec 32 := 1#32
  let v35 : BitVec 32 := Scalar.subi v20 c1_i32_11
  let v36 : BitVec 32 := Scalar.select v34 v35 v20
  let v37 : BitVec 32 := Scalar.xori v2 v36
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v37 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v1521 : BitVec 32 := Scalar.subi c1_i32_971 v47
  let v1522 : BitVec 32 := Scalar.muli c2_i32_972 v1521
  let c1_i32_973 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v1523 : BitVec 32 := Scalar.subi c1_i32_973 v19
  let v1524 : BitVec 32 := Scalar.addi v1522 v1523
  let c128_i32_974 : BitVec 32 := 128#32
  let v1525 : BitVec 32 := Scalar.muli v1524 c128_i32_974
  let v1526 : BitVec 32 := Scalar.addi c512_i32_975 v1525
  let v1527 : BitVec 32 := Scalar.addi v1526 c0_i32_976
  let v1534 : Index := Scalar.indexCast v1527
  let c0_983 : Index := 0#32
  ![v1534.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S32x512 : 0 < S32x512.numel
  shapeCasts_S32x512_S32x512 : S32x512.ShapeCasts S32x512
  bitsLt_bf16_f32 : FTy.bits .bf16 < FTy.bits .f32
  inb_S48_S1_0 : ∀ a, (![0] : Fin 1 → Nat) a + S1.size a ≤ S48.size a
  squeezes_S1_S_ : S1.Squeezes S_
  inb_S48_S1_1 : ∀ a, (![1] : Fin 1 → Nat) a + S1.size a ≤ S48.size a
  inb_S48_S1_2 : ∀ a, (![2] : Fin 1 → Nat) a + S1.size a ≤ S48.size a
  inb_S48_S1_3 : ∀ a, (![3] : Fin 1 → Nat) a + S1.size a ≤ S48.size a
  inb_S48_S1_4 : ∀ a, (![4] : Fin 1 → Nat) a + S1.size a ≤ S48.size a
  inb_S48_S1_5 : ∀ a, (![5] : Fin 1 → Nat) a + S1.size a ≤ S48.size a
  inb_S48_S1_6 : ∀ a, (![6] : Fin 1 → Nat) a + S1.size a ≤ S48.size a
  inb_S48_S1_7 : ∀ a, (![7] : Fin 1 → Nat) a + S1.size a ≤ S48.size a
  inb_S48_S1_8 : ∀ a, (![8] : Fin 1 → Nat) a + S1.size a ≤ S48.size a
  inb_S48_S1_9 : ∀ a, (![9] : Fin 1 → Nat) a + S1.size a ≤ S48.size a
  inb_S48_S1_10 : ∀ a, (![10] : Fin 1 → Nat) a + S1.size a ≤ S48.size a
  inb_S48_S1_11 : ∀ a, (![11] : Fin 1 → Nat) a + S1.size a ≤ S48.size a
  inb_S48_S1_12 : ∀ a, (![12] : Fin 1 → Nat) a + S1.size a ≤ S48.size a
  inb_S48_S1_13 : ∀ a, (![13] : Fin 1 → Nat) a + S1.size a ≤ S48.size a
  inb_S48_S1_14 : ∀ a, (![14] : Fin 1 → Nat) a + S1.size a ≤ S48.size a
  inb_S48_S1_15 : ∀ a, (![15] : Fin 1 → Nat) a + S1.size a ≤ S48.size a
  inb_S128x512_S32x512_0_0 : ∀ a, (![0, 0] : Fin 2 → Nat) a + S32x512.size a ≤ S128x512.size a
  packedbf16_S128x512_S32x512_0_0 : (Rect.unit (s := S128x512) ![0, 0] S32x512.size inb_S128x512_S32x512_0_0).PackedRows (EltTy.packing .bf16)
  inb_S48_S1_16 : ∀ a, (![16] : Fin 1 → Nat) a + S1.size a ≤ S48.size a
  wordsbf16_S128x512_S32x512_0_0 : (Rect.unit (s := S128x512) ![0, 0] S32x512.size inb_S128x512_S32x512_0_0).WholeWords (EltTy.packing .bf16)
  inb_S48_S1_17 : ∀ a, (![17] : Fin 1 → Nat) a + S1.size a ≤ S48.size a
  inb_S128x512_S32x512_32_0 : ∀ a, (![32, 0] : Fin 2 → Nat) a + S32x512.size a ≤ S128x512.size a
  packedbf16_S128x512_S32x512_32_0 : (Rect.unit (s := S128x512) ![32, 0] S32x512.size inb_S128x512_S32x512_32_0).PackedRows (EltTy.packing .bf16)
  inb_S48_S1_18 : ∀ a, (![18] : Fin 1 → Nat) a + S1.size a ≤ S48.size a
  wordsbf16_S128x512_S32x512_32_0 : (Rect.unit (s := S128x512) ![32, 0] S32x512.size inb_S128x512_S32x512_32_0).WholeWords (EltTy.packing .bf16)
  inb_S48_S1_19 : ∀ a, (![19] : Fin 1 → Nat) a + S1.size a ≤ S48.size a
  inb_S128x512_S32x512_64_0 : ∀ a, (![64, 0] : Fin 2 → Nat) a + S32x512.size a ≤ S128x512.size a
  packedbf16_S128x512_S32x512_64_0 : (Rect.unit (s := S128x512) ![64, 0] S32x512.size inb_S128x512_S32x512_64_0).PackedRows (EltTy.packing .bf16)
  inb_S48_S1_20 : ∀ a, (![20] : Fin 1 → Nat) a + S1.size a ≤ S48.size a
  wordsbf16_S128x512_S32x512_64_0 : (Rect.unit (s := S128x512) ![64, 0] S32x512.size inb_S128x512_S32x512_64_0).WholeWords (EltTy.packing .bf16)
  inb_S48_S1_21 : ∀ a, (![21] : Fin 1 → Nat) a + S1.size a ≤ S48.size a
  inb_S128x512_S32x512_96_0 : ∀ a, (![96, 0] : Fin 2 → Nat) a + S32x512.size a ≤ S128x512.size a
  packedbf16_S128x512_S32x512_96_0 : (Rect.unit (s := S128x512) ![96, 0] S32x512.size inb_S128x512_S32x512_96_0).PackedRows (EltTy.packing .bf16)
  inb_S48_S1_22 : ∀ a, (![22] : Fin 1 → Nat) a + S1.size a ≤ S48.size a
  wordsbf16_S128x512_S32x512_96_0 : (Rect.unit (s := S128x512) ![96, 0] S32x512.size inb_S128x512_S32x512_96_0).WholeWords (EltTy.packing .bf16)
  inb_S48_S1_23 : ∀ a, (![23] : Fin 1 → Nat) a + S1.size a ≤ S48.size a
  inb_S48_S1_24 : ∀ a, (![24] : Fin 1 → Nat) a + S1.size a ≤ S48.size a
  inb_S48_S1_25 : ∀ a, (![25] : Fin 1 → Nat) a + S1.size a ≤ S48.size a
  inb_S48_S1_26 : ∀ a, (![26] : Fin 1 → Nat) a + S1.size a ≤ S48.size a
  inb_S48_S1_27 : ∀ a, (![27] : Fin 1 → Nat) a + S1.size a ≤ S48.size a
  inb_S48_S1_28 : ∀ a, (![28] : Fin 1 → Nat) a + S1.size a ≤ S48.size a
  inb_S48_S1_29 : ∀ a, (![29] : Fin 1 → Nat) a + S1.size a ≤ S48.size a
  inb_S48_S1_30 : ∀ a, (![30] : Fin 1 → Nat) a + S1.size a ≤ S48.size a
  inb_S48_S1_31 : ∀ a, (![31] : Fin 1 → Nat) a + S1.size a ≤ S48.size a
  inb_S48_S1_32 : ∀ a, (![32] : Fin 1 → Nat) a + S1.size a ≤ S48.size a
  inb_S48_S1_33 : ∀ a, (![33] : Fin 1 → Nat) a + S1.size a ≤ S48.size a
  inb_S48_S1_34 : ∀ a, (![34] : Fin 1 → Nat) a + S1.size a ≤ S48.size a
  inb_S48_S1_35 : ∀ a, (![35] : Fin 1 → Nat) a + S1.size a ≤ S48.size a
  inb_S48_S1_36 : ∀ a, (![36] : Fin 1 → Nat) a + S1.size a ≤ S48.size a
  inb_S48_S1_37 : ∀ a, (![37] : Fin 1 → Nat) a + S1.size a ≤ S48.size a
  inb_S48_S1_38 : ∀ a, (![38] : Fin 1 → Nat) a + S1.size a ≤ S48.size a
  inb_S48_S1_39 : ∀ a, (![39] : Fin 1 → Nat) a + S1.size a ≤ S48.size a
  inb_S48_S1_40 : ∀ a, (![40] : Fin 1 → Nat) a + S1.size a ≤ S48.size a
  inb_S48_S1_41 : ∀ a, (![41] : Fin 1 → Nat) a + S1.size a ≤ S48.size a
  inb_S48_S1_42 : ∀ a, (![42] : Fin 1 → Nat) a + S1.size a ≤ S48.size a
  inb_S48_S1_43 : ∀ a, (![43] : Fin 1 → Nat) a + S1.size a ≤ S48.size a
  inb_S48_S1_44 : ∀ a, (![44] : Fin 1 → Nat) a + S1.size a ≤ S48.size a
  inb_S48_S1_45 : ∀ a, (![45] : Fin 1 → Nat) a + S1.size a ≤ S48.size a
  inb_S48_S1_46 : ∀ a, (![46] : Fin 1 → Nat) a + S1.size a ≤ S48.size a
  inb_S48_S1_47 : ∀ a, (![47] : Fin 1 → Nat) a + S1.size a ≤ S48.size a
  hcc0_scratch9 : 2 + S48.numel ≤ 98
  hcc0_scratch10 : 50 + S48.numel ≤ 98
  k0_dev1_lt : ∀ d0 : Dev nD, (k0_dev1 d0) < nD
  k0_dev2_lt : ∀ d0 : Dev nD, (k0_dev2 d0) < nD
  k0_off1_inb : ∀ d0 : Dev nD, ∀ (r : Fin 4), ∀ a, (k0_off1 d0 (BitVec.ofNat 32 (32 * r.val))) a + S32x512.size a ≤ S1024x512.size a
  k0_off2_inb : ∀ d0 : Dev nD, ∀ (r : Fin 4), ∀ a, (k0_off2 d0 (BitVec.ofNat 32 (32 * r.val))) a + S32x512.size a ≤ S256x512.size a
  k0_off2_packedbf16 : ∀ d0 : Dev nD, ∀ (r : Fin 4), (Rect.unit (s := S256x512) (k0_off2 d0 (BitVec.ofNat 32 (32 * r.val))) S32x512.size (k0_off2_inb d0 r)).PackedRows (EltTy.packing .bf16)
  k0_off3_inb : ∀ d0 : Dev nD, ∀ (r : Fin 4), ∀ a, (k0_off3 d0 (BitVec.ofNat 32 (32 * r.val))) a + S32x512.size a ≤ S256x512.size a
  k0_off3_wordsbf16 : ∀ d0 : Dev nD, ∀ (r : Fin 4), (Rect.unit (s := S256x512) (k0_off3 d0 (BitVec.ofNat 32 (32 * r.val))) S32x512.size (k0_off3_inb d0 r)).WholeWords (EltTy.packing .bf16)
  k0_dev3_lt : ∀ d0 : Dev nD, (k0_dev3 d0) < nD
  k0_off4_inb : ∀ d0 : Dev nD, ∀ (r : Fin 4), ∀ a, (k0_off4 d0 (BitVec.ofNat 32 (32 * r.val))) a + S32x512.size a ≤ S1024x512.size a
  k0_off5_inb : ∀ d0 : Dev nD, ∀ (r : Fin 4), ∀ a, (k0_off5 d0 (BitVec.ofNat 32 (32 * r.val))) a + S32x512.size a ≤ S256x512.size a
  k0_off5_packedbf16 : ∀ d0 : Dev nD, ∀ (r : Fin 4), (Rect.unit (s := S256x512) (k0_off5 d0 (BitVec.ofNat 32 (32 * r.val))) S32x512.size (k0_off5_inb d0 r)).PackedRows (EltTy.packing .bf16)
  k0_off6_inb : ∀ d0 : Dev nD, ∀ (r : Fin 4), ∀ a, (k0_off6 d0 (BitVec.ofNat 32 (32 * r.val))) a + S32x512.size a ≤ S256x512.size a
  k0_off6_wordsbf16 : ∀ d0 : Dev nD, ∀ (r : Fin 4), (Rect.unit (s := S256x512) (k0_off6 d0 (BitVec.ofNat 32 (32 * r.val))) S32x512.size (k0_off6_inb d0 r)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off7_inb : ∀ d0 : Dev nD, ∀ (r : Fin 4), ∀ a, (k0_off7 d0 (BitVec.ofNat 32 (32 * r.val))) a + S32x512.size a ≤ S1024x512.size a
  k0_off8_inb : ∀ d0 : Dev nD, ∀ (r : Fin 4), ∀ a, (k0_off8 d0 (BitVec.ofNat 32 (32 * r.val))) a + S32x512.size a ≤ S256x512.size a
  k0_off8_packedbf16 : ∀ d0 : Dev nD, ∀ (r : Fin 4), (Rect.unit (s := S256x512) (k0_off8 d0 (BitVec.ofNat 32 (32 * r.val))) S32x512.size (k0_off8_inb d0 r)).PackedRows (EltTy.packing .bf16)
  k0_off9_inb : ∀ d0 : Dev nD, ∀ (r : Fin 4), ∀ a, (k0_off9 d0 (BitVec.ofNat 32 (32 * r.val))) a + S32x512.size a ≤ S256x512.size a
  k0_off9_wordsbf16 : ∀ d0 : Dev nD, ∀ (r : Fin 4), (Rect.unit (s := S256x512) (k0_off9 d0 (BitVec.ofNat 32 (32 * r.val))) S32x512.size (k0_off9_inb d0 r)).WholeWords (EltTy.packing .bf16)
  k0_dev11_lt : ∀ d0 : Dev nD, (k0_dev11 d0) < nD
  k0_off10_inb : ∀ d0 : Dev nD, ∀ (r : Fin 4), ∀ a, (k0_off10 d0 (BitVec.ofNat 32 (32 * r.val))) a + S32x512.size a ≤ S1024x512.size a
  k0_off11_inb : ∀ d0 : Dev nD, ∀ (r : Fin 4), ∀ a, (k0_off11 d0 (BitVec.ofNat 32 (32 * r.val))) a + S32x512.size a ≤ S256x512.size a
  k0_off11_packedbf16 : ∀ d0 : Dev nD, ∀ (r : Fin 4), (Rect.unit (s := S256x512) (k0_off11 d0 (BitVec.ofNat 32 (32 * r.val))) S32x512.size (k0_off11_inb d0 r)).PackedRows (EltTy.packing .bf16)
  k0_off12_inb : ∀ d0 : Dev nD, ∀ (r : Fin 4), ∀ a, (k0_off12 d0 (BitVec.ofNat 32 (32 * r.val))) a + S32x512.size a ≤ S256x512.size a
  k0_off12_wordsbf16 : ∀ d0 : Dev nD, ∀ (r : Fin 4), (Rect.unit (s := S256x512) (k0_off12 d0 (BitVec.ofNat 32 (32 * r.val))) S32x512.size (k0_off12_inb d0 r)).WholeWords (EltTy.packing .bf16)
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off13_inb : ∀ d0 : Dev nD, ∀ (r : Fin 4), ∀ a, (k0_off13 d0 (BitVec.ofNat 32 (32 * r.val))) a + S32x512.size a ≤ S1024x512.size a
  k0_dev19_lt : ∀ d0 : Dev nD, (k0_dev19 d0) < nD
  k0_off14_inb : ∀ d0 : Dev nD, ∀ (r : Fin 4), ∀ a, (k0_off14 d0 (BitVec.ofNat 32 (32 * r.val))) a + S32x512.size a ≤ S1024x512.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_off15_inb : ∀ d0 : Dev nD, ∀ (r : Fin 4), ∀ a, (k0_off15 d0 (BitVec.ofNat 32 (32 * r.val))) a + S32x512.size a ≤ S1024x512.size a
  k0_off16_inb : ∀ d0 : Dev nD, ∀ (r : Fin 4), ∀ a, (k0_off16 d0 (BitVec.ofNat 32 (32 * r.val))) a + S32x512.size a ≤ S1024x512.size a
  k0_off16_packedbf16 : ∀ d0 : Dev nD, ∀ (r : Fin 4), (Rect.unit (s := S1024x512) (k0_off16 d0 (BitVec.ofNat 32 (32 * r.val))) S32x512.size (k0_off16_inb d0 r)).PackedRows (EltTy.packing .bf16)
  k0_off17_inb : ∀ d0 : Dev nD, ∀ (r : Fin 4), ∀ a, (k0_off17 d0 (BitVec.ofNat 32 (32 * r.val))) a + S32x512.size a ≤ S1024x512.size a
  k0_off17_wordsbf16 : ∀ d0 : Dev nD, ∀ (r : Fin 4), (Rect.unit (s := S1024x512) (k0_off17 d0 (BitVec.ofNat 32 (32 * r.val))) S32x512.size (k0_off17_inb d0 r)).WholeWords (EltTy.packing .bf16)
  k0_dev27_lt : ∀ d0 : Dev nD, (k0_dev27 d0) < nD
  k0_dev28_lt : ∀ d0 : Dev nD, (k0_dev28 d0) < nD
  k0_off18_inb : ∀ d0 : Dev nD, ∀ (r : Fin 4), ∀ a, (k0_off18 d0 (BitVec.ofNat 32 (32 * r.val))) a + S32x512.size a ≤ S1024x512.size a
  k0_off19_inb : ∀ d0 : Dev nD, ∀ (r : Fin 4), ∀ a, (k0_off19 d0 (BitVec.ofNat 32 (32 * r.val))) a + S32x512.size a ≤ S1024x512.size a
  k0_off19_packedbf16 : ∀ d0 : Dev nD, ∀ (r : Fin 4), (Rect.unit (s := S1024x512) (k0_off19 d0 (BitVec.ofNat 32 (32 * r.val))) S32x512.size (k0_off19_inb d0 r)).PackedRows (EltTy.packing .bf16)
  k0_off20_inb : ∀ d0 : Dev nD, ∀ (r : Fin 4), ∀ a, (k0_off20 d0 (BitVec.ofNat 32 (32 * r.val))) a + S32x512.size a ≤ S1024x512.size a
  k0_off20_wordsbf16 : ∀ d0 : Dev nD, ∀ (r : Fin 4), (Rect.unit (s := S1024x512) (k0_off20 d0 (BitVec.ofNat 32 (32 * r.val))) S32x512.size (k0_off20_inb d0 r)).WholeWords (EltTy.packing .bf16)
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_off21_inb : ∀ d0 : Dev nD, ∀ (r : Fin 4), ∀ a, (k0_off21 d0 (BitVec.ofNat 32 (32 * r.val))) a + S32x512.size a ≤ S1024x512.size a
  k0_off21_wordsbf16 : ∀ d0 : Dev nD, ∀ (r : Fin 4), (Rect.unit (s := S1024x512) (k0_off21 d0 (BitVec.ofNat 32 (32 * r.val))) S32x512.size (k0_off21_inb d0 r)).WholeWords (EltTy.packing .bf16)
  k0_dev43_lt : ∀ d0 : Dev nD, (k0_dev43 d0) < nD
  k0_off22_inb : ∀ d0 : Dev nD, ∀ (r : Fin 4), ∀ a, (k0_off22 d0 (BitVec.ofNat 32 (32 * r.val))) a + S32x512.size a ≤ S1024x512.size a
  k0_off23_inb : ∀ d0 : Dev nD, ∀ (r : Fin 4), ∀ a, (k0_off23 d0 (BitVec.ofNat 32 (32 * r.val))) a + S32x512.size a ≤ S1024x512.size a
  k0_off23_wordsbf16 : ∀ d0 : Dev nD, ∀ (r : Fin 4), (Rect.unit (s := S1024x512) (k0_off23 d0 (BitVec.ofNat 32 (32 * r.val))) S32x512.size (k0_off23_inb d0 r)).WholeWords (EltTy.packing .bf16)
  k0_dev44_lt : ∀ d0 : Dev nD, (k0_dev44 d0) < nD
  k0_off24_inb : ∀ d0 : Dev nD, ∀ (r : Fin 4), ∀ a, (k0_off24 d0 (BitVec.ofNat 32 (32 * r.val))) a + S32x512.size a ≤ S1024x512.size a
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_off25_inb : ∀ d0 : Dev nD, ∀ (r : Fin 4), ∀ a, (k0_off25 d0 (BitVec.ofNat 32 (32 * r.val))) a + S32x512.size a ≤ S1024x512.size a
  k0_off26_inb : ∀ d0 : Dev nD, ∀ (r : Fin 4), ∀ a, (k0_off26 d0 (BitVec.ofNat 32 (32 * r.val))) a + S32x512.size a ≤ S1024x512.size a
  k0_off27_inb : ∀ d0 : Dev nD, ∀ (r : Fin 4), ∀ a, (k0_off27 d0 (BitVec.ofNat 32 (32 * r.val))) a + S32x512.size a ≤ S1024x512.size a
  k0_off28_inb : ∀ d0 : Dev nD, ∀ (r : Fin 4), ∀ a, (k0_off28 d0 (BitVec.ofNat 32 (32 * r.val))) a + S32x512.size a ≤ S1024x512.size a
  hstage0_0 : ∀ j, (stage0_0 j).IsWhole
  hstage0_1 : ∀ j, (stage0_1 j).IsWhole

variable [Facts₀]

abbrev cc0_scratch9 : DmaSems sig S48 := SemArray.consecutive 2 S48 hcc0_scratch9
abbrev cc0_scratch10 : DmaSems sig S48 := SemArray.consecutive 50 S48 hcc0_scratch10

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x1024x512, .f32⟩
  | .hbm, ⟨2, _⟩ => ⟨S_, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  shapeCasts_S4096x512_S4x1024x512 : S4096x512.ShapeCasts S4x1024x512
  reducesTo_S4x1024x512_S1024x512_d0 : S4x1024x512.ReducesTo [0] S1024x512
  h_S_ : 0 < S_.numel
  bcast_S_S1024x512 : S_.BroadcastsInDim S1024x512 (![] : Fin 0 → Fin S1024x512.rank)

variable [Facts₀]

class Facts : Prop extends Facts₀ where

variable [Facts]
-- ==== Proof.StepDefs.lean ====
import proofs.«900778_g7700000000000779_dist_f_of_ar_i_m1024_n512_v7x_i4_f32_1_alg».proof.Proof.Gen.KernelIdeal

noncomputable section

namespace Cert.KernelIdeal.Pf

open Idealize.ShloMosaic Idealize.ShloMosaic.TcCoe Idealize.SL.Sem
open Cert.KernelIdeal Cert.KernelIdeal.Gen

variable {F : FTy → Type} [FloatOps F]

abbrev V32 (F : FTy → Type) : Type := Vec F S32x512 .f32
abbrev B32 (F : FTy → Type) : Type := Vec F S32x512 .bf16

abbrev M32 : Type := Memref sig .tc .vmem S32x512 .bf16

abbrev P (F : FTy → Type) (α : Type) := Prog (TpuEff nD τ sig (Elt F) Λ₀ .tc) α

def tr (x : V32 F) : B32 F :=
  shapeCast S32x512 (truncf .bf16 (shapeCast S32x512 x shapeCasts_S32x512_S32x512) bitsLt_bf16_f32) shapeCasts_S32x512_S32x512

def ext (b : B32 F) : V32 F := extf .f32 b bitsLt_bf16_f32

def addtr (x : V32 F) (r : B32 F) : B32 F :=
  shapeCast S32x512 (truncf .bf16 (addf (shapeCast S32x512 x shapeCasts_S32x512_S32x512) (extf .f32 r bitsLt_bf16_f32)) bitsLt_bf16_f32) shapeCasts_S32x512_S32x512

def ssum (x : V32 F) (r1 r2 : B32 F) : V32 F :=
  addf (addf (shapeCast S32x512 x shapeCasts_S32x512_S32x512) (extf .f32 r1 bitsLt_bf16_f32)) (extf .f32 r2 bitsLt_bf16_f32)

def fpt (s : V32 F) : V32 F :=
  addf (mulf (mulf (tanh s) s) s)
    (mulf (mulf (maximumf s (broadcast S32x512 (Scalar.ofBits .f32 0x00000000#32))) (maximumf s (broadcast S32x512 (Scalar.ofBits .f32 0x00000000#32))))
      (maximumf s (broadcast S32x512 (Scalar.ofBits .f32 0x00000000#32))))

def fval (x : V32 F) (r1 r2 : B32 F) : V32 F := fpt (ssum x r1 r2)
def fvalb (x : V32 F) (r1 r2 : B32 F) : B32 F :=
  shapeCast S32x512 (truncf .bf16 (fval x r1 r2) bitsLt_bf16_f32) shapeCasts_S32x512_S32x512

variable {α : Type}

def stepBar (bs : Sem sig) (n1 n2 : Dev nD) (k : Prog (TpuEff nD τ sig (Elt F) Λ₀ .tc) α) :
    Prog (TpuEff nD τ sig (Elt F) Λ₀ .tc) α := do
  semSignalWord n1 bs 1#32 hamt_1
  semSignalWord n2 bs 1#32 hamt_1
  semWaitWord bs 2#32 hamt_2
  k

def stepS0 (xm : Memref sig .tc .vmem S1024x512 .f32) (xo : Fin 2 → ℕ) (xi : ∀ a, xo a + S32x512.size a ≤ S1024x512.size a)
    (sb : Memref sig .tc .vmem S256x512 .bf16) (so : Fin 2 → ℕ) (si : ∀ a, so a + S32x512.size a ≤ S256x512.size a)
    (hst : (sb.access (Rect.unit (s := S256x512) so S32x512.size si)).Stores Finset.univ)
    (src dst : M32) (hsc : dst.view.ref.isScScratch = false) (n : Dev nD) (sS rS : DmaSem sig) (hsrc : src.view.WordExact) (hdst : dst.view.WordExact)
    (hsem : DmaTarget.Typed (p := Proc.tc) .vmem (.dma rS) (.remote (Dev.tc n : Thread nD τ) dst (.dma sS) hsc))
    (k : Prog (TpuEff nD τ sig (Elt F) Λ₀ .tc) α) :
    Prog (TpuEff nD τ sig (Elt F) Λ₀ .tc) α := do
  let v : V32 F ← Prog.lift (.load xm (Rect.unit (s := S1024x512) xo S32x512.size xi).toLoadRect (View.loadsAt_vmem h_S32x512))
  let _ : B32 F ← Prog.lift (.load sb (Rect.unit (s := S256x512) so S32x512.size si).toLoadRect (View.loadsAt_vmem h_S32x512))
  Prog.lift (.store sb (Rect.unit (s := S256x512) so S32x512.size si) (tr v) Finset.univ hst (.inl rfl))
  Prog.lift (.enqueueDma src (.remote (Dev.tc n) dst (.dma sS) hsc) (.dma rS) hsrc hdst hsem)
  k

def stepS1 (wS : DmaSem sig) (wsrc wdst : M32) (hws : wsrc.view.WordExact) (hwd : wdst.view.WordExact)
    (xm : Memref sig .tc .vmem S1024x512 .f32) (xo : Fin 2 → ℕ) (xi : ∀ a, xo a + S32x512.size a ≤ S1024x512.size a)
    (r1 : Memref sig .tc .vmem S256x512 .bf16) (ro : Fin 2 → ℕ) (ri : ∀ a, ro a + S32x512.size a ≤ S256x512.size a)
    (fw : Memref sig .tc .vmem S128x512 .bf16) (fo : Fin 2 → ℕ) (fi : ∀ a, fo a + S32x512.size a ≤ S128x512.size a)
    (hst : (fw.access (Rect.unit (s := S128x512) fo S32x512.size fi)).Stores Finset.univ)
    (src dst : M32) (hsc : dst.view.ref.isScScratch = false) (n : Dev nD) (sS rS : DmaSem sig) (hsrc : src.view.WordExact) (hdst : dst.view.WordExact)
    (hsem : DmaTarget.Typed (p := Proc.tc) .vmem (.dma rS) (.remote (Dev.tc n : Thread nD τ) dst (.dma sS) hsc))
    (k : Prog (TpuEff nD τ sig (Elt F) Λ₀ .tc) α) :
    Prog (TpuEff nD τ sig (Elt F) Λ₀ .tc) α := do
  Prog.lift (.waitDma2 wS wsrc wdst hws hwd)
  let v : V32 F ← Prog.lift (.load xm (Rect.unit (s := S1024x512) xo S32x512.size xi).toLoadRect (View.loadsAt_vmem h_S32x512))
  let r : B32 F ← Prog.lift (.load r1 (Rect.unit (s := S256x512) ro S32x512.size ri).toLoadRect (View.loadsAt_vmem h_S32x512))
  let _ : B32 F ← Prog.lift (.load fw (Rect.unit (s := S128x512) fo S32x512.size fi).toLoadRect (View.loadsAt_vmem h_S32x512))
  Prog.lift (.store fw (Rect.unit (s := S128x512) fo S32x512.size fi) (addtr v r) Finset.univ hst (.inl rfl))
  Prog.lift (.enqueueDma src (.remote (Dev.tc n) dst (.dma sS) hsc) (.dma rS) hsrc hdst hsem)
  k

def stepS2 (wS1 : DmaSem sig) (w1s w1d : M32) (h1s : w1s.view.WordExact) (h1d : w1d.view.WordExact)
    (wS2 : DmaSem sig) (w2s w2d : M32) (h2s : w2s.view.WordExact) (h2d : w2d.view.WordExact)
    (xm : Memref sig .tc .vmem S1024x512 .f32) (xo : Fin 2 → ℕ) (xi : ∀ a, xo a + S32x512.size a ≤ S1024x512.size a)
    (r1 : Memref sig .tc .vmem S256x512 .bf16) (ro : Fin 2 → ℕ) (ri : ∀ a, ro a + S32x512.size a ≤ S256x512.size a)
    (r2 : Memref sig .tc .vmem S128x512 .bf16) (qo : Fin 2 → ℕ) (qi : ∀ a, qo a + S32x512.size a ≤ S128x512.size a)
    (om : Memref sig .tc .vmem S1024x512 .f32) (ob : Memref sig .tc .vmem S1024x512 .bf16)
    (oo : Fin 2 → ℕ) (oi : ∀ a, oo a + S32x512.size a ≤ S1024x512.size a)
    (hso : (om.access (Rect.unit (s := S1024x512) oo S32x512.size oi)).Stores Finset.univ)
    (hsb : (ob.access (Rect.unit (s := S1024x512) oo S32x512.size oi)).Stores Finset.univ)
    (srcA dstA : M32) (hscA : dstA.view.ref.isScScratch = false) (nA : Dev nD) (sSA rSA : DmaSem sig) (hsrcA : srcA.view.WordExact) (hdstA : dstA.view.WordExact)
    (hsemA : DmaTarget.Typed (p := Proc.tc) .vmem (.dma rSA) (.remote (Dev.tc nA : Thread nD τ) dstA (.dma sSA) hscA))
    (srcB dstB : M32) (hscB : dstB.view.ref.isScScratch = false) (nB : Dev nD) (sSB rSB : DmaSem sig) (hsrcB : srcB.view.WordExact) (hdstB : dstB.view.WordExact)
    (hsemB : DmaTarget.Typed (p := Proc.tc) .vmem (.dma rSB) (.remote (Dev.tc nB : Thread nD τ) dstB (.dma sSB) hscB))
    (k : Prog (TpuEff nD τ sig (Elt F) Λ₀ .tc) α) :
    Prog (TpuEff nD τ sig (Elt F) Λ₀ .tc) α := do
  Prog.lift (.waitDma2 wS1 w1s w1d h1s h1d)
  Prog.lift (.waitDma2 wS2 w2s w2d h2s h2d)
  let v : V32 F ← Prog.lift (.load xm (Rect.unit (s := S1024x512) xo S32x512.size xi).toLoadRect (View.loadsAt_vmem h_S32x512))
  let a : B32 F ← Prog.lift (.load r1 (Rect.unit (s := S256x512) ro S32x512.size ri).toLoadRect (View.loadsAt_vmem h_S32x512))
  let b : B32 F ← Prog.lift (.load r2 (Rect.unit (s := S128x512) qo S32x512.size qi).toLoadRect (View.loadsAt_vmem h_S32x512))
  let _ : V32 F ← Prog.lift (.load om (Rect.unit (s := S1024x512) oo S32x512.size oi).toLoadRect (View.loadsAt_vmem h_S32x512))
  Prog.lift (.store om (Rect.unit (s := S1024x512) oo S32x512.size oi) (fval v a b) Finset.univ hso (.inl rfl))
  let _ : B32 F ← Prog.lift (.load ob (Rect.unit (s := S1024x512) oo S32x512.size oi).toLoadRect (View.loadsAt_vmem h_S32x512))
  Prog.lift (.store ob (Rect.unit (s := S1024x512) oo S32x512.size oi) (fvalb v a b) Finset.univ hsb (.inl rfl))
  Prog.lift (.enqueueDma srcA (.remote (Dev.tc nA) dstA (.dma sSA) hscA) (.dma rSA) hsrcA hdstA hsemA)
  Prog.lift (.enqueueDma srcB (.remote (Dev.tc nB) dstB (.dma sSB) hscB) (.dma rSB) hsrcB hdstB hsemB)
  k

def stepS3f (wS : DmaSem sig) (wsrc wdst : M32) (hws : wsrc.view.WordExact) (hwd : wdst.view.WordExact)
    (src dst : M32) (hsc : dst.view.ref.isScScratch = false) (n : Dev nD) (sS rS : DmaSem sig) (hsrc : src.view.WordExact) (hdst : dst.view.WordExact)
    (hsem : DmaTarget.Typed (p := Proc.tc) .vmem (.dma rS) (.remote (Dev.tc n : Thread nD τ) dst (.dma sS) hsc))
    (om : Memref sig .tc .vmem S1024x512 .f32) (ob : Memref sig .tc .vmem S1024x512 .bf16)
    (oo : Fin 2 → ℕ) (oi : ∀ a, oo a + S32x512.size a ≤ S1024x512.size a)
    (hso : (om.access (Rect.unit (s := S1024x512) oo S32x512.size oi)).Stores Finset.univ)
    (k : Prog (TpuEff nD τ sig (Elt F) Λ₀ .tc) α) :
    Prog (TpuEff nD τ sig (Elt F) Λ₀ .tc) α := do
  Prog.lift (.waitDma2 wS wsrc wdst hws hwd)
  Prog.lift (.enqueueDma src (.remote (Dev.tc n) dst (.dma sS) hsc) (.dma rS) hsrc hdst hsem)
  let b : B32 F ← Prog.lift (.load ob (Rect.unit (s := S1024x512) oo S32x512.size oi).toLoadRect (View.loadsAt_vmem h_S32x512))
  let _ : V32 F ← Prog.lift (.load om (Rect.unit (s := S1024x512) oo S32x512.size oi).toLoadRect (View.loadsAt_vmem h_S32x512))
  Prog.lift (.store om (Rect.unit (s := S1024x512) oo S32x512.size oi) (ext b) Finset.univ hso (.inl rfl))
  k

def stepS3 (wS : DmaSem sig) (wsrc wdst : M32) (hws : wsrc.view.WordExact) (hwd : wdst.view.WordExact)
    (om : Memref sig .tc .vmem S1024x512 .f32) (ob : Memref sig .tc .vmem S1024x512 .bf16)
    (oo : Fin 2 → ℕ) (oi : ∀ a, oo a + S32x512.size a ≤ S1024x512.size a)
    (hso : (om.access (Rect.unit (s := S1024x512) oo S32x512.size oi)).Stores Finset.univ)
    (k : Prog (TpuEff nD τ sig (Elt F) Λ₀ .tc) α) :
    Prog (TpuEff nD τ sig (Elt F) Λ₀ .tc) α := do
  Prog.lift (.waitDma2 wS wsrc wdst hws hwd)
  let b : B32 F ← Prog.lift (.load ob (Rect.unit (s := S1024x512) oo S32x512.size oi).toLoadRect (View.loadsAt_vmem h_S32x512))
  let _ : V32 F ← Prog.lift (.load om (Rect.unit (s := S1024x512) oo S32x512.size oi).toLoadRect (View.loadsAt_vmem h_S32x512))
  Prog.lift (.store om (Rect.unit (s := S1024x512) oo S32x512.size oi) (ext b) Finset.univ hso (.inl rfl))
  k

def stepW (wS : DmaSem sig) (wsrc wdst : M32) (hws : wsrc.view.WordExact) (hwd : wdst.view.WordExact) (k : Prog (TpuEff nD τ sig (Elt F) Λ₀ .tc) α) :
    Prog (TpuEff nD τ sig (Elt F) Λ₀ .tc) α := do
  Prog.lift (.waitDma2 wS wsrc wdst hws hwd)
  k

/-- The word the body spells the `r`-th 32-row slice of four with. -/
abbrev w32 (r : Fin 4) : BitVec 32 := BitVec.ofNat 32 (32 * r.val)

/-- Copy numbers that advance by two, and by four, with the slice. -/
abbrev c2 (r : Fin 4) (b : ℕ) (hb : b ≤ 41 := by omega) : Fin 48 := ⟨2 * r.val + b, by omega⟩
abbrev c4 (r : Fin 4) (b : ℕ) (hb : b ≤ 35 := by omega) : Fin 48 := ⟨4 * r.val + b, by omega⟩

/-- Every one of the 48 semaphores of an array is inside it. -/
theorem sem_inb (i : Fin 48) : ∀ a, (![i.val] : Fin 1 → ℕ) a + S1.size a ≤ S48.size a := fun a => by
  have : a = 0 := Subsingleton.elim _ _
  subst this; exact Nat.succ_le_of_lt i.isLt

/-- The rows of slice `r` of a forwarding buffer, which the body spells by a literal. -/
abbrev fo (r : Fin 4) : Fin 2 → ℕ := ![32 * r.val, 0]
theorem fo_inb : ∀ (r : Fin 4) a, fo r a + S32x512.size a ≤ S128x512.size a := by decide
theorem fo_packed : ∀ r : Fin 4, (Rect.unit (s := S128x512) (fo r) S32x512.size (fo_inb r)).PackedRows (EltTy.packing .bf16) := by decide
theorem fo_words : ∀ r : Fin 4, (Rect.unit (s := S128x512) (fo r) S32x512.size (fo_inb r)).WholeWords (EltTy.packing .bf16) := by decide

/-- A 32-row slot of a bf16 buffer; its view is word-exact when its rectangle is whole words. -/
abbrev slot {d : Fin 2 → ℕ} (b : Memref sig .tc .vmem ⟨2, d⟩ .bf16) (o : Fin 2 → ℕ) (h : ∀ a, o a + S32x512.size a ≤ d a) : M32 :=
  b.slice (Rect.unit (s := ⟨2, d⟩) o S32x512.size h) (fun _ => rfl)
theorem slot_words {d : Fin 2 → ℕ} {b : Memref sig .tc .vmem ⟨2, d⟩ .bf16} (hb : b.IsWhole) {o : Fin 2 → ℕ} {h : ∀ a, o a + S32x512.size a ≤ d a}
    (hw : (Rect.unit (s := ⟨2, d⟩) o S32x512.size h).WholeWords (EltTy.packing .bf16)) : (slot b o h).view.WordExact :=
  hb.wordExact_slice rfl _ hw

end Cert.KernelIdeal.Pf

end
-- ==== Proof.FlatTable.lean ====
import proofs.«900778_g7700000000000779_dist_f_of_ar_i_m1024_n512_v7x_i4_f32_1_alg».proof.Proof.StepDefs

set_option maxRecDepth 16384

noncomputable section

namespace Cert.KernelIdeal.Pf

open Idealize.ShloMosaic Idealize.ShloMosaic.TcCoe Idealize.SL.Sem
open Cert.KernelIdeal Cert.KernelIdeal.Gen

variable {F : FTy → Type} [FloatOps F]

def srcM (c : Dev nD) : Fin 48 → M32
  | ⟨0, _⟩ => ((Memref.whole cc0_scratch0).slice (Rect.unit (s := S256x512) (k0_off3 c 0#32) S32x512.size (k0_off3_inb c 0)) (fun _ => rfl))
  | ⟨1, _⟩ => ((Memref.whole cc0_scratch1).slice (Rect.unit (s := S256x512) (k0_off6 c 0#32) S32x512.size (k0_off6_inb c 0)) (fun _ => rfl))
  | ⟨2, _⟩ => ((Memref.whole cc0_scratch0).slice (Rect.unit (s := S256x512) (k0_off3 c 32#32) S32x512.size (k0_off3_inb c 1)) (fun _ => rfl))
  | ⟨3, _⟩ => ((Memref.whole cc0_scratch1).slice (Rect.unit (s := S256x512) (k0_off6 c 32#32) S32x512.size (k0_off6_inb c 1)) (fun _ => rfl))
  | ⟨4, _⟩ => ((Memref.whole cc0_scratch0).slice (Rect.unit (s := S256x512) (k0_off3 c 64#32) S32x512.size (k0_off3_inb c 2)) (fun _ => rfl))
  | ⟨5, _⟩ => ((Memref.whole cc0_scratch1).slice (Rect.unit (s := S256x512) (k0_off6 c 64#32) S32x512.size (k0_off6_inb c 2)) (fun _ => rfl))
  | ⟨6, _⟩ => ((Memref.whole cc0_scratch0).slice (Rect.unit (s := S256x512) (k0_off3 c 96#32) S32x512.size (k0_off3_inb c 3)) (fun _ => rfl))
  | ⟨7, _⟩ => ((Memref.whole cc0_scratch1).slice (Rect.unit (s := S256x512) (k0_off6 c 96#32) S32x512.size (k0_off6_inb c 3)) (fun _ => rfl))
  | ⟨8, _⟩ => ((Memref.whole cc0_scratch0).slice (Rect.unit (s := S256x512) (k0_off9 c 0#32) S32x512.size (k0_off9_inb c 0)) (fun _ => rfl))
  | ⟨9, _⟩ => ((Memref.whole cc0_scratch1).slice (Rect.unit (s := S256x512) (k0_off12 c 0#32) S32x512.size (k0_off12_inb c 0)) (fun _ => rfl))
  | ⟨10, _⟩ => ((Memref.whole cc0_scratch0).slice (Rect.unit (s := S256x512) (k0_off9 c 32#32) S32x512.size (k0_off9_inb c 1)) (fun _ => rfl))
  | ⟨11, _⟩ => ((Memref.whole cc0_scratch1).slice (Rect.unit (s := S256x512) (k0_off12 c 32#32) S32x512.size (k0_off12_inb c 1)) (fun _ => rfl))
  | ⟨12, _⟩ => ((Memref.whole cc0_scratch0).slice (Rect.unit (s := S256x512) (k0_off9 c 64#32) S32x512.size (k0_off9_inb c 2)) (fun _ => rfl))
  | ⟨13, _⟩ => ((Memref.whole cc0_scratch1).slice (Rect.unit (s := S256x512) (k0_off12 c 64#32) S32x512.size (k0_off12_inb c 2)) (fun _ => rfl))
  | ⟨14, _⟩ => ((Memref.whole cc0_scratch0).slice (Rect.unit (s := S256x512) (k0_off9 c 96#32) S32x512.size (k0_off9_inb c 3)) (fun _ => rfl))
  | ⟨15, _⟩ => ((Memref.whole cc0_scratch1).slice (Rect.unit (s := S256x512) (k0_off12 c 96#32) S32x512.size (k0_off12_inb c 3)) (fun _ => rfl))
  | ⟨16, _⟩ => ((Memref.whole cc0_scratch6).slice (Rect.unit (s := S128x512) ![0, 0] S32x512.size inb_S128x512_S32x512_0_0) (fun _ => rfl))
  | ⟨17, _⟩ => ((Memref.whole cc0_scratch7).slice (Rect.unit (s := S128x512) ![0, 0] S32x512.size inb_S128x512_S32x512_0_0) (fun _ => rfl))
  | ⟨18, _⟩ => ((Memref.whole cc0_scratch6).slice (Rect.unit (s := S128x512) ![32, 0] S32x512.size inb_S128x512_S32x512_32_0) (fun _ => rfl))
  | ⟨19, _⟩ => ((Memref.whole cc0_scratch7).slice (Rect.unit (s := S128x512) ![32, 0] S32x512.size inb_S128x512_S32x512_32_0) (fun _ => rfl))
  | ⟨20, _⟩ => ((Memref.whole cc0_scratch6).slice (Rect.unit (s := S128x512) ![64, 0] S32x512.size inb_S128x512_S32x512_64_0) (fun _ => rfl))
  | ⟨21, _⟩ => ((Memref.whole cc0_scratch7).slice (Rect.unit (s := S128x512) ![64, 0] S32x512.size inb_S128x512_S32x512_64_0) (fun _ => rfl))
  | ⟨22, _⟩ => ((Memref.whole cc0_scratch6).slice (Rect.unit (s := S128x512) ![96, 0] S32x512.size inb_S128x512_S32x512_96_0) (fun _ => rfl))
  | ⟨23, _⟩ => ((Memref.whole cc0_scratch7).slice (Rect.unit (s := S128x512) ![96, 0] S32x512.size inb_S128x512_S32x512_96_0) (fun _ => rfl))
  | ⟨24, _⟩ => ((Memref.whole cc0_scratch8).slice (Rect.unit (s := S1024x512) (k0_off17 c 0#32) S32x512.size (k0_off17_inb c 0)) (fun _ => rfl))
  | ⟨25, _⟩ => ((Memref.whole cc0_scratch8).slice (Rect.unit (s := S1024x512) (k0_off17 c 0#32) S32x512.size (k0_off17_inb c 0)) (fun _ => rfl))
  | ⟨26, _⟩ => ((Memref.whole cc0_scratch8).slice (Rect.unit (s := S1024x512) (k0_off20 c 0#32) S32x512.size (k0_off20_inb c 0)) (fun _ => rfl))
  | ⟨27, _⟩ => ((Memref.whole cc0_scratch8).slice (Rect.unit (s := S1024x512) (k0_off20 c 0#32) S32x512.size (k0_off20_inb c 0)) (fun _ => rfl))
  | ⟨28, _⟩ => ((Memref.whole cc0_scratch8).slice (Rect.unit (s := S1024x512) (k0_off17 c 32#32) S32x512.size (k0_off17_inb c 1)) (fun _ => rfl))
  | ⟨29, _⟩ => ((Memref.whole cc0_scratch8).slice (Rect.unit (s := S1024x512) (k0_off17 c 32#32) S32x512.size (k0_off17_inb c 1)) (fun _ => rfl))
  | ⟨30, _⟩ => ((Memref.whole cc0_scratch8).slice (Rect.unit (s := S1024x512) (k0_off20 c 32#32) S32x512.size (k0_off20_inb c 1)) (fun _ => rfl))
  | ⟨31, _⟩ => ((Memref.whole cc0_scratch8).slice (Rect.unit (s := S1024x512) (k0_off20 c 32#32) S32x512.size (k0_off20_inb c 1)) (fun _ => rfl))
  | ⟨32, _⟩ => ((Memref.whole cc0_scratch8).slice (Rect.unit (s := S1024x512) (k0_off17 c 64#32) S32x512.size (k0_off17_inb c 2)) (fun _ => rfl))
  | ⟨33, _⟩ => ((Memref.whole cc0_scratch8).slice (Rect.unit (s := S1024x512) (k0_off17 c 64#32) S32x512.size (k0_off17_inb c 2)) (fun _ => rfl))
  | ⟨34, _⟩ => ((Memref.whole cc0_scratch8).slice (Rect.unit (s := S1024x512) (k0_off20 c 64#32) S32x512.size (k0_off20_inb c 2)) (fun _ => rfl))
  | ⟨35, _⟩ => ((Memref.whole cc0_scratch8).slice (Rect.unit (s := S1024x512) (k0_off20 c 64#32) S32x512.size (k0_off20_inb c 2)) (fun _ => rfl))
  | ⟨36, _⟩ => ((Memref.whole cc0_scratch8).slice (Rect.unit (s := S1024x512) (k0_off17 c 96#32) S32x512.size (k0_off17_inb c 3)) (fun _ => rfl))
  | ⟨37, _⟩ => ((Memref.whole cc0_scratch8).slice (Rect.unit (s := S1024x512) (k0_off17 c 96#32) S32x512.size (k0_off17_inb c 3)) (fun _ => rfl))
  | ⟨38, _⟩ => ((Memref.whole cc0_scratch8).slice (Rect.unit (s := S1024x512) (k0_off20 c 96#32) S32x512.size (k0_off20_inb c 3)) (fun _ => rfl))
  | ⟨39, _⟩ => ((Memref.whole cc0_scratch8).slice (Rect.unit (s := S1024x512) (k0_off20 c 96#32) S32x512.size (k0_off20_inb c 3)) (fun _ => rfl))
  | ⟨40, _⟩ => ((Memref.whole cc0_scratch8).slice (Rect.unit (s := S1024x512) (k0_off21 c 0#32) S32x512.size (k0_off21_inb c 0)) (fun _ => rfl))
  | ⟨41, _⟩ => ((Memref.whole cc0_scratch8).slice (Rect.unit (s := S1024x512) (k0_off23 c 0#32) S32x512.size (k0_off23_inb c 0)) (fun _ => rfl))
  | ⟨42, _⟩ => ((Memref.whole cc0_scratch8).slice (Rect.unit (s := S1024x512) (k0_off21 c 32#32) S32x512.size (k0_off21_inb c 1)) (fun _ => rfl))
  | ⟨43, _⟩ => ((Memref.whole cc0_scratch8).slice (Rect.unit (s := S1024x512) (k0_off23 c 32#32) S32x512.size (k0_off23_inb c 1)) (fun _ => rfl))
  | ⟨44, _⟩ => ((Memref.whole cc0_scratch8).slice (Rect.unit (s := S1024x512) (k0_off21 c 64#32) S32x512.size (k0_off21_inb c 2)) (fun _ => rfl))
  | ⟨45, _⟩ => ((Memref.whole cc0_scratch8).slice (Rect.unit (s := S1024x512) (k0_off23 c 64#32) S32x512.size (k0_off23_inb c 2)) (fun _ => rfl))
  | ⟨46, _⟩ => ((Memref.whole cc0_scratch8).slice (Rect.unit (s := S1024x512) (k0_off21 c 96#32) S32x512.size (k0_off21_inb c 3)) (fun _ => rfl))
  | ⟨47, _⟩ => ((Memref.whole cc0_scratch8).slice (Rect.unit (s := S1024x512) (k0_off23 c 96#32) S32x512.size (k0_off23_inb c 3)) (fun _ => rfl))
  | ⟨_ + 48, h⟩ => absurd h (Nat.not_lt.2 (Nat.le_add_left _ _))

def dstM (c : Dev nD) : Fin 48 → M32
  | ⟨0, _⟩ => ((Memref.whole cc0_scratch2).slice (Rect.unit (s := S256x512) (k0_off3 c 0#32) S32x512.size (k0_off3_inb c 0)) (fun _ => rfl))
  | ⟨1, _⟩ => ((Memref.whole cc0_scratch3).slice (Rect.unit (s := S256x512) (k0_off6 c 0#32) S32x512.size (k0_off6_inb c 0)) (fun _ => rfl))
  | ⟨2, _⟩ => ((Memref.whole cc0_scratch2).slice (Rect.unit (s := S256x512) (k0_off3 c 32#32) S32x512.size (k0_off3_inb c 1)) (fun _ => rfl))
  | ⟨3, _⟩ => ((Memref.whole cc0_scratch3).slice (Rect.unit (s := S256x512) (k0_off6 c 32#32) S32x512.size (k0_off6_inb c 1)) (fun _ => rfl))
  | ⟨4, _⟩ => ((Memref.whole cc0_scratch2).slice (Rect.unit (s := S256x512) (k0_off3 c 64#32) S32x512.size (k0_off3_inb c 2)) (fun _ => rfl))
  | ⟨5, _⟩ => ((Memref.whole cc0_scratch3).slice (Rect.unit (s := S256x512) (k0_off6 c 64#32) S32x512.size (k0_off6_inb c 2)) (fun _ => rfl))
  | ⟨6, _⟩ => ((Memref.whole cc0_scratch2).slice (Rect.unit (s := S256x512) (k0_off3 c 96#32) S32x512.size (k0_off3_inb c 3)) (fun _ => rfl))
  | ⟨7, _⟩ => ((Memref.whole cc0_scratch3).slice (Rect.unit (s := S256x512) (k0_off6 c 96#32) S32x512.size (k0_off6_inb c 3)) (fun _ => rfl))
  | ⟨8, _⟩ => ((Memref.whole cc0_scratch2).slice (Rect.unit (s := S256x512) (k0_off9 c 0#32) S32x512.size (k0_off9_inb c 0)) (fun _ => rfl))
  | ⟨9, _⟩ => ((Memref.whole cc0_scratch3).slice (Rect.unit (s := S256x512) (k0_off12 c 0#32) S32x512.size (k0_off12_inb c 0)) (fun _ => rfl))
  | ⟨10, _⟩ => ((Memref.whole cc0_scratch2).slice (Rect.unit (s := S256x512) (k0_off9 c 32#32) S32x512.size (k0_off9_inb c 1)) (fun _ => rfl))
  | ⟨11, _⟩ => ((Memref.whole cc0_scratch3).slice (Rect.unit (s := S256x512) (k0_off12 c 32#32) S32x512.size (k0_off12_inb c 1)) (fun _ => rfl))
  | ⟨12, _⟩ => ((Memref.whole cc0_scratch2).slice (Rect.unit (s := S256x512) (k0_off9 c 64#32) S32x512.size (k0_off9_inb c 2)) (fun _ => rfl))
  | ⟨13, _⟩ => ((Memref.whole cc0_scratch3).slice (Rect.unit (s := S256x512) (k0_off12 c 64#32) S32x512.size (k0_off12_inb c 2)) (fun _ => rfl))
  | ⟨14, _⟩ => ((Memref.whole cc0_scratch2).slice (Rect.unit (s := S256x512) (k0_off9 c 96#32) S32x512.size (k0_off9_inb c 3)) (fun _ => rfl))
  | ⟨15, _⟩ => ((Memref.whole cc0_scratch3).slice (Rect.unit (s := S256x512) (k0_off12 c 96#32) S32x512.size (k0_off12_inb c 3)) (fun _ => rfl))
  | ⟨16, _⟩ => ((Memref.whole cc0_scratch4).slice (Rect.unit (s := S128x512) ![0, 0] S32x512.size inb_S128x512_S32x512_0_0) (fun _ => rfl))
  | ⟨17, _⟩ => ((Memref.whole cc0_scratch5).slice (Rect.unit (s := S128x512) ![0, 0] S32x512.size inb_S128x512_S32x512_0_0) (fun _ => rfl))
  | ⟨18, _⟩ => ((Memref.whole cc0_scratch4).slice (Rect.unit (s := S128x512) ![32, 0] S32x512.size inb_S128x512_S32x512_32_0) (fun _ => rfl))
  | ⟨19, _⟩ => ((Memref.whole cc0_scratch5).slice (Rect.unit (s := S128x512) ![32, 0] S32x512.size inb_S128x512_S32x512_32_0) (fun _ => rfl))
  | ⟨20, _⟩ => ((Memref.whole cc0_scratch4).slice (Rect.unit (s := S128x512) ![64, 0] S32x512.size inb_S128x512_S32x512_64_0) (fun _ => rfl))
  | ⟨21, _⟩ => ((Memref.whole cc0_scratch5).slice (Rect.unit (s := S128x512) ![64, 0] S32x512.size inb_S128x512_S32x512_64_0) (fun _ => rfl))
  | ⟨22, _⟩ => ((Memref.whole cc0_scratch4).slice (Rect.unit (s := S128x512) ![96, 0] S32x512.size inb_S128x512_S32x512_96_0) (fun _ => rfl))
  | ⟨23, _⟩ => ((Memref.whole cc0_scratch5).slice (Rect.unit (s := S128x512) ![96, 0] S32x512.size inb_S128x512_S32x512_96_0) (fun _ => rfl))
  | ⟨24, _⟩ => ((Memref.whole cc0_scratch8).slice (Rect.unit (s := S1024x512) (k0_off17 c 0#32) S32x512.size (k0_off17_inb c 0)) (fun _ => rfl))
  | ⟨25, _⟩ => ((Memref.whole cc0_scratch8).slice (Rect.unit (s := S1024x512) (k0_off17 c 0#32) S32x512.size (k0_off17_inb c 0)) (fun _ => rfl))
  | ⟨26, _⟩ => ((Memref.whole cc0_scratch8).slice (Rect.unit (s := S1024x512) (k0_off20 c 0#32) S32x512.size (k0_off20_inb c 0)) (fun _ => rfl))
  | ⟨27, _⟩ => ((Memref.whole cc0_scratch8).slice (Rect.unit (s := S1024x512) (k0_off20 c 0#32) S32x512.size (k0_off20_inb c 0)) (fun _ => rfl))
  | ⟨28, _⟩ => ((Memref.whole cc0_scratch8).slice (Rect.unit (s := S1024x512) (k0_off17 c 32#32) S32x512.size (k0_off17_inb c 1)) (fun _ => rfl))
  | ⟨29, _⟩ => ((Memref.whole cc0_scratch8).slice (Rect.unit (s := S1024x512) (k0_off17 c 32#32) S32x512.size (k0_off17_inb c 1)) (fun _ => rfl))
  | ⟨30, _⟩ => ((Memref.whole cc0_scratch8).slice (Rect.unit (s := S1024x512) (k0_off20 c 32#32) S32x512.size (k0_off20_inb c 1)) (fun _ => rfl))
  | ⟨31, _⟩ => ((Memref.whole cc0_scratch8).slice (Rect.unit (s := S1024x512) (k0_off20 c 32#32) S32x512.size (k0_off20_inb c 1)) (fun _ => rfl))
  | ⟨32, _⟩ => ((Memref.whole cc0_scratch8).slice (Rect.unit (s := S1024x512) (k0_off17 c 64#32) S32x512.size (k0_off17_inb c 2)) (fun _ => rfl))
  | ⟨33, _⟩ => ((Memref.whole cc0_scratch8).slice (Rect.unit (s := S1024x512) (k0_off17 c 64#32) S32x512.size (k0_off17_inb c 2)) (fun _ => rfl))
  | ⟨34, _⟩ => ((Memref.whole cc0_scratch8).slice (Rect.unit (s := S1024x512) (k0_off20 c 64#32) S32x512.size (k0_off20_inb c 2)) (fun _ => rfl))
  | ⟨35, _⟩ => ((Memref.whole cc0_scratch8).slice (Rect.unit (s := S1024x512) (k0_off20 c 64#32) S32x512.size (k0_off20_inb c 2)) (fun _ => rfl))
  | ⟨36, _⟩ => ((Memref.whole cc0_scratch8).slice (Rect.unit (s := S1024x512) (k0_off17 c 96#32) S32x512.size (k0_off17_inb c 3)) (fun _ => rfl))
  | ⟨37, _⟩ => ((Memref.whole cc0_scratch8).slice (Rect.unit (s := S1024x512) (k0_off17 c 96#32) S32x512.size (k0_off17_inb c 3)) (fun _ => rfl))
  | ⟨38, _⟩ => ((Memref.whole cc0_scratch8).slice (Rect.unit (s := S1024x512) (k0_off20 c 96#32) S32x512.size (k0_off20_inb c 3)) (fun _ => rfl))
  | ⟨39, _⟩ => ((Memref.whole cc0_scratch8).slice (Rect.unit (s := S1024x512) (k0_off20 c 96#32) S32x512.size (k0_off20_inb c 3)) (fun _ => rfl))
  | ⟨40, _⟩ => ((Memref.whole cc0_scratch8).slice (Rect.unit (s := S1024x512) (k0_off21 c 0#32) S32x512.size (k0_off21_inb c 0)) (fun _ => rfl))
  | ⟨41, _⟩ => ((Memref.whole cc0_scratch8).slice (Rect.unit (s := S1024x512) (k0_off23 c 0#32) S32x512.size (k0_off23_inb c 0)) (fun _ => rfl))
  | ⟨42, _⟩ => ((Memref.whole cc0_scratch8).slice (Rect.unit (s := S1024x512) (k0_off21 c 32#32) S32x512.size (k0_off21_inb c 1)) (fun _ => rfl))
  | ⟨43, _⟩ => ((Memref.whole cc0_scratch8).slice (Rect.unit (s := S1024x512) (k0_off23 c 32#32) S32x512.size (k0_off23_inb c 1)) (fun _ => rfl))
  | ⟨44, _⟩ => ((Memref.whole cc0_scratch8).slice (Rect.unit (s := S1024x512) (k0_off21 c 64#32) S32x512.size (k0_off21_inb c 2)) (fun _ => rfl))
  | ⟨45, _⟩ => ((Memref.whole cc0_scratch8).slice (Rect.unit (s := S1024x512) (k0_off23 c 64#32) S32x512.size (k0_off23_inb c 2)) (fun _ => rfl))
  | ⟨46, _⟩ => ((Memref.whole cc0_scratch8).slice (Rect.unit (s := S1024x512) (k0_off21 c 96#32) S32x512.size (k0_off21_inb c 3)) (fun _ => rfl))
  | ⟨47, _⟩ => ((Memref.whole cc0_scratch8).slice (Rect.unit (s := S1024x512) (k0_off23 c 96#32) S32x512.size (k0_off23_inb c 3)) (fun _ => rfl))
  | ⟨_ + 48, h⟩ => absurd h (Nat.not_lt.2 (Nat.le_add_left _ _))

def tgt (c : Dev nD) : Fin 48 → Dev nD
  | ⟨0, _⟩ => (⟨k0_dev3 c, k0_dev3_lt c⟩ : Dev nD)
  | ⟨1, _⟩ => (⟨k0_dev4 c, k0_dev4_lt c⟩ : Dev nD)
  | ⟨2, _⟩ => (⟨k0_dev5 c, k0_dev5_lt c⟩ : Dev nD)
  | ⟨3, _⟩ => (⟨k0_dev6 c, k0_dev6_lt c⟩ : Dev nD)
  | ⟨4, _⟩ => (⟨k0_dev7 c, k0_dev7_lt c⟩ : Dev nD)
  | ⟨5, _⟩ => (⟨k0_dev8 c, k0_dev8_lt c⟩ : Dev nD)
  | ⟨6, _⟩ => (⟨k0_dev9 c, k0_dev9_lt c⟩ : Dev nD)
  | ⟨7, _⟩ => (⟨k0_dev10 c, k0_dev10_lt c⟩ : Dev nD)
  | ⟨8, _⟩ => (⟨k0_dev11 c, k0_dev11_lt c⟩ : Dev nD)
  | ⟨9, _⟩ => (⟨k0_dev12 c, k0_dev12_lt c⟩ : Dev nD)
  | ⟨10, _⟩ => (⟨k0_dev13 c, k0_dev13_lt c⟩ : Dev nD)
  | ⟨11, _⟩ => (⟨k0_dev14 c, k0_dev14_lt c⟩ : Dev nD)
  | ⟨12, _⟩ => (⟨k0_dev15 c, k0_dev15_lt c⟩ : Dev nD)
  | ⟨13, _⟩ => (⟨k0_dev16 c, k0_dev16_lt c⟩ : Dev nD)
  | ⟨14, _⟩ => (⟨k0_dev17 c, k0_dev17_lt c⟩ : Dev nD)
  | ⟨15, _⟩ => (⟨k0_dev18 c, k0_dev18_lt c⟩ : Dev nD)
  | ⟨16, _⟩ => (⟨k0_dev19 c, k0_dev19_lt c⟩ : Dev nD)
  | ⟨17, _⟩ => (⟨k0_dev20 c, k0_dev20_lt c⟩ : Dev nD)
  | ⟨18, _⟩ => (⟨k0_dev21 c, k0_dev21_lt c⟩ : Dev nD)
  | ⟨19, _⟩ => (⟨k0_dev22 c, k0_dev22_lt c⟩ : Dev nD)
  | ⟨20, _⟩ => (⟨k0_dev23 c, k0_dev23_lt c⟩ : Dev nD)
  | ⟨21, _⟩ => (⟨k0_dev24 c, k0_dev24_lt c⟩ : Dev nD)
  | ⟨22, _⟩ => (⟨k0_dev25 c, k0_dev25_lt c⟩ : Dev nD)
  | ⟨23, _⟩ => (⟨k0_dev26 c, k0_dev26_lt c⟩ : Dev nD)
  | ⟨24, _⟩ => (⟨k0_dev27 c, k0_dev27_lt c⟩ : Dev nD)
  | ⟨25, _⟩ => (⟨k0_dev28 c, k0_dev28_lt c⟩ : Dev nD)
  | ⟨26, _⟩ => (⟨k0_dev29 c, k0_dev29_lt c⟩ : Dev nD)
  | ⟨27, _⟩ => (⟨k0_dev30 c, k0_dev30_lt c⟩ : Dev nD)
  | ⟨28, _⟩ => (⟨k0_dev31 c, k0_dev31_lt c⟩ : Dev nD)
  | ⟨29, _⟩ => (⟨k0_dev32 c, k0_dev32_lt c⟩ : Dev nD)
  | ⟨30, _⟩ => (⟨k0_dev33 c, k0_dev33_lt c⟩ : Dev nD)
  | ⟨31, _⟩ => (⟨k0_dev34 c, k0_dev34_lt c⟩ : Dev nD)
  | ⟨32, _⟩ => (⟨k0_dev35 c, k0_dev35_lt c⟩ : Dev nD)
  | ⟨33, _⟩ => (⟨k0_dev36 c, k0_dev36_lt c⟩ : Dev nD)
  | ⟨34, _⟩ => (⟨k0_dev37 c, k0_dev37_lt c⟩ : Dev nD)
  | ⟨35, _⟩ => (⟨k0_dev38 c, k0_dev38_lt c⟩ : Dev nD)
  | ⟨36, _⟩ => (⟨k0_dev39 c, k0_dev39_lt c⟩ : Dev nD)
  | ⟨37, _⟩ => (⟨k0_dev40 c, k0_dev40_lt c⟩ : Dev nD)
  | ⟨38, _⟩ => (⟨k0_dev41 c, k0_dev41_lt c⟩ : Dev nD)
  | ⟨39, _⟩ => (⟨k0_dev42 c, k0_dev42_lt c⟩ : Dev nD)
  | ⟨40, _⟩ => (⟨k0_dev43 c, k0_dev43_lt c⟩ : Dev nD)
  | ⟨41, _⟩ => (⟨k0_dev44 c, k0_dev44_lt c⟩ : Dev nD)
  | ⟨42, _⟩ => (⟨k0_dev45 c, k0_dev45_lt c⟩ : Dev nD)
  | ⟨43, _⟩ => (⟨k0_dev46 c, k0_dev46_lt c⟩ : Dev nD)
  | ⟨44, _⟩ => (⟨k0_dev47 c, k0_dev47_lt c⟩ : Dev nD)
  | ⟨45, _⟩ => (⟨k0_dev48 c, k0_dev48_lt c⟩ : Dev nD)
  | ⟨46, _⟩ => (⟨k0_dev49 c, k0_dev49_lt c⟩ : Dev nD)
  | ⟨47, _⟩ => (⟨k0_dev50 c, k0_dev50_lt c⟩ : Dev nD)
  | ⟨_ + 48, h⟩ => absurd h (Nat.not_lt.2 (Nat.le_add_left _ _))

def sSem (i : Fin 48) : DmaSem sig := ((cc0_scratch9.slice (Rect.unit (s := S48) ![i.val] S1.size (sem_inb i))).squeeze S_ squeezes_S1_S_).sem

def rSem (i : Fin 48) : DmaSem sig := ((cc0_scratch10.slice (Rect.unit (s := S48) ![i.val] S1.size (sem_inb i))).squeeze S_ squeezes_S1_S_).sem

def x0o (c : Dev nD) : Fin 16 → { o : Fin 2 → ℕ // ∀ a, o a + S32x512.size a ≤ S1024x512.size a }
  | ⟨0, _⟩ => ⟨(k0_off1 c 0#32), (k0_off1_inb c 0)⟩
  | ⟨1, _⟩ => ⟨(k0_off4 c 0#32), (k0_off4_inb c 0)⟩
  | ⟨2, _⟩ => ⟨(k0_off1 c 32#32), (k0_off1_inb c 1)⟩
  | ⟨3, _⟩ => ⟨(k0_off4 c 32#32), (k0_off4_inb c 1)⟩
  | ⟨4, _⟩ => ⟨(k0_off1 c 64#32), (k0_off1_inb c 2)⟩
  | ⟨5, _⟩ => ⟨(k0_off4 c 64#32), (k0_off4_inb c 2)⟩
  | ⟨6, _⟩ => ⟨(k0_off1 c 96#32), (k0_off1_inb c 3)⟩
  | ⟨7, _⟩ => ⟨(k0_off4 c 96#32), (k0_off4_inb c 3)⟩
  | ⟨8, _⟩ => ⟨(k0_off7 c 0#32), (k0_off7_inb c 0)⟩
  | ⟨9, _⟩ => ⟨(k0_off10 c 0#32), (k0_off10_inb c 0)⟩
  | ⟨10, _⟩ => ⟨(k0_off7 c 32#32), (k0_off7_inb c 1)⟩
  | ⟨11, _⟩ => ⟨(k0_off10 c 32#32), (k0_off10_inb c 1)⟩
  | ⟨12, _⟩ => ⟨(k0_off7 c 64#32), (k0_off7_inb c 2)⟩
  | ⟨13, _⟩ => ⟨(k0_off10 c 64#32), (k0_off10_inb c 2)⟩
  | ⟨14, _⟩ => ⟨(k0_off7 c 96#32), (k0_off7_inb c 3)⟩
  | ⟨15, _⟩ => ⟨(k0_off10 c 96#32), (k0_off10_inb c 3)⟩
  | ⟨_ + 16, h⟩ => absurd h (Nat.not_lt.2 (Nat.le_add_left _ _))

def sb0o (c : Dev nD) : Fin 16 → { o : Fin 2 → ℕ // ∀ a, o a + S32x512.size a ≤ S256x512.size a }
  | ⟨0, _⟩ => ⟨(k0_off2 c 0#32), (k0_off2_inb c 0)⟩
  | ⟨1, _⟩ => ⟨(k0_off5 c 0#32), (k0_off5_inb c 0)⟩
  | ⟨2, _⟩ => ⟨(k0_off2 c 32#32), (k0_off2_inb c 1)⟩
  | ⟨3, _⟩ => ⟨(k0_off5 c 32#32), (k0_off5_inb c 1)⟩
  | ⟨4, _⟩ => ⟨(k0_off2 c 64#32), (k0_off2_inb c 2)⟩
  | ⟨5, _⟩ => ⟨(k0_off5 c 64#32), (k0_off5_inb c 2)⟩
  | ⟨6, _⟩ => ⟨(k0_off2 c 96#32), (k0_off2_inb c 3)⟩
  | ⟨7, _⟩ => ⟨(k0_off5 c 96#32), (k0_off5_inb c 3)⟩
  | ⟨8, _⟩ => ⟨(k0_off8 c 0#32), (k0_off8_inb c 0)⟩
  | ⟨9, _⟩ => ⟨(k0_off11 c 0#32), (k0_off11_inb c 0)⟩
  | ⟨10, _⟩ => ⟨(k0_off8 c 32#32), (k0_off8_inb c 1)⟩
  | ⟨11, _⟩ => ⟨(k0_off11 c 32#32), (k0_off11_inb c 1)⟩
  | ⟨12, _⟩ => ⟨(k0_off8 c 64#32), (k0_off8_inb c 2)⟩
  | ⟨13, _⟩ => ⟨(k0_off11 c 64#32), (k0_off11_inb c 2)⟩
  | ⟨14, _⟩ => ⟨(k0_off8 c 96#32), (k0_off8_inb c 3)⟩
  | ⟨15, _⟩ => ⟨(k0_off11 c 96#32), (k0_off11_inb c 3)⟩
  | ⟨_ + 16, h⟩ => absurd h (Nat.not_lt.2 (Nat.le_add_left _ _))

def x1o (c : Dev nD) : Fin 8 → { o : Fin 2 → ℕ // ∀ a, o a + S32x512.size a ≤ S1024x512.size a }
  | ⟨0, _⟩ => ⟨(k0_off13 c 0#32), (k0_off13_inb c 0)⟩
  | ⟨1, _⟩ => ⟨(k0_off14 c 0#32), (k0_off14_inb c 0)⟩
  | ⟨2, _⟩ => ⟨(k0_off13 c 32#32), (k0_off13_inb c 1)⟩
  | ⟨3, _⟩ => ⟨(k0_off14 c 32#32), (k0_off14_inb c 1)⟩
  | ⟨4, _⟩ => ⟨(k0_off13 c 64#32), (k0_off13_inb c 2)⟩
  | ⟨5, _⟩ => ⟨(k0_off14 c 64#32), (k0_off14_inb c 2)⟩
  | ⟨6, _⟩ => ⟨(k0_off13 c 96#32), (k0_off13_inb c 3)⟩
  | ⟨7, _⟩ => ⟨(k0_off14 c 96#32), (k0_off14_inb c 3)⟩
  | ⟨_ + 8, h⟩ => absurd h (Nat.not_lt.2 (Nat.le_add_left _ _))

def r1o1 (c : Dev nD) : Fin 8 → { o : Fin 2 → ℕ // ∀ a, o a + S32x512.size a ≤ S256x512.size a }
  | ⟨0, _⟩ => ⟨(k0_off2 c 0#32), (k0_off2_inb c 0)⟩
  | ⟨1, _⟩ => ⟨(k0_off5 c 0#32), (k0_off5_inb c 0)⟩
  | ⟨2, _⟩ => ⟨(k0_off2 c 32#32), (k0_off2_inb c 1)⟩
  | ⟨3, _⟩ => ⟨(k0_off5 c 32#32), (k0_off5_inb c 1)⟩
  | ⟨4, _⟩ => ⟨(k0_off2 c 64#32), (k0_off2_inb c 2)⟩
  | ⟨5, _⟩ => ⟨(k0_off5 c 64#32), (k0_off5_inb c 2)⟩
  | ⟨6, _⟩ => ⟨(k0_off2 c 96#32), (k0_off2_inb c 3)⟩
  | ⟨7, _⟩ => ⟨(k0_off5 c 96#32), (k0_off5_inb c 3)⟩
  | ⟨_ + 8, h⟩ => absurd h (Nat.not_lt.2 (Nat.le_add_left _ _))

def fwo (c : Dev nD) : Fin 8 → { o : Fin 2 → ℕ // ∀ a, o a + S32x512.size a ≤ S128x512.size a }
  | ⟨0, _⟩ => ⟨![0, 0], inb_S128x512_S32x512_0_0⟩
  | ⟨1, _⟩ => ⟨![0, 0], inb_S128x512_S32x512_0_0⟩
  | ⟨2, _⟩ => ⟨![32, 0], inb_S128x512_S32x512_32_0⟩
  | ⟨3, _⟩ => ⟨![32, 0], inb_S128x512_S32x512_32_0⟩
  | ⟨4, _⟩ => ⟨![64, 0], inb_S128x512_S32x512_64_0⟩
  | ⟨5, _⟩ => ⟨![64, 0], inb_S128x512_S32x512_64_0⟩
  | ⟨6, _⟩ => ⟨![96, 0], inb_S128x512_S32x512_96_0⟩
  | ⟨7, _⟩ => ⟨![96, 0], inb_S128x512_S32x512_96_0⟩
  | ⟨_ + 8, h⟩ => absurd h (Nat.not_lt.2 (Nat.le_add_left _ _))

def x2o (c : Dev nD) : Fin 8 → { o : Fin 2 → ℕ // ∀ a, o a + S32x512.size a ≤ S1024x512.size a }
  | ⟨0, _⟩ => ⟨(k0_off15 c 0#32), (k0_off15_inb c 0)⟩
  | ⟨1, _⟩ => ⟨(k0_off18 c 0#32), (k0_off18_inb c 0)⟩
  | ⟨2, _⟩ => ⟨(k0_off15 c 32#32), (k0_off15_inb c 1)⟩
  | ⟨3, _⟩ => ⟨(k0_off18 c 32#32), (k0_off18_inb c 1)⟩
  | ⟨4, _⟩ => ⟨(k0_off15 c 64#32), (k0_off15_inb c 2)⟩
  | ⟨5, _⟩ => ⟨(k0_off18 c 64#32), (k0_off18_inb c 2)⟩
  | ⟨6, _⟩ => ⟨(k0_off15 c 96#32), (k0_off15_inb c 3)⟩
  | ⟨7, _⟩ => ⟨(k0_off18 c 96#32), (k0_off18_inb c 3)⟩
  | ⟨_ + 8, h⟩ => absurd h (Nat.not_lt.2 (Nat.le_add_left _ _))

def r1o2 (c : Dev nD) : Fin 8 → { o : Fin 2 → ℕ // ∀ a, o a + S32x512.size a ≤ S256x512.size a }
  | ⟨0, _⟩ => ⟨(k0_off8 c 0#32), (k0_off8_inb c 0)⟩
  | ⟨1, _⟩ => ⟨(k0_off11 c 0#32), (k0_off11_inb c 0)⟩
  | ⟨2, _⟩ => ⟨(k0_off8 c 32#32), (k0_off8_inb c 1)⟩
  | ⟨3, _⟩ => ⟨(k0_off11 c 32#32), (k0_off11_inb c 1)⟩
  | ⟨4, _⟩ => ⟨(k0_off8 c 64#32), (k0_off8_inb c 2)⟩
  | ⟨5, _⟩ => ⟨(k0_off11 c 64#32), (k0_off11_inb c 2)⟩
  | ⟨6, _⟩ => ⟨(k0_off8 c 96#32), (k0_off8_inb c 3)⟩
  | ⟨7, _⟩ => ⟨(k0_off11 c 96#32), (k0_off11_inb c 3)⟩
  | ⟨_ + 8, h⟩ => absurd h (Nat.not_lt.2 (Nat.le_add_left _ _))

def r2o (c : Dev nD) : Fin 8 → { o : Fin 2 → ℕ // ∀ a, o a + S32x512.size a ≤ S128x512.size a }
  | ⟨0, _⟩ => ⟨![0, 0], inb_S128x512_S32x512_0_0⟩
  | ⟨1, _⟩ => ⟨![0, 0], inb_S128x512_S32x512_0_0⟩
  | ⟨2, _⟩ => ⟨![32, 0], inb_S128x512_S32x512_32_0⟩
  | ⟨3, _⟩ => ⟨![32, 0], inb_S128x512_S32x512_32_0⟩
  | ⟨4, _⟩ => ⟨![64, 0], inb_S128x512_S32x512_64_0⟩
  | ⟨5, _⟩ => ⟨![64, 0], inb_S128x512_S32x512_64_0⟩
  | ⟨6, _⟩ => ⟨![96, 0], inb_S128x512_S32x512_96_0⟩
  | ⟨7, _⟩ => ⟨![96, 0], inb_S128x512_S32x512_96_0⟩
  | ⟨_ + 8, h⟩ => absurd h (Nat.not_lt.2 (Nat.le_add_left _ _))

def outo (c : Dev nD) : Fin 32 → { o : Fin 2 → ℕ // ∀ a, o a + S32x512.size a ≤ S1024x512.size a }
  | ⟨0, _⟩ => ⟨(k0_off16 c 0#32), (k0_off16_inb c 0)⟩
  | ⟨1, _⟩ => ⟨(k0_off19 c 0#32), (k0_off19_inb c 0)⟩
  | ⟨2, _⟩ => ⟨(k0_off16 c 32#32), (k0_off16_inb c 1)⟩
  | ⟨3, _⟩ => ⟨(k0_off19 c 32#32), (k0_off19_inb c 1)⟩
  | ⟨4, _⟩ => ⟨(k0_off16 c 64#32), (k0_off16_inb c 2)⟩
  | ⟨5, _⟩ => ⟨(k0_off19 c 64#32), (k0_off19_inb c 2)⟩
  | ⟨6, _⟩ => ⟨(k0_off16 c 96#32), (k0_off16_inb c 3)⟩
  | ⟨7, _⟩ => ⟨(k0_off19 c 96#32), (k0_off19_inb c 3)⟩
  | ⟨8, _⟩ => ⟨(k0_off22 c 0#32), (k0_off22_inb c 0)⟩
  | ⟨9, _⟩ => ⟨(k0_off24 c 0#32), (k0_off24_inb c 0)⟩
  | ⟨10, _⟩ => ⟨(k0_off22 c 32#32), (k0_off22_inb c 1)⟩
  | ⟨11, _⟩ => ⟨(k0_off24 c 32#32), (k0_off24_inb c 1)⟩
  | ⟨12, _⟩ => ⟨(k0_off22 c 64#32), (k0_off22_inb c 2)⟩
  | ⟨13, _⟩ => ⟨(k0_off24 c 64#32), (k0_off24_inb c 2)⟩
  | ⟨14, _⟩ => ⟨(k0_off22 c 96#32), (k0_off22_inb c 3)⟩
  | ⟨15, _⟩ => ⟨(k0_off24 c 96#32), (k0_off24_inb c 3)⟩
  | ⟨16, _⟩ => ⟨(k0_off25 c 0#32), (k0_off25_inb c 0)⟩
  | ⟨17, _⟩ => ⟨(k0_off26 c 0#32), (k0_off26_inb c 0)⟩
  | ⟨18, _⟩ => ⟨(k0_off25 c 32#32), (k0_off25_inb c 1)⟩
  | ⟨19, _⟩ => ⟨(k0_off26 c 32#32), (k0_off26_inb c 1)⟩
  | ⟨20, _⟩ => ⟨(k0_off25 c 64#32), (k0_off25_inb c 2)⟩
  | ⟨21, _⟩ => ⟨(k0_off26 c 64#32), (k0_off26_inb c 2)⟩
  | ⟨22, _⟩ => ⟨(k0_off25 c 96#32), (k0_off25_inb c 3)⟩
  | ⟨23, _⟩ => ⟨(k0_off26 c 96#32), (k0_off26_inb c 3)⟩
  | ⟨24, _⟩ => ⟨(k0_off27 c 0#32), (k0_off27_inb c 0)⟩
  | ⟨25, _⟩ => ⟨(k0_off28 c 0#32), (k0_off28_inb c 0)⟩
  | ⟨26, _⟩ => ⟨(k0_off27 c 32#32), (k0_off27_inb c 1)⟩
  | ⟨27, _⟩ => ⟨(k0_off28 c 32#32), (k0_off28_inb c 1)⟩
  | ⟨28, _⟩ => ⟨(k0_off27 c 64#32), (k0_off27_inb c 2)⟩
  | ⟨29, _⟩ => ⟨(k0_off28 c 64#32), (k0_off28_inb c 2)⟩
  | ⟨30, _⟩ => ⟨(k0_off27 c 96#32), (k0_off27_inb c 3)⟩
  | ⟨31, _⟩ => ⟨(k0_off28 c 96#32), (k0_off28_inb c 3)⟩
  | ⟨_ + 32, h⟩ => absurd h (Nat.not_lt.2 (Nat.le_add_left _ _))

variable {α : Type}

def s0A (c : Dev nD) (r : Fin 4) (k : P F α) : P F α :=
  stepS0 (Memref.whole cc0_stg0_0) (k0_off1 c (w32 r)) (k0_off1_inb c r) (Memref.whole cc0_scratch0) (k0_off2 c (w32 r)) (k0_off2_inb c r) (View.stores_vmem h_S32x512 ((Memref.isWhole_whole _).storeExact_slice rfl _ (k0_off2_packedbf16 c r)) (fun _ => rfl))
    (slot (Memref.whole cc0_scratch0) _ (k0_off3_inb c r)) (slot (Memref.whole cc0_scratch2) _ (k0_off3_inb c r)) rfl (tgt c (c2 r 0)) (sSem (c2 r 0)) (rSem (c2 r 0)) (slot_words (Memref.isWhole_whole _) (k0_off3_wordsbf16 c r)) (slot_words (Memref.isWhole_whole _) (k0_off3_wordsbf16 c r)) ⟨⟨rfl, Or.inl rfl⟩, trivial⟩ k
def s0B (c : Dev nD) (r : Fin 4) (k : P F α) : P F α :=
  stepS0 (Memref.whole cc0_stg0_0) (k0_off4 c (w32 r)) (k0_off4_inb c r) (Memref.whole cc0_scratch1) (k0_off5 c (w32 r)) (k0_off5_inb c r) (View.stores_vmem h_S32x512 ((Memref.isWhole_whole _).storeExact_slice rfl _ (k0_off5_packedbf16 c r)) (fun _ => rfl))
    (slot (Memref.whole cc0_scratch1) _ (k0_off6_inb c r)) (slot (Memref.whole cc0_scratch3) _ (k0_off6_inb c r)) rfl (tgt c (c2 r 1)) (sSem (c2 r 1)) (rSem (c2 r 1)) (slot_words (Memref.isWhole_whole _) (k0_off6_wordsbf16 c r)) (slot_words (Memref.isWhole_whole _) (k0_off6_wordsbf16 c r)) ⟨⟨rfl, Or.inl rfl⟩, trivial⟩ k
def s0C (c : Dev nD) (r : Fin 4) (k : P F α) : P F α :=
  stepS0 (Memref.whole cc0_stg0_0) (k0_off7 c (w32 r)) (k0_off7_inb c r) (Memref.whole cc0_scratch0) (k0_off8 c (w32 r)) (k0_off8_inb c r) (View.stores_vmem h_S32x512 ((Memref.isWhole_whole _).storeExact_slice rfl _ (k0_off8_packedbf16 c r)) (fun _ => rfl))
    (slot (Memref.whole cc0_scratch0) _ (k0_off9_inb c r)) (slot (Memref.whole cc0_scratch2) _ (k0_off9_inb c r)) rfl (tgt c (c2 r 8)) (sSem (c2 r 8)) (rSem (c2 r 8)) (slot_words (Memref.isWhole_whole _) (k0_off9_wordsbf16 c r)) (slot_words (Memref.isWhole_whole _) (k0_off9_wordsbf16 c r)) ⟨⟨rfl, Or.inl rfl⟩, trivial⟩ k
def s0D (c : Dev nD) (r : Fin 4) (k : P F α) : P F α :=
  stepS0 (Memref.whole cc0_stg0_0) (k0_off10 c (w32 r)) (k0_off10_inb c r) (Memref.whole cc0_scratch1) (k0_off11 c (w32 r)) (k0_off11_inb c r) (View.stores_vmem h_S32x512 ((Memref.isWhole_whole _).storeExact_slice rfl _ (k0_off11_packedbf16 c r)) (fun _ => rfl))
    (slot (Memref.whole cc0_scratch1) _ (k0_off12_inb c r)) (slot (Memref.whole cc0_scratch3) _ (k0_off12_inb c r)) rfl (tgt c (c2 r 9)) (sSem (c2 r 9)) (rSem (c2 r 9)) (slot_words (Memref.isWhole_whole _) (k0_off12_wordsbf16 c r)) (slot_words (Memref.isWhole_whole _) (k0_off12_wordsbf16 c r)) ⟨⟨rfl, Or.inl rfl⟩, trivial⟩ k
def s1A (c : Dev nD) (r : Fin 4) (k : P F α) : P F α :=
  stepS1 (rSem (c2 r 0)) (slot (Memref.whole cc0_scratch0) _ (k0_off3_inb c r)) (slot (Memref.whole cc0_scratch2) _ (k0_off3_inb c r)) (slot_words (Memref.isWhole_whole _) (k0_off3_wordsbf16 c r)) (slot_words (Memref.isWhole_whole _) (k0_off3_wordsbf16 c r))
    (Memref.whole cc0_stg0_0) (k0_off13 c (w32 r)) (k0_off13_inb c r) (Memref.whole cc0_scratch2) (k0_off2 c (w32 r)) (k0_off2_inb c r) (Memref.whole cc0_scratch6) (fo r) (fo_inb r)
    (View.stores_vmem h_S32x512 ((Memref.isWhole_whole _).storeExact_slice rfl _ (fo_packed r)) (fun _ => rfl))
    (slot (Memref.whole cc0_scratch6) _ (fo_inb r)) (slot (Memref.whole cc0_scratch4) _ (fo_inb r)) rfl (tgt c (c2 r 16)) (sSem (c2 r 16)) (rSem (c2 r 16)) (slot_words (Memref.isWhole_whole _) (fo_words r)) (slot_words (Memref.isWhole_whole _) (fo_words r)) ⟨⟨rfl, Or.inl rfl⟩, trivial⟩ k
def s1B (c : Dev nD) (r : Fin 4) (k : P F α) : P F α :=
  stepS1 (rSem (c2 r 1)) (slot (Memref.whole cc0_scratch1) _ (k0_off6_inb c r)) (slot (Memref.whole cc0_scratch3) _ (k0_off6_inb c r)) (slot_words (Memref.isWhole_whole _) (k0_off6_wordsbf16 c r)) (slot_words (Memref.isWhole_whole _) (k0_off6_wordsbf16 c r))
    (Memref.whole cc0_stg0_0) (k0_off14 c (w32 r)) (k0_off14_inb c r) (Memref.whole cc0_scratch3) (k0_off5 c (w32 r)) (k0_off5_inb c r) (Memref.whole cc0_scratch7) (fo r) (fo_inb r)
    (View.stores_vmem h_S32x512 ((Memref.isWhole_whole _).storeExact_slice rfl _ (fo_packed r)) (fun _ => rfl))
    (slot (Memref.whole cc0_scratch7) _ (fo_inb r)) (slot (Memref.whole cc0_scratch5) _ (fo_inb r)) rfl (tgt c (c2 r 17)) (sSem (c2 r 17)) (rSem (c2 r 17)) (slot_words (Memref.isWhole_whole _) (fo_words r)) (slot_words (Memref.isWhole_whole _) (fo_words r)) ⟨⟨rfl, Or.inl rfl⟩, trivial⟩ k
def s2A (c : Dev nD) (r : Fin 4) (k : P F α) : P F α :=
  stepS2 (rSem (c2 r 8)) (slot (Memref.whole cc0_scratch0) _ (k0_off9_inb c r)) (slot (Memref.whole cc0_scratch2) _ (k0_off9_inb c r)) (slot_words (Memref.isWhole_whole _) (k0_off9_wordsbf16 c r)) (slot_words (Memref.isWhole_whole _) (k0_off9_wordsbf16 c r))
    (rSem (c2 r 16)) (slot (Memref.whole cc0_scratch6) _ (fo_inb r)) (slot (Memref.whole cc0_scratch4) _ (fo_inb r)) (slot_words (Memref.isWhole_whole _) (fo_words r)) (slot_words (Memref.isWhole_whole _) (fo_words r))
    (Memref.whole cc0_stg0_0) (k0_off15 c (w32 r)) (k0_off15_inb c r) (Memref.whole cc0_scratch2) (k0_off8 c (w32 r)) (k0_off8_inb c r) (Memref.whole cc0_scratch4) (fo r) (fo_inb r) (Memref.whole cc0_stg1_0) (Memref.whole cc0_scratch8) (k0_off16 c (w32 r)) (k0_off16_inb c r)
    (View.stores_vmem_bits_univ h_S32x512 rfl) (View.stores_vmem h_S32x512 ((Memref.isWhole_whole _).storeExact_slice rfl _ (k0_off16_packedbf16 c r)) (fun _ => rfl))
    (slot (Memref.whole cc0_scratch8) _ (k0_off17_inb c r)) (slot (Memref.whole cc0_scratch8) _ (k0_off17_inb c r)) rfl (tgt c (c4 r 24)) (sSem (c4 r 24)) (rSem (c4 r 24)) (slot_words (Memref.isWhole_whole _) (k0_off17_wordsbf16 c r)) (slot_words (Memref.isWhole_whole _) (k0_off17_wordsbf16 c r)) ⟨⟨rfl, Or.inl rfl⟩, trivial⟩
    (slot (Memref.whole cc0_scratch8) _ (k0_off17_inb c r)) (slot (Memref.whole cc0_scratch8) _ (k0_off17_inb c r)) rfl (tgt c (c4 r 25)) (sSem (c4 r 25)) (rSem (c4 r 25)) (slot_words (Memref.isWhole_whole _) (k0_off17_wordsbf16 c r)) (slot_words (Memref.isWhole_whole _) (k0_off17_wordsbf16 c r)) ⟨⟨rfl, Or.inl rfl⟩, trivial⟩ k
def s2B (c : Dev nD) (r : Fin 4) (k : P F α) : P F α :=
  stepS2 (rSem (c2 r 9)) (slot (Memref.whole cc0_scratch1) _ (k0_off12_inb c r)) (slot (Memref.whole cc0_scratch3) _ (k0_off12_inb c r)) (slot_words (Memref.isWhole_whole _) (k0_off12_wordsbf16 c r)) (slot_words (Memref.isWhole_whole _) (k0_off12_wordsbf16 c r))
    (rSem (c2 r 17)) (slot (Memref.whole cc0_scratch7) _ (fo_inb r)) (slot (Memref.whole cc0_scratch5) _ (fo_inb r)) (slot_words (Memref.isWhole_whole _) (fo_words r)) (slot_words (Memref.isWhole_whole _) (fo_words r))
    (Memref.whole cc0_stg0_0) (k0_off18 c (w32 r)) (k0_off18_inb c r) (Memref.whole cc0_scratch3) (k0_off11 c (w32 r)) (k0_off11_inb c r) (Memref.whole cc0_scratch5) (fo r) (fo_inb r) (Memref.whole cc0_stg1_0) (Memref.whole cc0_scratch8) (k0_off19 c (w32 r)) (k0_off19_inb c r)
    (View.stores_vmem_bits_univ h_S32x512 rfl) (View.stores_vmem h_S32x512 ((Memref.isWhole_whole _).storeExact_slice rfl _ (k0_off19_packedbf16 c r)) (fun _ => rfl))
    (slot (Memref.whole cc0_scratch8) _ (k0_off20_inb c r)) (slot (Memref.whole cc0_scratch8) _ (k0_off20_inb c r)) rfl (tgt c (c4 r 26)) (sSem (c4 r 26)) (rSem (c4 r 26)) (slot_words (Memref.isWhole_whole _) (k0_off20_wordsbf16 c r)) (slot_words (Memref.isWhole_whole _) (k0_off20_wordsbf16 c r)) ⟨⟨rfl, Or.inl rfl⟩, trivial⟩
    (slot (Memref.whole cc0_scratch8) _ (k0_off20_inb c r)) (slot (Memref.whole cc0_scratch8) _ (k0_off20_inb c r)) rfl (tgt c (c4 r 27)) (sSem (c4 r 27)) (rSem (c4 r 27)) (slot_words (Memref.isWhole_whole _) (k0_off20_wordsbf16 c r)) (slot_words (Memref.isWhole_whole _) (k0_off20_wordsbf16 c r)) ⟨⟨rfl, Or.inl rfl⟩, trivial⟩ k
def s3fA (c : Dev nD) (r : Fin 4) (k : P F α) : P F α :=
  stepS3f (rSem (c4 r 24)) (slot (Memref.whole cc0_scratch8) _ (k0_off17_inb c r)) (slot (Memref.whole cc0_scratch8) _ (k0_off17_inb c r)) (slot_words (Memref.isWhole_whole _) (k0_off17_wordsbf16 c r)) (slot_words (Memref.isWhole_whole _) (k0_off17_wordsbf16 c r))
    (slot (Memref.whole cc0_scratch8) _ (k0_off21_inb c r)) (slot (Memref.whole cc0_scratch8) _ (k0_off21_inb c r)) rfl (tgt c (c2 r 40)) (sSem (c2 r 40)) (rSem (c2 r 40)) (slot_words (Memref.isWhole_whole _) (k0_off21_wordsbf16 c r)) (slot_words (Memref.isWhole_whole _) (k0_off21_wordsbf16 c r)) ⟨⟨rfl, Or.inl rfl⟩, trivial⟩
    (Memref.whole cc0_stg1_0) (Memref.whole cc0_scratch8) (k0_off22 c (w32 r)) (k0_off22_inb c r) (View.stores_vmem_bits_univ h_S32x512 rfl) k
def s3fB (c : Dev nD) (r : Fin 4) (k : P F α) : P F α :=
  stepS3f (rSem (c4 r 26)) (slot (Memref.whole cc0_scratch8) _ (k0_off20_inb c r)) (slot (Memref.whole cc0_scratch8) _ (k0_off20_inb c r)) (slot_words (Memref.isWhole_whole _) (k0_off20_wordsbf16 c r)) (slot_words (Memref.isWhole_whole _) (k0_off20_wordsbf16 c r))
    (slot (Memref.whole cc0_scratch8) _ (k0_off23_inb c r)) (slot (Memref.whole cc0_scratch8) _ (k0_off23_inb c r)) rfl (tgt c (c2 r 41)) (sSem (c2 r 41)) (rSem (c2 r 41)) (slot_words (Memref.isWhole_whole _) (k0_off23_wordsbf16 c r)) (slot_words (Memref.isWhole_whole _) (k0_off23_wordsbf16 c r)) ⟨⟨rfl, Or.inl rfl⟩, trivial⟩
    (Memref.whole cc0_stg1_0) (Memref.whole cc0_scratch8) (k0_off24 c (w32 r)) (k0_off24_inb c r) (View.stores_vmem_bits_univ h_S32x512 rfl) k
def s3aA (c : Dev nD) (r : Fin 4) (k : P F α) : P F α :=
  stepS3 (rSem (c4 r 25)) (slot (Memref.whole cc0_scratch8) _ (k0_off17_inb c r)) (slot (Memref.whole cc0_scratch8) _ (k0_off17_inb c r)) (slot_words (Memref.isWhole_whole _) (k0_off17_wordsbf16 c r)) (slot_words (Memref.isWhole_whole _) (k0_off17_wordsbf16 c r)) (Memref.whole cc0_stg1_0) (Memref.whole cc0_scratch8) (k0_off25 c (w32 r)) (k0_off25_inb c r) (View.stores_vmem_bits_univ h_S32x512 rfl) k
def s3aB (c : Dev nD) (r : Fin 4) (k : P F α) : P F α :=
  stepS3 (rSem (c4 r 27)) (slot (Memref.whole cc0_scratch8) _ (k0_off20_inb c r)) (slot (Memref.whole cc0_scratch8) _ (k0_off20_inb c r)) (slot_words (Memref.isWhole_whole _) (k0_off20_wordsbf16 c r)) (slot_words (Memref.isWhole_whole _) (k0_off20_wordsbf16 c r)) (Memref.whole cc0_stg1_0) (Memref.whole cc0_scratch8) (k0_off26 c (w32 r)) (k0_off26_inb c r) (View.stores_vmem_bits_univ h_S32x512 rfl) k
def s3cA (c : Dev nD) (r : Fin 4) (k : P F α) : P F α :=
  stepS3 (rSem (c2 r 40)) (slot (Memref.whole cc0_scratch8) _ (k0_off21_inb c r)) (slot (Memref.whole cc0_scratch8) _ (k0_off21_inb c r)) (slot_words (Memref.isWhole_whole _) (k0_off21_wordsbf16 c r)) (slot_words (Memref.isWhole_whole _) (k0_off21_wordsbf16 c r)) (Memref.whole cc0_stg1_0) (Memref.whole cc0_scratch8) (k0_off27 c (w32 r)) (k0_off27_inb c r) (View.stores_vmem_bits_univ h_S32x512 rfl) k
def s3cB (c : Dev nD) (r : Fin 4) (k : P F α) : P F α :=
  stepS3 (rSem (c2 r 41)) (slot (Memref.whole cc0_scratch8) _ (k0_off23_inb c r)) (slot (Memref.whole cc0_scratch8) _ (k0_off23_inb c r)) (slot_words (Memref.isWhole_whole _) (k0_off23_wordsbf16 c r)) (slot_words (Memref.isWhole_whole _) (k0_off23_wordsbf16 c r)) (Memref.whole cc0_stg1_0) (Memref.whole cc0_scratch8) (k0_off28 c (w32 r)) (k0_off28_inb c r) (View.stores_vmem_bits_univ h_S32x512 rfl) k
def w0A (c : Dev nD) (r : Fin 4) (k : P F α) : P F α :=
  stepW (sSem (c2 r 0)) (slot (Memref.whole cc0_scratch2) _ (k0_off3_inb c r)) (slot (Memref.whole cc0_scratch0) _ (k0_off3_inb c r)) (slot_words (Memref.isWhole_whole _) (k0_off3_wordsbf16 c r)) (slot_words (Memref.isWhole_whole _) (k0_off3_wordsbf16 c r)) k
def w0B (c : Dev nD) (r : Fin 4) (k : P F α) : P F α :=
  stepW (sSem (c2 r 1)) (slot (Memref.whole cc0_scratch3) _ (k0_off6_inb c r)) (slot (Memref.whole cc0_scratch1) _ (k0_off6_inb c r)) (slot_words (Memref.isWhole_whole _) (k0_off6_wordsbf16 c r)) (slot_words (Memref.isWhole_whole _) (k0_off6_wordsbf16 c r)) k
def w0C (c : Dev nD) (r : Fin 4) (k : P F α) : P F α :=
  stepW (sSem (c2 r 8)) (slot (Memref.whole cc0_scratch2) _ (k0_off9_inb c r)) (slot (Memref.whole cc0_scratch0) _ (k0_off9_inb c r)) (slot_words (Memref.isWhole_whole _) (k0_off9_wordsbf16 c r)) (slot_words (Memref.isWhole_whole _) (k0_off9_wordsbf16 c r)) k
def w0D (c : Dev nD) (r : Fin 4) (k : P F α) : P F α :=
  stepW (sSem (c2 r 9)) (slot (Memref.whole cc0_scratch3) _ (k0_off12_inb c r)) (slot (Memref.whole cc0_scratch1) _ (k0_off12_inb c r)) (slot_words (Memref.isWhole_whole _) (k0_off12_wordsbf16 c r)) (slot_words (Memref.isWhole_whole _) (k0_off12_wordsbf16 c r)) k
def w1A (c : Dev nD) (r : Fin 4) (k : P F α) : P F α :=
  stepW (sSem (c2 r 16)) (slot (Memref.whole cc0_scratch4) _ (fo_inb r)) (slot (Memref.whole cc0_scratch6) _ (fo_inb r)) (slot_words (Memref.isWhole_whole _) (fo_words r)) (slot_words (Memref.isWhole_whole _) (fo_words r)) k
def w1B (c : Dev nD) (r : Fin 4) (k : P F α) : P F α :=
  stepW (sSem (c2 r 17)) (slot (Memref.whole cc0_scratch5) _ (fo_inb r)) (slot (Memref.whole cc0_scratch7) _ (fo_inb r)) (slot_words (Memref.isWhole_whole _) (fo_words r)) (slot_words (Memref.isWhole_whole _) (fo_words r)) k
def w2A (c : Dev nD) (r : Fin 4) (k : P F α) : P F α :=
  stepW (sSem (c4 r 24)) (slot (Memref.whole cc0_scratch8) _ (k0_off17_inb c r)) (slot (Memref.whole cc0_scratch8) _ (k0_off17_inb c r)) (slot_words (Memref.isWhole_whole _) (k0_off17_wordsbf16 c r)) (slot_words (Memref.isWhole_whole _) (k0_off17_wordsbf16 c r)) k
def w2A' (c : Dev nD) (r : Fin 4) (k : P F α) : P F α :=
  stepW (sSem (c4 r 25)) (slot (Memref.whole cc0_scratch8) _ (k0_off17_inb c r)) (slot (Memref.whole cc0_scratch8) _ (k0_off17_inb c r)) (slot_words (Memref.isWhole_whole _) (k0_off17_wordsbf16 c r)) (slot_words (Memref.isWhole_whole _) (k0_off17_wordsbf16 c r)) k
def w2B (c : Dev nD) (r : Fin 4) (k : P F α) : P F α :=
  stepW (sSem (c4 r 26)) (slot (Memref.whole cc0_scratch8) _ (k0_off20_inb c r)) (slot (Memref.whole cc0_scratch8) _ (k0_off20_inb c r)) (slot_words (Memref.isWhole_whole _) (k0_off20_wordsbf16 c r)) (slot_words (Memref.isWhole_whole _) (k0_off20_wordsbf16 c r)) k
def w2B' (c : Dev nD) (r : Fin 4) (k : P F α) : P F α :=
  stepW (sSem (c4 r 27)) (slot (Memref.whole cc0_scratch8) _ (k0_off20_inb c r)) (slot (Memref.whole cc0_scratch8) _ (k0_off20_inb c r)) (slot_words (Memref.isWhole_whole _) (k0_off20_wordsbf16 c r)) (slot_words (Memref.isWhole_whole _) (k0_off20_wordsbf16 c r)) k
def w3A (c : Dev nD) (r : Fin 4) (k : P F α) : P F α :=
  stepW (sSem (c2 r 40)) (slot (Memref.whole cc0_scratch8) _ (k0_off21_inb c r)) (slot (Memref.whole cc0_scratch8) _ (k0_off21_inb c r)) (slot_words (Memref.isWhole_whole _) (k0_off21_wordsbf16 c r)) (slot_words (Memref.isWhole_whole _) (k0_off21_wordsbf16 c r)) k
def w3B (c : Dev nD) (r : Fin 4) (k : P F α) : P F α :=
  stepW (sSem (c2 r 41)) (slot (Memref.whole cc0_scratch8) _ (k0_off23_inb c r)) (slot (Memref.whole cc0_scratch8) _ (k0_off23_inb c r)) (slot_words (Memref.isWhole_whole _) (k0_off23_wordsbf16 c r)) (slot_words (Memref.isWhole_whole _) (k0_off23_wordsbf16 c r)) k

def stBar (c : Dev nD) (k : P F α) : P F α :=
  stepBar ((SemArray.scalar (sig.barrier 0 rfl) : Sems sig S_).sem) (⟨k0_dev1 c, k0_dev1_lt c⟩ : Dev nD) (⟨k0_dev2 c, k0_dev2_lt c⟩ : Dev nD) k

def st0 (c : Dev nD) (k : P F α) : P F α :=
  s0A c 0 <| s0B c 0 <|
  s0A c 1 <| s0B c 1 <|
  s0A c 2 <| s0B c 2 <|
  s0A c 3 <| s0B c 3 <|
  s0C c 0 <| s0D c 0 <|
  s0C c 1 <| s0D c 1 <|
  s0C c 2 <| s0D c 2 <|
  s0C c 3 <| s0D c 3 <| k

def st1 (c : Dev nD) (k : P F α) : P F α :=
  s1A c 0 <| s1B c 0 <|
  s1A c 1 <| s1B c 1 <|
  s1A c 2 <| s1B c 2 <|
  s1A c 3 <| s1B c 3 <| k

def st2 (c : Dev nD) (k : P F α) : P F α :=
  s2A c 0 <| s2B c 0 <|
  s2A c 1 <| s2B c 1 <|
  s2A c 2 <| s2B c 2 <|
  s2A c 3 <| s2B c 3 <| k

def st3f (c : Dev nD) (k : P F α) : P F α :=
  s3fA c 0 <| s3fB c 0 <|
  s3fA c 1 <| s3fB c 1 <|
  s3fA c 2 <| s3fB c 2 <|
  s3fA c 3 <| s3fB c 3 <| k

def st3a (c : Dev nD) (k : P F α) : P F α :=
  s3aA c 0 <| s3aB c 0 <|
  s3aA c 1 <| s3aB c 1 <|
  s3aA c 2 <| s3aB c 2 <|
  s3aA c 3 <| s3aB c 3 <| k

def st3c (c : Dev nD) (k : P F α) : P F α :=
  s3cA c 0 <| s3cB c 0 <|
  s3cA c 1 <| s3cB c 1 <|
  s3cA c 2 <| s3cB c 2 <|
  s3cA c 3 <| s3cB c 3 <| k

def stW (c : Dev nD) (k : P F α) : P F α :=
  w0A c 0 <| w0B c 0 <|
  w0A c 1 <| w0B c 1 <|
  w0A c 2 <| w0B c 2 <|
  w0A c 3 <| w0B c 3 <|
  w0C c 0 <| w0D c 0 <|
  w0C c 1 <| w0D c 1 <|
  w0C c 2 <| w0D c 2 <|
  w0C c 3 <| w0D c 3 <|
  w1A c 0 <| w1B c 0 <|
  w1A c 1 <| w1B c 1 <|
  w1A c 2 <| w1B c 2 <|
  w1A c 3 <| w1B c 3 <|
  w2A c 0 <| w2A' c 0 <| w2B c 0 <| w2B' c 0 <|
  w2A c 1 <| w2A' c 1 <| w2B c 1 <| w2B' c 1 <|
  w2A c 2 <| w2A' c 2 <| w2B c 2 <| w2B' c 2 <|
  w2A c 3 <| w2A' c 3 <| w2B c 3 <| w2B' c 3 <|
  w3A c 0 <| w3B c 0 <|
  w3A c 1 <| w3B c 1 <|
  w3A c 2 <| w3B c 2 <|
  w3A c 3 <| w3B c 3 <| k

def flat (c : Dev nD) : P F PUnit :=
  stBar c <| st0 c <| st1 c <| st2 c <| st3f c <| st3a c <| st3c c <| stW c <| (pure ⟨⟩ : Prog (TpuEff nD τ sig (Elt F) Λ₀ .tc) PUnit)

set_option maxHeartbeats 8000000 in

theorem body_eq : cc0_body (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10
    = ((Prog.lift .deviceId : Prog (TpuEff nD τ sig (Elt F) Λ₀ .tc) (Dev nD)) >>= fun c => flat c) := rfl

end Cert.KernelIdeal.Pf

end
-- ==== Proof.Geom.lean ====
import proofs.«900778_g7700000000000779_dist_f_of_ar_i_m1024_n512_v7x_i4_f32_1_alg».proof.Proof.Gen.KernelIdeal
import Idealize.ShloMosaic.Lib.Decide
import Mathlib.Data.Fin.VecNotation

set_option synthInstance.maxSize 4096
set_option Elab.async false

open Cert.KernelIdeal Cert.KernelIdeal.Gen Idealize.ShloMosaic

namespace Cert.KernelIdeal.Geo

def xp (c : Dev nD) : Dev nD := ⟨3 - c.val, Nat.lt_of_le_of_lt (Nat.sub_le 3 c.val) (by decide)⟩

def yp (c : Dev nD) : Dev nD := ⟨c.val ^^^ 1, Nat.xor_lt_two_pow (n := 2) c.isLt (by decide)⟩

@[simp] theorem xp_val (c : Dev nD) : (xp c).val = 3 - c.val := rfl
@[simp] theorem yp_val (c : Dev nD) : (yp c).val = c.val ^^^ 1 := rfl

@[simp] theorem xp_xp (c : Dev nD) : xp (xp c) = c := by revert c; decide +kernel
@[simp] theorem yp_yp (c : Dev nD) : yp (yp c) = c := by revert c; decide +kernel

theorem dev_eq_1 (c : Dev nD) : (⟨k0_dev1 c, k0_dev1_lt c⟩ : Dev nD) = xp c := by revert c; decide +kernel
theorem dev_eq_2 (c : Dev nD) : (⟨k0_dev2 c, k0_dev2_lt c⟩ : Dev nD) = yp c := by revert c; decide +kernel
theorem dev_eq_3 (c : Dev nD) : (⟨k0_dev3 c, k0_dev3_lt c⟩ : Dev nD) = xp c := by revert c; decide +kernel
theorem dev_eq_4 (c : Dev nD) : (⟨k0_dev4 c, k0_dev4_lt c⟩ : Dev nD) = yp c := by revert c; decide +kernel
theorem dev_eq_5 (c : Dev nD) : (⟨k0_dev5 c, k0_dev5_lt c⟩ : Dev nD) = xp c := by revert c; decide +kernel
theorem dev_eq_6 (c : Dev nD) : (⟨k0_dev6 c, k0_dev6_lt c⟩ : Dev nD) = yp c := by revert c; decide +kernel
theorem dev_eq_7 (c : Dev nD) : (⟨k0_dev7 c, k0_dev7_lt c⟩ : Dev nD) = xp c := by revert c; decide +kernel
theorem dev_eq_8 (c : Dev nD) : (⟨k0_dev8 c, k0_dev8_lt c⟩ : Dev nD) = yp c := by revert c; decide +kernel
theorem dev_eq_9 (c : Dev nD) : (⟨k0_dev9 c, k0_dev9_lt c⟩ : Dev nD) = xp c := by revert c; decide +kernel
theorem dev_eq_10 (c : Dev nD) : (⟨k0_dev10 c, k0_dev10_lt c⟩ : Dev nD) = yp c := by revert c; decide +kernel
theorem dev_eq_27 (c : Dev nD) : (⟨k0_dev27 c, k0_dev27_lt c⟩ : Dev nD) = yp c := by revert c; decide +kernel
theorem dev_eq_28 (c : Dev nD) : (⟨k0_dev28 c, k0_dev28_lt c⟩ : Dev nD) = xp c := by revert c; decide +kernel
theorem dev_eq_29 (c : Dev nD) : (⟨k0_dev29 c, k0_dev29_lt c⟩ : Dev nD) = xp c := by revert c; decide +kernel
theorem dev_eq_30 (c : Dev nD) : (⟨k0_dev30 c, k0_dev30_lt c⟩ : Dev nD) = yp c := by revert c; decide +kernel
theorem dev_eq_31 (c : Dev nD) : (⟨k0_dev31 c, k0_dev31_lt c⟩ : Dev nD) = yp c := by revert c; decide +kernel
theorem dev_eq_32 (c : Dev nD) : (⟨k0_dev32 c, k0_dev32_lt c⟩ : Dev nD) = xp c := by revert c; decide +kernel
theorem dev_eq_33 (c : Dev nD) : (⟨k0_dev33 c, k0_dev33_lt c⟩ : Dev nD) = xp c := by revert c; decide +kernel
theorem dev_eq_34 (c : Dev nD) : (⟨k0_dev34 c, k0_dev34_lt c⟩ : Dev nD) = yp c := by revert c; decide +kernel
theorem dev_eq_35 (c : Dev nD) : (⟨k0_dev35 c, k0_dev35_lt c⟩ : Dev nD) = yp c := by revert c; decide +kernel
theorem dev_eq_36 (c : Dev nD) : (⟨k0_dev36 c, k0_dev36_lt c⟩ : Dev nD) = xp c := by revert c; decide +kernel
theorem dev_eq_37 (c : Dev nD) : (⟨k0_dev37 c, k0_dev37_lt c⟩ : Dev nD) = xp c := by revert c; decide +kernel
theorem dev_eq_38 (c : Dev nD) : (⟨k0_dev38 c, k0_dev38_lt c⟩ : Dev nD) = yp c := by revert c; decide +kernel
theorem dev_eq_39 (c : Dev nD) : (⟨k0_dev39 c, k0_dev39_lt c⟩ : Dev nD) = yp c := by revert c; decide +kernel
theorem dev_eq_40 (c : Dev nD) : (⟨k0_dev40 c, k0_dev40_lt c⟩ : Dev nD) = xp c := by revert c; decide +kernel
theorem dev_eq_41 (c : Dev nD) : (⟨k0_dev41 c, k0_dev41_lt c⟩ : Dev nD) = xp c := by revert c; decide +kernel
theorem dev_eq_42 (c : Dev nD) : (⟨k0_dev42 c, k0_dev42_lt c⟩ : Dev nD) = yp c := by revert c; decide +kernel
theorem dev_eq_43 (c : Dev nD) : (⟨k0_dev43 c, k0_dev43_lt c⟩ : Dev nD) = xp c := by revert c; decide +kernel
theorem dev_eq_44 (c : Dev nD) : (⟨k0_dev44 c, k0_dev44_lt c⟩ : Dev nD) = yp c := by revert c; decide +kernel
theorem dev_eq_45 (c : Dev nD) : (⟨k0_dev45 c, k0_dev45_lt c⟩ : Dev nD) = xp c := by revert c; decide +kernel
theorem dev_eq_46 (c : Dev nD) : (⟨k0_dev46 c, k0_dev46_lt c⟩ : Dev nD) = yp c := by revert c; decide +kernel
theorem dev_eq_47 (c : Dev nD) : (⟨k0_dev47 c, k0_dev47_lt c⟩ : Dev nD) = xp c := by revert c; decide +kernel
theorem dev_eq_48 (c : Dev nD) : (⟨k0_dev48 c, k0_dev48_lt c⟩ : Dev nD) = yp c := by revert c; decide +kernel
theorem dev_eq_49 (c : Dev nD) : (⟨k0_dev49 c, k0_dev49_lt c⟩ : Dev nD) = xp c := by revert c; decide +kernel
theorem dev_eq_50 (c : Dev nD) : (⟨k0_dev50 c, k0_dev50_lt c⟩ : Dev nD) = yp c := by revert c; decide +kernel

def hx (c : Dev nD) : Nat := c.val / 2

def hy (c : Dev nD) : Nat := (c.val ^^^ (c.val / 2)) % 2

theorem vec2_ext {v : Fin 2 → Nat} {x y : Nat} (h0 : v 0 = x) (h1 : v 1 = y) : v = ![x, y] := by
  funext a
  rcases a with ⟨a, ha⟩
  match a, ha with
  | 0, _ => exact h0
  | 1, _ => exact h1
  | n + 2, ha => exact absurd ha (by omega)

def row1 (c : Dev nD) : Nat := 256 * (1 - hx c) + 128 * (1 - hy c)
theorem off_eq_1 (c : Dev nD) (r : Fin 4) : k0_off1 c (BitVec.ofNat 32 (32 * r.val)) = ![row1 c + 32 * r.val, 0] :=
  have h : ∀ (c : Dev nD) (r : Fin 4), k0_off1 c (BitVec.ofNat 32 (32 * r.val)) 0 = row1 c + 32 * r.val ∧ k0_off1 c (BitVec.ofNat 32 (32 * r.val)) 1 = 0 := by
    decide +kernel
  vec2_ext (h c r).1 (h c r).2

def row2 (c : Dev nD) : Nat := 128 * (1 - hy c)
theorem off_eq_2 (c : Dev nD) (r : Fin 4) : k0_off2 c (BitVec.ofNat 32 (32 * r.val)) = ![row2 c + 32 * r.val, 0] :=
  have h : ∀ (c : Dev nD) (r : Fin 4), k0_off2 c (BitVec.ofNat 32 (32 * r.val)) 0 = row2 c + 32 * r.val ∧ k0_off2 c (BitVec.ofNat 32 (32 * r.val)) 1 = 0 := by
    decide +kernel
  vec2_ext (h c r).1 (h c r).2

def row3 (c : Dev nD) : Nat := 128 * (1 - hy c)
theorem off_eq_3 (c : Dev nD) (r : Fin 4) : k0_off3 c (BitVec.ofNat 32 (32 * r.val)) = ![row3 c + 32 * r.val, 0] :=
  have h : ∀ (c : Dev nD) (r : Fin 4), k0_off3 c (BitVec.ofNat 32 (32 * r.val)) 0 = row3 c + 32 * r.val ∧ k0_off3 c (BitVec.ofNat 32 (32 * r.val)) 1 = 0 := by
    decide +kernel
  vec2_ext (h c r).1 (h c r).2

def row5 (c : Dev nD) : Nat := 128 * (1 - hx c)
theorem off_eq_5 (c : Dev nD) (r : Fin 4) : k0_off5 c (BitVec.ofNat 32 (32 * r.val)) = ![row5 c + 32 * r.val, 0] :=
  have h : ∀ (c : Dev nD) (r : Fin 4), k0_off5 c (BitVec.ofNat 32 (32 * r.val)) 0 = row5 c + 32 * r.val ∧ k0_off5 c (BitVec.ofNat 32 (32 * r.val)) 1 = 0 := by
    decide +kernel
  vec2_ext (h c r).1 (h c r).2

def row6 (c : Dev nD) : Nat := 128 * (1 - hx c)
theorem off_eq_6 (c : Dev nD) (r : Fin 4) : k0_off6 c (BitVec.ofNat 32 (32 * r.val)) = ![row6 c + 32 * r.val, 0] :=
  have h : ∀ (c : Dev nD) (r : Fin 4), k0_off6 c (BitVec.ofNat 32 (32 * r.val)) 0 = row6 c + 32 * r.val ∧ k0_off6 c (BitVec.ofNat 32 (32 * r.val)) 1 = 0 := by
    decide +kernel
  vec2_ext (h c r).1 (h c r).2

def row8 (c : Dev nD) : Nat := 128 * hy c
theorem off_eq_8 (c : Dev nD) (r : Fin 4) : k0_off8 c (BitVec.ofNat 32 (32 * r.val)) = ![row8 c + 32 * r.val, 0] :=
  have h : ∀ (c : Dev nD) (r : Fin 4), k0_off8 c (BitVec.ofNat 32 (32 * r.val)) 0 = row8 c + 32 * r.val ∧ k0_off8 c (BitVec.ofNat 32 (32 * r.val)) 1 = 0 := by
    decide +kernel
  vec2_ext (h c r).1 (h c r).2

def row9 (c : Dev nD) : Nat := 128 * hy c
theorem off_eq_9 (c : Dev nD) (r : Fin 4) : k0_off9 c (BitVec.ofNat 32 (32 * r.val)) = ![row9 c + 32 * r.val, 0] :=
  have h : ∀ (c : Dev nD) (r : Fin 4), k0_off9 c (BitVec.ofNat 32 (32 * r.val)) 0 = row9 c + 32 * r.val ∧ k0_off9 c (BitVec.ofNat 32 (32 * r.val)) 1 = 0 := by
    decide +kernel
  vec2_ext (h c r).1 (h c r).2

def row11 (c : Dev nD) : Nat := 128 * hx c
theorem off_eq_11 (c : Dev nD) (r : Fin 4) : k0_off11 c (BitVec.ofNat 32 (32 * r.val)) = ![row11 c + 32 * r.val, 0] :=
  have h : ∀ (c : Dev nD) (r : Fin 4), k0_off11 c (BitVec.ofNat 32 (32 * r.val)) 0 = row11 c + 32 * r.val ∧ k0_off11 c (BitVec.ofNat 32 (32 * r.val)) 1 = 0 := by
    decide +kernel
  vec2_ext (h c r).1 (h c r).2

def row12 (c : Dev nD) : Nat := 128 * hx c
theorem off_eq_12 (c : Dev nD) (r : Fin 4) : k0_off12 c (BitVec.ofNat 32 (32 * r.val)) = ![row12 c + 32 * r.val, 0] :=
  have h : ∀ (c : Dev nD) (r : Fin 4), k0_off12 c (BitVec.ofNat 32 (32 * r.val)) 0 = row12 c + 32 * r.val ∧ k0_off12 c (BitVec.ofNat 32 (32 * r.val)) 1 = 0 := by
    decide +kernel
  vec2_ext (h c r).1 (h c r).2

def row16 (c : Dev nD) : Nat := 256 * hx c + 128 * hy c
theorem off_eq_16 (c : Dev nD) (r : Fin 4) : k0_off16 c (BitVec.ofNat 32 (32 * r.val)) = ![row16 c + 32 * r.val, 0] :=
  have h : ∀ (c : Dev nD) (r : Fin 4), k0_off16 c (BitVec.ofNat 32 (32 * r.val)) 0 = row16 c + 32 * r.val ∧ k0_off16 c (BitVec.ofNat 32 (32 * r.val)) 1 = 0 := by
    decide +kernel
  vec2_ext (h c r).1 (h c r).2

def row17 (c : Dev nD) : Nat := 256 * hx c + 128 * hy c
theorem off_eq_17 (c : Dev nD) (r : Fin 4) : k0_off17 c (BitVec.ofNat 32 (32 * r.val)) = ![row17 c + 32 * r.val, 0] :=
  have h : ∀ (c : Dev nD) (r : Fin 4), k0_off17 c (BitVec.ofNat 32 (32 * r.val)) 0 = row17 c + 32 * r.val ∧ k0_off17 c (BitVec.ofNat 32 (32 * r.val)) 1 = 0 := by
    decide +kernel
  vec2_ext (h c r).1 (h c r).2

def row19 (c : Dev nD) : Nat := 512 + 256 * hy c + 128 * hx c
theorem off_eq_19 (c : Dev nD) (r : Fin 4) : k0_off19 c (BitVec.ofNat 32 (32 * r.val)) = ![row19 c + 32 * r.val, 0] :=
  have h : ∀ (c : Dev nD) (r : Fin 4), k0_off19 c (BitVec.ofNat 32 (32 * r.val)) 0 = row19 c + 32 * r.val ∧ k0_off19 c (BitVec.ofNat 32 (32 * r.val)) 1 = 0 := by
    decide +kernel
  vec2_ext (h c r).1 (h c r).2

def row20 (c : Dev nD) : Nat := 512 + 256 * hy c + 128 * hx c
theorem off_eq_20 (c : Dev nD) (r : Fin 4) : k0_off20 c (BitVec.ofNat 32 (32 * r.val)) = ![row20 c + 32 * r.val, 0] :=
  have h : ∀ (c : Dev nD) (r : Fin 4), k0_off20 c (BitVec.ofNat 32 (32 * r.val)) 0 = row20 c + 32 * r.val ∧ k0_off20 c (BitVec.ofNat 32 (32 * r.val)) 1 = 0 := by
    decide +kernel
  vec2_ext (h c r).1 (h c r).2

def row21 (c : Dev nD) : Nat := 256 * hx c + 128 * (1 - hy c)
theorem off_eq_21 (c : Dev nD) (r : Fin 4) : k0_off21 c (BitVec.ofNat 32 (32 * r.val)) = ![row21 c + 32 * r.val, 0] :=
  have h : ∀ (c : Dev nD) (r : Fin 4), k0_off21 c (BitVec.ofNat 32 (32 * r.val)) 0 = row21 c + 32 * r.val ∧ k0_off21 c (BitVec.ofNat 32 (32 * r.val)) 1 = 0 := by
    decide +kernel
  vec2_ext (h c r).1 (h c r).2

def row22 (c : Dev nD) : Nat := 256 * hx c + 128 * (1 - hy c)
theorem off_eq_22 (c : Dev nD) (r : Fin 4) : k0_off22 c (BitVec.ofNat 32 (32 * r.val)) = ![row22 c + 32 * r.val, 0] :=
  have h : ∀ (c : Dev nD) (r : Fin 4), k0_off22 c (BitVec.ofNat 32 (32 * r.val)) 0 = row22 c + 32 * r.val ∧ k0_off22 c (BitVec.ofNat 32 (32 * r.val)) 1 = 0 := by
    decide +kernel
  vec2_ext (h c r).1 (h c r).2

def row23 (c : Dev nD) : Nat := 512 + 256 * hy c + 128 * (1 - hx c)
theorem off_eq_23 (c : Dev nD) (r : Fin 4) : k0_off23 c (BitVec.ofNat 32 (32 * r.val)) = ![row23 c + 32 * r.val, 0] :=
  have h : ∀ (c : Dev nD) (r : Fin 4), k0_off23 c (BitVec.ofNat 32 (32 * r.val)) 0 = row23 c + 32 * r.val ∧ k0_off23 c (BitVec.ofNat 32 (32 * r.val)) 1 = 0 := by
    decide +kernel
  vec2_ext (h c r).1 (h c r).2

def row24 (c : Dev nD) : Nat := 512 + 256 * hy c + 128 * (1 - hx c)
theorem off_eq_24 (c : Dev nD) (r : Fin 4) : k0_off24 c (BitVec.ofNat 32 (32 * r.val)) = ![row24 c + 32 * r.val, 0] :=
  have h : ∀ (c : Dev nD) (r : Fin 4), k0_off24 c (BitVec.ofNat 32 (32 * r.val)) 0 = row24 c + 32 * r.val ∧ k0_off24 c (BitVec.ofNat 32 (32 * r.val)) 1 = 0 := by
    decide +kernel
  vec2_ext (h c r).1 (h c r).2

def row25 (c : Dev nD) : Nat := 256 * (1 - hx c) + 128 * hy c
theorem off_eq_25 (c : Dev nD) (r : Fin 4) : k0_off25 c (BitVec.ofNat 32 (32 * r.val)) = ![row25 c + 32 * r.val, 0] :=
  have h : ∀ (c : Dev nD) (r : Fin 4), k0_off25 c (BitVec.ofNat 32 (32 * r.val)) 0 = row25 c + 32 * r.val ∧ k0_off25 c (BitVec.ofNat 32 (32 * r.val)) 1 = 0 := by
    decide +kernel
  vec2_ext (h c r).1 (h c r).2

def row26 (c : Dev nD) : Nat := 512 + 256 * (1 - hy c) + 128 * hx c
theorem off_eq_26 (c : Dev nD) (r : Fin 4) : k0_off26 c (BitVec.ofNat 32 (32 * r.val)) = ![row26 c + 32 * r.val, 0] :=
  have h : ∀ (c : Dev nD) (r : Fin 4), k0_off26 c (BitVec.ofNat 32 (32 * r.val)) 0 = row26 c + 32 * r.val ∧ k0_off26 c (BitVec.ofNat 32 (32 * r.val)) 1 = 0 := by
    decide +kernel
  vec2_ext (h c r).1 (h c r).2

def row27 (c : Dev nD) : Nat := 256 * (1 - hx c) + 128 * (1 - hy c)
theorem off_eq_27 (c : Dev nD) (r : Fin 4) : k0_off27 c (BitVec.ofNat 32 (32 * r.val)) = ![row27 c + 32 * r.val, 0] :=
  have h : ∀ (c : Dev nD) (r : Fin 4), k0_off27 c (BitVec.ofNat 32 (32 * r.val)) 0 = row27 c + 32 * r.val ∧ k0_off27 c (BitVec.ofNat 32 (32 * r.val)) 1 = 0 := by
    decide +kernel
  vec2_ext (h c r).1 (h c r).2

def row28 (c : Dev nD) : Nat := 512 + 256 * (1 - hy c) + 128 * (1 - hx c)
theorem off_eq_28 (c : Dev nD) (r : Fin 4) : k0_off28 c (BitVec.ofNat 32 (32 * r.val)) = ![row28 c + 32 * r.val, 0] :=
  have h : ∀ (c : Dev nD) (r : Fin 4), k0_off28 c (BitVec.ofNat 32 (32 * r.val)) 0 = row28 c + 32 * r.val ∧ k0_off28 c (BitVec.ofNat 32 (32 * r.val)) 1 = 0 := by
    decide +kernel
  vec2_ext (h c r).1 (h c r).2

theorem off17_eq_off16 (c : Dev nD) (r : Fin 4) : k0_off17 c (BitVec.ofNat 32 (32 * r.val)) = k0_off16 c (BitVec.ofNat 32 (32 * r.val)) :=
  (off_eq_17 c r).trans (off_eq_16 c r).symm
theorem off20_eq_off19 (c : Dev nD) (r : Fin 4) : k0_off20 c (BitVec.ofNat 32 (32 * r.val)) = k0_off19 c (BitVec.ofNat 32 (32 * r.val)) :=
  (off_eq_20 c r).trans (off_eq_19 c r).symm
theorem off22_eq_off21 (c : Dev nD) (r : Fin 4) : k0_off22 c (BitVec.ofNat 32 (32 * r.val)) = k0_off21 c (BitVec.ofNat 32 (32 * r.val)) :=
  (off_eq_22 c r).trans (off_eq_21 c r).symm
theorem off24_eq_off23 (c : Dev nD) (r : Fin 4) : k0_off24 c (BitVec.ofNat 32 (32 * r.val)) = k0_off23 c (BitVec.ofNat 32 (32 * r.val)) :=
  (off_eq_24 c r).trans (off_eq_23 c r).symm

theorem row3_xp (c : Dev nD) : row3 (xp c) = row2 c := by revert c; decide +kernel
theorem off3_xp_eq_off2 (c : Dev nD) (r : Fin 4) : k0_off3 (xp c) (BitVec.ofNat 32 (32 * r.val)) = k0_off2 c (BitVec.ofNat 32 (32 * r.val)) := by
  rw [off_eq_3, off_eq_2, row3_xp]
theorem row9_xp (c : Dev nD) : row9 (xp c) = row8 c := by revert c; decide +kernel
theorem off9_xp_eq_off8 (c : Dev nD) (r : Fin 4) : k0_off9 (xp c) (BitVec.ofNat 32 (32 * r.val)) = k0_off8 c (BitVec.ofNat 32 (32 * r.val)) := by
  rw [off_eq_9, off_eq_8, row9_xp]
theorem row6_yp (c : Dev nD) : row6 (yp c) = row5 c := by revert c; decide +kernel
theorem off6_yp_eq_off5 (c : Dev nD) (r : Fin 4) : k0_off6 (yp c) (BitVec.ofNat 32 (32 * r.val)) = k0_off5 c (BitVec.ofNat 32 (32 * r.val)) := by
  rw [off_eq_6, off_eq_5, row6_yp]
theorem row12_yp (c : Dev nD) : row12 (yp c) = row11 c := by revert c; decide +kernel
theorem off12_yp_eq_off11 (c : Dev nD) (r : Fin 4) : k0_off12 (yp c) (BitVec.ofNat 32 (32 * r.val)) = k0_off11 c (BitVec.ofNat 32 (32 * r.val)) := by
  rw [off_eq_12, off_eq_11, row12_yp]
theorem row17_yp (c : Dev nD) : row17 (yp c) = row21 c := by revert c; decide +kernel
theorem off17_yp_eq_off21 (c : Dev nD) (r : Fin 4) : k0_off17 (yp c) (BitVec.ofNat 32 (32 * r.val)) = k0_off21 c (BitVec.ofNat 32 (32 * r.val)) := by
  rw [off_eq_17, off_eq_21, row17_yp]
theorem row20_xp (c : Dev nD) : row20 (xp c) = row23 c := by revert c; decide +kernel
theorem off20_xp_eq_off23 (c : Dev nD) (r : Fin 4) : k0_off20 (xp c) (BitVec.ofNat 32 (32 * r.val)) = k0_off23 c (BitVec.ofNat 32 (32 * r.val)) := by
  rw [off_eq_20, off_eq_23, row20_xp]
theorem row17_xp (c : Dev nD) : row17 (xp c) = row25 c := by revert c; decide +kernel
theorem off17_xp_eq_off25 (c : Dev nD) (r : Fin 4) : k0_off17 (xp c) (BitVec.ofNat 32 (32 * r.val)) = k0_off25 c (BitVec.ofNat 32 (32 * r.val)) := by
  rw [off_eq_17, off_eq_25, row17_xp]
theorem row20_yp (c : Dev nD) : row20 (yp c) = row26 c := by revert c; decide +kernel
theorem off20_yp_eq_off26 (c : Dev nD) (r : Fin 4) : k0_off20 (yp c) (BitVec.ofNat 32 (32 * r.val)) = k0_off26 c (BitVec.ofNat 32 (32 * r.val)) := by
  rw [off_eq_20, off_eq_26, row20_yp]
theorem row21_xp (c : Dev nD) : row21 (xp c) = row27 c := by revert c; decide +kernel
theorem off21_xp_eq_off27 (c : Dev nD) (r : Fin 4) : k0_off21 (xp c) (BitVec.ofNat 32 (32 * r.val)) = k0_off27 c (BitVec.ofNat 32 (32 * r.val)) := by
  rw [off_eq_21, off_eq_27, row21_xp]
theorem row23_yp (c : Dev nD) : row23 (yp c) = row28 c := by revert c; decide +kernel
theorem off23_yp_eq_off28 (c : Dev nD) (r : Fin 4) : k0_off23 (yp c) (BitVec.ofNat 32 (32 * r.val)) = k0_off28 c (BitVec.ofNat 32 (32 * r.val)) := by
  rw [off_eq_23, off_eq_28, row23_yp]

theorem off_eq_3_0 (c : Dev nD) : k0_off3 c 0#32 = ![row3 c, 0] := off_eq_3 c 0
theorem off_eq_3_32 (c : Dev nD) : k0_off3 c 32#32 = ![row3 c + 32, 0] := off_eq_3 c 1
theorem off_eq_3_64 (c : Dev nD) : k0_off3 c 64#32 = ![row3 c + 64, 0] := off_eq_3 c 2
theorem off_eq_3_96 (c : Dev nD) : k0_off3 c 96#32 = ![row3 c + 96, 0] := off_eq_3 c 3
theorem off_eq_6_0 (c : Dev nD) : k0_off6 c 0#32 = ![row6 c, 0] := off_eq_6 c 0
theorem off_eq_6_32 (c : Dev nD) : k0_off6 c 32#32 = ![row6 c + 32, 0] := off_eq_6 c 1
theorem off_eq_6_64 (c : Dev nD) : k0_off6 c 64#32 = ![row6 c + 64, 0] := off_eq_6 c 2
theorem off_eq_6_96 (c : Dev nD) : k0_off6 c 96#32 = ![row6 c + 96, 0] := off_eq_6 c 3
theorem off_eq_9_0 (c : Dev nD) : k0_off9 c 0#32 = ![row9 c, 0] := off_eq_9 c 0
theorem off_eq_9_32 (c : Dev nD) : k0_off9 c 32#32 = ![row9 c + 32, 0] := off_eq_9 c 1
theorem off_eq_9_64 (c : Dev nD) : k0_off9 c 64#32 = ![row9 c + 64, 0] := off_eq_9 c 2
theorem off_eq_9_96 (c : Dev nD) : k0_off9 c 96#32 = ![row9 c + 96, 0] := off_eq_9 c 3
theorem off_eq_12_0 (c : Dev nD) : k0_off12 c 0#32 = ![row12 c, 0] := off_eq_12 c 0
theorem off_eq_12_32 (c : Dev nD) : k0_off12 c 32#32 = ![row12 c + 32, 0] := off_eq_12 c 1
theorem off_eq_12_64 (c : Dev nD) : k0_off12 c 64#32 = ![row12 c + 64, 0] := off_eq_12 c 2
theorem off_eq_12_96 (c : Dev nD) : k0_off12 c 96#32 = ![row12 c + 96, 0] := off_eq_12 c 3
theorem off_eq_17_0 (c : Dev nD) : k0_off17 c 0#32 = ![row17 c, 0] := off_eq_17 c 0
theorem off_eq_17_32 (c : Dev nD) : k0_off17 c 32#32 = ![row17 c + 32, 0] := off_eq_17 c 1
theorem off_eq_17_64 (c : Dev nD) : k0_off17 c 64#32 = ![row17 c + 64, 0] := off_eq_17 c 2
theorem off_eq_17_96 (c : Dev nD) : k0_off17 c 96#32 = ![row17 c + 96, 0] := off_eq_17 c 3
theorem off_eq_20_0 (c : Dev nD) : k0_off20 c 0#32 = ![row20 c, 0] := off_eq_20 c 0
theorem off_eq_20_32 (c : Dev nD) : k0_off20 c 32#32 = ![row20 c + 32, 0] := off_eq_20 c 1
theorem off_eq_20_64 (c : Dev nD) : k0_off20 c 64#32 = ![row20 c + 64, 0] := off_eq_20 c 2
theorem off_eq_20_96 (c : Dev nD) : k0_off20 c 96#32 = ![row20 c + 96, 0] := off_eq_20 c 3
theorem off_eq_21_0 (c : Dev nD) : k0_off21 c 0#32 = ![row21 c, 0] := off_eq_21 c 0
theorem off_eq_21_32 (c : Dev nD) : k0_off21 c 32#32 = ![row21 c + 32, 0] := off_eq_21 c 1
theorem off_eq_21_64 (c : Dev nD) : k0_off21 c 64#32 = ![row21 c + 64, 0] := off_eq_21 c 2
theorem off_eq_21_96 (c : Dev nD) : k0_off21 c 96#32 = ![row21 c + 96, 0] := off_eq_21 c 3
theorem off_eq_23_0 (c : Dev nD) : k0_off23 c 0#32 = ![row23 c, 0] := off_eq_23 c 0
theorem off_eq_23_32 (c : Dev nD) : k0_off23 c 32#32 = ![row23 c + 32, 0] := off_eq_23 c 1
theorem off_eq_23_64 (c : Dev nD) : k0_off23 c 64#32 = ![row23 c + 64, 0] := off_eq_23 c 2
theorem off_eq_23_96 (c : Dev nD) : k0_off23 c 96#32 = ![row23 c + 96, 0] := off_eq_23 c 3

/-- info: 'Cert.KernelIdeal.Geo.dev_eq_2' depends on axioms: [propext, Quot.sound] -/
#guard_msgs in #print axioms dev_eq_2
/-- info: 'Cert.KernelIdeal.Geo.off_eq_1' depends on axioms: [propext, Quot.sound] -/
#guard_msgs in #print axioms off_eq_1
/-- info: 'Cert.KernelIdeal.Geo.off17_yp_eq_off21' depends on axioms: [propext, Quot.sound] -/
#guard_msgs in #print axioms off17_yp_eq_off21

end Cert.KernelIdeal.Geo
-- ==== Proof.LibChunkDef.lean ====
import Idealize.ShloMosaic.Rules.PointsTo
import Idealize.ShloMosaic.Rules.Step

noncomputable section

namespace Cert.Chunks

open Idealize.ShloMosaic
open Idealize.SL Idealize.SL.RA Idealize.SL.BI
open scoped Idealize.SL.BI
open Idealize.SL.BI.BIBase Idealize.SL.Sem

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

def chunkAt (c : Thread nD τ) {sp : Space} {s : Shape} {e : EltTy} (v : View sig c.2.kind sp s e) (q : PosShare TreeShare)
    (w : s.Idx → Val e) : sProp 𝕄 :=
  iprop(∃ f : Buf Val (v.loc c), ⌜v.read Val f = w⌝ ∗ (v.loc c ↦[v.set]{q} f))

def chunkAny (c : Thread nD τ) {sp : Space} {s : Shape} {e : EltTy} (v : View sig c.2.kind sp s e) (q : PosShare TreeShare) : sProp 𝕄 :=
  iprop(∃ f : Buf Val (v.loc c), (v.loc c ↦[v.set]{q} f))

end Cert.Chunks

end
-- ==== Proof.Proto.lean ====
import proofs.«900778_g7700000000000779_dist_f_of_ar_i_m1024_n512_v7x_i4_f32_1_alg».proof.Proof.FlatTable
import proofs.«900778_g7700000000000779_dist_f_of_ar_i_m1024_n512_v7x_i4_f32_1_alg».proof.Proof.Geom
import proofs.«900778_g7700000000000779_dist_f_of_ar_i_m1024_n512_v7x_i4_f32_1_alg».proof.Proof.LibChunkDef
import Idealize.ShloMosaic.Lib.Pipeline.Launch
import Idealize.ShloMosaic.Lib.Pipeline.Kit
import Idealize.ShloMosaic.Lib.Decide
import Idealize.ShloMosaic.Lib.Tactic

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

def tgtX (i : Fin 48) : Bool :=
  if i.val < 16 then i.val % 2 == 0
  else if i.val < 24 then i.val % 2 == 1
  else if i.val < 40 then ((i.val - 24) % 4 == 1 || (i.val - 24) % 4 == 2)
  else i.val % 2 == 0

theorem tgt_eq : ∀ (c : Dev nD) (i : Fin 48), tgt c i = bif tgtX i then Geo.xp c else Geo.yp c := by decide +kernel

theorem tgt_tgt : ∀ (c : Dev nD) (i : Fin 48), tgt (tgt c i) i = c := by decide +kernel

abbrev barS : Sem sig := (SemArray.scalar (sig.barrier 0 rfl) : Sems sig S_).sem

abbrev barCell (c : Dev nD) : GSem nD τ sig := ((c : Thread nD τ), .reg barS)
abbrev sendCell (c : Dev nD) (i : Fin 48) : GSem nD τ sig := ((c : Thread nD τ), .dma (sSem i))
abbrev recvCell (c : Dev nD) (i : Fin 48) : GSem nD τ sig := ((c : Thread nD τ), .dma (rSem i))

theorem sSem_val : ∀ i : Fin 48, (sSem i).val = 2 + i.val := by decide
theorem rSem_val : ∀ i : Fin 48, (rSem i).val = 50 + i.val := by decide

def idxOf (q : DmaSem sig) : Option (Bool × Fin 48) :=
  if h : 2 ≤ q.val ∧ q.val < 50 then some (false, ⟨q.val - 2, by omega⟩)
  else if h' : 50 ≤ q.val ∧ q.val < 98 then some (true, ⟨q.val - 50, by omega⟩)
  else none

theorem idxOf_sSem (i : Fin 48) : idxOf (sSem i) = some (false, i) := by
  have h := sSem_val i
  unfold idxOf
  rw [dif_pos (by omega)]
  exact congrArg some (Prod.ext rfl (Fin.ext (by simp only [h]; omega)))

theorem idxOf_rSem (i : Fin 48) : idxOf (rSem i) = some (true, i) := by
  have h := rSem_val i
  unfold idxOf
  rw [dif_neg (by omega), dif_pos (by omega)]
  exact congrArg some (Prod.ext rfl (Fin.ext (by simp only [h]; omega)))

theorem sSem_inj {i j : Fin 48} (h : sSem i = sSem j) : i = j := by
  have := congrArg idxOf h; rw [idxOf_sSem, idxOf_sSem] at this; exact (Prod.ext_iff.mp (Option.some.inj this)).2
theorem rSem_inj {i j : Fin 48} (h : rSem i = rSem j) : i = j := by
  have := congrArg idxOf h; rw [idxOf_rSem, idxOf_rSem] at this; exact (Prod.ext_iff.mp (Option.some.inj this)).2
theorem sSem_ne_rSem (i j : Fin 48) : sSem i ≠ rSem j := fun h => by
  have := congrArg idxOf h; rw [idxOf_sSem, idxOf_rSem] at this; exact Bool.noConfusion (Prod.ext_iff.mp (Option.some.inj this)).1

abbrev N : ℕ := (srcM (0 : Dev nD) (0 : Fin 48)).view.dmaCredit
theorem N_pos : 0 < N := View.dmaCredit_pos _ (by decide)

def xs (c : Dev nD) : (cc0_stg0_0 : Ref sig .tc).ty.Contents (Elt F) :=
  (win0_0.blk (0 : Fin 1)).view.read (Elt F) ((s₀ m ρ).mem ((c : Thread nD τ).loc main_arg0))

def xrd (c : Dev nD) (o : { o : Fin 2 → ℕ // ∀ a, o a + S32x512.size a ≤ S1024x512.size a }) : V32 F :=
  ((Memref.whole cc0_stg0_0 : Memref sig .tc .vmem S1024x512 .f32).access (Rect.unit (s := S1024x512) o.1 S32x512.size o.2)).read (Elt F) (xs m ρ c)

def i0 (j : Fin 8) : Fin 48 := ⟨j.val, by omega⟩
def i8 (j : Fin 8) : Fin 48 := ⟨8 + j.val, by omega⟩
def i16 (j : Fin 8) : Fin 48 := ⟨16 + j.val, by omega⟩
def i24 (j : Fin 8) : Fin 48 := ⟨24 + 2 * j.val, by omega⟩
def i25 (j : Fin 8) : Fin 48 := ⟨25 + 2 * j.val, by omega⟩
def i40 (j : Fin 8) : Fin 48 := ⟨40 + j.val, by omega⟩
def n0 (j : Fin 8) : Fin 16 := ⟨j.val, by omega⟩
def n8 (j : Fin 8) : Fin 16 := ⟨8 + j.val, by omega⟩

def W0 (d : Dev nD) (n : Fin 16) : B32 F := tr (xrd m ρ d (x0o d n))

def W1 (d : Dev nD) (j : Fin 8) : B32 F := addtr (xrd m ρ d (x1o d j)) (W0 m ρ (tgt d (i0 j)) (n0 j))

def O2 (d : Dev nD) (j : Fin 8) : V32 F :=
  fval (xrd m ρ d (x2o d j)) (W0 m ρ (tgt d (i8 j)) (n8 j)) (W1 m ρ (tgt d (i16 j)) j)
def W2 (d : Dev nD) (j : Fin 8) : B32 F :=
  fvalb (xrd m ρ d (x2o d j)) (W0 m ρ (tgt d (i8 j)) (n8 j)) (W1 m ρ (tgt d (i16 j)) j)

def W3 (d : Dev nD) (j : Fin 8) : B32 F := W2 m ρ (tgt d (i24 j)) j

def Wi (d : Dev nD) (i : Fin 48) : B32 F :=
  if h : i.val < 16 then W0 m ρ d ⟨i.val, h⟩
  else if h2 : i.val < 24 then W1 m ρ d ⟨i.val - 16, by omega⟩
  else if h3 : i.val < 40 then W2 m ρ d ⟨(i.val - 24) / 2, by omega⟩
  else W3 m ρ d ⟨i.val - 40, by omega⟩

def outV (c : Dev nD) (o : Fin 32) : V32 F :=
  if h : o.val < 8 then O2 m ρ c ⟨o.val, h⟩
  else if h2 : o.val < 16 then ext (W2 m ρ (tgt c (i24 ⟨o.val - 8, by omega⟩)) ⟨o.val - 8, by omega⟩)
  else if h3 : o.val < 24 then ext (W2 m ρ (tgt c (i25 ⟨o.val - 16, by omega⟩)) ⟨o.val - 16, by omega⟩)
  else ext (W3 m ρ (tgt c (i40 ⟨o.val - 24, by omega⟩)) ⟨o.val - 24, by omega⟩)

abbrev SRC (c : Dev nD) (i : Fin 48) : View sig .tc .vmem S32x512 .bf16 := (srcM c i).view

abbrev DST (c : Dev nD) (i : Fin 48) : View sig .tc .vmem S32x512 .bf16 := (dstM (tgt c i) i).view

abbrev OUTV (c : Dev nD) (o : Fin 32) : View sig .tc .vmem S32x512 .f32 :=
  (Memref.whole cc0_stg1_0 : Memref sig .tc .vmem S1024x512 .f32).access (Rect.unit (s := S1024x512) (outo c o).1 S32x512.size (outo c o).2)

abbrev OBV (c : Dev nD) (o : Fin 32) : View sig .tc .vmem S32x512 .bf16 :=
  (Memref.whole cc0_scratch8 : Memref sig .tc .vmem S1024x512 .bf16).access (Rect.unit (s := S1024x512) (outo c o).1 S32x512.size (outo c o).2)

def sendShare (i : Fin 48) : PosShare TreeShare :=
  if i.val < 24 then fullShare
  else if i.val < 40 then (if i.val % 2 = 0 then fullShare.left else fullShare.right)
  else fullShare.left

def recvPay (c : Dev nD) (i : Fin 48) : sProp 𝕄 :=
  chunkAt (c : Thread nD τ) (DST c i) fullShare (Wi m ρ (tgt c i) i)

def sendPay (c : Dev nD) (i : Fin 48) : sProp 𝕄 :=
  chunkAny (c : Thread nD τ) (SRC c i) (sendShare i)

def barPay (n : Dev nD) (b : Bool) : sProp 𝕄 :=
  bigSep (Finset.univ.filter fun i : Fin 48 => tgtX i = b) fun i =>
    chunkAny ((tgt n i : Dev nD) : Thread nD τ) (dstM n i).view fullShare

def Rd : Rounds.Schedule (GSem nD τ sig) Bool 𝕄 where
  duties g r :=
    if r = 0 ∧ g.1.2 = .tc then
      (match g.2 with
        | .reg s => if s = barS then Finset.univ else ∅
        | .dma q => if (idxOf q).isSome then {false} else ∅)
    else ∅
  unitless _ := False
  amount g _ _ := if g.2 = .reg barS then 1 else N
  payload g _ d :=
    match g.2 with
    | .reg s => if s = barS then barPay g.1.1 d else iprop(emp)
    | .dma q =>
      match idxOf q with
      | some (true, i) => recvPay m ρ g.1.1 i
      | some (false, i) => sendPay g.1.1 i
      | none => iprop(emp)
  amount_pos g _ _ _ := by
    by_cases h : g.2 = .reg barS
    · rw [if_pos h]; exact Nat.one_pos
    · rw [if_neg h]; exact N_pos

section Sched
variable (c : Dev nD) (i : Fin 48)

theorem duties_bar : (Rd (F := F) m ρ).duties (barCell c) 0 = Finset.univ := by
  dsimp only [Rd]; rw [if_pos ⟨rfl, rfl⟩]; exact if_pos rfl
theorem duties_send : (Rd (F := F) m ρ).duties (sendCell c i) 0 = {false} := by
  dsimp only [Rd]; rw [if_pos ⟨rfl, rfl⟩]; (try dsimp only); rw [idxOf_sSem]; rfl
theorem duties_recv : (Rd (F := F) m ρ).duties (recvCell c i) 0 = {false} := by
  dsimp only [Rd]; rw [if_pos ⟨rfl, rfl⟩]; (try dsimp only); rw [idxOf_rSem]; rfl
theorem duties_later (g : GSem nD τ sig) : ∀ r, 1 ≤ r → (Rd (F := F) m ρ).duties g r = ∅ :=
  fun r hr => by dsimp only [Rd]; rw [if_neg fun h => by omega]

theorem amount_bar (d : Bool) : (Rd (F := F) m ρ).amount (barCell c) 0 d = 1 := by dsimp only [Rd]; exact if_pos rfl
theorem amount_send (d : Bool) : (Rd (F := F) m ρ).amount (sendCell c i) 0 d = N := by
  dsimp only [Rd]; exact if_neg (fun h => by cases h)
theorem amount_recv (d : Bool) : (Rd (F := F) m ρ).amount (recvCell c i) 0 d = N := by
  dsimp only [Rd]; exact if_neg (fun h => by cases h)

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (Rd (F := F) m ρ).expect (sendCell c i) 0 = N := by
  unfold Schedule.expect Schedule.amountOf; rw [duties_send, Finset.sum_singleton, amount_send]
theorem expect_recv : (Rd (F := F) m ρ).expect (recvCell c i) 0 = N := by
  unfold Schedule.expect Schedule.amountOf; rw [duties_recv, Finset.sum_singleton, amount_recv]

theorem payload_bar (d : Bool) : (Rd (F := F) m ρ).payload (barCell c) 0 d = barPay c d := by
  dsimp only [Rd]; (try dsimp only); exact if_pos rfl
theorem payload_send (d : Bool) : (Rd (F := F) m ρ).payload (sendCell c i) 0 d = sendPay c i := by
  dsimp only [Rd]; (try dsimp only); rw [idxOf_sSem]
theorem payload_recv (d : Bool) : (Rd (F := F) m ρ).payload (recvCell c i) 0 d = recvPay m ρ c i := by
  dsimp only [Rd]; (try dsimp only); rw [idxOf_rSem]

theorem rest_send : bigSep ((Rd (F := F) m ρ).duties (sendCell c i) 0 \ ∅) (fun d => (Rd (F := F) m ρ).payload (sendCell c i) 0 d) = sendPay c i := by
  rw [Finset.sdiff_empty, duties_send, bigSep_singleton, payload_send]
theorem rest_recv : bigSep ((Rd (F := F) m ρ).duties (recvCell c i) 0 \ ∅) (fun d => (Rd (F := F) m ρ).payload (recvCell c i) 0 d) = recvPay m ρ c i := by
  rw [Finset.sdiff_empty, duties_recv, bigSep_singleton, payload_recv]

theorem rest_bar : bigSep ((Rd (F := F) m ρ).duties (barCell c) 0 \ ∅) (fun d => (Rd (F := F) m ρ).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl

end Sched

def Ocopies (c : Dev nD) (S : Finset (Fin 48)) : CellTallies nD τ sig Unit := ∑ i ∈ S, tallyAt (recvCell (tgt c i) i) () N
def O₀ (c : Dev nD) : CellTallies nD τ sig Unit :=
  Ocopies c Finset.univ + tallyAt (barCell (Geo.yp c)) () 1 + tallyAt (barCell (Geo.xp c)) () 1

def L (g : GSem nD τ sig) : Finset Unit := if g.1.2 = .tc then {()} else ∅

def stageOf (i : Fin 48) : ℕ := if i.val < 16 then 0 else if i.val < 24 then 1 else if i.val < 40 then 2 else 3

def lv (g : GSem nD τ sig) (_ : Unit) : ℕ :=
  match g.2 with
  | .reg s => if s = barS then 1 else 0
  | .dma q => match idxOf q with
    | some (true, i) => 2 + stageOf i
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_recv (c : Dev nD) (i : Fin 48) (u : Unit) : lv (recvCell c i) u = 2 + stageOf i := by dsimp only [lv]; rw [idxOf_rSem]
end Cert.KernelIdeal.Pf

end
-- ==== Proof.Inv.lean ====
import proofs.«900778_g7700000000000779_dist_f_of_ar_i_m1024_n512_v7x_i4_f32_1_alg».proof.Proof.Proto

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

def kB : Fin 97 := ⟨0, by omega⟩
def kS (i : Fin 48) : Fin 97 := ⟨1 + i.val, by omega⟩
def kR (i : Fin 48) : Fin 97 := ⟨49 + i.val, by omega⟩
def csem (k : Fin 97) : SemLoc sig :=
  if h : k.val = 0 then .reg barS
  else if h' : k.val < 49 then .dma (sSem ⟨k.val - 1, by omega⟩)
  else .dma (rSem ⟨k.val - 49, by omega⟩)
abbrev kcell (ck : Dev nD × Fin 97) : GSem nD τ sig := ((ck.1 : Thread nD τ), csem ck.2)

theorem csem_kB : csem kB = .reg barS := by unfold csem kB; exact dif_pos rfl
theorem csem_kS (i : Fin 48) : csem (kS i) = .dma (sSem i) := by
  unfold csem kS; rw [dif_neg (by simp only []; omega), dif_pos (by simp only []; omega)]
  exact congrArg (fun j => SemLoc.dma (sSem j)) (Fin.ext (by simp only []; omega))
theorem csem_kR (i : Fin 48) : csem (kR i) = .dma (rSem i) := by
  unfold csem kR; rw [dif_neg (by simp only []; omega), dif_neg (by simp only []; omega)]
  exact congrArg (fun j => SemLoc.dma (rSem j)) (Fin.ext (by simp only []; omega))

variable (K : Dev nD × Fin 97 → ℕ)

def persG (c : Dev nD) : sProp 𝕄 :=
  iprop(cellInv ER (Rd m ρ) (K (c, kB)) (barCell c)
    ∗ cellInv ER (Rd m ρ) (K (Geo.xp c, kB)) (barCell (Geo.xp c)) ∗ cellInv ER (Rd m ρ) (K (Geo.yp c, kB)) (barCell (Geo.yp c))
    ∗ reached ER (barCell (Geo.xp c)) 0 ∗ reached ER (barCell (Geo.yp c)) 0
    ∗ (bigSep Finset.univ fun i : Fin 48 => iprop(cellInv ER (Rd m ρ) (K (c, kS i)) (sendCell c i) ∗ cellInv ER (Rd m ρ) (K (c, kR i)) (recvCell c i)
        ∗ cellInv ER (Rd m ρ) (K (tgt c i, kR i)) (recvCell (tgt c i) i)
        ∗ reached ER (sendCell c i) 0 ∗ reached ER (recvCell c i) 0 ∗ reached ER (recvCell (tgt c i) i) 0)))

instance persG_persistent (c : Dev nD) : BI.Persistent (persG m ρ K c) := by unfold persG; infer_instance

def pers (c : Dev nD) : sProp 𝕄 := iprop(persG m ρ K c ∗ levAts L lv)

instance pers_persistent (c : Dev nD) : BI.Persistent (pers m ρ K c) := by unfold pers; infer_instance

def sendTok (c : Dev nD) (i : Fin 48) : sProp 𝕄 :=
  iprop(chunkAny ((tgt c i : Dev nD) : Thread nD τ) (dstM c i).view fullShare ∗ dutyTok ER (recvCell (tgt c i) i) 0 false
    ∗ dutyTok ER (sendCell c i) 0 false ∗ atPos ER (sendCell c i) 0 ∅ 0)

def sentTok (c : Dev nD) (i : Fin 48) : sProp 𝕄 :=
  iprop(cred (tallyAt (sendCell c i) () N) ∗ atPos ER (sendCell c i) 0 ∅ 0)

def recvTok (c : Dev nD) (i : Fin 48) : sProp 𝕄 :=
  iprop(atPos ER (recvCell c i) 0 ∅ 0 ∗ cred (tallyAt (recvCell c i) () N))

def rcvd (c : Dev nD) (i : Fin 48) (q : PosShare TreeShare) : sProp 𝕄 :=
  iprop(atPos ER (recvCell c i) 1 ∅ 0 ∗ chunkAt (c : Thread nD τ) (DST c i) q (Wi m ρ (tgt c i) i))

def sendDone (c : Dev nD) (i : Fin 48) : sProp 𝕄 :=
  iprop(atPos ER (sendCell c i) 1 ∅ 0 ∗ chunkAny (c : Thread nD τ) (SRC c i) (sendShare i))

def xPts (c : Dev nD) : sProp 𝕄 :=
  ((c : Thread nD τ).loc cc0_stg0_0) ↦{fullShare} xs m ρ c

def owesC (c : Dev nD) (S : Finset (Fin 48)) : sProp 𝕄 :=
  iprop(∃ W : Waits sig Unit, owes (c : Thread nD τ) (Ocopies c S) W)

def o8 (j : Fin 8) : Fin 32 := ⟨j.val, by omega⟩
def o16 (j : Fin 8) : Fin 32 := ⟨j.val + 8, by omega⟩
def o24 (j : Fin 8) : Fin 32 := ⟨j.val + 16, by omega⟩
def o32 (j : Fin 8) : Fin 32 := ⟨j.val + 24, by omega⟩
def c16 (n : Fin 16) : Fin 48 := ⟨n.val, by omega⟩

theorem Wi_c16 (d : Dev nD) (n : Fin 16) : Wi m ρ d (c16 n) = W0 m ρ d n := by
  unfold Wi c16; rw [dif_pos (by simp only []; omega)]
theorem Wi_i0 (d : Dev nD) (j : Fin 8) : Wi m ρ d (i0 j) = W0 m ρ d (n0 j) := by
  unfold Wi i0; rw [dif_pos (by simp only []; omega)]; rfl
theorem Wi_i8 (d : Dev nD) (j : Fin 8) : Wi m ρ d (i8 j) = W0 m ρ d (n8 j) := by
  unfold Wi i8; rw [dif_pos (by simp only []; omega)]; rfl
theorem Wi_i16 (d : Dev nD) (j : Fin 8) : Wi m ρ d (i16 j) = W1 m ρ d j := by
  unfold Wi i16; rw [dif_neg (by simp only []; omega), dif_pos (by simp only []; omega)]
  exact congrArg (W1 m ρ d) (Fin.ext (by simp only []; omega))
theorem Wi_i24 (d : Dev nD) (j : Fin 8) : Wi m ρ d (i24 j) = W2 m ρ d j := by
  unfold Wi i24; rw [dif_neg (by simp only []; omega), dif_neg (by simp only []; omega), dif_pos (by simp only []; omega)]
  exact congrArg (W2 m ρ d) (Fin.ext (by simp only []; omega))
theorem Wi_i25 (d : Dev nD) (j : Fin 8) : Wi m ρ d (i25 j) = W2 m ρ d j := by
  unfold Wi i25; rw [dif_neg (by simp only []; omega), dif_neg (by simp only []; omega), dif_pos (by simp only []; omega)]
  exact congrArg (W2 m ρ d) (Fin.ext (by simp only []; omega))
theorem Wi_i40 (d : Dev nD) (j : Fin 8) : Wi m ρ d (i40 j) = W3 m ρ d j := by
  unfold Wi i40; rw [dif_neg (by simp only []; omega), dif_neg (by simp only []; omega), dif_neg (by simp only []; omega)]
  exact congrArg (W3 m ρ d) (Fin.ext (by simp only []; omega))

theorem outV_o8 (c : Dev nD) (j : Fin 8) : outV m ρ c (o8 j) = O2 m ρ c j := by
  unfold outV o8; rw [dif_pos (by simp only []; omega)]
theorem outV_o16 (c : Dev nD) (j : Fin 8) : outV m ρ c (o16 j) = ext (W2 m ρ (tgt c (i24 j)) j) := by
  have e : (⟨(o16 j).val - 8, by unfold o16; simp only []; omega⟩ : Fin 8) = j := Fin.ext (by unfold o16; simp only []; omega)
  unfold outV; rw [dif_neg (by unfold o16; simp only []; omega), dif_pos (by unfold o16; simp only []; omega)]
  simp only [e]
theorem outV_o24 (c : Dev nD) (j : Fin 8) : outV m ρ c (o24 j) = ext (W2 m ρ (tgt c (i25 j)) j) := by
  have e : (⟨(o24 j).val - 16, by unfold o24; simp only []; omega⟩ : Fin 8) = j := Fin.ext (by unfold o24; simp only []; omega)
  unfold outV; rw [dif_neg (by unfold o24; simp only []; omega), dif_neg (by unfold o24; simp only []; omega), dif_pos (by unfold o24; simp only []; omega)]
  simp only [e]
theorem outV_o32 (c : Dev nD) (j : Fin 8) : outV m ρ c (o32 j) = ext (W3 m ρ (tgt c (i40 j)) j) := by
  have e : (⟨(o32 j).val - 24, by unfold o32; simp only []; omega⟩ : Fin 8) = j := Fin.ext (by unfold o32; simp only []; omega)
  unfold outV; rw [dif_neg (by unfold o32; simp only []; omega), dif_neg (by unfold o32; simp only []; omega), dif_neg (by unfold o32; simp only []; omega)]
  simp only [e]

def pre0 (c : Dev nD) (n : Fin 16) : sProp 𝕄 := iprop(chunkAny (c : Thread nD τ) (SRC c (c16 n)) fullShare ∗ sendTok c (c16 n))
def post0 (c : Dev nD) (n : Fin 16) : sProp 𝕄 := sentTok c (c16 n)

def pre1 (c : Dev nD) (j : Fin 8) : sProp 𝕄 :=
  iprop(recvTok c (i0 j) ∗ chunkAny (c : Thread nD τ) (SRC c (i16 j)) fullShare ∗ sendTok c (i16 j))
def post1 (c : Dev nD) (j : Fin 8) : sProp 𝕄 := iprop(rcvd m ρ c (i0 j) fullShare ∗ sentTok c (i16 j))

def pre2 (c : Dev nD) (j : Fin 8) : sProp 𝕄 :=
  iprop(recvTok c (i8 j) ∗ recvTok c (i16 j) ∗ chunkAny (c : Thread nD τ) (OUTV c (o8 j)) fullShare ∗ chunkAny (c : Thread nD τ) (OBV c (o8 j)) fullShare
    ∗ sendTok c (i24 j) ∗ sendTok c (i25 j))
def post2 (c : Dev nD) (j : Fin 8) : sProp 𝕄 :=
  iprop(rcvd m ρ c (i8 j) fullShare ∗ rcvd m ρ c (i16 j) fullShare ∗ chunkAt (c : Thread nD τ) (OUTV c (o8 j)) fullShare (outV m ρ c (o8 j))
    ∗ sentTok c (i24 j) ∗ sentTok c (i25 j))

def pre3f (c : Dev nD) (j : Fin 8) : sProp 𝕄 :=
  iprop(recvTok c (i24 j) ∗ sendTok c (i40 j) ∗ chunkAny (c : Thread nD τ) (OUTV c (o16 j)) fullShare)
def post3f (c : Dev nD) (j : Fin 8) : sProp 𝕄 :=
  iprop(rcvd m ρ c (i24 j) fullShare.right ∗ sentTok c (i40 j) ∗ chunkAt (c : Thread nD τ) (OUTV c (o16 j)) fullShare (outV m ρ c (o16 j)))

def pre3a (c : Dev nD) (j : Fin 8) : sProp 𝕄 := iprop(recvTok c (i25 j) ∗ chunkAny (c : Thread nD τ) (OUTV c (o24 j)) fullShare)
def post3a (c : Dev nD) (j : Fin 8) : sProp 𝕄 :=
  iprop(rcvd m ρ c (i25 j) fullShare ∗ chunkAt (c : Thread nD τ) (OUTV c (o24 j)) fullShare (outV m ρ c (o24 j)))
def pre3c (c : Dev nD) (j : Fin 8) : sProp 𝕄 := iprop(recvTok c (i40 j) ∗ chunkAny (c : Thread nD τ) (OUTV c (o32 j)) fullShare)
def post3c (c : Dev nD) (j : Fin 8) : sProp 𝕄 :=
  iprop(rcvd m ρ c (i40 j) fullShare ∗ chunkAt (c : Thread nD τ) (OUTV c (o32 j)) fullShare (outV m ρ c (o32 j)))

def fromCopy (a : ℕ) : Finset (Fin 48) := Finset.univ.filter fun i => a ≤ i.val

end Cert.KernelIdeal.Pf

end
-- ==== Proof.LibChunks.lean ====
import proofs.«900778_g7700000000000779_dist_f_of_ar_i_m1024_n512_v7x_i4_f32_1_alg».proof.Proof.LibChunkDef
import Idealize.ShloMosaic.Rules.PointsTo
import Idealize.ShloMosaic.Rules.Step
import Mathlib.Data.Fin.VecNotation
import Mathlib.Data.Finset.Union
import Mathlib.Logic.Function.Basic

noncomputable section

namespace Cert.Chunks
open Idealize.ShloMosaic
open Idealize.SL
open Idealize.SL.RA Idealize.SL.Sem Idealize.SL.ProofMode
open Idealize.SL.BI (sProp bigSep bigSep_insert bigSep_mono bigSep_empty bigSep_congr bigSep_univ_split bigSep_elim)
open scoped Idealize.SL.BI
open Idealize.SL.BI.BIBase Idealize.SL.BI.Laws
open PCS URA Auth

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

section Chunk

variable {sp : Space} {s : Shape} {e : EltTy}
variable {c : Thread nD τ} {v : View sig c.2.kind sp s e} {q q₁ q₂ : PosShare TreeShare} {w : s.Idx → Val e}

theorem chunkAt_elim :
    (chunkAt c v q w : sProp 𝕄) ⊢ iprop(∃ f : Buf Val (v.loc c), ⌜v.read Val f = w⌝ ∗ (v.loc c ↦[v.set]{q} f)) :=
  Entails.of_eq rfl

theorem chunkAny_elim :
    (chunkAny c v q : sProp 𝕄) ⊢ iprop(∃ f : Buf Val (v.loc c), (v.loc c ↦[v.set]{q} f)) :=
  Entails.of_eq rfl

theorem chunkAt_of_pointsTo (f : Buf Val (v.loc c)) :
    (v.loc c ↦[v.set]{q} f : sProp 𝕄) ⊢ chunkAt c v q (v.read Val f) := by
  unfold chunkAt
  iintro H
  iexists f
  isplitr
  · ipureintro; rfl
  · iexact H

theorem chunkAt_intro (f : Buf Val (v.loc c)) (hf : v.read Val f = w) :
    (v.loc c ↦[v.set]{q} f : sProp 𝕄) ⊢ chunkAt c v q w := by
  subst hf; exact chunkAt_of_pointsTo f

theorem chunkAny_of_pointsTo (f : Buf Val (v.loc c)) :
    (v.loc c ↦[v.set]{q} f : sProp 𝕄) ⊢ chunkAny c v q := by
  unfold chunkAny
  iintro H
  iexists f
  iexact H

theorem chunkAt_any : (chunkAt c v q w : sProp 𝕄) ⊢ chunkAny c v q := by
  refine chunkAt_elim.trans ?_
  iintro ⟨%f, -, H⟩
  iapply (chunkAny_of_pointsTo f)
  iexact H

theorem chunkAt_write (fd : Buf Val (v.loc c)) :
    (v.loc c ↦[v.set]{q} (v.write Val fd w Finset.univ) : sProp 𝕄) ⊢ chunkAt c v q w :=
  chunkAt_intro _ (View.read_write_univ fd w)

theorem chunkAny_nonempty : (chunkAny c v q : sProp 𝕄) ⊢ ⌜Nonempty (Buf Val (v.loc c))⌝ := by
  refine chunkAny_elim.trans ?_
  iintro ⟨%f, -⟩
  ipureintro
  exact ⟨f⟩

section Storable
variable {N : Type} [URA N] {υ : UEmb N (MT nD τ sig Ix Val Name U Lvl)} [υ.IsFactor]

instance chunkAt_storable [(memEmb : UEmb _ 𝕄).LandsIn υ] (c : Thread nD τ) (v : View sig c.2.kind sp s e)
    (q : PosShare TreeShare) (w : s.Idx → Val e) : BI.Storable υ (chunkAt c v q w : sProp 𝕄) := by
  unfold chunkAt; infer_instance

instance chunkAny_storable [(memEmb : UEmb _ 𝕄).LandsIn υ] (c : Thread nD τ) (v : View sig c.2.kind sp s e)
    (q : PosShare TreeShare) : BI.Storable υ (chunkAny c v q : sProp 𝕄) := by
  unfold chunkAny; infer_instance

end Storable

theorem chunkAt_split_share (h : q ∈ q₁ ·? q₂) :
    (chunkAt c v q w : sProp 𝕄) ⊢ iprop(chunkAt c v q₁ w ∗ chunkAt c v q₂ w) := by
  refine chunkAt_elim.trans ?_
  iintro ⟨%f, %hf, H⟩
  ihave H := (pointsTo_share h).1 $$ H
  icases H with ⟨H1, H2⟩
  isplitl [H1]
  · iapply (chunkAt_intro f hf); iexact H1
  · iapply (chunkAt_intro f hf); iexact H2

theorem pointsTo_join_share (h : q ∈ q₁ ·? q₂) (f g : Buf Val (v.loc c)) :
    iprop((v.loc c ↦[v.set]{q₁} f) ∗ (v.loc c ↦[v.set]{q₂} g)) ⊢ (v.loc c ↦[v.set]{q} f : sProp 𝕄) := by
  refine pure_elim (∀ i ∈ v.set ∩ v.set, f i = g i ∧ opDef q₁ q₂) pointsTo_agree fun hag => ?_
  rw [← pointsTo_congr (ℓ := v.loc c) (I := v.set) (q := q₂) (f := f) (g := g)
    (fun i hi => (hag i (Finset.mem_inter.mpr ⟨hi, hi⟩)).1)]
  exact (pointsTo_share h).2

theorem chunkAt_join_any (h : q ∈ q₁ ·? q₂) :
    iprop(chunkAt c v q₁ w ∗ chunkAny c v q₂) ⊢ (chunkAt c v q w : sProp 𝕄) := by
  iintro ⟨H1, H2⟩
  ihave H1 := chunkAt_elim $$ H1
  ihave H2 := chunkAny_elim $$ H2
  icases H1 with ⟨%f, %hf, H1⟩
  icases H2 with ⟨%g, H2⟩
  iapply (chunkAt_intro f hf)
  iapply (pointsTo_join_share h f g)
  isplitl [H1]
  · iexact H1
  · iexact H2

theorem chunkAt_join_share (h : q ∈ q₁ ·? q₂) :
    iprop(chunkAt c v q₁ w ∗ chunkAt c v q₂ w) ⊢ (chunkAt c v q w : sProp 𝕄) :=
  (sep_mono .rfl chunkAt_any).trans (chunkAt_join_any h)

theorem chunkAny_join_share (h : q ∈ q₁ ·? q₂) :
    iprop(chunkAny c v q₁ ∗ chunkAny c v q₂) ⊢ (chunkAny c v q : sProp 𝕄) := by
  iintro ⟨H1, H2⟩
  ihave H1 := chunkAny_elim $$ H1
  ihave H2 := chunkAny_elim $$ H2
  icases H1 with ⟨%f, H1⟩
  icases H2 with ⟨%g, H2⟩
  iapply (chunkAny_of_pointsTo f)
  iapply (pointsTo_join_share h f g)
  isplitl [H1]
  · iexact H1
  · iexact H2

theorem fullShare_halves : fullShare ∈ fullShare.left ·? fullShare.right :=
  PosShare.mem_left_op_right fullShare

theorem chunkAt_full_halves :
    (chunkAt c v fullShare w : sProp 𝕄) ⊣⊢ iprop(chunkAt c v fullShare.left w ∗ chunkAt c v fullShare.right w) :=
  ⟨chunkAt_split_share fullShare_halves, chunkAt_join_share fullShare_halves⟩

theorem chunkAt_whole (b : Ref sig c.2.kind) (w : b.ty.Contents Val) :
    (chunkAt c (View.whole b) q w : sProp 𝕄) ⊣⊢ (c.loc b ↦{q} w) := by
  refine ⟨chunkAt_elim.trans ?_, ?_⟩
  · iintro ⟨%f, %hf, H⟩
    have hf' : f = w := hf
    subst hf'
    rw [View.set_whole]
    iexact H
  · have h := chunkAt_of_pointsTo (c := c) (v := (View.whole b : View sig c.2.kind _ _ _)) (q := q)
      (Ix := Ix) (Name := Name) (U := U) (Lvl := Lvl) w
    rw [View.set_whole] at h
    exact h

theorem chunkAny_whole (b : Ref sig c.2.kind) :
    (chunkAny c (View.whole b) q : sProp 𝕄) ⊣⊢ iprop(∃ f : Buf Val (c.loc b), c.loc b ↦{q} f) := by
  refine ⟨chunkAny_elim.trans ?_, ?_⟩
  · iintro ⟨%f, H⟩
    rw [View.set_whole]
    iexists f
    iexact H
  · iintro ⟨%f, H⟩
    have h := chunkAny_of_pointsTo (c := c) (v := (View.whole b : View sig c.2.kind _ _ _)) (q := q)
      (Ix := Ix) (Name := Name) (U := U) (Lvl := Lvl) f
    rw [View.set_whole] at h
    iapply h
    iexact H

end Chunk

section Access

variable [Preorder Lvl] {defs : Defs nD τ sig Val Λ} (𝒱 : Variants) (c : Thread nD τ)
  (bd : Option 𝒱.V) {Γ : PendingWaitsCtx sig Ix} (E : Set Name)
variable {s : Shape} {e : EltTy}
variable {α : Type} {Q : α → sProp (MT nD τ sig Ix Val Name U Lvl)}

theorem wp_load_chunk {cs : CoreSpace} {m : Memref sig c.2.kind cs s e} {r : Rect s} {hl : m.view.LoadsAt r}
    {k : (r.shape.Idx → Val e) → Prog (TpuEff nD τ sig Val Λ c.2) α} {q : PosShare TreeShare}
    {w : r.shape.Idx → Val e} :
    (chunkAt c (m.access r) q w : sProp 𝕄)
      ⊢ iprop((chunkAt c (m.access r) q w -∗ wp frame (wpE' defs 𝒱 c bd Γ) E (k w) Q)
        -∗ wp frame (wpE' defs 𝒱 c bd Γ) E (.op (.load m r hl) k) Q) := by
  iintro H Hk
  ihave H := chunkAt_elim $$ H
  icases H with ⟨%f, %hf, H⟩
  subst hf
  iapply (wp_load_rect (defs := defs) 𝒱 c bd (Γ := Γ) E (Q := Q) (m := m) (r := r) (hl := hl) (k := k) (q := q) (f := f)
    (S := (m.access r).set) (Finset.Subset.refl _)) $$ H
  iintro H
  iapply Hk
  iapply (chunkAt_of_pointsTo f)
  iexact H

theorem wp_store_chunk {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} :
    (chunkAny c (m.access r) fullShare : sProp 𝕄)
      ⊢ iprop((chunkAt c (m.access r) fullShare w -∗ wp frame (wpE' defs 𝒱 c bd Γ) E (k ⟨⟩) Q)
        -∗ wp frame (wpE' defs 𝒱 c bd Γ) E (.op (.store m r w Finset.univ hx hm) k) Q) := by
  iintro H Hk
  ihave H := chunkAny_elim $$ H
  icases H with ⟨%f, H⟩
  iapply (wp_store (defs := defs) 𝒱 c bd (Γ := Γ) E (Q := Q) (m := m) (r := r) (w := w) (Mk := Finset.univ)
    (hx := hx) (hm := hm) (k := k) (f := f) (S := (m.access r).set) (by rw [View.setOn_univ])) $$ H
  iintro H
  iapply Hk
  iapply (chunkAt_write f)
  iexact H

end Access

section Congr

variable {c : Thread nD τ} {sp : Space} {s : Shape} {e : EltTy}

theorem chunkAt_congr_off (m : Memref sig c.2.kind sp s e) {off off' size : Fin s.rank → ℕ} (h : off = off')
    (inb : ∀ a, off a + size a ≤ s.size a) (inb' : ∀ a, off' a + size a ≤ s.size a) (q : PosShare TreeShare)
    (w : (⟨s.rank, size⟩ : Shape).Idx → Val e) :
    (chunkAt c (m.access (Rect.unit off size inb)) q w : sProp 𝕄)
      = chunkAt c (m.access (Rect.unit off' size inb')) q w := by
  subst h; rfl

theorem chunkAny_congr_off (m : Memref sig c.2.kind sp s e) {off off' size : Fin s.rank → ℕ} (h : off = off')
    (inb : ∀ a, off a + size a ≤ s.size a) (inb' : ∀ a, off' a + size a ≤ s.size a) (q : PosShare TreeShare) :
    (chunkAny c (m.access (Rect.unit off size inb)) q : sProp 𝕄)
      = chunkAny c (m.access (Rect.unit off' size inb')) q := by
  subst h; rfl

end Congr

theorem bigSep_mono' {I : Type} {S : Finset I} {Φ Ψ : I → sProp (MT nD τ sig Ix Val Name U Lvl)}
    (h : ∀ i ∈ S, Φ i ⊢ Ψ i) : bigSep S Φ ⊢ bigSep S Ψ :=
  bigSep_mono h

theorem bigSep_elim' {I : Type} {S : Finset I} {i : I} (hi : i ∈ S) {Φ : I → sProp (MT nD τ sig Ix Val Name U Lvl)} :
    bigSep S Φ ⊢ Φ i := by
  classical
  exact bigSep_elim hi

theorem bigSep_exists_pure {I A : Type} (S : Finset I) (φ : I → A → Prop)
    (Φ : I → A → sProp (MT nD τ sig Ix Val Name U Lvl)) (g₀ : I → A) :
    bigSep S (fun i => iprop(∃ a, ⌜φ i a⌝ ∗ Φ i a))
      ⊢ (iprop(∃ g : I → A, ⌜∀ i ∈ S, φ i (g i)⌝ ∗ bigSep S fun i => Φ i (g i)) : sProp 𝕄) := by
  classical
  induction S using Finset.induction_on with
  | empty =>
    iintro -
    iexists g₀
    isplitr
    · ipureintro; intro i hi; exact absurd hi (Finset.notMem_empty _)
    · rw [bigSep_empty]; iempintro
  | insert i S hi ih =>
    have hcong : ∀ (g : I → A) (a : A),
        bigSep S (fun j => Φ j (Function.update g i a j)) = bigSep S (fun j => Φ j (g j)) := fun g a =>
      bigSep_congr fun j hjS => by
        show Φ j (Function.update g i a j) = Φ j (g j)
        rw [Function.update_of_ne (fun hji : j = i => hi (hji ▸ hjS))]
    have key : ∀ (g : I → A) (a : A), iprop(Φ i a ∗ bigSep S (fun j => Φ j (g j)))
        ⊢ bigSep (insert i S) (fun j => Φ j (Function.update g i a j)) := fun g a => by
      rw [bigSep_insert hi, Function.update_self, hcong g a]
      exact .rfl
    rw [bigSep_insert hi]
    refine (show iprop((∃ a, ⌜φ i a⌝ ∗ Φ i a) ∗ bigSep S (fun i => iprop(∃ a, ⌜φ i a⌝ ∗ Φ i a))) ⊢ _ from ?_)
    iintro ⟨⟨%a, %ha, Hi⟩, HS⟩
    ihave H := ih $$ HS
    icases H with ⟨%g, %hg, HS⟩
    iexists Function.update g i a
    isplitr
    · ipureintro
      intro j hj
      rcases Finset.mem_insert.mp hj with hji | hjS
      · rw [hji, Function.update_self]; exact ha
      · rw [Function.update_of_ne (fun hji : j = i => hi (hji ▸ hjS))]; exact hg j hjS
    · iapply (key g a)
      isplitl [Hi]
      · iexact Hi
      · iexact HS

section Glue

variable {T : Type} {s : Shape} {e : EltTy}

def glue (rect : T → Rect s) (w : (t : T) → (rect t).shape.Idx → Val e)
    (hc : ∀ i : s.Idx, ∃ t, i ∈ (rect t).set) (i : s.Idx) : Val e :=
  w (Classical.choose (hc i))
    (Classical.choose ((rect (Classical.choose (hc i))).exists_idx_of_mem (Classical.choose_spec (hc i))))

theorem glue_apply (rect : T → Rect s) (w : (t : T) → (rect t).shape.Idx → Val e)
    (hc : ∀ i : s.Idx, ∃ t, i ∈ (rect t).set)
    (hd : ∀ t t', t ≠ t' → Disjoint (rect t).set (rect t').set) (t : T) (x : (rect t).shape.Idx) :
    glue rect w hc ((rect t).emb x) = w t x := by
  have key : ∀ (t' : T) (x' : (rect t').shape.Idx), (rect t').idx x' = (rect t).emb x → w t' x' = w t x := by
    intro t' x' h
    by_cases ht : t' = t
    · subst ht
      exact congrArg _ ((Rect.emb _).injective h)
    · exfalso
      have h1 : (rect t).emb x ∈ (rect t').set := h ▸ (rect t').idx_mem x'
      have h2 : (rect t).emb x ∈ (rect t).set := (rect t).idx_mem x
      exact Finset.disjoint_left.mp (hd t' t ht) h1 h2
  unfold glue
  exact key _ _ (Classical.choose_spec
    ((rect (Classical.choose (hc ((rect t).emb x)))).exists_idx_of_mem (Classical.choose_spec (hc ((rect t).emb x)))))

end Glue

section Rects

variable {c : Thread nD τ} {cs : Space} {s : Shape} {e : EltTy} {T : Type} [Fintype T]
variable {q : PosShare TreeShare}

theorem set_access_disjoint (m : Memref sig c.2.kind cs s e) {r r' : Rect s} (h : Disjoint r.set r'.set) :
    Disjoint ((m.access r).set : Finset (Idx (m.view.loc c))) ((m.access r').set : Finset (Idx (m.view.loc c))) := by
  rw [View.set_slice, View.set_slice]
  exact (Finset.disjoint_map _).mpr h

theorem biUnion_access_set (m : Memref sig c.2.kind cs s e) (rect : T → Rect s)
    (hc : ∀ i : s.Idx, ∃ t, i ∈ (rect t).set) :
    (Finset.univ.biUnion fun t => ((m.access (rect t)).set : Finset (Idx (m.view.loc c)))) = m.view.set := by
  ext i
  simp only [Finset.mem_biUnion, Finset.mem_univ, true_and]
  constructor
  · rintro ⟨t, ht⟩
    exact m.view.set_slice_subset (rect t) ht
  · intro hi
    have hi' : i ∈ Finset.univ.map m.view.emb := hi
    obtain ⟨x, -, rfl⟩ := Finset.mem_map.mp hi'
    obtain ⟨t, ht⟩ := hc x
    refine ⟨t, ?_⟩
    rw [View.set_slice]
    exact Finset.mem_map_of_mem _ ht

theorem rectChunks_split (m : Memref sig c.2.kind cs s e) (rect : T → Rect s)
    (hd : ∀ t t', t ≠ t' → Disjoint (rect t).set (rect t').set) (hc : ∀ i : s.Idx, ∃ t, i ∈ (rect t).set)
    (f : Buf Val (m.view.loc c)) :
    (m.view.loc c ↦[m.view.set]{q} f : sProp 𝕄)
      = bigSep Finset.univ fun t =>
          (m.view.loc c ↦[((m.access (rect t)).set : Finset (Idx (m.view.loc c)))]{q} f) := by
  rw [← biUnion_access_set m rect hc]
  exact pointsTo_biUnion (ℓ := m.view.loc c) Finset.univ _ fun t _ t' _ h => set_access_disjoint m (hd t t' h)

theorem rectChunks_join_pointsTo (m : Memref sig c.2.kind cs s e) (rect : T → Rect s)
    (hd : ∀ t t', t ≠ t' → Disjoint (rect t).set (rect t').set) (hc : ∀ i : s.Idx, ∃ t, i ∈ (rect t).set)
    (fs : T → Buf Val (m.view.loc c)) (f₀ : Buf Val (m.view.loc c)) :
    bigSep Finset.univ (fun t =>
        (m.view.loc c ↦[((m.access (rect t)).set : Finset (Idx (m.view.loc c)))]{q} fs t))
      ⊢ (iprop(∃ g : Buf Val (m.view.loc c),
          ⌜∀ t, ∀ i ∈ ((m.access (rect t)).set : Finset (Idx (m.view.loc c))), g i = fs t i⌝
            ∗ (m.view.loc c ↦[m.view.set]{q} g)) : sProp 𝕄) := by
  refine (pointsTo_biUnion_join (ℓ := m.view.loc c) (q := q) (Val := Val) (Ix := Ix) (Name := Name) (U := U) (Lvl := Lvl)
    Finset.univ (fun t => ((m.access (rect t)).set : Finset (Idx (m.view.loc c)))) fs f₀
    (fun t _ t' _ h => set_access_disjoint m (hd t t' h))).trans ?_
  rw [biUnion_access_set m rect hc]
  iintro ⟨%g, %hg, H⟩
  iexists g
  isplitr
  · ipureintro; exact fun t i hi => hg t (Finset.mem_univ t) i hi
  · iexact H

theorem rectChunks_any_of_pointsTo (m : Memref sig c.2.kind cs s e) (rect : T → Rect s)
    (hd : ∀ t t', t ≠ t' → Disjoint (rect t).set (rect t').set) (hc : ∀ i : s.Idx, ∃ t, i ∈ (rect t).set)
    (f : Buf Val (m.view.loc c)) :
    (m.view.loc c ↦[m.view.set]{q} f : sProp 𝕄)
      ⊢ bigSep Finset.univ fun t => chunkAny c (m.access (rect t)) q := by
  rw [rectChunks_split m rect hd hc f]
  exact bigSep_mono' fun t _ => chunkAny_of_pointsTo (c := c) (v := m.access (rect t)) (q := q) f

theorem rectChunks_any_split (m : Memref sig c.2.kind cs s e) (rect : T → Rect s)
    (hd : ∀ t t', t ≠ t' → Disjoint (rect t).set (rect t').set) (hc : ∀ i : s.Idx, ∃ t, i ∈ (rect t).set) :
    (chunkAny c m.view q : sProp 𝕄) ⊢ bigSep Finset.univ fun t => chunkAny c (m.access (rect t)) q := by
  refine chunkAny_elim.trans ?_
  iintro ⟨%f, H⟩
  iapply (rectChunks_any_of_pointsTo m rect hd hc f)
  iexact H

theorem rectChunks_any_join [Nonempty T] (m : Memref sig c.2.kind cs s e) (rect : T → Rect s)
    (hd : ∀ t t', t ≠ t' → Disjoint (rect t).set (rect t').set) (hc : ∀ i : s.Idx, ∃ t, i ∈ (rect t).set) :
    bigSep Finset.univ (fun t => chunkAny c (m.access (rect t)) q) ⊢ (chunkAny c m.view q : sProp 𝕄) := by
  classical
  obtain ⟨t₀⟩ := ‹Nonempty T›
  refine pure_elim (Nonempty (Buf Val (m.view.loc c)))
    ((bigSep_elim' (Finset.mem_univ t₀)).trans chunkAny_nonempty) fun hne => ?_
  obtain ⟨f₀⟩ := hne
  refine (bigSep_mono' (Ψ := fun t => iprop(∃ f : Buf Val (m.view.loc c), ⌜True⌝ ∗
      (m.view.loc c ↦[((m.access (rect t)).set : Finset (Idx (m.view.loc c)))]{q} f))) fun t _ => ?_).trans ?_
  · refine chunkAny_elim.trans ?_
    iintro ⟨%f, H⟩
    iexists f
    isplitr
    · ipureintro; trivial
    · iexact H
  refine (bigSep_exists_pure (Ix := Ix) (Name := Name) (U := U) (Lvl := Lvl) Finset.univ (fun _ _ => True)
    (fun t f => (m.view.loc c ↦[((m.access (rect t)).set : Finset (Idx (m.view.loc c)))]{q} f)) (fun _ => f₀)).trans ?_
  iintro ⟨%fs, -, H⟩
  ihave H := (rectChunks_join_pointsTo m rect hd hc fs f₀) $$ H
  icases H with ⟨%g, -, H⟩
  iapply (chunkAny_of_pointsTo g)
  iexact H

theorem rectChunks_at_join [Nonempty T] (m : Memref sig c.2.kind cs s e) (rect : T → Rect s)
    (hd : ∀ t t', t ≠ t' → Disjoint (rect t).set (rect t').set) (hc : ∀ i : s.Idx, ∃ t, i ∈ (rect t).set)
    (w : (t : T) → (rect t).shape.Idx → Val e) :
    bigSep Finset.univ (fun t => chunkAt c (m.access (rect t)) q (w t))
      ⊢ (chunkAt c m.view q (glue rect w hc) : sProp 𝕄) := by
  classical
  obtain ⟨t₀⟩ := ‹Nonempty T›
  refine pure_elim (Nonempty (Buf Val (m.view.loc c)))
    ((bigSep_elim' (Finset.mem_univ t₀)).trans (chunkAt_any.trans chunkAny_nonempty)) fun hne => ?_
  obtain ⟨f₀⟩ := hne
  refine (bigSep_mono' (Ψ := fun t => iprop(∃ f : Buf Val (m.view.loc c), ⌜(m.access (rect t)).read Val f = w t⌝ ∗
      (m.view.loc c ↦[((m.access (rect t)).set : Finset (Idx (m.view.loc c)))]{q} f))) fun t _ => chunkAt_elim).trans ?_
  refine (bigSep_exists_pure (Ix := Ix) (Name := Name) (U := U) (Lvl := Lvl) Finset.univ
    (fun t f => (m.access (rect t)).read Val f = w t)
    (fun t f => (m.view.loc c ↦[((m.access (rect t)).set : Finset (Idx (m.view.loc c)))]{q} f)) (fun _ => f₀)).trans ?_
  iintro ⟨%fs, %hfs, H⟩
  ihave H := (rectChunks_join_pointsTo m rect hd hc fs f₀) $$ H
  icases H with ⟨%g, %hg, H⟩
  have hread : m.view.read Val g = glue rect w hc := by
    funext x
    obtain ⟨t, ht⟩ := hc x
    obtain ⟨x', rfl⟩ := (rect t).exists_idx_of_mem ht
    have hw : (m.access (rect t)).read Val (fs t) x' = w t x' := congrFun (hfs t (Finset.mem_univ t)) x'
    show m.view.read Val g ((rect t).emb x') = glue rect w hc ((rect t).emb x')
    rw [glue_apply rect w hc hd t x', ← hw]
    show m.view.read Val g ((rect t).emb x') = m.view.read Val (fs t) ((rect t).emb x')
    exact View.read_congr_at _ (hg t _ ((m.access (rect t)).emb_mem_set x'))
  iapply (chunkAt_intro g hread)
  iexact H

end Rects

section Rows

variable {R C h : ℕ}

abbrev rowRect (R C h a : ℕ) (ha : a + h ≤ R) : Rect (⟨2, ![R, C]⟩ : Shape) :=
  Rect.unit ![a, 0] ![h, C] (Rect.inb₂ (d := ![R, C]) (off := ![a, 0]) (size := ![h, C]) ha (Nat.le_of_eq (Nat.zero_add C)))

theorem rowRect_disjoint {a a' : ℕ} (ha : a + h ≤ R) (ha' : a' + h ≤ R) (hsep : a + h ≤ a' ∨ a' + h ≤ a) :
    Disjoint (rowRect R C h a ha).set (rowRect R C h a' ha').set :=
  Rect.unit_disjoint (0 : Fin 2) hsep

theorem rowRect_cover {T : Type} (rows : T → ℕ) (hin : ∀ t, rows t + h ≤ R)
    (hcover : ∀ j < R, ∃ t, rows t ≤ j ∧ j < rows t + h) (i : (⟨2, ![R, C]⟩ : Shape).Idx) :
    ∃ t, i ∈ (rowRect R C h (rows t) (hin t)).set := by
  obtain ⟨t, h1, h2⟩ := hcover (i (0 : Fin 2)) (i (0 : Fin 2)).isLt
  refine ⟨t, Rect.mem_set_unit.mpr ?_⟩
  have h3 : (i (1 : Fin 2)).val < C := (i (1 : Fin 2)).isLt
  refine Fin.forall_fin_two.mpr ⟨⟨h1, h2⟩, Nat.zero_le _, ?_⟩
  show (i (1 : Fin 2)).val < 0 + C
  omega

def rowGlue {T : Type} {e : EltTy} (rows : T → ℕ) (hin : ∀ t, rows t + h ≤ R) (hcover : ∀ j < R, ∃ t, rows t ≤ j ∧ j < rows t + h)
    (w : T → (⟨2, ![h, C]⟩ : Shape).Idx → Val e) : (⟨2, ![R, C]⟩ : Shape).Idx → Val e :=
  glue (fun t => rowRect R C h (rows t) (hin t)) (fun t => w t) (rowRect_cover rows hin hcover)

theorem rowGlue_apply {T : Type} {e : EltTy} (rows : T → ℕ) (hin : ∀ t, rows t + h ≤ R)
    (hdisj : ∀ t t', t ≠ t' → rows t + h ≤ rows t' ∨ rows t' + h ≤ rows t)
    (hcover : ∀ j < R, ∃ t, rows t ≤ j ∧ j < rows t + h) (w : T → (⟨2, ![h, C]⟩ : Shape).Idx → Val e) (t : T)
    (x : (⟨2, ![h, C]⟩ : Shape).Idx) :
    rowGlue (Val := Val) rows hin hcover w ((rowRect R C h (rows t) (hin t)).emb x) = w t x :=
  glue_apply (fun t => rowRect R C h (rows t) (hin t)) (fun t => w t) (rowRect_cover rows hin hcover)
    (fun t t' ht => rowRect_disjoint (hin t) (hin t') (hdisj t t' ht)) t x

variable {c : Thread nD τ} {cs : Space} {e : EltTy} {T : Type} [Fintype T] {q : PosShare TreeShare}

theorem rowChunks_split (m : Memref sig c.2.kind cs ⟨2, ![R, C]⟩ e) (rows : T → ℕ) (hin : ∀ t, rows t + h ≤ R)
    (hdisj : ∀ t t', t ≠ t' → rows t + h ≤ rows t' ∨ rows t' + h ≤ rows t)
    (hcover : ∀ j < R, ∃ t, rows t ≤ j ∧ j < rows t + h) (f : Buf Val (m.view.loc c)) :
    (m.view.loc c ↦[m.view.set]{q} f : sProp 𝕄)
      = bigSep Finset.univ fun t =>
          (m.view.loc c ↦[((m.access (rowRect R C h (rows t) (hin t))).set : Finset (Idx (m.view.loc c)))]{q} f) :=
  rectChunks_split m (fun t => rowRect R C h (rows t) (hin t))
    (fun t t' ht => rowRect_disjoint (hin t) (hin t') (hdisj t t' ht)) (rowRect_cover rows hin hcover) f

theorem rowChunks_any_split (m : Memref sig c.2.kind cs ⟨2, ![R, C]⟩ e) (rows : T → ℕ) (hin : ∀ t, rows t + h ≤ R)
    (hdisj : ∀ t t', t ≠ t' → rows t + h ≤ rows t' ∨ rows t' + h ≤ rows t)
    (hcover : ∀ j < R, ∃ t, rows t ≤ j ∧ j < rows t + h) :
    (chunkAny c m.view q : sProp 𝕄)
      ⊢ bigSep Finset.univ fun t => chunkAny c (m.access (rowRect R C h (rows t) (hin t))) q :=
  rectChunks_any_split m (fun t => rowRect R C h (rows t) (hin t))
    (fun t t' ht => rowRect_disjoint (hin t) (hin t') (hdisj t t' ht)) (rowRect_cover rows hin hcover)

theorem rowChunks_any_join [Nonempty T] (m : Memref sig c.2.kind cs ⟨2, ![R, C]⟩ e) (rows : T → ℕ)
    (hin : ∀ t, rows t + h ≤ R) (hdisj : ∀ t t', t ≠ t' → rows t + h ≤ rows t' ∨ rows t' + h ≤ rows t)
    (hcover : ∀ j < R, ∃ t, rows t ≤ j ∧ j < rows t + h) :
    bigSep Finset.univ (fun t => chunkAny c (m.access (rowRect R C h (rows t) (hin t))) q)
      ⊢ (chunkAny c m.view q : sProp 𝕄) :=
  rectChunks_any_join m (fun t => rowRect R C h (rows t) (hin t))
    (fun t t' ht => rowRect_disjoint (hin t) (hin t') (hdisj t t' ht)) (rowRect_cover rows hin hcover)

theorem rowChunks_at_join [Nonempty T] (m : Memref sig c.2.kind cs ⟨2, ![R, C]⟩ e) (rows : T → ℕ)
    (hin : ∀ t, rows t + h ≤ R) (hdisj : ∀ t t', t ≠ t' → rows t + h ≤ rows t' ∨ rows t' + h ≤ rows t)
    (hcover : ∀ j < R, ∃ t, rows t ≤ j ∧ j < rows t + h) (w : T → (⟨2, ![h, C]⟩ : Shape).Idx → Val e) :
    bigSep Finset.univ (fun t => chunkAt c (m.access (rowRect R C h (rows t) (hin t))) q (w t))
      ⊢ (chunkAt c m.view q (rowGlue rows hin hcover w) : sProp 𝕄) :=
  rectChunks_at_join m (fun t => rowRect R C h (rows t) (hin t))
    (fun t t' ht => rowRect_disjoint (hin t) (hin t') (hdisj t t' ht)) (rowRect_cover rows hin hcover) (fun t => w t)

end Rows

end Cert.Chunks

end

/-- info: 'Cert.Chunks.wp_load_chunk' depends on axioms: [propext, Classical.choice, Quot.sound] -/
#guard_msgs in #print axioms Cert.Chunks.wp_load_chunk
/-- info: 'Cert.Chunks.wp_store_chunk' depends on axioms: [propext, Classical.choice, Quot.sound] -/
#guard_msgs in #print axioms Cert.Chunks.wp_store_chunk
/-- info: 'Cert.Chunks.chunkAt_full_halves' depends on axioms: [propext, Classical.choice, Quot.sound] -/
#guard_msgs in #print axioms Cert.Chunks.chunkAt_full_halves
/-- info: 'Cert.Chunks.chunkAt_whole' depends on axioms: [propext, Classical.choice, Quot.sound] -/
#guard_msgs in #print axioms Cert.Chunks.chunkAt_whole
/-- info: 'Cert.Chunks.rowChunks_split' depends on axioms: [propext, Classical.choice, Quot.sound] -/
#guard_msgs in #print axioms Cert.Chunks.rowChunks_split
/-- info: 'Cert.Chunks.rowChunks_any_split' depends on axioms: [propext, Classical.choice, Quot.sound] -/
#guard_msgs in #print axioms Cert.Chunks.rowChunks_any_split
/-- info: 'Cert.Chunks.rowChunks_any_join' depends on axioms: [propext, Classical.choice, Quot.sound] -/
#guard_msgs in #print axioms Cert.Chunks.rowChunks_any_join
/-- info: 'Cert.Chunks.rowChunks_at_join' depends on axioms: [propext, Classical.choice, Quot.sound] -/
#guard_msgs in #print axioms Cert.Chunks.rowChunks_at_join
/-- info: 'Cert.Chunks.rowGlue_apply' depends on axioms: [propext, Classical.choice, Quot.sound] -/
#guard_msgs in #print axioms Cert.Chunks.rowGlue_apply
-- ==== Proof.Data.lean ====
import proofs.«900778_g7700000000000779_dist_f_of_ar_i_m1024_n512_v7x_i4_f32_1_alg».proof.Proof.Inv
import proofs.«900778_g7700000000000779_dist_f_of_ar_i_m1024_n512_v7x_i4_f32_1_alg».proof.Proof.LibChunks

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def oix (t : Fin 8 × Fin 4) : Fin 32 := ⟨t.1.val + 8 * t.2.val, by omega⟩
theorem oix_0 (j : Fin 8) : oix (j, 0) = o8 j := rfl
theorem oix_1 (j : Fin 8) : oix (j, 1) = o16 j := rfl
theorem oix_2 (j : Fin 8) : oix (j, 2) = o24 j := rfl
theorem oix_3 (j : Fin 8) : oix (j, 3) = o32 j := rfl

def orow (c : Dev nD) (t : Fin 8 × Fin 4) : ℕ := (outo c (oix t)).1 0

theorem orow_in : ∀ (c : Dev nD) (t : Fin 8 × Fin 4), orow c t + 32 ≤ 1024 := by decide +kernel
theorem orow_disj : ∀ (c : Dev nD) (t t' : Fin 8 × Fin 4), t ≠ t' → orow c t + 32 ≤ orow c t' ∨ orow c t' + 32 ≤ orow c t := by decide +kernel

theorem orow_onto : ∀ (c : Dev nD) (b : Fin 32), ∃ t, orow c t = 32 * b.val := by decide +kernel
theorem orow_cover (c : Dev nD) : ∀ j < 1024, ∃ t, orow c t ≤ j ∧ j < orow c t + 32 := fun j hj => by
  obtain ⟨t, ht⟩ := orow_onto c ⟨j / 32, by omega⟩
  have ht' : orow c t = 32 * (j / 32) := ht
  exact ⟨t, by omega, by omega⟩

theorem outo_eq : ∀ (c : Dev nD) (t : Fin 8 × Fin 4) (a : Fin 2), (outo c (oix t)).1 a = (![orow c t, 0] : Fin 2 → ℕ) a := by decide +kernel

def outAt (c : Dev nD) : (cc0_stg1_0 : Ref sig .tc).ty.Contents (Elt F) :=
  rowGlue (Val := Elt F) (e := .f32) (R := 1024) (C := 512) (h := 32) (orow c) (orow_in c) (orow_cover c) (fun t => outV m ρ c (oix t))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

variable (K : Dev nD × Fin 97 → ℕ)

def ghost (c : Dev nD) : sProp 𝕄 :=
  iprop(persG m ρ K c
    ∗ atPos ER (barCell c) 0 ∅ 0
    ∗ (bigSep Finset.univ fun i : Fin 48 => iprop(atPos ER (sendCell c i) 0 ∅ 0 ∗ atPos ER (recvCell c i) 0 ∅ 0))
    ∗ dutyTok ER (barCell (Geo.xp c)) 0 true ∗ dutyTok ER (barCell (Geo.yp c)) 0 false
    ∗ (bigSep Finset.univ fun i : Fin 48 => iprop(dutyTok ER (recvCell (tgt c i) i) 0 false ∗ dutyTok ER (sendCell c i) 0 false)))

def start (c : Dev nD) : sProp 𝕄 :=
  iprop((∃ K, ghost m ρ K c) ∗ cred (tallyAt (barCell c) () 2) ∗ (bigSep Finset.univ fun i : Fin 48 => cred (tallyAt (recvCell c i) () N)) ∗ levAts L lv)

def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f))

def semsZero (c : Dev nD) : sProp 𝕄 :=
  bigSep Finset.univ fun i : Fin 48 => iprop(semVal (sendCell c i) 0 ∗ semVal (recvCell c i) 0)

def Φ₀ (c : Dev nD) : sProp 𝕄 := iprop(start m ρ c ∗ scr c)

def Φ₁ (c : Dev nD) : sProp 𝕄 := iprop(scr c ∗ semsZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 2) ∗ (bigSep Finset.univ fun i : Fin 48 => cred (tallyAt (recvCell c i) () N)) ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m ρ c) ∗ stg c cc0_stg1_0 (outAt m ρ c))

def allPre (c : Dev nD) : sProp 𝕄 :=
  iprop((bigSep Finset.univ fun n : Fin 16 => pre0 c n) ∗ (bigSep Finset.univ fun j : Fin 8 => pre1 c j) ∗ (bigSep Finset.univ fun j : Fin 8 => pre2 c j)
    ∗ (bigSep Finset.univ fun j : Fin 8 => pre3f c j) ∗ (bigSep Finset.univ fun j : Fin 8 => pre3a c j) ∗ (bigSep Finset.univ fun j : Fin 8 => pre3c c j))

def byStage (Φ : Fin 48 → sProp 𝕄) : sProp 𝕄 :=
  iprop((bigSep Finset.univ fun n : Fin 16 => Φ (c16 n)) ∗ (bigSep Finset.univ fun j : Fin 8 => Φ (i16 j))
    ∗ (bigSep Finset.univ fun j : Fin 8 => iprop(Φ (i24 j) ∗ Φ (i25 j))) ∗ (bigSep Finset.univ fun j : Fin 8 => Φ (i40 j)))

def sentAll (c : Dev nD) : sProp 𝕄 := byStage (fun i => sentTok c i)
def doneAll (c : Dev nD) : sProp 𝕄 := byStage (fun i => sendDone c i)

def allPost (c : Dev nD) : sProp 𝕄 :=
  iprop((bigSep Finset.univ fun j : Fin 8 => rcvd m ρ c (i0 j) fullShare) ∗ (bigSep Finset.univ fun j : Fin 8 => rcvd m ρ c (i8 j) fullShare)
    ∗ (bigSep Finset.univ fun j : Fin 8 => rcvd m ρ c (i16 j) fullShare) ∗ (bigSep Finset.univ fun j : Fin 8 => rcvd m ρ c (i24 j) fullShare.right)
    ∗ (bigSep Finset.univ fun j : Fin 8 => rcvd m ρ c (i25 j) fullShare) ∗ (bigSep Finset.univ fun j : Fin 8 => rcvd m ρ c (i40 j) fullShare)
    ∗ doneAll c
    ∗ (bigSep Finset.univ fun j : Fin 8 => chunkAt (c : Thread nD τ) (OUTV c (o8 j)) fullShare (outV m ρ c (o8 j)))
    ∗ (bigSep Finset.univ fun j : Fin 8 => chunkAt (c : Thread nD τ) (OUTV c (o16 j)) fullShare (outV m ρ c (o16 j)))
    ∗ (bigSep Finset.univ fun j : Fin 8 => chunkAt (c : Thread nD τ) (OUTV c (o24 j)) fullShare (outV m ρ c (o24 j)))
    ∗ (bigSep Finset.univ fun j : Fin 8 => chunkAt (c : Thread nD τ) (OUTV c (o32 j)) fullShare (outV m ρ c (o32 j))))

end Cert.KernelIdeal.Pf

end
-- ==== Proof.Levels.lean ====
import proofs.«900778_g7700000000000779_dist_f_of_ar_i_m1024_n512_v7x_i4_f32_1_alg».proof.Proof.Inv

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 97 → ℕ)

theorem Lev.dma_ne_reg (q : DmaSem sig) (s : Sem sig) : (SemLoc.dma q : SemLoc sig) ≠ .reg s := fun h => by cases h

theorem Lev.barCell_eq_iff {a b : Dev nD} : Iff (barCell a = barCell b) (a = b) :=
  ⟨fun h => Fin.ext (congrArg (fun g : GSem nD τ sig => g.1.1.val) h), fun h => h ▸ rfl⟩

theorem Lev.recvCell_inj {a b : Dev nD} {i j : Fin 48} (h : recvCell a i = recvCell b j) : a = b ∧ i = j :=
  ⟨Fin.ext (congrArg (fun g : GSem nD τ sig => g.1.1.val) h), rSem_inj (SemLoc.dma.inj (congrArg Prod.snd h))⟩

theorem Lev.fromCopy_succ (a : ℕ) (h : a < 48) : fromCopy a = insert (⟨a, h⟩ : Fin 48) (fromCopy (a + 1)) := by
  ext i
  unfold fromCopy
  rw [Finset.mem_insert, Finset.mem_filter, Finset.mem_filter]
  constructor
  · rintro ⟨-, hi⟩
    by_cases e : i.val = a
    · exact Or.inl (Fin.ext e)
    · exact Or.inr ⟨Finset.mem_univ _, by omega⟩
  · rintro (rfl | ⟨-, hi⟩)
    · exact ⟨Finset.mem_univ _, Nat.le_refl _⟩
    · exact ⟨Finset.mem_univ _, by omega⟩

theorem Lev.fromCopy_notMem (a : ℕ) (h : a < 48) : (⟨a, h⟩ : Fin 48) ∉ fromCopy (a + 1) := fun hm =>
  absurd (Finset.mem_filter.mp hm).2 (Nat.not_succ_le_self a)

theorem Ocopies_peel (c : Dev nD) (a : ℕ) (h : a < 48) :
    Ocopies c (fromCopy a) = Ocopies c (fromCopy (a + 1)) + tallyAt (recvCell (tgt c ⟨a, h⟩) ⟨a, h⟩) () N := by
  unfold Ocopies
  rw [Lev.fromCopy_succ a h, Finset.sum_insert (Lev.fromCopy_notMem a h)]
  exact add_comm _ _

theorem Lev.Ocopies_apply (c : Dev nD) (S : Finset (Fin 48)) (g : GSem nD τ sig) (u : Unit) :
    Ocopies c S g u = ∑ i ∈ S, tallyAt (recvCell (tgt c i) i) () N g u := by
  unfold Ocopies
  rw [Finset.sum_apply, Finsupp.finsetSum_apply]

theorem Ocopies_pos {c : Dev nD} {S : Finset (Fin 48)} {g : GSem nD τ sig} {u : Unit} (h : 0 < Ocopies c S g u) :
    ∃ i ∈ S, g = recvCell (tgt c i) i := by
  by_contra hn
  have hz : ∑ i ∈ S, tallyAt (recvCell (tgt c i) i) () N g u = 0 := Finset.sum_eq_zero fun i hi => by
    rw [tallyAt_apply, if_neg (fun h' => hn ⟨i, hi, h'.1⟩)]
  rw [Lev.Ocopies_apply, hz] at h
  exact Nat.lt_irrefl 0 h

theorem Lev.O₀_pos {c : Dev nD} {g : GSem nD τ sig} {u : Unit} (h : 0 < O₀ c g u) :
    (∃ i : Fin 48, g = recvCell (tgt c i) i) ∨ g = barCell (Geo.yp c) ∨ g = barCell (Geo.xp c) := by
  unfold O₀ at h
  rw [Pi.add_apply, Finsupp.add_apply, Pi.add_apply, Finsupp.add_apply] at h
  by_contra hn
  rw [not_or, not_or] at hn
  have h1 : Ocopies c Finset.univ g u = 0 := Nat.eq_zero_of_not_pos fun hp =>
    hn.1 (by obtain ⟨i, -, e⟩ := Ocopies_pos hp; exact ⟨i, e⟩)
  rw [h1, tallyAt_apply, tallyAt_apply, if_neg (fun h' => hn.2.1 h'.1), if_neg (fun h' => hn.2.2 h'.1)] at h
  exact Nat.lt_irrefl 0 h

theorem Lev.lv_stage (c : Dev nD) (q : DmaSem sig) (hq : idxOf q = none) (u : Unit) : lv ((c : Thread nD τ), .dma q) u = 0 := by
  dsimp only [lv]; rw [hq] <;> rfl

theorem mayWait_recv (c : Dev nD) (i : Fin 48) (S : Finset (Fin 48)) (h : ∀ j ∈ S, stageOf i < stageOf j) :
    (levAts L lv : sProp 𝕄) ⊢ MayWait (c : Thread nD τ) (.dma (rSem i)) () (Ocopies c S) :=
  MayOwe.of_cut (L := L) (lev := lv) (2 + stageOf i)
    (fun p hp => by rw [Finset.mem_singleton.mp hp, L_tc]; exact Finset.mem_singleton_self _)
    (fun g u hg => by
      obtain ⟨j, -, rfl⟩ := Ocopies_pos hg
      rw [L_tc]; exact Finset.mem_singleton_self _)
    (fun p hp => by rw [Finset.mem_singleton.mp hp]; exact Nat.le_of_eq (lv_recv c i ()))
    (fun g u hg => by
      obtain ⟨j, hj, rfl⟩ := Ocopies_pos hg
      rw [lv_recv]; exact Nat.add_lt_add_left (h j hj) 2)

theorem mayWait_bar (c : Dev nD) :
    (levAts L lv : sProp 𝕄) ⊢ MayWait (c : Thread nD τ) (.reg barS) () (Ocopies c Finset.univ) :=
  MayOwe.of_cut (L := L) (lev := lv) 1
    (fun p hp => by rw [Finset.mem_singleton.mp hp, L_tc]; exact Finset.mem_singleton_self _)
    (fun g u hg => by
      obtain ⟨j, -, rfl⟩ := Ocopies_pos hg
      rw [L_tc]; exact Finset.mem_singleton_self _)
    (fun p hp => by rw [Finset.mem_singleton.mp hp]; exact Nat.le_of_eq (lv_bar c ()))
    (fun g u hg => by
      obtain ⟨j, -, rfl⟩ := Ocopies_pos hg
      rw [lv_recv]; omega)

theorem mayWait_stage (c : Dev nD) (q : DmaSem sig) (hq : idxOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases Lev.O₀_pos hg with ⟨j, rfl⟩ | rfl | rfl
        · rw [L_tc]; exact Finset.mem_singleton_self _
        · rw [L_tc]; exact Finset.mem_singleton_self _
        · rw [L_tc]; exact Finset.mem_singleton_self _)
      (fun p hp => by rw [Finset.mem_singleton.mp hp]; exact Nat.le_of_eq (Lev.lv_stage c q hq ()))
      (fun g u hg => by
        rcases Lev.O₀_pos hg with ⟨j, rfl⟩ | rfl | rfl
        · rw [lv_recv]; omega
        · rw [lv_bar]; exact Nat.one_pos
        · rw [lv_bar]; exact Nat.one_pos)
  · rw [MayWait_zero]; iintro -; iempintro

theorem Lev.Ocopies_bar (d c : Dev nD) (S : Finset (Fin 48)) : Ocopies d S (barCell c) = 0 := by
  unfold Ocopies
  rw [Finset.sum_apply]
  exact Finset.sum_eq_zero fun j _ =>
    tallyAt_ne_cell (g := recvCell (tgt d j) j) (g' := barCell c) (fun h => Lev.dma_ne_reg _ _ (congrArg Prod.snd h).symm) () N

theorem Lev.Ocopies_recv (d c : Dev nD) (i : Fin 48) : Ocopies d Finset.univ (recvCell c i) () = if d = tgt c i then N else 0 := by
  rw [Lev.Ocopies_apply, Finset.sum_eq_single i
    (fun j _ hj => by rw [tallyAt_apply, if_neg (fun h' => hj (Lev.recvCell_inj h'.1).2.symm)])
    (fun hi => absurd (Finset.mem_univ i) hi), tallyAt_apply]
  by_cases h : d = tgt c i
  · subst h; rw [tgt_tgt, if_pos ⟨rfl, rfl⟩, if_pos rfl]
  · rw [if_neg (fun h' => h (by rw [← tgt_tgt d i]; exact congrArg (fun x => tgt x i) (Lev.recvCell_inj h'.1).1.symm)), if_neg h]

theorem owed_bar (d c : Dev nD) : O₀ d (barCell c) () = (if d = Geo.xp c then 1 else 0) + (if d = Geo.yp c then 1 else 0) := by
  unfold O₀
  rw [Pi.add_apply, Finsupp.add_apply, Pi.add_apply, Finsupp.add_apply, Lev.Ocopies_bar, Finsupp.zero_apply, Nat.zero_add,
    tallyAt_apply, tallyAt_apply]
  refine (Nat.add_comm _ _).trans ?_
  congr 1
  · by_cases h : d = Geo.xp c
    · subst h; rw [Geo.xp_xp, if_pos ⟨rfl, rfl⟩, if_pos rfl]
    · rw [if_neg (fun h' => h (by rw [← Geo.xp_xp d]; exact congrArg Geo.xp (Lev.barCell_eq_iff.mp h'.1).symm)), if_neg h]
  · by_cases h : d = Geo.yp c
    · subst h; rw [Geo.yp_yp, if_pos ⟨rfl, rfl⟩, if_pos rfl]
    · rw [if_neg (fun h' => h (by rw [← Geo.yp_yp d]; exact congrArg Geo.yp (Lev.barCell_eq_iff.mp h'.1).symm)), if_neg h]

theorem owed_recv (d c : Dev nD) (i : Fin 48) : O₀ d (recvCell c i) () = if d = tgt c i then N else 0 := by
  unfold O₀
  rw [Pi.add_apply, Finsupp.add_apply, Pi.add_apply, Finsupp.add_apply, Lev.Ocopies_recv,
    tallyAt_ne_cell (g := barCell (Geo.yp d)) (g' := recvCell c i) (fun h => Lev.dma_ne_reg _ _ (congrArg Prod.snd h)),
    tallyAt_ne_cell (g := barCell (Geo.xp d)) (g' := recvCell c i) (fun h => Lev.dma_ne_reg _ _ (congrArg Prod.snd h)),
    Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (Geo.xp c) fun _ => 1, Finset.sum_ite_eq' Finset.univ (Geo.yp c) fun _ => 1,
    if_pos (Finset.mem_univ _), if_pos (Finset.mem_univ _)]

theorem launch_recv (c : Dev nD) (i : Fin 48) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (tgt c i) fun _ => N, if_pos (Finset.mem_univ _)]

def Lev.rEmb : Fin 48 ↪ SemLoc sig := ⟨fun i => SemLoc.dma (rSem i), fun i j h => rSem_inj (SemLoc.dma.inj h)⟩

theorem creds (c : Dev nD) :
    (Pipeline.launchCred O₀ c : sProp 𝕄)
      ⊢ iprop(cred (tallyAt (barCell c) () 2) ∗ bigSep Finset.univ fun i : Fin 48 => cred (tallyAt (recvCell c i) () N)) := by
  unfold Pipeline.launchCred
  rw [bigSep_univ_at _ (SemLoc.reg barS), launch_bar]
  refine sep_mono_right ?_
  refine (bigSep_subset (t := (Finset.univ : Finset (Fin 48)).map Lev.rEmb) (fun sm hsm => ?_)).trans ?_
  · obtain ⟨i, -, rfl⟩ := Finset.mem_map.mp hsm
    exact Finset.mem_erase.mpr ⟨fun h => Lev.dma_ne_reg (rSem i) barS h, Finset.mem_univ _⟩
  · rw [bigSep_map]
    exact bigSep_mono fun i _ => Entails.of_eq (congrArg cred (launch_recv c i))

/-- info: 'Cert.KernelIdeal.Pf.creds' depends on axioms: [propext, Classical.choice, Quot.sound] -/
#guard_msgs in #print axioms creds

end Cert.KernelIdeal.Pf

end
-- ==== Proof.Split.lean ====
import proofs.«900778_g7700000000000779_dist_f_of_ar_i_m1024_n512_v7x_i4_f32_1_alg».proof.Proof.Data
import proofs.«900778_g7700000000000779_dist_f_of_ar_i_m1024_n512_v7x_i4_f32_1_alg».proof.Proof.LibChunks
import proofs.«900778_g7700000000000779_dist_f_of_ar_i_m1024_n512_v7x_i4_f32_1_alg».proof.Proof.Geom
import Mathlib.Logic.Equiv.Sum
import Mathlib.Data.Fintype.Sigma
import Mathlib.Data.Fintype.Sum
import Mathlib.Tactic.FinCases

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace Spl

theorem sep_fibers_join {I K : Type} [Fintype I] [DecidableEq I] [Fintype K] [DecidableEq K] (g : I → K) (Φ : I → sProp 𝕄) :
    (bigSep Finset.univ fun k : K => bigSep Finset.univ fun x : {i : I // g i = k} => Φ x.1) ⊢ bigSep Finset.univ Φ := by
  have e : (fun k : K => bigSep Finset.univ fun x : {i : I // g i = k} => Φ x.1)
      = fun k : K => bigSep (Finset.univ.filter fun i : I => g i = k) Φ :=
    funext fun k => bigSep_subtype (fun i : I => g i = k) Φ
  have hU : (Finset.univ : Finset K).biUnion (fun k : K => Finset.univ.filter fun i : I => g i = k) = Finset.univ :=
    Finset.ext fun i => ⟨fun _ => Finset.mem_univ i, fun _ =>
      Finset.mem_biUnion.mpr ⟨g i, Finset.mem_univ _, Finset.mem_filter.mpr ⟨Finset.mem_univ i, rfl⟩⟩⟩
  rw [e]
  exact (bigSep_biUnion Finset.univ (fun k : K => Finset.univ.filter fun i : I => g i = k)).trans (Entails.of_eq (congrArg (fun s : Finset I => bigSep s Φ) hU))

theorem sep_fin2 (X : Fin 2 → sProp 𝕄) : bigSep Finset.univ X = iprop(X 0 ∗ X 1) :=
  bigSep_univ_eq_bigSepL ([0, 1] : List (Fin 2)) (by decide) (by decide) X

theorem sep_fin5 (X : Fin 5 → sProp 𝕄) : bigSep Finset.univ X = iprop(X 0 ∗ X 1 ∗ X 2 ∗ X 3 ∗ X 4) :=
  bigSep_univ_eq_bigSepL ([0, 1, 2, 3, 4] : List (Fin 5)) (by decide) (by decide) X

theorem cover_of_onto {T : Type} (rows : T → ℕ) (nb : ℕ) (h : ∀ b : Fin nb, ∃ t, rows t = 32 * b.val) :
    ∀ j < 32 * nb, ∃ t, rows t ≤ j ∧ j < rows t + 32 := fun j hj => by
  obtain ⟨t, ht⟩ := h ⟨j / 32, by omega⟩
  have ht' : rows t = 32 * (j / 32) := ht
  exact ⟨t, by omega, by omega⟩

def sbrow (d : Dev nD) (n : ℕ) : ℕ :=
  (if n % 2 = 0 then (if n < 8 then Geo.row3 d else Geo.row9 d) else (if n < 8 then Geo.row6 d else Geo.row12 d)) + 32 * (n / 2 % 4)

def drowP (d : Dev nD) (i : Fin 48) : ℕ :=
  if i.val < 16 then sbrow d i.val
  else if i.val < 24 then 32 * ((i.val - 16) / 2)
  else if i.val < 40 then (if (i.val - 24) % 4 < 2 then Geo.row17 d else Geo.row20 d) + 32 * ((i.val - 24) / 4)
  else (if i.val % 2 = 0 then Geo.row21 d else Geo.row23 d) + 32 * ((i.val - 40) / 2)

def drow (c : Dev nD) (i : Fin 48) : ℕ := drowP (tgt c i) i

def drowq (c : Dev nD) (i : Fin 48) : ℕ := drowP (bif tgtX i then Geo.xp c else Geo.yp c) i
theorem drow_eq (c : Dev nD) (i : Fin 48) : drow c i = drowq c i := by unfold drow drowq; rw [tgt_eq]

def dcl (i : Fin 48) : Fin 5 :=
  if i.val < 16 then (if i.val % 2 = 0 then 0 else 1) else if i.val < 24 then (if i.val % 2 = 0 then 2 else 3) else 4

def dR : Fin 5 → ℕ
  | ⟨0, _⟩ => 256
  | ⟨1, _⟩ => 256
  | ⟨2, _⟩ => 128
  | ⟨3, _⟩ => 128
  | ⟨_ + 4, _⟩ => 1024

def scl (n : Fin 16) : Fin 2 := if n.val % 2 = 0 then 0 else 1
def fcl (j : Fin 8) : Fin 2 := if j.val % 2 = 0 then 0 else 1

def srow (c : Dev nD) (n : Fin 16) : ℕ := sbrow c n.val
def frow (j : Fin 8) : ℕ := 32 * (j.val / 2)

theorem drowq_in : ∀ (c : Dev nD) (i : Fin 48), drowq c i + 32 ≤ dR (dcl i) := by decide +kernel
theorem drowq_disj : ∀ (c : Dev nD) (i i' : Fin 48), dcl i = dcl i' → i ≠ i' → drowq c i + 32 ≤ drowq c i' ∨ drowq c i' + 32 ≤ drowq c i := by
  decide +kernel
theorem drowq_onto0 : ∀ (c : Dev nD) (b : Fin 8), ∃ i : Fin 48, dcl i = 0 ∧ drowq c i = 32 * b.val := by decide +kernel
theorem drowq_onto1 : ∀ (c : Dev nD) (b : Fin 8), ∃ i : Fin 48, dcl i = 1 ∧ drowq c i = 32 * b.val := by decide +kernel
theorem drowq_onto2 : ∀ (c : Dev nD) (b : Fin 4), ∃ i : Fin 48, dcl i = 2 ∧ drowq c i = 32 * b.val := by decide +kernel
theorem drowq_onto3 : ∀ (c : Dev nD) (b : Fin 4), ∃ i : Fin 48, dcl i = 3 ∧ drowq c i = 32 * b.val := by decide +kernel

theorem ob_cross : ∀ (c : Dev nD) (j : Fin 8) (i : Fin 48), dcl i = 4 → orow c (j, 0) + 32 ≤ drowq c i ∨ drowq c i + 32 ≤ orow c (j, 0) := by
  decide +kernel
theorem ob_onto : ∀ (c : Dev nD) (b : Fin 32), (∃ j : Fin 8, orow c (j, 0) = 32 * b.val) ∨ ∃ i : Fin 48, dcl i = 4 ∧ drowq c i = 32 * b.val := by
  decide +kernel

theorem srow_in : ∀ (c : Dev nD) (n : Fin 16), srow c n + 32 ≤ 256 := by decide +kernel
theorem srow_disj : ∀ (c : Dev nD) (n n' : Fin 16), scl n = scl n' → n ≠ n' → srow c n + 32 ≤ srow c n' ∨ srow c n' + 32 ≤ srow c n := by
  decide +kernel
theorem srow_onto0 : ∀ (c : Dev nD) (b : Fin 8), ∃ n : Fin 16, scl n = 0 ∧ srow c n = 32 * b.val := by decide +kernel
theorem srow_onto1 : ∀ (c : Dev nD) (b : Fin 8), ∃ n : Fin 16, scl n = 1 ∧ srow c n = 32 * b.val := by decide +kernel

theorem frow_in : ∀ j : Fin 8, frow j + 32 ≤ 128 := by decide +kernel
theorem frow_disj : ∀ j j' : Fin 8, fcl j = fcl j' → j ≠ j' → frow j + 32 ≤ frow j' ∨ frow j' + 32 ≤ frow j := by decide +kernel
theorem frow_onto0 : ∀ b : Fin 4, ∃ j : Fin 8, fcl j = 0 ∧ frow j = 32 * b.val := by decide +kernel
theorem frow_onto1 : ∀ b : Fin 4, ∃ j : Fin 8, fcl j = 1 ∧ frow j = 32 * b.val := by decide +kernel

theorem drow_in (c : Dev nD) (i : Fin 48) : drow c i + 32 ≤ dR (dcl i) := by rw [drow_eq]; exact drowq_in c i

def slotD (k : Fin 5) (a : ℕ) (ha : a + 32 ≤ dR k) : View sig .tc .vmem S32x512 .bf16 :=
  match k, ha with
  | ⟨0, _⟩, ha => (Memref.whole cc0_scratch2 : Memref sig .tc .vmem S256x512 .bf16).access (rowRect 256 512 32 a ha)
  | ⟨1, _⟩, ha => (Memref.whole cc0_scratch3 : Memref sig .tc .vmem S256x512 .bf16).access (rowRect 256 512 32 a ha)
  | ⟨2, _⟩, ha => (Memref.whole cc0_scratch4 : Memref sig .tc .vmem S128x512 .bf16).access (rowRect 128 512 32 a ha)
  | ⟨3, _⟩, ha => (Memref.whole cc0_scratch5 : Memref sig .tc .vmem S128x512 .bf16).access (rowRect 128 512 32 a ha)
  | ⟨_ + 4, _⟩, ha => (Memref.whole cc0_scratch8 : Memref sig .tc .vmem S1024x512 .bf16).access (rowRect 1024 512 32 a ha)

def slotS (k : Fin 2) (a : ℕ) (ha : a + 32 ≤ 256) : View sig .tc .vmem S32x512 .bf16 :=
  match k with
  | ⟨0, _⟩ => (Memref.whole cc0_scratch0 : Memref sig .tc .vmem S256x512 .bf16).access (rowRect 256 512 32 a ha)
  | ⟨_ + 1, _⟩ => (Memref.whole cc0_scratch1 : Memref sig .tc .vmem S256x512 .bf16).access (rowRect 256 512 32 a ha)
def slotF (k : Fin 2) (a : ℕ) (ha : a + 32 ≤ 128) : View sig .tc .vmem S32x512 .bf16 :=
  match k with
  | ⟨0, _⟩ => (Memref.whole cc0_scratch6 : Memref sig .tc .vmem S128x512 .bf16).access (rowRect 128 512 32 a ha)
  | ⟨_ + 1, _⟩ => (Memref.whole cc0_scratch7 : Memref sig .tc .vmem S128x512 .bf16).access (rowRect 128 512 32 a ha)

theorem chunkAny_slice_off {sp : Space} {s : Shape} {e : EltTy} (c : Dev nD) (v : View sig .tc sp s e) {off off' size : Fin s.rank → ℕ}
    (h : off = off') (inb : ∀ a, off a + size a ≤ s.size a) (inb' : ∀ a, off' a + size a ≤ s.size a) (q : PosShare TreeShare) :
    (chunkAny (c : Thread nD τ) (v.slice (Rect.unit off size inb)) q : sProp 𝕄)
      = chunkAny (c : Thread nD τ) (v.slice (Rect.unit off' size inb')) q := by
  subst h; rfl

theorem dst_view (c : Dev nD) (q : PosShare TreeShare) (i : Fin 48) :
    (chunkAny (c : Thread nD τ) (DST c i) q : sProp 𝕄) = chunkAny (c : Thread nD τ) (slotD (dcl i) (drow c i) (drow_in c i)) q := by
  fin_cases i <;>
    first
    | exact chunkAny_slice_off c _
        (by
          simp only [Geo.off_eq_3_0, Geo.off_eq_3_32, Geo.off_eq_3_64, Geo.off_eq_3_96, Geo.off_eq_6_0, Geo.off_eq_6_32, Geo.off_eq_6_64,
            Geo.off_eq_6_96, Geo.off_eq_9_0, Geo.off_eq_9_32, Geo.off_eq_9_64, Geo.off_eq_9_96, Geo.off_eq_12_0, Geo.off_eq_12_32,
            Geo.off_eq_12_64, Geo.off_eq_12_96, Geo.off_eq_17_0, Geo.off_eq_17_32, Geo.off_eq_17_64, Geo.off_eq_17_96, Geo.off_eq_20_0,
            Geo.off_eq_20_32, Geo.off_eq_20_64, Geo.off_eq_20_96, Geo.off_eq_21_0, Geo.off_eq_21_32, Geo.off_eq_21_64, Geo.off_eq_21_96,
            Geo.off_eq_23_0, Geo.off_eq_23_32, Geo.off_eq_23_64, Geo.off_eq_23_96] <;> rfl) _ _ q
    | rfl

theorem src_view (c : Dev nD) (q : PosShare TreeShare) (n : Fin 16) :
    (chunkAny (c : Thread nD τ) (SRC c (c16 n)) q : sProp 𝕄) = chunkAny (c : Thread nD τ) (slotS (scl n) (srow c n) (srow_in c n)) q := by
  fin_cases n <;>
    exact chunkAny_slice_off c _
      (by
        simp only [Geo.off_eq_3_0, Geo.off_eq_3_32, Geo.off_eq_3_64, Geo.off_eq_3_96, Geo.off_eq_6_0, Geo.off_eq_6_32, Geo.off_eq_6_64,
          Geo.off_eq_6_96, Geo.off_eq_9_0, Geo.off_eq_9_32, Geo.off_eq_9_64, Geo.off_eq_9_96, Geo.off_eq_12_0, Geo.off_eq_12_32,
          Geo.off_eq_12_64, Geo.off_eq_12_96] <;> rfl) _ _ q

theorem fw_view (c : Dev nD) (q : PosShare TreeShare) (j : Fin 8) :
    (chunkAny (c : Thread nD τ) (SRC c (i16 j)) q : sProp 𝕄) = chunkAny (c : Thread nD τ) (slotF (fcl j) (frow j) (frow_in j)) q := by
  fin_cases j <;> rfl

theorem obv_view (c : Dev nD) (q : PosShare TreeShare) (j : Fin 8) :
    (chunkAny (c : Thread nD τ) (OBV c (o8 j)) q : sProp 𝕄)
      = chunkAny (c : Thread nD τ)
          ((Memref.whole cc0_scratch8 : Memref sig .tc .vmem S1024x512 .bf16).access (rowRect 1024 512 32 (orow c (j, 0)) (orow_in c (j, 0)))) q :=
  by
  have h := outo_eq c (j, 0)
  rw [oix_0] at h
  exact chunkAny_slice_off c (Memref.whole cc0_scratch8 : Memref sig .tc .vmem S1024x512 .bf16).view (funext h) (outo c (o8 j)).2 _ q

theorem out_view (c : Dev nD) (q : PosShare TreeShare) (t : Fin 8 × Fin 4) :
    (chunkAny (c : Thread nD τ) (OUTV c (oix t)) q : sProp 𝕄)
      = chunkAny (c : Thread nD τ)
          ((Memref.whole cc0_stg1_0 : Memref sig .tc .vmem S1024x512 .f32).access (rowRect 1024 512 32 (orow c t) (orow_in c t))) q :=
  chunkAny_slice_off c (Memref.whole cc0_stg1_0 : Memref sig .tc .vmem S1024x512 .f32).view (funext (outo_eq c t)) (outo c (oix t)).2 _ q

theorem dst_view_at (c : Dev nD) (q : PosShare TreeShare) {k : Fin 5} (i : Fin 48) (h : dcl i = k) (ha : drow c i + 32 ≤ dR k) :
    (chunkAny (c : Thread nD τ) (DST c i) q : sProp 𝕄) = chunkAny (c : Thread nD τ) (slotD k (drow c i) ha) q := by
  subst h; exact dst_view c q i
theorem src_view_at (c : Dev nD) (q : PosShare TreeShare) {k : Fin 2} (n : Fin 16) (h : scl n = k) :
    (chunkAny (c : Thread nD τ) (SRC c (c16 n)) q : sProp 𝕄) = chunkAny (c : Thread nD τ) (slotS k (srow c n) (srow_in c n)) q := by
  subst h; exact src_view c q n
theorem fw_view_at (c : Dev nD) (q : PosShare TreeShare) {k : Fin 2} (j : Fin 8) (h : fcl j = k) :
    (chunkAny (c : Thread nD τ) (SRC c (i16 j)) q : sProp 𝕄) = chunkAny (c : Thread nD τ) (slotF k (frow j) (frow_in j)) q := by
  subst h; exact fw_view c q j

theorem drow_in_at (c : Dev nD) {k : Fin 5} (i : Fin 48) (h : dcl i = k) : drow c i + 32 ≤ dR k := h ▸ drow_in c i

theorem drow_disj_at (c : Dev nD) {k : Fin 5} (x y : {i : Fin 48 // dcl i = k}) (h : x ≠ y) :
    drow c x.1 + 32 ≤ drow c y.1 ∨ drow c y.1 + 32 ≤ drow c x.1 := by
  simp only [drow_eq]
  exact drowq_disj c x.1 y.1 (x.2.trans y.2.symm) (fun e => h (Subtype.ext e))

theorem drow_onto0 (c : Dev nD) (b : Fin 8) : ∃ t : {i : Fin 48 // dcl i = 0}, drow c t.1 = 32 * b.val := by
  obtain ⟨i, hi, hr⟩ := drowq_onto0 c b
  exact ⟨⟨i, hi⟩, (drow_eq c i).trans hr⟩
theorem drow_onto1 (c : Dev nD) (b : Fin 8) : ∃ t : {i : Fin 48 // dcl i = 1}, drow c t.1 = 32 * b.val := by
  obtain ⟨i, hi, hr⟩ := drowq_onto1 c b
  exact ⟨⟨i, hi⟩, (drow_eq c i).trans hr⟩
theorem drow_onto2 (c : Dev nD) (b : Fin 4) : ∃ t : {i : Fin 48 // dcl i = 2}, drow c t.1 = 32 * b.val := by
  obtain ⟨i, hi, hr⟩ := drowq_onto2 c b
  exact ⟨⟨i, hi⟩, (drow_eq c i).trans hr⟩
theorem drow_onto3 (c : Dev nD) (b : Fin 4) : ∃ t : {i : Fin 48 // dcl i = 3}, drow c t.1 = 32 * b.val := by
  obtain ⟨i, hi, hr⟩ := drowq_onto3 c b
  exact ⟨⟨i, hi⟩, (drow_eq c i).trans hr⟩

theorem srow_disj_at (c : Dev nD) {k : Fin 2} (x y : {n : Fin 16 // scl n = k}) (h : x ≠ y) :
    srow c x.1 + 32 ≤ srow c y.1 ∨ srow c y.1 + 32 ≤ srow c x.1 :=
  srow_disj c x.1 y.1 (x.2.trans y.2.symm) (fun e => h (Subtype.ext e))
theorem srow_onto0_at (c : Dev nD) (b : Fin 8) : ∃ t : {n : Fin 16 // scl n = 0}, srow c t.1 = 32 * b.val := by
  obtain ⟨n, hn, hr⟩ := srow_onto0 c b
  exact ⟨⟨n, hn⟩, hr⟩
theorem srow_onto1_at (c : Dev nD) (b : Fin 8) : ∃ t : {n : Fin 16 // scl n = 1}, srow c t.1 = 32 * b.val := by
  obtain ⟨n, hn, hr⟩ := srow_onto1 c b
  exact ⟨⟨n, hn⟩, hr⟩

theorem frow_disj_at {k : Fin 2} (x y : {j : Fin 8 // fcl j = k}) (h : x ≠ y) :
    frow x.1 + 32 ≤ frow y.1 ∨ frow y.1 + 32 ≤ frow x.1 :=
  frow_disj x.1 y.1 (x.2.trans y.2.symm) (fun e => h (Subtype.ext e))
theorem frow_onto0_at (b : Fin 4) : ∃ t : {j : Fin 8 // fcl j = 0}, frow t.1 = 32 * b.val := by
  obtain ⟨j, hj, hr⟩ := frow_onto0 b
  exact ⟨⟨j, hj⟩, hr⟩
theorem frow_onto1_at (b : Fin 4) : ∃ t : {j : Fin 8 // fcl j = 1}, frow t.1 = 32 * b.val := by
  obtain ⟨j, hj, hr⟩ := frow_onto1 b
  exact ⟨⟨j, hj⟩, hr⟩

def rows8 (c : Dev nD) : Fin 8 ⊕ {i : Fin 48 // dcl i = 4} → ℕ := Sum.elim (fun j => orow c (j, 0)) (fun x => drow c x.1)

theorem rows8_in (c : Dev nD) : ∀ t, rows8 c t + 32 ≤ 1024
  | .inl j => orow_in c (j, 0)
  | .inr x => drow_in_at c x.1 x.2

theorem rows8_disj (c : Dev nD) : ∀ t t', t ≠ t' → rows8 c t + 32 ≤ rows8 c t' ∨ rows8 c t' + 32 ≤ rows8 c t
  | .inl j, .inl j', h => orow_disj c (j, 0) (j', 0) (fun e => h (congrArg Sum.inl (congrArg Prod.fst e)))
  | .inl j, .inr x, _ => by
    show orow c (j, 0) + 32 ≤ drow c x.1 ∨ drow c x.1 + 32 ≤ orow c (j, 0)
    rw [drow_eq]; exact ob_cross c j x.1 x.2
  | .inr x, .inl j, _ => by
    show drow c x.1 + 32 ≤ orow c (j, 0) ∨ orow c (j, 0) + 32 ≤ drow c x.1
    rw [drow_eq]; exact (ob_cross c j x.1 x.2).symm
  | .inr x, .inr y, h => drow_disj_at c x y (fun e => h (congrArg Sum.inr e))

theorem rows8_onto (c : Dev nD) (b : Fin 32) : ∃ t, rows8 c t = 32 * b.val := by
  rcases ob_onto c b with ⟨j, hj⟩ | ⟨i, hi, hr⟩
  · exact ⟨Sum.inl j, hj⟩
  · exact ⟨Sum.inr ⟨i, hi⟩, (drow_eq c i).trans hr⟩

theorem _root_.Cert.KernelIdeal.Pf.split_out (c : Dev nD) :
    (iprop(∃ f : Buf (Elt F) ((c : Thread nD τ).loc cc0_stg1_0), ((c : Thread nD τ).loc cc0_stg1_0) ↦{fullShare} f) : sProp 𝕄)
      ⊢ bigSep Finset.univ fun t : Fin 8 × Fin 4 => chunkAny (c : Thread nD τ) (OUTV c (oix t)) fullShare :=
  ((chunkAny_whole (c := (c : Thread nD τ)) cc0_stg1_0).2.trans
    (rowChunks_any_split (c := (c : Thread nD τ)) (q := fullShare) (Memref.whole cc0_stg1_0 : Memref sig .tc .vmem S1024x512 .f32) (orow c) (orow_in c) (orow_disj c) (orow_cover c))).trans
    (Entails.of_eq (bigSep_congr fun t _ => (out_view c fullShare t).symm))

theorem cut_sb0 (c : Dev nD) :
    (iprop(∃ f : Buf (Elt F) ((c : Thread nD τ).loc cc0_scratch0), ((c : Thread nD τ).loc cc0_scratch0) ↦{fullShare} f) : sProp 𝕄)
      ⊢ bigSep Finset.univ fun x : {n : Fin 16 // scl n = 0} => chunkAny (c : Thread nD τ) (SRC c (c16 x.1)) fullShare :=
  ((chunkAny_whole (c := (c : Thread nD τ)) cc0_scratch0).2.trans
    (rowChunks_any_split (c := (c : Thread nD τ)) (q := fullShare) (Memref.whole cc0_scratch0 : Memref sig .tc .vmem S256x512 .bf16) (fun x : {n : Fin 16 // scl n = 0} => srow c x.1)
      (fun x => srow_in c x.1) (fun x y h => srow_disj_at c x y h) (cover_of_onto _ 8 (srow_onto0_at c)))).trans
    (Entails.of_eq (bigSep_congr fun x _ => (src_view_at c fullShare x.1 x.2).symm))
theorem cut_sb1 (c : Dev nD) :
    (iprop(∃ f : Buf (Elt F) ((c : Thread nD τ).loc cc0_scratch1), ((c : Thread nD τ).loc cc0_scratch1) ↦{fullShare} f) : sProp 𝕄)
      ⊢ bigSep Finset.univ fun x : {n : Fin 16 // scl n = 1} => chunkAny (c : Thread nD τ) (SRC c (c16 x.1)) fullShare :=
  ((chunkAny_whole (c := (c : Thread nD τ)) cc0_scratch1).2.trans
    (rowChunks_any_split (c := (c : Thread nD τ)) (q := fullShare) (Memref.whole cc0_scratch1 : Memref sig .tc .vmem S256x512 .bf16) (fun x : {n : Fin 16 // scl n = 1} => srow c x.1)
      (fun x => srow_in c x.1) (fun x y h => srow_disj_at c x y h) (cover_of_onto _ 8 (srow_onto1_at c)))).trans
    (Entails.of_eq (bigSep_congr fun x _ => (src_view_at c fullShare x.1 x.2).symm))

theorem cut_fw0 (c : Dev nD) :
    (iprop(∃ f : Buf (Elt F) ((c : Thread nD τ).loc cc0_scratch6), ((c : Thread nD τ).loc cc0_scratch6) ↦{fullShare} f) : sProp 𝕄)
      ⊢ bigSep Finset.univ fun x : {j : Fin 8 // fcl j = 0} => chunkAny (c : Thread nD τ) (SRC c (i16 x.1)) fullShare :=
  ((chunkAny_whole (c := (c : Thread nD τ)) cc0_scratch6).2.trans
    (rowChunks_any_split (c := (c : Thread nD τ)) (q := fullShare) (Memref.whole cc0_scratch6 : Memref sig .tc .vmem S128x512 .bf16) (fun x : {j : Fin 8 // fcl j = 0} => frow x.1)
      (fun x => frow_in x.1) (fun x y h => frow_disj_at x y h) (cover_of_onto _ 4 frow_onto0_at))).trans
    (Entails.of_eq (bigSep_congr fun x _ => (fw_view_at c fullShare x.1 x.2).symm))
theorem cut_fw1 (c : Dev nD) :
    (iprop(∃ f : Buf (Elt F) ((c : Thread nD τ).loc cc0_scratch7), ((c : Thread nD τ).loc cc0_scratch7) ↦{fullShare} f) : sProp 𝕄)
      ⊢ bigSep Finset.univ fun x : {j : Fin 8 // fcl j = 1} => chunkAny (c : Thread nD τ) (SRC c (i16 x.1)) fullShare :=
  ((chunkAny_whole (c := (c : Thread nD τ)) cc0_scratch7).2.trans
    (rowChunks_any_split (c := (c : Thread nD τ)) (q := fullShare) (Memref.whole cc0_scratch7 : Memref sig .tc .vmem S128x512 .bf16) (fun x : {j : Fin 8 // fcl j = 1} => frow x.1)
      (fun x => frow_in x.1) (fun x y h => frow_disj_at x y h) (cover_of_onto _ 4 frow_onto1_at))).trans
    (Entails.of_eq (bigSep_congr fun x _ => (fw_view_at c fullShare x.1 x.2).symm))

theorem cut_r1a (c : Dev nD) :
    (iprop(∃ f : Buf (Elt F) ((c : Thread nD τ).loc cc0_scratch2), ((c : Thread nD τ).loc cc0_scratch2) ↦{fullShare} f) : sProp 𝕄)
      ⊢ bigSep Finset.univ fun x : {i : Fin 48 // dcl i = 0} => chunkAny (c : Thread nD τ) (DST c x.1) fullShare :=
  ((chunkAny_whole (c := (c : Thread nD τ)) cc0_scratch2).2.trans
    (rowChunks_any_split (c := (c : Thread nD τ)) (q := fullShare) (Memref.whole cc0_scratch2 : Memref sig .tc .vmem S256x512 .bf16) (fun x : {i : Fin 48 // dcl i = 0} => drow c x.1)
      (fun x => drow_in_at c x.1 x.2) (fun x y h => drow_disj_at c x y h) (cover_of_onto _ 8 (drow_onto0 c)))).trans
    (Entails.of_eq (bigSep_congr fun x _ => (dst_view_at c fullShare x.1 x.2 (drow_in_at c x.1 x.2)).symm))
theorem cut_r1b (c : Dev nD) :
    (iprop(∃ f : Buf (Elt F) ((c : Thread nD τ).loc cc0_scratch3), ((c : Thread nD τ).loc cc0_scratch3) ↦{fullShare} f) : sProp 𝕄)
      ⊢ bigSep Finset.univ fun x : {i : Fin 48 // dcl i = 1} => chunkAny (c : Thread nD τ) (DST c x.1) fullShare :=
  ((chunkAny_whole (c := (c : Thread nD τ)) cc0_scratch3).2.trans
    (rowChunks_any_split (c := (c : Thread nD τ)) (q := fullShare) (Memref.whole cc0_scratch3 : Memref sig .tc .vmem S256x512 .bf16) (fun x : {i : Fin 48 // dcl i = 1} => drow c x.1)
      (fun x => drow_in_at c x.1 x.2) (fun x y h => drow_disj_at c x y h) (cover_of_onto _ 8 (drow_onto1 c)))).trans
    (Entails.of_eq (bigSep_congr fun x _ => (dst_view_at c fullShare x.1 x.2 (drow_in_at c x.1 x.2)).symm))
theorem cut_r2a (c : Dev nD) :
    (iprop(∃ f : Buf (Elt F) ((c : Thread nD τ).loc cc0_scratch4), ((c : Thread nD τ).loc cc0_scratch4) ↦{fullShare} f) : sProp 𝕄)
      ⊢ bigSep Finset.univ fun x : {i : Fin 48 // dcl i = 2} => chunkAny (c : Thread nD τ) (DST c x.1) fullShare :=
  ((chunkAny_whole (c := (c : Thread nD τ)) cc0_scratch4).2.trans
    (rowChunks_any_split (c := (c : Thread nD τ)) (q := fullShare) (Memref.whole cc0_scratch4 : Memref sig .tc .vmem S128x512 .bf16) (fun x : {i : Fin 48 // dcl i = 2} => drow c x.1)
      (fun x => drow_in_at c x.1 x.2) (fun x y h => drow_disj_at c x y h) (cover_of_onto _ 4 (drow_onto2 c)))).trans
    (Entails.of_eq (bigSep_congr fun x _ => (dst_view_at c fullShare x.1 x.2 (drow_in_at c x.1 x.2)).symm))
theorem cut_r2b (c : Dev nD) :
    (iprop(∃ f : Buf (Elt F) ((c : Thread nD τ).loc cc0_scratch5), ((c : Thread nD τ).loc cc0_scratch5) ↦{fullShare} f) : sProp 𝕄)
      ⊢ bigSep Finset.univ fun x : {i : Fin 48 // dcl i = 3} => chunkAny (c : Thread nD τ) (DST c x.1) fullShare :=
  ((chunkAny_whole (c := (c : Thread nD τ)) cc0_scratch5).2.trans
    (rowChunks_any_split (c := (c : Thread nD τ)) (q := fullShare) (Memref.whole cc0_scratch5 : Memref sig .tc .vmem S128x512 .bf16) (fun x : {i : Fin 48 // dcl i = 3} => drow c x.1)
      (fun x => drow_in_at c x.1 x.2) (fun x y h => drow_disj_at c x y h) (cover_of_onto _ 4 (drow_onto3 c)))).trans
    (Entails.of_eq (bigSep_congr fun x _ => (dst_view_at c fullShare x.1 x.2 (drow_in_at c x.1 x.2)).symm))

theorem cut_ob (c : Dev nD) :
    (iprop(∃ f : Buf (Elt F) ((c : Thread nD τ).loc cc0_scratch8), ((c : Thread nD τ).loc cc0_scratch8) ↦{fullShare} f) : sProp 𝕄)
      ⊢ iprop((bigSep Finset.univ fun j : Fin 8 => chunkAny (c : Thread nD τ) (OBV c (o8 j)) fullShare)
          ∗ (bigSep Finset.univ fun x : {i : Fin 48 // dcl i = 4} => chunkAny (c : Thread nD τ) (DST c x.1) fullShare)) :=
  ((chunkAny_whole (c := (c : Thread nD τ)) cc0_scratch8).2.trans
    (rowChunks_any_split (c := (c : Thread nD τ)) (q := fullShare) (Memref.whole cc0_scratch8 : Memref sig .tc .vmem S1024x512 .bf16) (rows8 c) (rows8_in c) (rows8_disj c)
      (cover_of_onto (rows8 c) 32 (rows8_onto c)))).trans
    ((Entails.of_eq (bigSep_univ_sum _)).trans
      (BIClass.sep_mono (Entails.of_eq (bigSep_congr fun j _ => (obv_view c fullShare j).symm))
        (Entails.of_eq (bigSep_congr fun x _ => (dst_view_at c fullShare x.1 x.2 (drow_in_at c x.1 x.2)).symm))))

theorem dst_join (Φ : Fin 48 → sProp 𝕄) :
    iprop((bigSep Finset.univ fun x : {i : Fin 48 // dcl i = 0} => Φ x.1) ∗ (bigSep Finset.univ fun x : {i : Fin 48 // dcl i = 1} => Φ x.1)
        ∗ (bigSep Finset.univ fun x : {i : Fin 48 // dcl i = 2} => Φ x.1) ∗ (bigSep Finset.univ fun x : {i : Fin 48 // dcl i = 3} => Φ x.1)
        ∗ (bigSep Finset.univ fun x : {i : Fin 48 // dcl i = 4} => Φ x.1))
      ⊢ bigSep Finset.univ Φ :=
  (Entails.of_eq (sep_fin5 (fun k : Fin 5 => bigSep Finset.univ fun x : {i : Fin 48 // dcl i = k} => Φ x.1)).symm).trans
    (sep_fibers_join dcl Φ)

theorem src_join (Φ : Fin 16 → sProp 𝕄) :
    iprop((bigSep Finset.univ fun x : {n : Fin 16 // scl n = 0} => Φ x.1) ∗ (bigSep Finset.univ fun x : {n : Fin 16 // scl n = 1} => Φ x.1))
      ⊢ bigSep Finset.univ Φ :=
  (Entails.of_eq (sep_fin2 (fun k : Fin 2 => bigSep Finset.univ fun x : {n : Fin 16 // scl n = k} => Φ x.1)).symm).trans
    (sep_fibers_join scl Φ)
theorem fw_join (Φ : Fin 8 → sProp 𝕄) :
    iprop((bigSep Finset.univ fun x : {j : Fin 8 // fcl j = 0} => Φ x.1) ∗ (bigSep Finset.univ fun x : {j : Fin 8 // fcl j = 1} => Φ x.1))
      ⊢ bigSep Finset.univ Φ :=
  (Entails.of_eq (sep_fin2 (fun k : Fin 2 => bigSep Finset.univ fun x : {j : Fin 8 // fcl j = k} => Φ x.1)).symm).trans
    (sep_fibers_join fcl Φ)

theorem _root_.Cert.KernelIdeal.Pf.split_scr (c : Dev nD) :
    (scr c : sProp 𝕄)
      ⊢ iprop((bigSep Finset.univ fun i : Fin 48 => chunkAny (c : Thread nD τ) (DST c i) fullShare)
          ∗ (bigSep Finset.univ fun n : Fin 16 => chunkAny (c : Thread nD τ) (SRC c (c16 n)) fullShare)
          ∗ (bigSep Finset.univ fun j : Fin 8 => chunkAny (c : Thread nD τ) (SRC c (i16 j)) fullShare)
          ∗ (bigSep Finset.univ fun j : Fin 8 => chunkAny (c : Thread nD τ) (OBV c (o8 j)) fullShare)) := by
  unfold scr
  iintro ⟨H0, H1, H2, H3, H4, H5, H6, H7, H8⟩
  ihave H0 := cut_sb0 c $$ H0
  ihave H1 := cut_sb1 c $$ H1
  ihave H2 := cut_r1a c $$ H2
  ihave H3 := cut_r1b c $$ H3
  ihave H4 := cut_r2a c $$ H4
  ihave H5 := cut_r2b c $$ H5
  ihave H6 := cut_fw0 c $$ H6
  ihave H7 := cut_fw1 c $$ H7
  ihave H8 := cut_ob c $$ H8
  icases H8 with ⟨H8a, H8b⟩
  isplitl [H2 H3 H4 H5 H8b]
  · iapply (dst_join (fun i => chunkAny (c : Thread nD τ) (DST c i) fullShare))
    isplitl [H2]
    · iexact H2
    isplitl [H3]
    · iexact H3
    isplitl [H4]
    · iexact H4
    isplitl [H5]
    · iexact H5
    iexact H8b
  isplitl [H0 H1]
  · iapply (src_join (fun n => chunkAny (c : Thread nD τ) (SRC c (c16 n)) fullShare))
    isplitl [H0]
    · iexact H0
    iexact H1
  isplitl [H6 H7]
  · iapply (fw_join (fun j => chunkAny (c : Thread nD τ) (SRC c (i16 j)) fullShare))
    isplitl [H6]
    · iexact H6
    iexact H7
  iexact H8a

end Spl

end Cert.KernelIdeal.Pf

end

/-- info: 'Cert.KernelIdeal.Pf.split_out' depends on axioms: [propext, Classical.choice, Quot.sound] -/
#guard_msgs in #print axioms Cert.KernelIdeal.Pf.split_out
/-- info: 'Cert.KernelIdeal.Pf.split_scr' depends on axioms: [propext, Classical.choice, Quot.sound] -/
#guard_msgs in #print axioms Cert.KernelIdeal.Pf.split_scr
-- ==== Proof.StageBar.lean ====
import proofs.«900778_g7700000000000779_dist_f_of_ar_i_m1024_n512_v7x_i4_f32_1_alg».proof.Proof.Inv
import proofs.«900778_g7700000000000779_dist_f_of_ar_i_m1024_n512_v7x_i4_f32_1_alg».proof.Proof.Data
import proofs.«900778_g7700000000000779_dist_f_of_ar_i_m1024_n512_v7x_i4_f32_1_alg».proof.Proof.LibChunks
import proofs.«900778_g7700000000000779_dist_f_of_ar_i_m1024_n512_v7x_i4_f32_1_alg».proof.Proof.Levels
import proofs.«900778_g7700000000000779_dist_f_of_ar_i_m1024_n512_v7x_i4_f32_1_alg».proof.Proof.Split

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ)

namespace SBar

theorem c16_inj : Function.Injective c16 := fun a b h => Fin.ext (by
  have h' : (c16 a).val = (c16 b).val := congrArg Fin.val h
  exact h')
theorem i0_inj : Function.Injective i0 := fun a b h => Fin.ext (by
  have h' : (i0 a).val = (i0 b).val := congrArg Fin.val h
  exact h')
theorem i8_inj : Function.Injective i8 := fun a b h => Fin.ext (by
  have h' : 8 + a.val = 8 + b.val := congrArg Fin.val h
  omega)
theorem i16_inj : Function.Injective i16 := fun a b h => Fin.ext (by
  have h' : 16 + a.val = 16 + b.val := congrArg Fin.val h
  omega)
theorem i24_inj : Function.Injective i24 := fun a b h => Fin.ext (by
  have h' : 24 + 2 * a.val = 24 + 2 * b.val := congrArg Fin.val h
  omega)
theorem i25_inj : Function.Injective i25 := fun a b h => Fin.ext (by
  have h' : 25 + 2 * a.val = 25 + 2 * b.val := congrArg Fin.val h
  omega)
theorem i40_inj : Function.Injective i40 := fun a b h => Fin.ext (by
  have h' : 40 + a.val = 40 + b.val := congrArg Fin.val h
  omega)

theorem bigSep_image_union {J : Type} [Fintype J] [DecidableEq J] (f : J → Fin 48) (hf : Function.Injective f) (S : Finset (Fin 48))
    (hd : ∀ j, f j ∉ S) (Φ : Fin 48 → sProp 𝕄) :
    bigSep (Finset.univ.image f ∪ S) Φ = iprop((bigSep Finset.univ fun j => Φ (f j)) ∗ bigSep S Φ) :=
  (bigSep_union (Finset.disjoint_left.mpr fun a ha hS => by
      obtain ⟨j, -, rfl⟩ := Finset.mem_image.mp ha
      exact hd j hS)).trans
    (congrArg (fun X : sProp 𝕄 => (iprop(X ∗ bigSep S Φ) : sProp 𝕄)) (bigSep_image_of_injOn hf.injOn Φ))

theorem univ_send : (Finset.univ : Finset (Fin 48))
    = Finset.univ.image c16 ∪ (Finset.univ.image i16 ∪ (Finset.univ.image i24 ∪ (Finset.univ.image i25 ∪ Finset.univ.image i40))) :=
  (Finset.eq_univ_of_forall (by decide +kernel)).symm

theorem univ_recv : (Finset.univ : Finset (Fin 48))
    = Finset.univ.image i0 ∪ (Finset.univ.image i8 ∪ (Finset.univ.image i16 ∪ (Finset.univ.image i24 ∪ (Finset.univ.image i25 ∪ Finset.univ.image i40)))) :=
  (Finset.eq_univ_of_forall (by decide +kernel)).symm

theorem send_split (Φ : Fin 48 → sProp 𝕄) :
    bigSep Finset.univ Φ = iprop((bigSep Finset.univ fun n : Fin 16 => Φ (c16 n)) ∗ (bigSep Finset.univ fun j : Fin 8 => Φ (i16 j))
      ∗ (bigSep Finset.univ fun j : Fin 8 => Φ (i24 j)) ∗ (bigSep Finset.univ fun j : Fin 8 => Φ (i25 j)) ∗ (bigSep Finset.univ fun j : Fin 8 => Φ (i40 j))) := by
  rw [univ_send,
    bigSep_image_union c16 c16_inj (Finset.univ.image i16 ∪ (Finset.univ.image i24 ∪ (Finset.univ.image i25 ∪ Finset.univ.image i40))) (by decide +kernel) Φ,
    bigSep_image_union i16 i16_inj (Finset.univ.image i24 ∪ (Finset.univ.image i25 ∪ Finset.univ.image i40)) (by decide +kernel) Φ,
    bigSep_image_union i24 i24_inj (Finset.univ.image i25 ∪ Finset.univ.image i40) (by decide +kernel) Φ,
    bigSep_image_union i25 i25_inj (Finset.univ.image i40) (by decide +kernel) Φ,
    bigSep_image_of_injOn i40_inj.injOn Φ]

theorem recv_split (Φ : Fin 48 → sProp 𝕄) :
    bigSep Finset.univ Φ = iprop((bigSep Finset.univ fun j : Fin 8 => Φ (i0 j)) ∗ (bigSep Finset.univ fun j : Fin 8 => Φ (i8 j))
      ∗ (bigSep Finset.univ fun j : Fin 8 => Φ (i16 j)) ∗ (bigSep Finset.univ fun j : Fin 8 => Φ (i24 j))
      ∗ (bigSep Finset.univ fun j : Fin 8 => Φ (i25 j)) ∗ (bigSep Finset.univ fun j : Fin 8 => Φ (i40 j))) := by
  rw [univ_recv,
    bigSep_image_union i0 i0_inj (Finset.univ.image i8 ∪ (Finset.univ.image i16 ∪ (Finset.univ.image i24 ∪ (Finset.univ.image i25 ∪ Finset.univ.image i40)))) (by decide +kernel) Φ,
    bigSep_image_union i8 i8_inj (Finset.univ.image i16 ∪ (Finset.univ.image i24 ∪ (Finset.univ.image i25 ∪ Finset.univ.image i40))) (by decide +kernel) Φ,
    bigSep_image_union i16 i16_inj (Finset.univ.image i24 ∪ (Finset.univ.image i25 ∪ Finset.univ.image i40)) (by decide +kernel) Φ,
    bigSep_image_union i24 i24_inj (Finset.univ.image i25 ∪ Finset.univ.image i40) (by decide +kernel) Φ,
    bigSep_image_union i25 i25_inj (Finset.univ.image i40) (by decide +kernel) Φ,
    bigSep_image_of_injOn i40_inj.injOn Φ]

theorem bigSep_fin4 (Ψ : Fin 4 → sProp 𝕄) : bigSep Finset.univ Ψ = iprop(Ψ 0 ∗ Ψ 1 ∗ Ψ 2 ∗ Ψ 3) :=
  bigSep_univ_eq_bigSepL [(0 : Fin 4), 1, 2, 3] (by decide) (by decide) Ψ

theorem out_split (c : Dev nD) :
    (bigSep Finset.univ fun t : Fin 8 × Fin 4 => chunkAny (c : Thread nD τ) (OUTV c (oix t)) fullShare : sProp 𝕄)
      = iprop((bigSep Finset.univ fun j : Fin 8 => chunkAny (c : Thread nD τ) (OUTV c (o8 j)) fullShare)
          ∗ (bigSep Finset.univ fun j : Fin 8 => chunkAny (c : Thread nD τ) (OUTV c (o16 j)) fullShare)
          ∗ (bigSep Finset.univ fun j : Fin 8 => chunkAny (c : Thread nD τ) (OUTV c (o24 j)) fullShare)
          ∗ (bigSep Finset.univ fun j : Fin 8 => chunkAny (c : Thread nD τ) (OUTV c (o32 j)) fullShare)) := by
  rw [bigSep_univ_prod]
  simp only [bigSep_fin4, bigSep_sep', oix_0, oix_1, oix_2, oix_3]

theorem filter_not_true : (Finset.univ.filter fun i : Fin 48 => ¬ tgtX i = true) = Finset.univ.filter fun i : Fin 48 => tgtX i = false :=
  Finset.filter_congr fun i _ => by simp only [Bool.not_eq_true]

theorem split_tgtX (Φ : Fin 48 → sProp 𝕄) :
    bigSep Finset.univ Φ = iprop(bigSep (Finset.univ.filter fun i : Fin 48 => tgtX i = true) Φ ∗ bigSep (Finset.univ.filter fun i : Fin 48 => tgtX i = false) Φ) :=
  (bigSep_filter_split Finset.univ (fun i : Fin 48 => tgtX i = true)).trans
    (congrArg (fun S : Finset (Fin 48) => (iprop(bigSep (Finset.univ.filter fun i : Fin 48 => tgtX i = true) Φ ∗ bigSep S Φ) : sProp 𝕄)) filter_not_true)

theorem barPay_partner (c : Dev nD) (b : Bool) :
    (bigSep (Finset.univ.filter fun i : Fin 48 => tgtX i = b) fun i => chunkAny (c : Thread nD τ) (DST c i) fullShare : sProp 𝕄)
      = barPay (bif b then Geo.xp c else Geo.yp c) b := by
  unfold barPay
  refine bigSep_congr fun i hi => ?_
  have hb : tgtX i = b := (Finset.mem_filter.mp hi).2
  have e1 : tgt c i = (bif b then Geo.xp c else Geo.yp c) := by rw [tgt_eq, hb]
  have e2 : tgt (bif b then Geo.xp c else Geo.yp c) i = c := by rw [← e1]; exact tgt_tgt c i
  exact (congrArg (fun d : Dev nD => (chunkAny (c : Thread nD τ) (dstM d i).view fullShare : sProp 𝕄)) e1).trans
    (congrArg (fun d : Dev nD => (chunkAny ((d : Dev nD) : Thread nD τ) (dstM (bif b then Geo.xp c else Geo.yp c) i).view fullShare : sProp 𝕄)) e2).symm

theorem barPay_xp (c : Dev nD) :
    (bigSep (Finset.univ.filter fun i : Fin 48 => tgtX i = true) fun i => chunkAny (c : Thread nD τ) (DST c i) fullShare : sProp 𝕄)
      = barPay (Geo.xp c) true := barPay_partner c true
theorem barPay_yp (c : Dev nD) :
    (bigSep (Finset.univ.filter fun i : Fin 48 => tgtX i = false) fun i => chunkAny (c : Thread nD τ) (DST c i) fullShare : sProp 𝕄)
      = barPay (Geo.yp c) false := barPay_partner c false

theorem landing_join (c : Dev nD) :
    (iprop(barPay c false ∗ barPay c true) : sProp 𝕄)
      ⊢ bigSep Finset.univ fun i : Fin 48 => chunkAny ((tgt c i : Dev nD) : Thread nD τ) (dstM c i).view fullShare := by
  rw [split_tgtX (fun i : Fin 48 => (chunkAny ((tgt c i : Dev nD) : Thread nD τ) (dstM c i).view fullShare : sProp 𝕄))]
  unfold barPay
  iintro ⟨HF, HT⟩
  isplitl [HT]; · iexact HT
  iexact HF

theorem tok_deal1 (c : Dev nD) (i : Fin 48) :
    (iprop(chunkAny ((tgt c i : Dev nD) : Thread nD τ) (dstM c i).view fullShare
        ∗ (dutyTok ER (recvCell (tgt c i) i) 0 false ∗ dutyTok ER (sendCell c i) 0 false)
        ∗ (atPos ER (sendCell c i) 0 ∅ 0 ∗ atPos ER (recvCell c i) 0 ∅ 0)
        ∗ cred (tallyAt (recvCell c i) () N)) : sProp 𝕄)
      ⊢ iprop(sendTok c i ∗ recvTok c i) := by
  unfold sendTok recvTok
  iintro ⟨Hl, ⟨Hr, Hs⟩, ⟨Has, Har⟩, Hc⟩
  isplitl [Hl Hr Hs Has]
  · isplitl [Hl]; · iexact Hl
    isplitl [Hr]; · iexact Hr
    isplitl [Hs]; · iexact Hs
    iexact Has
  · isplitl [Har]; · iexact Har
    iexact Hc

theorem toks_deal (c : Dev nD) :
    (iprop((bigSep Finset.univ fun i : Fin 48 => chunkAny ((tgt c i : Dev nD) : Thread nD τ) (dstM c i).view fullShare)
        ∗ (bigSep Finset.univ fun i : Fin 48 => iprop(dutyTok ER (recvCell (tgt c i) i) 0 false ∗ dutyTok ER (sendCell c i) 0 false))
        ∗ (bigSep Finset.univ fun i : Fin 48 => iprop(atPos ER (sendCell c i) 0 ∅ 0 ∗ atPos ER (recvCell c i) 0 ∅ 0))
        ∗ (bigSep Finset.univ fun i : Fin 48 => cred (tallyAt (recvCell c i) () N))) : sProp 𝕄)
      ⊢ iprop((bigSep Finset.univ fun i : Fin 48 => sendTok c i) ∗ (bigSep Finset.univ fun i : Fin 48 => recvTok c i)) := by
  rw [← bigSep_sep', ← bigSep_sep', ← bigSep_sep', ← bigSep_sep']
  exact bigSep_mono fun i _ => tok_deal1 c i

theorem allPre_of (c : Dev nD) :
    (iprop((bigSep Finset.univ fun i : Fin 48 => sendTok c i) ∗ (bigSep Finset.univ fun i : Fin 48 => recvTok c i)
        ∗ (bigSep Finset.univ fun n : Fin 16 => chunkAny (c : Thread nD τ) (SRC c (c16 n)) fullShare)
        ∗ (bigSep Finset.univ fun j : Fin 8 => chunkAny (c : Thread nD τ) (SRC c (i16 j)) fullShare)
        ∗ (bigSep Finset.univ fun j : Fin 8 => chunkAny (c : Thread nD τ) (OBV c (o8 j)) fullShare)
        ∗ (bigSep Finset.univ fun t : Fin 8 × Fin 4 => chunkAny (c : Thread nD τ) (OUTV c (oix t)) fullShare)) : sProp 𝕄)
      ⊢ allPre c := by
  rw [send_split (fun i : Fin 48 => (sendTok c i : sProp 𝕄)), recv_split (fun i : Fin 48 => (recvTok c i : sProp 𝕄)), out_split c]
  unfold allPre pre0 pre1 pre2 pre3f pre3a pre3c
  simp only [bigSep_sep']
  iintro ⟨⟨S0, S16, S24, S25, S40⟩, ⟨R0, R8, R16, R24, R25, R40⟩, X0, X16, OB, O8, O16, O24, O32⟩
  isplitl [X0 S0]
  · isplitl [X0]; · iexact X0
    iexact S0
  isplitl [R0 X16 S16]
  · isplitl [R0]; · iexact R0
    isplitl [X16]; · iexact X16
    iexact S16
  isplitl [R8 R16 O8 OB S24 S25]
  · isplitl [R8]; · iexact R8
    isplitl [R16]; · iexact R16
    isplitl [O8]; · iexact O8
    isplitl [OB]; · iexact OB
    isplitl [S24]; · iexact S24
    iexact S25
  isplitl [R24 S40 O16]
  · isplitl [R24]; · iexact R24
    isplitl [S40]; · iexact S40
    iexact O16
  isplitl [R25 O24]
  · isplitl [R25]; · iexact R25
    iexact O24
  isplitl [R40]; · iexact R40
  iexact O32

theorem fetch_t0 : (cfg0.win (0 : Fin 2)).fetch t₀ = true := by decide +kernel

theorem fromCopy_zero_univ : fromCopy 0 = Finset.univ := Finset.filter_true_of_mem fun i _ => Nat.zero_le _

end SBar

set_option maxHeartbeats 800000 in

theorem stageBar (c : Dev nD) {α : Type} (k : P F α) (Q : α → sProp 𝕄) :
    iprop(bodyPre m ρ K c ∗ ((pers m ρ K c ∗ xPts m ρ c ∗ owesC c (fromCopy 0) ∗ allPre c) -∗ wp frame (wpE (defs₀ (F := F)) 𝒱₀ (c : Thread nD τ) none) Set.univ k Q))
      ⊢ wp frame (wpE (defs₀ (F := F)) 𝒱₀ (c : Thread nD τ) none) Set.univ (stBar c k) Q := by
  unfold stBar stepBar
  simp only [semSignalWord, semWaitWord, Prog.lift, Prog.bind_op, Prog.bind_ret, Prog.pure_eq_ret]
  simp only [Geo.dev_eq_1 c, Geo.dev_eq_2 c]
  unfold bodyPre ghost pers persG xPts owesC
  rw [SBar.fromCopy_zero_univ]
  iintro ⟨⟨⟨⟨⟨#HIbar, #HIbx, #HIby, #HrBx, #HrBy, #Hcells⟩, HatB, Hat, HtBx, HtBy, Htoks⟩, HcB, HcR, #Hlev, Hscr⟩,
    Ho, ⟨%d0, %g0, %hg0, Hx⟩, ⟨%d1, %g1, %hg1, Hout⟩⟩, Hk⟩

  have hx : g0 = xs m ρ c := by rw [hg0]; unfold Dat.before; rw [if_pos SBar.fetch_t0]; rfl
  subst hx
  unfold Dat.owesAt Pipeline.owesWithin
  icases Ho with ⟨%W, %hW, HO⟩
  rw [show (dats m ρ 0 c).owed t₀.castSucc = O₀ c from rfl]

  ihave Hs := (split_scr c) $$ Hscr
  icases Hs with ⟨Hdst, Hsrc0, Hsrc1, Hob⟩
  ihave Hd2 := (Entails.of_eq (SBar.split_tgtX (fun i : Fin 48 => (chunkAny (c : Thread nD τ) (DST c i) fullShare : sProp 𝕄)))) $$ Hdst
  icases Hd2 with ⟨HdT, HdF⟩

  iapply (Rounds.wp_signal 𝒱₀ ER (Rd m ρ) (c : Thread nD τ) none (dst := (Geo.xp c : Thread nD τ)) (κ := K (Geo.xp c, kB))
      (d := true) (by rw [duties_bar]; exact Finset.mem_univ _) ((amount_bar m ρ (Geo.xp c) true).trans (by decide)) ()
      (Ocopies c Finset.univ + tallyAt (barCell (Geo.yp c)) () 1) rfl)
    $$ [HO HtBx HdT]
  · isplitr; · iexact HIbx
    isplitl [HO]; · iexact HO
    isplitl [HtBx]; · iexact HtBx
    isplitl [HdT]
    · rw [payload_bar]; iapply (Entails.of_eq (SBar.barPay_xp c)); iexact HdT
    · iexact HrBx
  iintro HO

  iapply (Rounds.wp_signal 𝒱₀ ER (Rd m ρ) (c : Thread nD τ) none (dst := (Geo.yp c : Thread nD τ)) (κ := K (Geo.yp c, kB))
      (d := false) (by rw [duties_bar]; exact Finset.mem_univ _) ((amount_bar m ρ (Geo.yp c) false).trans (by decide)) ()
      (Ocopies c Finset.univ) rfl)
    $$ [HO HtBy HdF]
  · isplitr; · iexact HIby
    isplitl [HO]; · iexact HO
    isplitl [HtBy]; · iexact HtBy
    isplitl [HdF]
    · rw [payload_bar]; iapply (Entails.of_eq (SBar.barPay_yp c)); iexact HdF
    · iexact HrBy
  iintro HO

  iapply (Rounds.wp_wait_rest_token 𝒱₀ ER (Rd m ρ) (c : Thread nD τ) none (κ := K (c, kB))
      (wpE_semWait_eq 𝒱₀ (c : Thread nD τ) none Set.univ) (Set.mem_univ _) () (O := Ocopies c Finset.univ) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, -, -, Hpay⟩
  ihave Hp := (Entails.of_eq (rest_bar m ρ c)) $$ Hpay
  ihave Hland := (SBar.landing_join c) $$ Hp

  ihave Hsr := (SBar.toks_deal c) $$ [Hland Htoks Hat HcR]
  · isplitl [Hland]; · iexact Hland
    isplitl [Htoks]; · iexact Htoks
    isplitl [Hat]; · iexact Hat
    iexact HcR
  icases Hsr with ⟨HS, HR⟩

  ihave Ho8 := (split_out c) $$ [Hout]
  · iexists g1; iexact Hout
  ihave Hall := (SBar.allPre_of c) $$ [HS HR Hsrc0 Hsrc1 Hob Ho8]
  · isplitl [HS]; · iexact HS
    isplitl [HR]; · iexact HR
    isplitl [Hsrc0]; · iexact Hsrc0
    isplitl [Hsrc1]; · iexact Hsrc1
    isplitl [Hob]; · iexact Hob
    iexact Ho8
  iapply Hk
  isplitr
  · isplitr
    · isplitr; · iexact HIbar
      isplitr; · iexact HIbx
      isplitr; · iexact HIby
      isplitr; · iexact HrBx
      isplitr; · iexact HrBy
      iexact Hcells
    · iexact Hlev
  isplitl [Hx]; · iexact Hx
  isplitl [HO]
  · iexists (insert (SemLoc.reg barS, ()) W); iexact HO
  iexact Hall

/-- info: 'Cert.KernelIdeal.Pf.stageBar' depends on axioms: [propext, Classical.choice, Quot.sound] -/
#guard_msgs in #print axioms stageBar

end Cert.KernelIdeal.Pf

end
-- ==== Proof.Stage0.lean ====
import proofs.«900778_g7700000000000779_dist_f_of_ar_i_m1024_n512_v7x_i4_f32_1_alg».proof.Proof.Inv
import proofs.«900778_g7700000000000779_dist_f_of_ar_i_m1024_n512_v7x_i4_f32_1_alg».proof.Proof.LibChunks
import proofs.«900778_g7700000000000779_dist_f_of_ar_i_m1024_n512_v7x_i4_f32_1_alg».proof.Proof.Levels

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ)

namespace S0

theorem s0_o3 (c : Dev nD) (r : Fin 4) : k0_off3 c (w32 r) = k0_off2 c (w32 r) := (Geo.off_eq_3 c r).trans (Geo.off_eq_2 c r).symm
theorem s0_o6 (c : Dev nD) (r : Fin 4) : k0_off6 c (w32 r) = k0_off5 c (w32 r) := (Geo.off_eq_6 c r).trans (Geo.off_eq_5 c r).symm
theorem s0_o9 (c : Dev nD) (r : Fin 4) : k0_off9 c (w32 r) = k0_off8 c (w32 r) := (Geo.off_eq_9 c r).trans (Geo.off_eq_8 c r).symm
theorem s0_o12 (c : Dev nD) (r : Fin 4) : k0_off12 c (w32 r) = k0_off11 c (w32 r) := (Geo.off_eq_12 c r).trans (Geo.off_eq_11 c r).symm

def s0_sbM : Fin 16 → Memref sig .tc .vmem S256x512 .bf16
  | ⟨0, _⟩ => Memref.whole cc0_scratch0
  | ⟨1, _⟩ => Memref.whole cc0_scratch1
  | ⟨2, _⟩ => Memref.whole cc0_scratch0
  | ⟨3, _⟩ => Memref.whole cc0_scratch1
  | ⟨4, _⟩ => Memref.whole cc0_scratch0
  | ⟨5, _⟩ => Memref.whole cc0_scratch1
  | ⟨6, _⟩ => Memref.whole cc0_scratch0
  | ⟨7, _⟩ => Memref.whole cc0_scratch1
  | ⟨8, _⟩ => Memref.whole cc0_scratch0
  | ⟨9, _⟩ => Memref.whole cc0_scratch1
  | ⟨10, _⟩ => Memref.whole cc0_scratch0
  | ⟨11, _⟩ => Memref.whole cc0_scratch1
  | ⟨12, _⟩ => Memref.whole cc0_scratch0
  | ⟨13, _⟩ => Memref.whole cc0_scratch1
  | ⟨14, _⟩ => Memref.whole cc0_scratch0
  | ⟨15, _⟩ => Memref.whole cc0_scratch1
  | ⟨_ + 16, h⟩ => absurd h (Nat.not_lt.2 (Nat.le_add_left _ _))

theorem s0_src_any (c : Dev nD) (q : PosShare TreeShare) : ∀ n : Fin 16,
    (chunkAny (c : Thread nD τ) (SRC c (c16 n)) q : sProp 𝕄) = chunkAny (c : Thread nD τ) ((s0_sbM n).access (Rect.unit (s := S256x512) (sb0o c n).1 S32x512.size (sb0o c n).2)) q
  | ⟨0, _⟩ => chunkAny_congr_off (c := (c : Thread nD τ)) (Memref.whole cc0_scratch0) (s0_o3 c 0) _ _ q
  | ⟨1, _⟩ => chunkAny_congr_off (c := (c : Thread nD τ)) (Memref.whole cc0_scratch1) (s0_o6 c 0) _ _ q
  | ⟨2, _⟩ => chunkAny_congr_off (c := (c : Thread nD τ)) (Memref.whole cc0_scratch0) (s0_o3 c 1) _ _ q
  | ⟨3, _⟩ => chunkAny_congr_off (c := (c : Thread nD τ)) (Memref.whole cc0_scratch1) (s0_o6 c 1) _ _ q
  | ⟨4, _⟩ => chunkAny_congr_off (c := (c : Thread nD τ)) (Memref.whole cc0_scratch0) (s0_o3 c 2) _ _ q
  | ⟨5, _⟩ => chunkAny_congr_off (c := (c : Thread nD τ)) (Memref.whole cc0_scratch1) (s0_o6 c 2) _ _ q
  | ⟨6, _⟩ => chunkAny_congr_off (c := (c : Thread nD τ)) (Memref.whole cc0_scratch0) (s0_o3 c 3) _ _ q
  | ⟨7, _⟩ => chunkAny_congr_off (c := (c : Thread nD τ)) (Memref.whole cc0_scratch1) (s0_o6 c 3) _ _ q
  | ⟨8, _⟩ => chunkAny_congr_off (c := (c : Thread nD τ)) (Memref.whole cc0_scratch0) (s0_o9 c 0) _ _ q
  | ⟨9, _⟩ => chunkAny_congr_off (c := (c : Thread nD τ)) (Memref.whole cc0_scratch1) (s0_o12 c 0) _ _ q
  | ⟨10, _⟩ => chunkAny_congr_off (c := (c : Thread nD τ)) (Memref.whole cc0_scratch0) (s0_o9 c 1) _ _ q
  | ⟨11, _⟩ => chunkAny_congr_off (c := (c : Thread nD τ)) (Memref.whole cc0_scratch1) (s0_o12 c 1) _ _ q
  | ⟨12, _⟩ => chunkAny_congr_off (c := (c : Thread nD τ)) (Memref.whole cc0_scratch0) (s0_o9 c 2) _ _ q
  | ⟨13, _⟩ => chunkAny_congr_off (c := (c : Thread nD τ)) (Memref.whole cc0_scratch1) (s0_o12 c 2) _ _ q
  | ⟨14, _⟩ => chunkAny_congr_off (c := (c : Thread nD τ)) (Memref.whole cc0_scratch0) (s0_o9 c 3) _ _ q
  | ⟨15, _⟩ => chunkAny_congr_off (c := (c : Thread nD τ)) (Memref.whole cc0_scratch1) (s0_o12 c 3) _ _ q
  | ⟨_ + 16, h⟩ => absurd h (Nat.not_lt.2 (Nat.le_add_left _ _))

theorem s0_src_at (c : Dev nD) (q : PosShare TreeShare) : ∀ (n : Fin 16) (w : B32 F),
    (chunkAt (c : Thread nD τ) (SRC c (c16 n)) q w : sProp 𝕄) = chunkAt (c : Thread nD τ) ((s0_sbM n).access (Rect.unit (s := S256x512) (sb0o c n).1 S32x512.size (sb0o c n).2)) q w
  | ⟨0, _⟩, w => chunkAt_congr_off (c := (c : Thread nD τ)) (Memref.whole cc0_scratch0) (s0_o3 c 0) _ _ q w
  | ⟨1, _⟩, w => chunkAt_congr_off (c := (c : Thread nD τ)) (Memref.whole cc0_scratch1) (s0_o6 c 0) _ _ q w
  | ⟨2, _⟩, w => chunkAt_congr_off (c := (c : Thread nD τ)) (Memref.whole cc0_scratch0) (s0_o3 c 1) _ _ q w
  | ⟨3, _⟩, w => chunkAt_congr_off (c := (c : Thread nD τ)) (Memref.whole cc0_scratch1) (s0_o6 c 1) _ _ q w
  | ⟨4, _⟩, w => chunkAt_congr_off (c := (c : Thread nD τ)) (Memref.whole cc0_scratch0) (s0_o3 c 2) _ _ q w
  | ⟨5, _⟩, w => chunkAt_congr_off (c := (c : Thread nD τ)) (Memref.whole cc0_scratch1) (s0_o6 c 2) _ _ q w
  | ⟨6, _⟩, w => chunkAt_congr_off (c := (c : Thread nD τ)) (Memref.whole cc0_scratch0) (s0_o3 c 3) _ _ q w
  | ⟨7, _⟩, w => chunkAt_congr_off (c := (c : Thread nD τ)) (Memref.whole cc0_scratch1) (s0_o6 c 3) _ _ q w
  | ⟨8, _⟩, w => chunkAt_congr_off (c := (c : Thread nD τ)) (Memref.whole cc0_scratch0) (s0_o9 c 0) _ _ q w
  | ⟨9, _⟩, w => chunkAt_congr_off (c := (c : Thread nD τ)) (Memref.whole cc0_scratch1) (s0_o12 c 0) _ _ q w
  | ⟨10, _⟩, w => chunkAt_congr_off (c := (c : Thread nD τ)) (Memref.whole cc0_scratch0) (s0_o9 c 1) _ _ q w
  | ⟨11, _⟩, w => chunkAt_congr_off (c := (c : Thread nD τ)) (Memref.whole cc0_scratch1) (s0_o12 c 1) _ _ q w
  | ⟨12, _⟩, w => chunkAt_congr_off (c := (c : Thread nD τ)) (Memref.whole cc0_scratch0) (s0_o9 c 2) _ _ q w
  | ⟨13, _⟩, w => chunkAt_congr_off (c := (c : Thread nD τ)) (Memref.whole cc0_scratch1) (s0_o12 c 2) _ _ q w
  | ⟨14, _⟩, w => chunkAt_congr_off (c := (c : Thread nD τ)) (Memref.whole cc0_scratch0) (s0_o9 c 3) _ _ q w
  | ⟨15, _⟩, w => chunkAt_congr_off (c := (c : Thread nD τ)) (Memref.whole cc0_scratch1) (s0_o12 c 3) _ _ q w
  | ⟨_ + 16, h⟩, _ => absurd h (Nat.not_lt.2 (Nat.le_add_left _ _))

theorem s0_dst_credit (c : Dev nD) : ∀ n : Fin 16, (dstM c (c16 n)).view.amount (.dma (rSem (c16 n))) = N
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨_ + 16, h⟩ => absurd h (Nat.not_lt.2 (Nat.le_add_left _ _))

theorem s0_sendShare (n : Fin 16) : sendShare (c16 n) = fullShare := by
  unfold sendShare
  exact if_pos (Nat.lt_trans n.isLt (by decide))

def s0_six (c : Dev nD) (i : Fin 48) : sProp 𝕄 :=
  iprop(cellInv ER (Rd m ρ) (K (c, kS i)) (sendCell c i) ∗ cellInv ER (Rd m ρ) (K (c, kR i)) (recvCell c i)
    ∗ cellInv ER (Rd m ρ) (K (tgt c i, kR i)) (recvCell (tgt c i) i)
    ∗ reached ER (sendCell c i) 0 ∗ reached ER (recvCell c i) 0 ∗ reached ER (recvCell (tgt c i) i) 0)

theorem s0_pers_six (c : Dev nD) (i : Fin 48) : pers m ρ K c ⊢ s0_six m ρ K c i := by
  have h1 : pers m ρ K c ⊢ (bigSep Finset.univ fun i : Fin 48 => s0_six m ρ K c i) := by
    unfold pers persG s0_six
    iintro ⟨⟨-, -, -, -, -, Hall⟩, -⟩
    iexact Hall
  exact h1.trans (bigSep_elim (Finset.mem_univ i))

theorem s0_load_x (c : Dev nD) (o : { o : Fin 2 → ℕ // ∀ a, o a + S32x512.size a ≤ S1024x512.size a })
    {hl : (Memref.whole cc0_stg0_0 : Memref sig .tc .vmem S1024x512 .f32).view.LoadsAt (Rect.unit (s := S1024x512) o.1 S32x512.size o.2).toLoadRect}
    {α : Type} {k : V32 F → P F α} {Q : α → sProp 𝕄} :
    xPts m ρ c ⊢ iprop((xPts m ρ c -∗ wp frame (wpE (defs₀ (F := F)) 𝒱₀ (c : Thread nD τ) none) Set.univ (k (xrd m ρ c o)) Q)
        -∗ wp frame (wpE (defs₀ (F := F)) 𝒱₀ (c : Thread nD τ) none) Set.univ (.op (.load (Memref.whole cc0_stg0_0) (Rect.unit (s := S1024x512) o.1 S32x512.size o.2).toLoadRect hl) k) Q) := by
  unfold xPts xrd
  exact wp_load_rect 𝒱₀ (c : Thread nD τ) none Set.univ (m := (Memref.whole cc0_stg0_0 : Memref sig .tc .vmem S1024x512 .f32))
    (r := Rect.unit (s := S1024x512) o.1 S32x512.size o.2) (S := Finset.univ) (q := fullShare) (f := xs m ρ c) (Finset.subset_univ _)

theorem s0_load_drop (c : Dev nD) {cs : CoreSpace} {s : Shape} {e : EltTy} {mm : Memref sig .tc cs s e} {r : Rect s}
    {hl : mm.view.LoadsAt r.toLoadRect} {α : Type} {k : P F α} {Q : α → sProp 𝕄} :
    (chunkAny (c : Thread nD τ) (mm.access r) fullShare : sProp 𝕄)
      ⊢ iprop((chunkAny (c : Thread nD τ) (mm.access r) fullShare -∗ wp frame (wpE (defs₀ (F := F)) 𝒱₀ (c : Thread nD τ) none) Set.univ k Q)
        -∗ wp frame (wpE (defs₀ (F := F)) 𝒱₀ (c : Thread nD τ) none) Set.univ (.op (.load mm r.toLoadRect hl) (fun _ => k)) Q) := by
  refine chunkAny_elim.trans ?_
  iintro ⟨%f, H⟩ Hk
  iapply (wp_load_chunk 𝒱₀ (c : Thread nD τ) none Set.univ (m := mm) (r := r) (q := fullShare) (w := (mm.access r).read (Elt F) f)) $$ [H]
  · iapply (chunkAt_of_pointsTo (c := (c : Thread nD τ)) (v := mm.access r) (q := fullShare) f)
    iexact H
  iintro H
  iapply Hk
  iapply (chunkAt_any (c := (c : Thread nD τ)) (v := mm.access r) (q := fullShare) (w := (mm.access r).read (Elt F) f))
  iexact H

theorem s0_send_pts (c : Dev nD) (n : Fin 16) (W : Waits sig Unit)
    (fs : Buf (Elt F) ((srcM c (c16 n)).view.loc (c : Thread nD τ)))
    (hfs : (srcM c (c16 n)).view.read (Elt F) fs = tr (xrd m ρ c (x0o c n)))
    (fd : Buf (Elt F) ((dstM c (c16 n)).view.loc ((tgt c (c16 n) : Dev nD) : Thread nD τ)))
    {hsc : (dstM c (c16 n)).view.ref.isScScratch = false}
    {hsrc : (srcM c (c16 n)).view.WordExact} {hdst : (dstM c (c16 n)).view.WordExact}
    {hsem : DmaTarget.Typed .vmem (.dma (rSem (c16 n))) (.remote (Dev.tc (tgt c (c16 n)) : Thread nD τ) (dstM c (c16 n)) (.dma (sSem (c16 n))) hsc)}
    {α : Type} {Q : α → sProp 𝕄} {k : PUnit → P F α} :
    iprop(cellInv ER (Rd m ρ) (K (c, kS (c16 n))) (sendCell c (c16 n))
        ∗ cellInv ER (Rd m ρ) (K (tgt c (c16 n), kR (c16 n))) (recvCell (tgt c (c16 n)) (c16 n))
        ∗ ((srcM c (c16 n)).view.loc (c : Thread nD τ) ↦[(srcM c (c16 n)).view.set]{fullShare} fs)
        ∗ ((dstM c (c16 n)).view.loc ((tgt c (c16 n) : Dev nD) : Thread nD τ) ↦[(dstM c (c16 n)).view.set]{fullShare} fd)
        ∗ owes (c : Thread nD τ) (Ocopies c (fromCopy n.val)) W
        ∗ dutyTok ER (sendCell c (c16 n)) 0 false ∗ reached ER (sendCell c (c16 n)) 0
        ∗ dutyTok ER (recvCell (tgt c (c16 n)) (c16 n)) 0 false ∗ reached ER (recvCell (tgt c (c16 n)) (c16 n)) 0)
      ⊢ iprop(((cred (tallyAt (sendCell c (c16 n)) () N) ∗ owes (c : Thread nD τ) (Ocopies c (fromCopy (n.val + 1))) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcM c (c16 n)) (.remote (Dev.tc (tgt c (c16 n)) : Thread nD τ) (dstM c (c16 n)) (.dma (sSem (c16 n))) hsc) (.dma (rSem (c16 n))) hsrc hdst hsem) k) Q) :=
  Rounds.wp_send_pointsTo 𝒱₀ ER (Rd m ρ) (c : Thread nD τ) none
    (c' := ((tgt c (c16 n) : Dev nD) : Thread nD τ)) (src := srcM c (c16 n)) (dst := dstM c (c16 n)) (q := fullShare) (fs := fs) (fd := fd)
    (κ₁ := K (c, kS (c16 n))) (κ₂ := K (tgt c (c16 n), kR (c16 n))) (r₁ := 0) (r₂ := 0) (d₁ := false) (d₂ := false)
    (by rw [duties_send]; exact Finset.mem_singleton_self _) (by rw [duties_recv]; exact Finset.mem_singleton_self _)
    () () N (s0_dst_credit c n) (amount_send m ρ c (c16 n) false) (amount_recv m ρ (tgt c (c16 n)) (c16 n) false)
    (Ocopies c (fromCopy (n.val + 1))) (Ocopies_peel c n.val (Nat.lt_trans n.isLt (by decide))) (W := W)
    (by rw [payload_send]; unfold sendPay; rw [s0_sendShare n]; exact chunkAny_of_pointsTo fs)
    (by
      rw [payload_recv]; unfold recvPay DST; rw [tgt_tgt]
      exact chunkAt_intro _ ((View.read_write_univ (v := (dstM c (c16 n)).view) fd ((srcM c (c16 n)).view.read (Elt F) fs)).trans (hfs.trans (Wi_c16 m ρ c n).symm)))

theorem s0_send (c : Dev nD) (n : Fin 16) (W : Waits sig Unit)
    {hsc : (dstM c (c16 n)).view.ref.isScScratch = false}
    {hsrc : (srcM c (c16 n)).view.WordExact} {hdst : (dstM c (c16 n)).view.WordExact}
    {hsem : DmaTarget.Typed .vmem (.dma (rSem (c16 n))) (.remote (Dev.tc (tgt c (c16 n)) : Thread nD τ) (dstM c (c16 n)) (.dma (sSem (c16 n))) hsc)}
    {α : Type} {Q : α → sProp 𝕄} {k : PUnit → P F α} :
    iprop(cellInv ER (Rd m ρ) (K (c, kS (c16 n))) (sendCell c (c16 n))
        ∗ cellInv ER (Rd m ρ) (K (tgt c (c16 n), kR (c16 n))) (recvCell (tgt c (c16 n)) (c16 n))
        ∗ chunkAt (c : Thread nD τ) (SRC c (c16 n)) fullShare (tr (xrd m ρ c (x0o c n)))
        ∗ chunkAny ((tgt c (c16 n) : Dev nD) : Thread nD τ) (dstM c (c16 n)).view fullShare
        ∗ owes (c : Thread nD τ) (Ocopies c (fromCopy n.val)) W
        ∗ dutyTok ER (sendCell c (c16 n)) 0 false ∗ reached ER (sendCell c (c16 n)) 0
        ∗ dutyTok ER (recvCell (tgt c (c16 n)) (c16 n)) 0 false ∗ reached ER (recvCell (tgt c (c16 n)) (c16 n)) 0)
      ⊢ iprop(((cred (tallyAt (sendCell c (c16 n)) () N) ∗ owes (c : Thread nD τ) (Ocopies c (fromCopy (n.val + 1))) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcM c (c16 n)) (.remote (Dev.tc (tgt c (c16 n)) : Thread nD τ) (dstM c (c16 n)) (.dma (sSem (c16 n))) hsc) (.dma (rSem (c16 n))) hsrc hdst hsem) k) Q) := by
  unfold chunkAt chunkAny
  iintro ⟨#H1, #H2, ⟨%fs, %hfs, Hs⟩, ⟨%fd, Hd⟩, HO, Ht1, #Hr1, Ht2, #Hr2⟩
  iapply (s0_send_pts m ρ K c n W fs hfs fd)
  isplitr; · iexact H1
  isplitr; · iexact H2
  isplitl [Hs]; · iexact Hs
  isplitl [Hd]; · iexact Hd
  isplitl [HO]; · iexact HO
  isplitl [Ht1]; · iexact Ht1
  isplitr; · iexact Hr1
  isplitl [Ht2]; · iexact Ht2
  iexact Hr2

theorem s0_step (c : Dev nD) (n : Fin 16) {α : Type} (k : P F α) (Q : α → sProp 𝕄)
    {hst : ((s0_sbM n).access (Rect.unit (s := S256x512) (sb0o c n).1 S32x512.size (sb0o c n).2)).Stores Finset.univ}
    {hsc : (dstM c (c16 n)).view.ref.isScScratch = false}
    {hsrc : (srcM c (c16 n)).view.WordExact} {hdst : (dstM c (c16 n)).view.WordExact}
    {hsem : DmaTarget.Typed .vmem (.dma (rSem (c16 n))) (.remote (Dev.tc (tgt c (c16 n)) : Thread nD τ) (dstM c (c16 n)) (.dma (sSem (c16 n))) hsc)} :
    iprop(pers m ρ K c ∗ xPts m ρ c ∗ owesC c (fromCopy n.val) ∗ pre0 c n
        ∗ ((xPts m ρ c ∗ owesC c (fromCopy (n.val + 1)) ∗ post0 c n) -∗ wp frame (wpE (defs₀ (F := F)) 𝒱₀ (c : Thread nD τ) none) Set.univ k Q))
      ⊢ wp frame (wpE (defs₀ (F := F)) 𝒱₀ (c : Thread nD τ) none) Set.univ (stepS0 (Memref.whole cc0_stg0_0) (x0o c n).1 (x0o c n).2 (s0_sbM n) (sb0o c n).1 (sb0o c n).2 hst
            (srcM c (c16 n)) (dstM c (c16 n)) hsc (tgt c (c16 n)) (sSem (c16 n)) (rSem (c16 n)) hsrc hdst hsem k) Q := by
  unfold stepS0
  simp only [Prog.lift, Prog.bind_op, Prog.bind_ret, Prog.pure_eq_ret]
  unfold pre0 post0 sendTok sentTok owesC
  iintro ⟨#Hp, Hx, ⟨%W, HO⟩, ⟨Hsrc, Hdst, HtR, HtS, HatS⟩, Hk⟩
  ihave Hc := (s0_pers_six m ρ K c (c16 n)) $$ Hp
  unfold s0_six
  icases Hc with ⟨#HIs, -, #HIr, #Hrs, -, #Hrr⟩

  iapply (s0_load_x m ρ c (x0o c n)) $$ [Hx]
  · iexact Hx
  iintro Hx

  ihave Hsb := (Entails.of_eq (s0_src_any c fullShare n)) $$ Hsrc
  iapply (s0_load_drop c) $$ [Hsb]
  · iexact Hsb
  iintro Hsb

  iapply (wp_store_chunk 𝒱₀ (c : Thread nD τ) none Set.univ) $$ [Hsb]
  · iexact Hsb
  iintro Hsb
  ihave Hs := (Entails.of_eq (s0_src_at c fullShare n (tr (xrd m ρ c (x0o c n)))).symm) $$ Hsb

  iapply (s0_send m ρ K c n W) $$ [Hs Hdst HO HtS HtR]
  · isplitr; · iexact HIs
    isplitr; · iexact HIr
    isplitl [Hs]; · iexact Hs
    isplitl [Hdst]; · iexact Hdst
    isplitl [HO]; · iexact HO
    isplitl [HtS]; · iexact HtS
    isplitr; · iexact Hrs
    isplitl [HtR]; · iexact HtR
    iexact Hrr
  iintro ⟨Hc, HO⟩
  iapply Hk
  isplitl [Hx]; · iexact Hx
  isplitl [HO]; · iexists W; iexact HO
  isplitl [Hc]; · iexact Hc
  iexact HatS

theorem s0_bigSep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide +kernel) (by decide +kernel) Φ

end S0

theorem stage0 (c : Dev nD) {α : Type} (k : P F α) (Q : α → sProp 𝕄) :
    iprop(pers m ρ K c ∗ xPts m ρ c ∗ owesC c (fromCopy 0) ∗ (bigSep Finset.univ fun n : Fin 16 => pre0 c n)
        ∗ ((xPts m ρ c ∗ owesC c (fromCopy 16) ∗ (bigSep Finset.univ fun n : Fin 16 => post0 c n)) -∗ wp frame (wpE (defs₀ (F := F)) 𝒱₀ (c : Thread nD τ) none) Set.univ k Q))
      ⊢ wp frame (wpE (defs₀ (F := F)) 𝒱₀ (c : Thread nD τ) none) Set.univ (st0 c k) Q := by
  rw [S0.s0_bigSep16, S0.s0_bigSep16]
  unfold st0
  iintro ⟨#Hp, Hx, HO, ⟨H0, H1, H2, H3, H4, H5, H6, H7, H8, H9, H10, H11, H12, H13, H14, H15⟩, Hk⟩
  iapply (S0.s0_step m ρ K c 0 _ Q)
  isplitr; · iexact Hp
  isplitl [Hx]; · iexact Hx
  isplitl [HO]; · iexact HO
  isplitl [H0]; · iexact H0
  iintro ⟨Hx, HO, P0⟩
  iapply (S0.s0_step m ρ K c 1 _ Q)
  isplitr; · iexact Hp
  isplitl [Hx]; · iexact Hx
  isplitl [HO]; · iexact HO
  isplitl [H1]; · iexact H1
  iintro ⟨Hx, HO, P1⟩
  iapply (S0.s0_step m ρ K c 2 _ Q)
  isplitr; · iexact Hp
  isplitl [Hx]; · iexact Hx
  isplitl [HO]; · iexact HO
  isplitl [H2]; · iexact H2
  iintro ⟨Hx, HO, P2⟩
  iapply (S0.s0_step m ρ K c 3 _ Q)
  isplitr; · iexact Hp
  isplitl [Hx]; · iexact Hx
  isplitl [HO]; · iexact HO
  isplitl [H3]; · iexact H3
  iintro ⟨Hx, HO, P3⟩
  iapply (S0.s0_step m ρ K c 4 _ Q)
  isplitr; · iexact Hp
  isplitl [Hx]; · iexact Hx
  isplitl [HO]; · iexact HO
  isplitl [H4]; · iexact H4
  iintro ⟨Hx, HO, P4⟩
  iapply (S0.s0_step m ρ K c 5 _ Q)
  isplitr; · iexact Hp
  isplitl [Hx]; · iexact Hx
  isplitl [HO]; · iexact HO
  isplitl [H5]; · iexact H5
  iintro ⟨Hx, HO, P5⟩
  iapply (S0.s0_step m ρ K c 6 _ Q)
  isplitr; · iexact Hp
  isplitl [Hx]; · iexact Hx
  isplitl [HO]; · iexact HO
  isplitl [H6]; · iexact H6
  iintro ⟨Hx, HO, P6⟩
  iapply (S0.s0_step m ρ K c 7 _ Q)
  isplitr; · iexact Hp
  isplitl [Hx]; · iexact Hx
  isplitl [HO]; · iexact HO
  isplitl [H7]; · iexact H7
  iintro ⟨Hx, HO, P7⟩
  iapply (S0.s0_step m ρ K c 8 _ Q)
  isplitr; · iexact Hp
  isplitl [Hx]; · iexact Hx
  isplitl [HO]; · iexact HO
  isplitl [H8]; · iexact H8
  iintro ⟨Hx, HO, P8⟩
  iapply (S0.s0_step m ρ K c 9 _ Q)
  isplitr; · iexact Hp
  isplitl [Hx]; · iexact Hx
  isplitl [HO]; · iexact HO
  isplitl [H9]; · iexact H9
  iintro ⟨Hx, HO, P9⟩
  iapply (S0.s0_step m ρ K c 10 _ Q)
  isplitr; · iexact Hp
  isplitl [Hx]; · iexact Hx
  isplitl [HO]; · iexact HO
  isplitl [H10]; · iexact H10
  iintro ⟨Hx, HO, P10⟩
  iapply (S0.s0_step m ρ K c 11 _ Q)
  isplitr; · iexact Hp
  isplitl [Hx]; · iexact Hx
  isplitl [HO]; · iexact HO
  isplitl [H11]; · iexact H11
  iintro ⟨Hx, HO, P11⟩
  iapply (S0.s0_step m ρ K c 12 _ Q)
  isplitr; · iexact Hp
  isplitl [Hx]; · iexact Hx
  isplitl [HO]; · iexact HO
  isplitl [H12]; · iexact H12
  iintro ⟨Hx, HO, P12⟩
  iapply (S0.s0_step m ρ K c 13 _ Q)
  isplitr; · iexact Hp
  isplitl [Hx]; · iexact Hx
  isplitl [HO]; · iexact HO
  isplitl [H13]; · iexact H13
  iintro ⟨Hx, HO, P13⟩
  iapply (S0.s0_step m ρ K c 14 _ Q)
  isplitr; · iexact Hp
  isplitl [Hx]; · iexact Hx
  isplitl [HO]; · iexact HO
  isplitl [H14]; · iexact H14
  iintro ⟨Hx, HO, P14⟩
  iapply (S0.s0_step m ρ K c 15 _ Q)
  isplitr; · iexact Hp
  isplitl [Hx]; · iexact Hx
  isplitl [HO]; · iexact HO
  isplitl [H15]; · iexact H15
  iintro ⟨Hx, HO, P15⟩
  iapply Hk
  isplitl [Hx]; · iexact Hx
  isplitl [HO]; · iexact HO
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  iexact P15

end Cert.KernelIdeal.Pf

end

/-- info: 'Cert.KernelIdeal.Pf.stage0' depends on axioms: [propext, Classical.choice, Quot.sound] -/
#guard_msgs in #print axioms Cert.KernelIdeal.Pf.stage0
-- ==== Proof.Stage1.lean ====
import proofs.«900778_g7700000000000779_dist_f_of_ar_i_m1024_n512_v7x_i4_f32_1_alg».proof.Proof.Inv
import proofs.«900778_g7700000000000779_dist_f_of_ar_i_m1024_n512_v7x_i4_f32_1_alg».proof.Proof.LibChunks
import proofs.«900778_g7700000000000779_dist_f_of_ar_i_m1024_n512_v7x_i4_f32_1_alg».proof.Proof.Levels

set_option maxRecDepth 16384

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ)

namespace S1

theorem access_congr_off1 {sp : Space} {s : Shape} {e : EltTy} (mr : Memref sig .tc sp s e) {off off' size : Fin s.rank → ℕ}
    (h : off = off') (inb : ∀ a, off a + size a ≤ s.size a) (inb' : ∀ a, off' a + size a ≤ s.size a) :
    mr.access (Rect.unit off size inb) = mr.access (Rect.unit off' size inb') := by
  subst h; rfl

theorem stageOf_i0 (j : Fin 8) : stageOf (i0 j) = 0 := by
  unfold stageOf i0
  rw [if_pos (by show j.val < 16; omega)]

theorem stageOf_pos_of_le (i : Fin 48) (h : 16 ≤ i.val) : 0 < stageOf i := by
  unfold stageOf
  rw [if_neg (by omega)]
  by_cases h1 : i.val < 24
  · rw [if_pos h1]; exact Nat.one_pos
  · rw [if_neg h1]
    by_cases h2 : i.val < 40
    · rw [if_pos h2]; exact Nat.succ_pos 1
    · rw [if_neg h2]; exact Nat.succ_pos 2

theorem sendShare_i16 (j : Fin 8) : sendShare (i16 j) = fullShare := by
  unfold sendShare i16
  rw [if_pos (by show 16 + j.val < 24; omega)]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl

theorem hr1_0 (c : Dev nD) (ri : ∀ a, (k0_off2 c 0#32) a + S32x512.size a ≤ S256x512.size a) :
    (Memref.whole cc0_scratch2 : Memref sig .tc .vmem S256x512 .bf16).access (Rect.unit (s := S256x512) (k0_off2 c 0#32) S32x512.size ri)
      = DST c (i0 0) := by
  have hd : tgt c (i0 0) = Geo.xp c := Geo.dev_eq_3 c
  have ho : k0_off3 (Geo.xp c) 0#32 = k0_off2 c 0#32 := Geo.off3_xp_eq_off2 c 0
  show _ = (dstM (tgt c (i0 0)) (i0 0)).view
  rw [hd]
  exact access_congr_off1 _ ho.symm _ _

theorem hr1_1 (c : Dev nD) (ri : ∀ a, (k0_off5 c 0#32) a + S32x512.size a ≤ S256x512.size a) :
    (Memref.whole cc0_scratch3 : Memref sig .tc .vmem S256x512 .bf16).access (Rect.unit (s := S256x512) (k0_off5 c 0#32) S32x512.size ri)
      = DST c (i0 1) := by
  have hd : tgt c (i0 1) = Geo.yp c := Geo.dev_eq_4 c
  have ho : k0_off6 (Geo.yp c) 0#32 = k0_off5 c 0#32 := Geo.off6_yp_eq_off5 c 0
  show _ = (dstM (tgt c (i0 1)) (i0 1)).view
  rw [hd]
  exact access_congr_off1 _ ho.symm _ _

theorem hr1_2 (c : Dev nD) (ri : ∀ a, (k0_off2 c 32#32) a + S32x512.size a ≤ S256x512.size a) :
    (Memref.whole cc0_scratch2 : Memref sig .tc .vmem S256x512 .bf16).access (Rect.unit (s := S256x512) (k0_off2 c 32#32) S32x512.size ri)
      = DST c (i0 2) := by
  have hd : tgt c (i0 2) = Geo.xp c := Geo.dev_eq_5 c
  have ho : k0_off3 (Geo.xp c) 32#32 = k0_off2 c 32#32 := Geo.off3_xp_eq_off2 c 1
  show _ = (dstM (tgt c (i0 2)) (i0 2)).view
  rw [hd]
  exact access_congr_off1 _ ho.symm _ _

theorem hr1_3 (c : Dev nD) (ri : ∀ a, (k0_off5 c 32#32) a + S32x512.size a ≤ S256x512.size a) :
    (Memref.whole cc0_scratch3 : Memref sig .tc .vmem S256x512 .bf16).access (Rect.unit (s := S256x512) (k0_off5 c 32#32) S32x512.size ri)
      = DST c (i0 3) := by
  have hd : tgt c (i0 3) = Geo.yp c := Geo.dev_eq_6 c
  have ho : k0_off6 (Geo.yp c) 32#32 = k0_off5 c 32#32 := Geo.off6_yp_eq_off5 c 1
  show _ = (dstM (tgt c (i0 3)) (i0 3)).view
  rw [hd]
  exact access_congr_off1 _ ho.symm _ _

theorem hr1_4 (c : Dev nD) (ri : ∀ a, (k0_off2 c 64#32) a + S32x512.size a ≤ S256x512.size a) :
    (Memref.whole cc0_scratch2 : Memref sig .tc .vmem S256x512 .bf16).access (Rect.unit (s := S256x512) (k0_off2 c 64#32) S32x512.size ri)
      = DST c (i0 4) := by
  have hd : tgt c (i0 4) = Geo.xp c := Geo.dev_eq_7 c
  have ho : k0_off3 (Geo.xp c) 64#32 = k0_off2 c 64#32 := Geo.off3_xp_eq_off2 c 2
  show _ = (dstM (tgt c (i0 4)) (i0 4)).view
  rw [hd]
  exact access_congr_off1 _ ho.symm _ _

theorem hr1_5 (c : Dev nD) (ri : ∀ a, (k0_off5 c 64#32) a + S32x512.size a ≤ S256x512.size a) :
    (Memref.whole cc0_scratch3 : Memref sig .tc .vmem S256x512 .bf16).access (Rect.unit (s := S256x512) (k0_off5 c 64#32) S32x512.size ri)
      = DST c (i0 5) := by
  have hd : tgt c (i0 5) = Geo.yp c := Geo.dev_eq_8 c
  have ho : k0_off6 (Geo.yp c) 64#32 = k0_off5 c 64#32 := Geo.off6_yp_eq_off5 c 2
  show _ = (dstM (tgt c (i0 5)) (i0 5)).view
  rw [hd]
  exact access_congr_off1 _ ho.symm _ _

theorem hr1_6 (c : Dev nD) (ri : ∀ a, (k0_off2 c 96#32) a + S32x512.size a ≤ S256x512.size a) :
    (Memref.whole cc0_scratch2 : Memref sig .tc .vmem S256x512 .bf16).access (Rect.unit (s := S256x512) (k0_off2 c 96#32) S32x512.size ri)
      = DST c (i0 6) := by
  have hd : tgt c (i0 6) = Geo.xp c := Geo.dev_eq_9 c
  have ho : k0_off3 (Geo.xp c) 96#32 = k0_off2 c 96#32 := Geo.off3_xp_eq_off2 c 3
  show _ = (dstM (tgt c (i0 6)) (i0 6)).view
  rw [hd]
  exact access_congr_off1 _ ho.symm _ _

theorem hr1_7 (c : Dev nD) (ri : ∀ a, (k0_off5 c 96#32) a + S32x512.size a ≤ S256x512.size a) :
    (Memref.whole cc0_scratch3 : Memref sig .tc .vmem S256x512 .bf16).access (Rect.unit (s := S256x512) (k0_off5 c 96#32) S32x512.size ri)
      = DST c (i0 7) := by
  have hd : tgt c (i0 7) = Geo.yp c := Geo.dev_eq_10 c
  have ho : k0_off6 (Geo.yp c) 96#32 = k0_off5 c 96#32 := Geo.off6_yp_eq_off5 c 3
  show _ = (dstM (tgt c (i0 7)) (i0 7)).view
  rw [hd]
  exact access_congr_off1 _ ho.symm _ _

set_option maxHeartbeats 4000000 in

theorem wp_load_x (c : Dev nD) (o : { o : Fin 2 → ℕ // ∀ a, o a + S32x512.size a ≤ S1024x512.size a })
    (hl : (Memref.whole cc0_stg0_0 : Memref sig .tc .vmem S1024x512 .f32).view.LoadsAt (Rect.unit (s := S1024x512) o.1 S32x512.size o.2).toLoadRect)
    {α : Type} (Q : α → sProp 𝕄) (k : V32 F → P F α) :
    xPts m ρ c ⊢ iprop((xPts m ρ c -∗ wp frame (wpE (defs₀ (F := F)) 𝒱₀ (c : Thread nD τ) none) Set.univ (k (xrd m ρ c o)) Q)
        -∗ wp frame (wpE (defs₀ (F := F)) 𝒱₀ (c : Thread nD τ) none) Set.univ
            (.op (.load (Memref.whole cc0_stg0_0) (Rect.unit (s := S1024x512) o.1 S32x512.size o.2).toLoadRect hl) k) Q) := by
  unfold xPts xrd
  exact wp_load_rect (defs := defs₀ (F := F)) 𝒱₀ (c : Thread nD τ) none Set.univ (Q := Q)
    (m := (Memref.whole cc0_stg0_0 : Memref sig .tc .vmem S1024x512 .f32)) (r := Rect.unit (s := S1024x512) o.1 S32x512.size o.2)
    (hl := hl) (k := k) (q := fullShare) (f := xs m ρ c) (S := Finset.univ) (Finset.subset_univ _)

theorem cells_at (c : Dev nD) (i : Fin 48) :
    persG m ρ K c ⊢ iprop(cellInv ER (Rd m ρ) (K (c, kS i)) (sendCell c i) ∗ cellInv ER (Rd m ρ) (K (c, kR i)) (recvCell c i)
        ∗ cellInv ER (Rd m ρ) (K (tgt c i, kR i)) (recvCell (tgt c i) i)
        ∗ reached ER (sendCell c i) 0 ∗ reached ER (recvCell c i) 0 ∗ reached ER (recvCell (tgt c i) i) 0) := by
  unfold persG
  iintro ⟨-, -, -, -, -, H⟩
  ihave H' := (bigSep_elim' (i := i) (Finset.mem_univ i)
    (Φ := fun i : Fin 48 => iprop(cellInv ER (Rd m ρ) (K (c, kS i)) (sendCell c i) ∗ cellInv ER (Rd m ρ) (K (c, kR i)) (recvCell c i)
        ∗ cellInv ER (Rd m ρ) (K (tgt c i, kR i)) (recvCell (tgt c i) i)
        ∗ reached ER (sendCell c i) 0 ∗ reached ER (recvCell c i) 0 ∗ reached ER (recvCell (tgt c i) i) 0))) $$ H
  iexact H'

set_option maxHeartbeats 4000000 in

theorem step1 (c : Dev nD) (j : Fin 8) (a b : ℕ) (ha : a = 16 + j.val) (hb : b = a + 1) {α : Type} {k : P F α} (Q : α → sProp 𝕄)
    {wsrc wdst : M32} {hws : wsrc.view.WordExact} {hwd : wdst.view.WordExact}
    {r1 : Memref sig .tc .vmem S256x512 .bf16} {ro : Fin 2 → ℕ} {ri : ∀ a, ro a + S32x512.size a ≤ S256x512.size a}
    {fw : Memref sig .tc .vmem S128x512 .bf16} {fo : Fin 2 → ℕ} {fi : ∀ a, fo a + S32x512.size a ≤ S128x512.size a}
    {hst : (fw.access (Rect.unit (s := S128x512) fo S32x512.size fi)).Stores Finset.univ}
    {hsc : (dstM c (i16 j)).view.ref.isScScratch = false}
    {hsrc : (srcM c (i16 j)).view.WordExact} {hdst : (dstM c (i16 j)).view.WordExact}
    {hsem : DmaTarget.Typed .vmem (.dma (rSem (i16 j))) (.remote (Dev.tc (tgt c (i16 j)) : Thread nD τ) (dstM c (i16 j)) (.dma (sSem (i16 j))) hsc)}
    (hcred : wdst.view.dmaCredit = N)
    (hr1 : r1.access (Rect.unit (s := S256x512) ro S32x512.size ri) = DST c (i0 j))
    (hfw : fw.access (Rect.unit (s := S128x512) fo S32x512.size fi) = SRC c (i16 j))
    (hamt : (dstM c (i16 j)).view.amount (.dma (rSem (i16 j))) = N) :
    iprop(pers m ρ K c ∗ xPts m ρ c ∗ owesC c (fromCopy a) ∗ pre1 c j
        ∗ ((xPts m ρ c ∗ owesC c (fromCopy b) ∗ post1 m ρ c j) -∗ wp frame (wpE (defs₀ (F := F)) 𝒱₀ (c : Thread nD τ) none) Set.univ k Q))
      ⊢ wp frame (wpE (defs₀ (F := F)) 𝒱₀ (c : Thread nD τ) none) Set.univ
          (stepS1 (rSem (i0 j)) wsrc wdst hws hwd (Memref.whole cc0_stg0_0) (x1o c j).1 (x1o c j).2 r1 ro ri fw fo fi hst
            (srcM c (i16 j)) (dstM c (i16 j)) hsc (tgt c (i16 j)) (sSem (i16 j)) (rSem (i16 j)) hsrc hdst hsem k) Q := by
  subst hb
  subst ha
  have hlt : ∀ i ∈ fromCopy (16 + j.val), stageOf (i0 j) < stageOf i := fun i hi => by
    rw [stageOf_i0]
    exact stageOf_pos_of_le i (by have := (Finset.mem_filter.mp hi).2; omega)
  have hd1 : false ∈ (Rd m ρ).duties (sendCell c (i16 j)) 0 := by rw [duties_send]; exact Finset.mem_singleton_self _
  have hd2 : false ∈ (Rd m ρ).duties (recvCell (tgt c (i16 j)) (i16 j)) 0 := by
    rw [duties_recv]; exact Finset.mem_singleton_self _
  unfold stepS1
  simp only [Prog.lift, Prog.bind_op, Prog.bind_ret, Prog.pure_eq_ret]
  unfold pers pre1 post1 recvTok sendTok rcvd sentTok owesC
  rw [← hfw]
  iintro ⟨⟨#HG, #Hlev⟩, Hx, ⟨%W, HO⟩, ⟨⟨HatR, HcR⟩, Hfw, ⟨Hdst, HtR, HtS, HatS⟩⟩, Hk⟩
  ihave Hc0 := (cells_at m ρ K c (i0 j)) $$ HG
  icases Hc0 with ⟨-, #HIr, -, -, -, -⟩
  ihave Hc1 := (cells_at m ρ K c (i16 j)) $$ HG
  icases Hc1 with ⟨#HIs, -, #HIt, #HrS, -, #HrT⟩

  iapply (Rounds.wp_wait_rest_token 𝒱₀ ER (Rd m ρ) (c : Thread nD τ) none (κ := K (c, kR (i0 j)))
      (sm := SemLoc.dma (rSem (i0 j))) (k' := wdst.view.dmaCredit)
      (wpE_waitDma2_eq 𝒱₀ (c : Thread nD τ) none Set.univ) (Set.mem_univ _) () (O := Ocopies c (fromCopy (16 + j.val))) (W := W)
      (R := 0) (m := 0) (T := ∅) (by rw [expect_recv, hcred, Nat.zero_add])) $$ [HcR HO HatR]
  · isplitr; · iexact HIr
    isplitl [HcR]; · rw [hcred]; iexact HcR
    isplitl [HO]; · iexact HO
    isplitr; · iapply (mayWait_recv c (i0 j) (fromCopy (16 + j.val)) hlt); iexact Hlev
    iexact HatR
  iintro ⟨HO, HatR, -, Hpay⟩
  ihave Hp := (Entails.of_eq (rest_recv m ρ c (i0 j))) $$ Hpay
  unfold recvPay
  rw [Wi_i0, ← hr1]

  iapply (wp_load_x m ρ c (x1o c j) _ Q _) $$ [Hx]
  · iexact Hx
  iintro Hx

  iapply (wp_load_chunk 𝒱₀ (c : Thread nD τ) none Set.univ) $$ [Hp]
  · iexact Hp
  iintro Hp

  ihave Hf1 := chunkAny_elim $$ Hfw
  icases Hf1 with ⟨%f0, Hf1⟩
  ihave Hf2 := (chunkAt_of_pointsTo f0) $$ Hf1
  iapply (wp_load_chunk 𝒱₀ (c : Thread nD τ) none Set.univ) $$ [Hf2]
  · iexact Hf2
  iintro Hf2
  ihave Hf3 := chunkAt_any $$ Hf2

  iapply (wp_store_chunk 𝒱₀ (c : Thread nD τ) none Set.univ) $$ [Hf3]
  · iexact Hf3
  iintro Hs
  rw [hfw]
  ihave Hs1 := chunkAt_elim $$ Hs
  icases Hs1 with ⟨%fs, %hfs, Hs1⟩
  ihave Hd1 := chunkAny_elim $$ Hdst
  icases Hd1 with ⟨%fd, Hd1⟩

  have hpay1 : ((SRC c (i16 j)).loc (c : Thread nD τ) ↦[(SRC c (i16 j)).set]{fullShare} fs : sProp 𝕄)
      ⊢ (Rd m ρ).payload (sendCell c (i16 j)) 0 false := by
    rw [payload_send]; unfold sendPay; rw [sendShare_i16]
    exact chunkAny_of_pointsTo fs
  have hv : (srcM c (i16 j)).view.read (Elt F) fs = W1 m ρ c j := hfs
  have hpay2 : (((dstM c (i16 j)).view.loc ((tgt c (i16 j) : Dev nD) : Thread nD τ)) ↦[(dstM c (i16 j)).view.set]{fullShare}
        ((dstM c (i16 j)).view.write (Elt F) fd ((srcM c (i16 j)).view.read (Elt F) fs) Finset.univ) : sProp 𝕄)
      ⊢ (Rd m ρ).payload (recvCell (tgt c (i16 j)) (i16 j)) 0 false := by
    rw [payload_recv, hv]
    show _ ⊢ chunkAt ((tgt c (i16 j) : Dev nD) : Thread nD τ) (dstM (tgt (tgt c (i16 j)) (i16 j)) (i16 j)).view fullShare
      (Wi m ρ (tgt (tgt c (i16 j)) (i16 j)) (i16 j))
    rw [tgt_tgt, Wi_i16]
    exact chunkAt_write fd
  iapply (Rounds.wp_send_pointsTo 𝒱₀ ER (Rd m ρ) (c : Thread nD τ) none
      (c' := ((tgt c (i16 j) : Dev nD) : Thread nD τ)) (src := srcM c (i16 j)) (dst := dstM c (i16 j))
      (sS := SemLoc.dma (sSem (i16 j))) (sem := SemLoc.dma (rSem (i16 j))) (q := fullShare) (fs := fs) (fd := fd)
      (κ₁ := K (c, kS (i16 j))) (κ₂ := K (tgt c (i16 j), kR (i16 j))) (r₁ := 0) (r₂ := 0) (d₁ := false) (d₂ := false)
      hd1 hd2 () () N hamt (amount_send m ρ c (i16 j) false) (amount_recv m ρ (tgt c (i16 j)) (i16 j) false)
      (Ocopies c (fromCopy (16 + j.val + 1))) (Ocopies_peel c (16 + j.val) (by omega))
      (W := insert (SemLoc.dma (rSem (i0 j)), ()) W) hpay1 hpay2) $$ [Hs1 Hd1 HO HtS HtR]
  · isplitr; · iexact HIs
    isplitr; · iexact HIt
    isplitl [Hs1]; · iexact Hs1
    isplitl [Hd1]; · iexact Hd1
    isplitl [HO]; · iexact HO
    isplitl [HtS]; · iexact HtS
    isplitr; · iexact HrS
    isplitl [HtR]; · iexact HtR
    iexact HrT
  iintro ⟨HcS, HO⟩
  iapply Hk
  isplitl [Hx]; · iexact Hx
  isplitl [HO]; · iexists (insert (SemLoc.dma (rSem (i0 j)), ()) W); iexact HO
  isplitl [HatR Hp]
  · isplitl [HatR]; · iexact HatR
    iexact Hp
  isplitl [HcS]; · iexact HcS
  iexact HatS

end S1

set_option maxHeartbeats 8000000 in

theorem stage1 (c : Dev nD) {α : Type} (k : P F α) (Q : α → sProp 𝕄) :
    iprop(pers m ρ K c ∗ xPts m ρ c ∗ owesC c (fromCopy 16) ∗ (bigSep Finset.univ fun j : Fin 8 => pre1 c j)
        ∗ ((xPts m ρ c ∗ owesC c (fromCopy 24) ∗ (bigSep Finset.univ fun j : Fin 8 => post1 m ρ c j)) -∗ wp frame (wpE (defs₀ (F := F)) 𝒱₀ (c : Thread nD τ) none) Set.univ k Q))
      ⊢ wp frame (wpE (defs₀ (F := F)) 𝒱₀ (c : Thread nD τ) none) Set.univ (st1 c k) Q := by
  unfold st1
  rw [S1.bigSep_fin8, S1.bigSep_fin8]
  iintro ⟨#HP, Hx, HO, ⟨H0, H1, H2, H3, H4, H5, H6, H7⟩, Hk⟩
  iapply (S1.step1 m ρ K c 0 16 17 (by rfl) (by rfl) Q (by rfl) (S1.hr1_0 c _) (by rfl) (by rfl))
  isplitr; · iexact HP
  isplitl [Hx]; · iexact Hx
  isplitl [HO]; · iexact HO
  isplitl [H0]; · iexact H0
  iintro ⟨Hx, HO, G0⟩
  iapply (S1.step1 m ρ K c 1 17 18 (by rfl) (by rfl) Q (by rfl) (S1.hr1_1 c _) (by rfl) (by rfl))
  isplitr; · iexact HP
  isplitl [Hx]; · iexact Hx
  isplitl [HO]; · iexact HO
  isplitl [H1]; · iexact H1
  iintro ⟨Hx, HO, G1⟩
  iapply (S1.step1 m ρ K c 2 18 19 (by rfl) (by rfl) Q (by rfl) (S1.hr1_2 c _) (by rfl) (by rfl))
  isplitr; · iexact HP
  isplitl [Hx]; · iexact Hx
  isplitl [HO]; · iexact HO
  isplitl [H2]; · iexact H2
  iintro ⟨Hx, HO, G2⟩
  iapply (S1.step1 m ρ K c 3 19 20 (by rfl) (by rfl) Q (by rfl) (S1.hr1_3 c _) (by rfl) (by rfl))
  isplitr; · iexact HP
  isplitl [Hx]; · iexact Hx
  isplitl [HO]; · iexact HO
  isplitl [H3]; · iexact H3
  iintro ⟨Hx, HO, G3⟩
  iapply (S1.step1 m ρ K c 4 20 21 (by rfl) (by rfl) Q (by rfl) (S1.hr1_4 c _) (by rfl) (by rfl))
  isplitr; · iexact HP
  isplitl [Hx]; · iexact Hx
  isplitl [HO]; · iexact HO
  isplitl [H4]; · iexact H4
  iintro ⟨Hx, HO, G4⟩
  iapply (S1.step1 m ρ K c 5 21 22 (by rfl) (by rfl) Q (by rfl) (S1.hr1_5 c _) (by rfl) (by rfl))
  isplitr; · iexact HP
  isplitl [Hx]; · iexact Hx
  isplitl [HO]; · iexact HO
  isplitl [H5]; · iexact H5
  iintro ⟨Hx, HO, G5⟩
  iapply (S1.step1 m ρ K c 6 22 23 (by rfl) (by rfl) Q (by rfl) (S1.hr1_6 c _) (by rfl) (by rfl))
  isplitr; · iexact HP
  isplitl [Hx]; · iexact Hx
  isplitl [HO]; · iexact HO
  isplitl [H6]; · iexact H6
  iintro ⟨Hx, HO, G6⟩
  iapply (S1.step1 m ρ K c 7 23 24 (by rfl) (by rfl) Q (by rfl) (S1.hr1_7 c _) (by rfl) (by rfl))
  isplitr; · iexact HP
  isplitl [Hx]; · iexact Hx
  isplitl [HO]; · iexact HO
  isplitl [H7]; · iexact H7
  iintro ⟨Hx, HO, G7⟩
  iapply Hk
  isplitl [Hx]; · iexact Hx
  isplitl [HO]; · iexact HO
  isplitl [G0]; · iexact G0
  isplitl [G1]; · iexact G1
  isplitl [G2]; · iexact G2
  isplitl [G3]; · iexact G3
  isplitl [G4]; · iexact G4
  isplitl [G5]; · iexact G5
  isplitl [G6]; · iexact G6
  iexact G7

/-- info: 'Cert.KernelIdeal.Pf.stage1' depends on axioms: [propext, Classical.choice, Quot.sound] -/
#guard_msgs in #print axioms stage1

end Cert.KernelIdeal.Pf

end
-- ==== Proof.Stage2.lean ====
import proofs.«900778_g7700000000000779_dist_f_of_ar_i_m1024_n512_v7x_i4_f32_1_alg».proof.Proof.Inv
import proofs.«900778_g7700000000000779_dist_f_of_ar_i_m1024_n512_v7x_i4_f32_1_alg».proof.Proof.LibChunks
import proofs.«900778_g7700000000000779_dist_f_of_ar_i_m1024_n512_v7x_i4_f32_1_alg».proof.Proof.Levels

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ)

namespace S2

theorem s2_stage_lt : ∀ i j : Fin 48, i.val < 24 → 24 ≤ j.val → stageOf i < stageOf j := by decide +kernel

theorem s2_mayWait (c : Dev nD) (i : Fin 48) (hi : i.val < 24) (a : ℕ) (ha : 24 ≤ a) :
    (levAts L lv : sProp 𝕄) ⊢ MayWait (c : Thread nD τ) (.dma (rSem i)) () (Ocopies c (fromCopy a)) :=
  mayWait_recv c i (fromCopy a) (fun j hj => s2_stage_lt i j hi (le_trans ha (Finset.mem_filter.mp hj).2))

theorem s2_pers_cells (c : Dev nD) :
    pers m ρ K c ⊢ bigSep Finset.univ fun i : Fin 48 => iprop(cellInv ER (Rd m ρ) (K (c, kS i)) (sendCell c i) ∗ cellInv ER (Rd m ρ) (K (c, kR i)) (recvCell c i)
        ∗ cellInv ER (Rd m ρ) (K (tgt c i, kR i)) (recvCell (tgt c i) i)
        ∗ reached ER (sendCell c i) 0 ∗ reached ER (recvCell c i) 0 ∗ reached ER (recvCell (tgt c i) i) 0) := by
  unfold pers persG
  iintro ⟨⟨-, -, -, -, -, Hcells⟩, -⟩
  iexact Hcells

theorem s2_pers_cell (c : Dev nD) (i : Fin 48) :
    pers m ρ K c ⊢ iprop(cellInv ER (Rd m ρ) (K (c, kS i)) (sendCell c i) ∗ cellInv ER (Rd m ρ) (K (c, kR i)) (recvCell c i)
        ∗ cellInv ER (Rd m ρ) (K (tgt c i, kR i)) (recvCell (tgt c i) i)
        ∗ reached ER (sendCell c i) 0 ∗ reached ER (recvCell c i) 0 ∗ reached ER (recvCell (tgt c i) i) 0) :=
  (s2_pers_cells m ρ K c).trans (bigSep_elim (Finset.mem_univ i))

theorem s2_pers_lev (c : Dev nD) : pers m ρ K c ⊢ (levAts L lv : sProp 𝕄) := by
  unfold pers
  iintro ⟨-, H⟩
  iexact H

theorem s2_cast {c : Thread nD τ} {sp : Space} {s : Shape} {e : EltTy} {v v' : View sig c.2.kind sp s e} (h : v = v')
    (q : PosShare TreeShare) (w : s.Idx → Elt F e) : (chunkAt c v q w : sProp 𝕄) ⊢ chunkAt c v' q w := by
  subst h; exact BI.Entails.refl _

theorem s2_castw {c : Thread nD τ} {sp : Space} {s : Shape} {e : EltTy} (v : View sig c.2.kind sp s e)
    (q : PosShare TreeShare) {w w' : s.Idx → Elt F e} (h : w = w') : (chunkAt c v q w : sProp 𝕄) ⊢ chunkAt c v q w' := by
  subst h; exact BI.Entails.refl _

theorem s2_view_off {κ : Kind} {sp : Space} {s : Shape} {e : EltTy} (mm : Memref sig κ sp s e) {off off' size : Fin s.rank → ℕ}
    (h : off = off') (inb : ∀ a, off a + size a ≤ s.size a) (inb' : ∀ a, off' a + size a ≤ s.size a) :
    mm.access (Rect.unit off size inb) = mm.access (Rect.unit off' size inb') := by
  subst h; rfl

theorem s2_mid (j : Fin 8) : (i24 j).val + 1 = (i25 j).val := by
  show 24 + 2 * j.val + 1 = 25 + 2 * j.val; omega

theorem s2_wait (c : Dev nD) (i : Fin 48) (hi : i.val < 24) (a : ℕ) (ha : 24 ≤ a)
    {ws wd : M32} {hws : ws.view.WordExact} {hwd : wd.view.WordExact} (hN : wd.view.dmaCredit = N)
    {α : Type} {k : PUnit → P F α} {Q : α → sProp 𝕄} :
    iprop(pers m ρ K c ∗ recvTok c i ∗ owesC c (fromCopy a))
      ⊢ iprop(((rcvd m ρ c i fullShare ∗ owesC c (fromCopy a)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rSem i) ws wd hws hwd) k) Q) := by
  have hw : ∀ Kk : PUnit → sProp 𝕄,
      wpE (defs₀ (F := F)) 𝒱₀ (c : Thread nD τ) none Set.univ (.waitDma2 (rSem i) ws wd hws hwd) Kk
        = waitSpec (c : Thread nD τ) Set.univ (.dma (rSem i)) N Kk := fun Kk =>
    (wpE_waitDma2_eq 𝒱₀ (c : Thread nD τ) none Set.univ Kk).trans (by rw [hN])
  unfold recvTok owesC
  iintro ⟨#Hp, ⟨Hat, Hc⟩, ⟨%W, HO⟩⟩ Hk
  ihave Hcell := (s2_pers_cell m ρ K c i) $$ Hp
  icases Hcell with ⟨-, #HIr, -, -, -, -⟩
  ihave #Hlev := (s2_pers_lev m ρ K c) $$ Hp
  iapply (Rounds.wp_wait_rest_token 𝒱₀ ER (Rd m ρ) (c : Thread nD τ) none (κ := K (c, kR i)) hw (Set.mem_univ _) ()
      (O := Ocopies c (fromCopy a)) (W := W) (R := 0) (m := 0) (T := ∅)
      ((Nat.zero_add N).trans (expect_recv m ρ c i).symm)) $$ [Hc HO Hat]
  · isplitr; · iexact HIr
    isplitl [Hc]; · iexact Hc
    isplitl [HO]; · iexact HO
    isplitr; · iapply (s2_mayWait c i hi a ha); iexact Hlev
    iexact Hat
  iintro ⟨HO, Hat, -, Hpay⟩
  ihave Hpy := (Entails.of_eq (rest_recv m ρ c i)) $$ Hpay
  iapply Hk
  isplitr [HO]
  · unfold rcvd recvPay
    isplitl [Hat]; · iexact Hat
    iexact Hpy
  · iexists _; iexact HO

theorem s2_send (c : Dev nD) (i : Fin 48) (a b : ℕ) (ha : a = i.val) (hb : b = i.val + 1)
    (hN : (dstM c i).view.dmaCredit = N)
    {hsc : (dstM c i).view.ref.isScScratch = false} {hsrc : (srcM c i).view.WordExact} {hdst : (dstM c i).view.WordExact}
    {hsem : DmaTarget.Typed (p := Proc.tc) .vmem (.dma (rSem i)) (.remote (Dev.tc (tgt c i) : Thread nD τ) (dstM c i) (.dma (sSem i)) hsc)}
    {α : Type} {k : PUnit → P F α} {Q : α → sProp 𝕄} :
    iprop(pers m ρ K c ∗ chunkAt (c : Thread nD τ) (SRC c i) (sendShare i) (Wi m ρ c i) ∗ sendTok c i ∗ owesC c (fromCopy a))
      ⊢ iprop(((sentTok c i ∗ owesC c (fromCopy b)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (srcM c i) (.remote (Dev.tc (tgt c i) : Thread nD τ) (dstM c i) (.dma (sSem i)) hsc) (.dma (rSem i)) hsrc hdst hsem) k) Q) := by
  subst ha hb
  unfold sendTok owesC
  iintro ⟨#Hp, Hsrc, ⟨Hdst, HtR, HtS, HatS⟩, ⟨%W, HO⟩⟩ Hk
  ihave Hcell := (s2_pers_cell m ρ K c i) $$ Hp
  icases Hcell with ⟨#HIs, -, #HIt, #Hrs, -, #Hrt⟩
  ihave Hsrc := chunkAt_elim $$ Hsrc
  icases Hsrc with ⟨%fs, %hfs, Hsrc⟩
  ihave Hdst := chunkAny_elim $$ Hdst
  icases Hdst with ⟨%fd, Hdst⟩
  iapply (Rounds.wp_send_pointsTo 𝒱₀ ER (Rd m ρ) (c : Thread nD τ) none (c' := ((tgt c i : Dev nD) : Thread nD τ))
      (src := srcM c i) (dst := dstM c i) (sS := .dma (sSem i)) (sem := .dma (rSem i)) (q := sendShare i) (fs := fs) (fd := fd)
      (κ₁ := K (c, kS i)) (κ₂ := K (tgt c i, kR i)) (r₁ := 0) (r₂ := 0) (d₁ := false) (d₂ := false)
      (by rw [duties_send]; exact Finset.mem_singleton_self _) (by rw [duties_recv]; exact Finset.mem_singleton_self _)
      () () N hN (amount_send m ρ c i false) (amount_recv m ρ (tgt c i) i false)
      (Ocopies c (fromCopy (i.val + 1))) (Ocopies_peel c i.val i.isLt) (W := W)
      (by rw [payload_send m ρ c i false]; unfold sendPay; exact chunkAny_of_pointsTo fs)
      (by
        rw [payload_recv m ρ (tgt c i) i false]
        show _ ⊢ chunkAt ((tgt c i : Dev nD) : Thread nD τ) (dstM (tgt (tgt c i) i) i).view fullShare (Wi m ρ (tgt (tgt c i) i) i)
        rw [tgt_tgt c i]
        have hrw : (dstM c i).view.read (Elt F) ((dstM c i).view.write (Elt F) fd ((srcM c i).view.read (Elt F) fs) Finset.univ) = Wi m ρ c i :=
          (View.read_write_univ (v := (dstM c i).view) fd _).trans hfs
        exact chunkAt_intro _ hrw)) $$ [Hsrc Hdst HO HtS HtR]
  · isplitr; · iexact HIs
    isplitr; · iexact HIt
    isplitl [Hsrc]; · iexact Hsrc
    isplitl [Hdst]; · iexact Hdst
    isplitl [HO]; · iexact HO
    isplitl [HtS]; · iexact HtS
    isplitr; · iexact Hrs
    isplitl [HtR]; · iexact HtR
    iexact Hrt
  iintro ⟨Hcred, HO⟩
  iapply Hk
  isplitr [HO]
  · unfold sentTok
    isplitl [Hcred]; · iexact Hcred
    iexact HatS
  · iexists W; iexact HO

def s2_r1 (j : Fin 8) : Memref sig .tc .vmem S256x512 .bf16 :=
  if j.val % 2 = 0 then Memref.whole cc0_scratch2 else Memref.whole cc0_scratch3
def s2_r2 (j : Fin 8) : Memref sig .tc .vmem S128x512 .bf16 :=
  if j.val % 2 = 0 then Memref.whole cc0_scratch4 else Memref.whole cc0_scratch5

theorem s2_val_out (c : Dev nD) (j : Fin 8) :
    fval (xrd m ρ c (x2o c j)) (Wi m ρ (tgt c (i8 j)) (i8 j)) (Wi m ρ (tgt c (i16 j)) (i16 j)) = outV m ρ c (o8 j) := by
  rw [outV_o8, Wi_i8, Wi_i16]; rfl
theorem s2_val_24 (c : Dev nD) (j : Fin 8) :
    fvalb (xrd m ρ c (x2o c j)) (Wi m ρ (tgt c (i8 j)) (i8 j)) (Wi m ρ (tgt c (i16 j)) (i16 j)) = Wi m ρ c (i24 j) := by
  rw [Wi_i24, Wi_i8, Wi_i16]; rfl
theorem s2_val_25 (c : Dev nD) (j : Fin 8) :
    fvalb (xrd m ρ c (x2o c j)) (Wi m ρ (tgt c (i8 j)) (i8 j)) (Wi m ρ (tgt c (i16 j)) (i16 j)) = Wi m ρ c (i25 j) := by
  rw [Wi_i25, Wi_i8, Wi_i16]; rfl

theorem s2_share_24 (j : Fin 8) : sendShare (i24 j) = fullShare.left := by
  unfold sendShare
  rw [if_neg (show ¬ (i24 j).val < 24 by show ¬ 24 + 2 * j.val < 24; omega),
    if_pos (show (i24 j).val < 40 by show 24 + 2 * j.val < 40; omega),
    if_pos (show (i24 j).val % 2 = 0 by show (24 + 2 * j.val) % 2 = 0; omega)]
theorem s2_share_25 (j : Fin 8) : sendShare (i25 j) = fullShare.right := by
  unfold sendShare
  rw [if_neg (show ¬ (i25 j).val < 24 by show ¬ 25 + 2 * j.val < 24; omega),
    if_pos (show (i25 j).val < 40 by show 25 + 2 * j.val < 40; omega),
    if_neg (show ¬ (i25 j).val % 2 = 0 by show ¬ (25 + 2 * j.val) % 2 = 0; omega)]

theorem s2_load_x (c : Dev nD) (o : { o : Fin 2 → ℕ // ∀ a, o a + S32x512.size a ≤ S1024x512.size a })
    {hl : (Memref.whole cc0_stg0_0 : Memref sig .tc .vmem S1024x512 .f32).view.LoadsAt (Rect.unit (s := S1024x512) o.1 S32x512.size o.2).toLoadRect}
    {α : Type} {k : V32 F → P F α} {Q : α → sProp 𝕄} :
    xPts m ρ c
      ⊢ iprop((xPts m ρ c -∗ wp frame (wpE (defs₀ (F := F)) 𝒱₀ (c : Thread nD τ) none) Set.univ (k (xrd m ρ c o)) Q)
          -∗ wp frame (wpE (defs₀ (F := F)) 𝒱₀ (c : Thread nD τ) none) Set.univ (.op (.load (Memref.whole cc0_stg0_0) (Rect.unit (s := S1024x512) o.1 S32x512.size o.2).toLoadRect hl) k) Q) := by
  unfold xPts
  exact wp_load_rect (defs := defs₀ (F := F)) 𝒱₀ (c : Thread nD τ) none Set.univ
    (m := (Memref.whole cc0_stg0_0 : Memref sig .tc .vmem S1024x512 .f32)) (r := Rect.unit (s := S1024x512) o.1 S32x512.size o.2)
    (q := fullShare) (f := xs m ρ c) (Finset.subset_univ _)

set_option maxHeartbeats 1600000 in

theorem s2_step (c : Dev nD) (j : Fin 8)
    (hN8 : (dstM c (i8 j)).view.dmaCredit = N) (hN16 : (dstM c (i16 j)).view.dmaCredit = N)
    (hN24 : (dstM c (i24 j)).view.dmaCredit = N) (hN25 : (dstM c (i25 j)).view.dmaCredit = N)
    (hr1 : DST c (i8 j) = ((s2_r1 j).access (Rect.unit (s := S256x512) (r1o2 c j).1 S32x512.size (r1o2 c j).2)))
    (hr2 : DST c (i16 j) = ((s2_r2 j).access (Rect.unit (s := S128x512) (r2o c j).1 S32x512.size (r2o c j).2)))
    (hsA : OBV c (o8 j) = SRC c (i24 j)) (hsB : OBV c (o8 j) = SRC c (i25 j))
    {h1s : (srcM c (i8 j)).view.WordExact} {h1d : (dstM c (i8 j)).view.WordExact}
    {h2s : (srcM c (i16 j)).view.WordExact} {h2d : (dstM c (i16 j)).view.WordExact}
    {hso : ((Memref.whole cc0_stg1_0 : Memref sig .tc .vmem S1024x512 .f32).access (Rect.unit (s := S1024x512) (outo c (o8 j)).1 S32x512.size (outo c (o8 j)).2)).Stores Finset.univ}
    {hsb : ((Memref.whole cc0_scratch8 : Memref sig .tc .vmem S1024x512 .bf16).access (Rect.unit (s := S1024x512) (outo c (o8 j)).1 S32x512.size (outo c (o8 j)).2)).Stores Finset.univ}
    {hscA : (dstM c (i24 j)).view.ref.isScScratch = false} {hsrcA : (srcM c (i24 j)).view.WordExact} {hdstA : (dstM c (i24 j)).view.WordExact}
    {hsemA : DmaTarget.Typed (p := Proc.tc) .vmem (.dma (rSem (i24 j))) (.remote (Dev.tc (tgt c (i24 j)) : Thread nD τ) (dstM c (i24 j)) (.dma (sSem (i24 j))) hscA)}
    {hscB : (dstM c (i25 j)).view.ref.isScScratch = false} {hsrcB : (srcM c (i25 j)).view.WordExact} {hdstB : (dstM c (i25 j)).view.WordExact}
    {hsemB : DmaTarget.Typed (p := Proc.tc) .vmem (.dma (rSem (i25 j))) (.remote (Dev.tc (tgt c (i25 j)) : Thread nD τ) (dstM c (i25 j)) (.dma (sSem (i25 j))) hscB)}
    {α : Type} {k : P F α} {Q : α → sProp 𝕄} :
    iprop(pers m ρ K c ∗ xPts m ρ c ∗ owesC c (fromCopy (i24 j).val) ∗ pre2 c j)
      ⊢ iprop(((xPts m ρ c ∗ owesC c (fromCopy ((i25 j).val + 1)) ∗ post2 m ρ c j) -∗ wp frame (wpE (defs₀ (F := F)) 𝒱₀ (c : Thread nD τ) none) Set.univ k Q)
          -∗ wp frame (wpE (defs₀ (F := F)) 𝒱₀ (c : Thread nD τ) none) Set.univ
            (stepS2 (rSem (i8 j)) (srcM c (i8 j)) (dstM c (i8 j)) h1s h1d (rSem (i16 j)) (srcM c (i16 j)) (dstM c (i16 j)) h2s h2d
              (Memref.whole cc0_stg0_0) (x2o c j).1 (x2o c j).2 (s2_r1 j) (r1o2 c j).1 (r1o2 c j).2 (s2_r2 j) (r2o c j).1 (r2o c j).2
              (Memref.whole cc0_stg1_0) (Memref.whole cc0_scratch8) (outo c (o8 j)).1 (outo c (o8 j)).2 hso hsb
              (srcM c (i24 j)) (dstM c (i24 j)) hscA (tgt c (i24 j)) (sSem (i24 j)) (rSem (i24 j)) hsrcA hdstA hsemA
              (srcM c (i25 j)) (dstM c (i25 j)) hscB (tgt c (i25 j)) (sSem (i25 j)) (rSem (i25 j)) hsrcB hdstB hsemB k) Q) := by
  have h8 : (i8 j).val < 24 := by show 8 + j.val < 24; omega
  have h16 : (i16 j).val < 24 := by show 16 + j.val < 24; omega
  have h24 : 24 ≤ (i24 j).val := Nat.le_add_right 24 (2 * j.val)
  unfold stepS2 pre2
  simp only [Prog.lift, Prog.bind_op, Prog.bind_ret, Prog.pure_eq_ret]
  iintro ⟨#Hp, Hx, HO, Hr8, Hr16, Hout, Hob, Hs24, Hs25⟩ Hk

  iapply (s2_wait m ρ K c (i8 j) h8 (i24 j).val h24 hN8) $$ [Hr8 HO]
  · isplitr; · iexact Hp
    isplitl [Hr8]; · iexact Hr8
    iexact HO
  iintro ⟨Hd8, HO⟩
  iapply (s2_wait m ρ K c (i16 j) h16 (i24 j).val h24 hN16) $$ [Hr16 HO]
  · isplitr; · iexact Hp
    isplitl [Hr16]; · iexact Hr16
    iexact HO
  iintro ⟨Hd16, HO⟩

  iapply (s2_load_x m ρ c (x2o c j)) $$ Hx
  iintro Hx
  unfold rcvd
  icases Hd8 with ⟨Hat8, Hc8⟩
  icases Hd16 with ⟨Hat16, Hc16⟩
  ihave Hc8 := (s2_cast hr1 fullShare _) $$ Hc8
  iapply (wp_load_chunk 𝒱₀ (c : Thread nD τ) none Set.univ) $$ Hc8
  iintro Hc8
  ihave Hc8 := (s2_cast hr1.symm fullShare _) $$ Hc8
  ihave Hc16 := (s2_cast hr2 fullShare _) $$ Hc16
  iapply (wp_load_chunk 𝒱₀ (c : Thread nD τ) none Set.univ) $$ Hc16
  iintro Hc16
  ihave Hc16 := (s2_cast hr2.symm fullShare _) $$ Hc16

  ihave Hout := chunkAny_elim $$ Hout
  icases Hout with ⟨%fo, Hout⟩
  ihave Hout := (chunkAt_of_pointsTo fo) $$ Hout
  iapply (wp_load_chunk 𝒱₀ (c : Thread nD τ) none Set.univ) $$ Hout
  iintro Hout
  ihave Hout := chunkAt_any $$ Hout
  iapply (wp_store_chunk 𝒱₀ (c : Thread nD τ) none Set.univ) $$ Hout
  iintro Hout
  ihave Hout := (s2_castw _ fullShare (s2_val_out m ρ c j)) $$ Hout

  ihave Hob := chunkAny_elim $$ Hob
  icases Hob with ⟨%fb, Hob⟩
  ihave Hob := (chunkAt_of_pointsTo fb) $$ Hob
  iapply (wp_load_chunk 𝒱₀ (c : Thread nD τ) none Set.univ) $$ Hob
  iintro Hob
  ihave Hob := chunkAt_any $$ Hob
  iapply (wp_store_chunk 𝒱₀ (c : Thread nD τ) none Set.univ) $$ Hob
  iintro Hob

  ihave Hob := (chunkAt_split_share fullShare_halves) $$ Hob
  icases Hob with ⟨HobL, HobR⟩
  ihave HobL := (s2_cast hsA fullShare.left _) $$ HobL
  ihave HobL := (s2_castw _ fullShare.left (s2_val_24 m ρ c j)) $$ HobL
  ihave HobR := (s2_cast hsB fullShare.right _) $$ HobR
  ihave HobR := (s2_castw _ fullShare.right (s2_val_25 m ρ c j)) $$ HobR
  rw [← s2_share_24 j, ← s2_share_25 j]

  iapply (s2_send m ρ K c (i24 j) (i24 j).val (i25 j).val rfl (s2_mid j).symm hN24) $$ [HobL Hs24 HO]
  · isplitr; · iexact Hp
    isplitl [HobL]; · iexact HobL
    isplitl [Hs24]; · iexact Hs24
    iexact HO
  iintro ⟨Ht24, HO⟩
  iapply (s2_send m ρ K c (i25 j) (i25 j).val ((i25 j).val + 1) rfl rfl hN25) $$ [HobR Hs25 HO]
  · isplitr; · iexact Hp
    isplitl [HobR]; · iexact HobR
    isplitl [Hs25]; · iexact Hs25
    iexact HO
  iintro ⟨Ht25, HO⟩
  iapply Hk
  isplitl [Hx]; · iexact Hx
  isplitl [HO]; · iexact HO
  unfold post2 rcvd
  isplitl [Hat8 Hc8]
  · isplitl [Hat8]; · iexact Hat8
    iexact Hc8
  isplitl [Hat16 Hc16]
  · isplitl [Hat16]; · iexact Hat16
    iexact Hc16
  isplitl [Hout]; · iexact Hout
  isplitl [Ht24]; · iexact Ht24
  iexact Ht25

theorem s2_bigSep8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem s2_dst_x (c : Dev nD) (i : Fin 48) (hx : tgtX i = true) : DST c i = (dstM (Geo.xp c) i).view := by
  show (dstM (tgt c i) i).view = (dstM (Geo.xp c) i).view
  rw [tgt_eq c i, hx]; rfl
theorem s2_dst_y (c : Dev nD) (i : Fin 48) (hy : tgtX i = false) : DST c i = (dstM (Geo.yp c) i).view := by
  show (dstM (tgt c i) i).view = (dstM (Geo.yp c) i).view
  rw [tgt_eq c i, hy]; rfl

end S2

open S2

set_option maxHeartbeats 3200000 in
set_option maxRecDepth 16384 in

theorem stage2 (c : Dev nD) {α : Type} (k : P F α) (Q : α → sProp 𝕄) :
    iprop(pers m ρ K c ∗ xPts m ρ c ∗ owesC c (fromCopy 24) ∗ (bigSep Finset.univ fun j : Fin 8 => pre2 c j)
        ∗ ((xPts m ρ c ∗ owesC c (fromCopy 40) ∗ (bigSep Finset.univ fun j : Fin 8 => post2 m ρ c j)) -∗ wp frame (wpE (defs₀ (F := F)) 𝒱₀ (c : Thread nD τ) none) Set.univ k Q))
      ⊢ wp frame (wpE (defs₀ (F := F)) 𝒱₀ (c : Thread nD τ) none) Set.univ (st2 c k) Q := by
  have hr1_0 : DST c (i8 0) = ((s2_r1 0).access (Rect.unit (s := S256x512) (r1o2 c 0).1 S32x512.size (r1o2 c 0).2)) :=
    (s2_dst_x c (i8 0) rfl).trans (s2_view_off (Memref.whole cc0_scratch2) (size := S32x512.size) (Geo.off9_xp_eq_off8 c 0) _ _)
  have hsA_0 : OBV c (o8 0) = SRC c (i24 0) :=
    s2_view_off (Memref.whole cc0_scratch8) (size := S32x512.size) (Geo.off17_eq_off16 c 0).symm _ _
  have hsB_0 : OBV c (o8 0) = SRC c (i25 0) :=
    s2_view_off (Memref.whole cc0_scratch8) (size := S32x512.size) (Geo.off17_eq_off16 c 0).symm _ _
  have hr1_1 : DST c (i8 1) = ((s2_r1 1).access (Rect.unit (s := S256x512) (r1o2 c 1).1 S32x512.size (r1o2 c 1).2)) :=
    (s2_dst_y c (i8 1) rfl).trans (s2_view_off (Memref.whole cc0_scratch3) (size := S32x512.size) (Geo.off12_yp_eq_off11 c 0) _ _)
  have hsA_1 : OBV c (o8 1) = SRC c (i24 1) :=
    s2_view_off (Memref.whole cc0_scratch8) (size := S32x512.size) (Geo.off20_eq_off19 c 0).symm _ _
  have hsB_1 : OBV c (o8 1) = SRC c (i25 1) :=
    s2_view_off (Memref.whole cc0_scratch8) (size := S32x512.size) (Geo.off20_eq_off19 c 0).symm _ _
  have hr1_2 : DST c (i8 2) = ((s2_r1 2).access (Rect.unit (s := S256x512) (r1o2 c 2).1 S32x512.size (r1o2 c 2).2)) :=
    (s2_dst_x c (i8 2) rfl).trans (s2_view_off (Memref.whole cc0_scratch2) (size := S32x512.size) (Geo.off9_xp_eq_off8 c 1) _ _)
  have hsA_2 : OBV c (o8 2) = SRC c (i24 2) :=
    s2_view_off (Memref.whole cc0_scratch8) (size := S32x512.size) (Geo.off17_eq_off16 c 1).symm _ _
  have hsB_2 : OBV c (o8 2) = SRC c (i25 2) :=
    s2_view_off (Memref.whole cc0_scratch8) (size := S32x512.size) (Geo.off17_eq_off16 c 1).symm _ _
  have hr1_3 : DST c (i8 3) = ((s2_r1 3).access (Rect.unit (s := S256x512) (r1o2 c 3).1 S32x512.size (r1o2 c 3).2)) :=
    (s2_dst_y c (i8 3) rfl).trans (s2_view_off (Memref.whole cc0_scratch3) (size := S32x512.size) (Geo.off12_yp_eq_off11 c 1) _ _)
  have hsA_3 : OBV c (o8 3) = SRC c (i24 3) :=
    s2_view_off (Memref.whole cc0_scratch8) (size := S32x512.size) (Geo.off20_eq_off19 c 1).symm _ _
  have hsB_3 : OBV c (o8 3) = SRC c (i25 3) :=
    s2_view_off (Memref.whole cc0_scratch8) (size := S32x512.size) (Geo.off20_eq_off19 c 1).symm _ _
  have hr1_4 : DST c (i8 4) = ((s2_r1 4).access (Rect.unit (s := S256x512) (r1o2 c 4).1 S32x512.size (r1o2 c 4).2)) :=
    (s2_dst_x c (i8 4) rfl).trans (s2_view_off (Memref.whole cc0_scratch2) (size := S32x512.size) (Geo.off9_xp_eq_off8 c 2) _ _)
  have hsA_4 : OBV c (o8 4) = SRC c (i24 4) :=
    s2_view_off (Memref.whole cc0_scratch8) (size := S32x512.size) (Geo.off17_eq_off16 c 2).symm _ _
  have hsB_4 : OBV c (o8 4) = SRC c (i25 4) :=
    s2_view_off (Memref.whole cc0_scratch8) (size := S32x512.size) (Geo.off17_eq_off16 c 2).symm _ _
  have hr1_5 : DST c (i8 5) = ((s2_r1 5).access (Rect.unit (s := S256x512) (r1o2 c 5).1 S32x512.size (r1o2 c 5).2)) :=
    (s2_dst_y c (i8 5) rfl).trans (s2_view_off (Memref.whole cc0_scratch3) (size := S32x512.size) (Geo.off12_yp_eq_off11 c 2) _ _)
  have hsA_5 : OBV c (o8 5) = SRC c (i24 5) :=
    s2_view_off (Memref.whole cc0_scratch8) (size := S32x512.size) (Geo.off20_eq_off19 c 2).symm _ _
  have hsB_5 : OBV c (o8 5) = SRC c (i25 5) :=
    s2_view_off (Memref.whole cc0_scratch8) (size := S32x512.size) (Geo.off20_eq_off19 c 2).symm _ _
  have hr1_6 : DST c (i8 6) = ((s2_r1 6).access (Rect.unit (s := S256x512) (r1o2 c 6).1 S32x512.size (r1o2 c 6).2)) :=
    (s2_dst_x c (i8 6) rfl).trans (s2_view_off (Memref.whole cc0_scratch2) (size := S32x512.size) (Geo.off9_xp_eq_off8 c 3) _ _)
  have hsA_6 : OBV c (o8 6) = SRC c (i24 6) :=
    s2_view_off (Memref.whole cc0_scratch8) (size := S32x512.size) (Geo.off17_eq_off16 c 3).symm _ _
  have hsB_6 : OBV c (o8 6) = SRC c (i25 6) :=
    s2_view_off (Memref.whole cc0_scratch8) (size := S32x512.size) (Geo.off17_eq_off16 c 3).symm _ _
  have hr1_7 : DST c (i8 7) = ((s2_r1 7).access (Rect.unit (s := S256x512) (r1o2 c 7).1 S32x512.size (r1o2 c 7).2)) :=
    (s2_dst_y c (i8 7) rfl).trans (s2_view_off (Memref.whole cc0_scratch3) (size := S32x512.size) (Geo.off12_yp_eq_off11 c 3) _ _)
  have hsA_7 : OBV c (o8 7) = SRC c (i24 7) :=
    s2_view_off (Memref.whole cc0_scratch8) (size := S32x512.size) (Geo.off20_eq_off19 c 3).symm _ _
  have hsB_7 : OBV c (o8 7) = SRC c (i25 7) :=
    s2_view_off (Memref.whole cc0_scratch8) (size := S32x512.size) (Geo.off20_eq_off19 c 3).symm _ _
  rw [s2_bigSep8 (fun j : Fin 8 => pre2 c j), s2_bigSep8 (fun j : Fin 8 => post2 m ρ c j)]
  unfold st2
  iintro ⟨#Hp, Hx, HO, ⟨H0, H1, H2, H3, H4, H5, H6, H7⟩, Hk⟩
  iapply (s2_step m ρ K c 0 rfl rfl rfl rfl hr1_0 rfl hsA_0 hsB_0) $$ [Hx HO H0]
  · isplitr; · iexact Hp
    isplitl [Hx]; · iexact Hx
    isplitl [HO]; · iexact HO
    iexact H0
  iintro ⟨Hx, HO, G0⟩
  iapply (s2_step m ρ K c 1 rfl rfl rfl rfl hr1_1 rfl hsA_1 hsB_1) $$ [Hx HO H1]
  · isplitr; · iexact Hp
    isplitl [Hx]; · iexact Hx
    isplitl [HO]; · iexact HO
    iexact H1
  iintro ⟨Hx, HO, G1⟩
  iapply (s2_step m ρ K c 2 rfl rfl rfl rfl hr1_2 rfl hsA_2 hsB_2) $$ [Hx HO H2]
  · isplitr; · iexact Hp
    isplitl [Hx]; · iexact Hx
    isplitl [HO]; · iexact HO
    iexact H2
  iintro ⟨Hx, HO, G2⟩
  iapply (s2_step m ρ K c 3 rfl rfl rfl rfl hr1_3 rfl hsA_3 hsB_3) $$ [Hx HO H3]
  · isplitr; · iexact Hp
    isplitl [Hx]; · iexact Hx
    isplitl [HO]; · iexact HO
    iexact H3
  iintro ⟨Hx, HO, G3⟩
  iapply (s2_step m ρ K c 4 rfl rfl rfl rfl hr1_4 rfl hsA_4 hsB_4) $$ [Hx HO H4]
  · isplitr; · iexact Hp
    isplitl [Hx]; · iexact Hx
    isplitl [HO]; · iexact HO
    iexact H4
  iintro ⟨Hx, HO, G4⟩
  iapply (s2_step m ρ K c 5 rfl rfl rfl rfl hr1_5 rfl hsA_5 hsB_5) $$ [Hx HO H5]
  · isplitr; · iexact Hp
    isplitl [Hx]; · iexact Hx
    isplitl [HO]; · iexact HO
    iexact H5
  iintro ⟨Hx, HO, G5⟩
  iapply (s2_step m ρ K c 6 rfl rfl rfl rfl hr1_6 rfl hsA_6 hsB_6) $$ [Hx HO H6]
  · isplitr; · iexact Hp
    isplitl [Hx]; · iexact Hx
    isplitl [HO]; · iexact HO
    iexact H6
  iintro ⟨Hx, HO, G6⟩
  iapply (s2_step m ρ K c 7 rfl rfl rfl rfl hr1_7 rfl hsA_7 hsB_7) $$ [Hx HO H7]
  · isplitr; · iexact Hp
    isplitl [Hx]; · iexact Hx
    isplitl [HO]; · iexact HO
    iexact H7
  iintro ⟨Hx, HO, G7⟩
  iapply Hk
  isplitl [Hx]; · iexact Hx
  isplitl [HO]; · iexact HO
  isplitl [G0]; · iexact G0
  isplitl [G1]; · iexact G1
  isplitl [G2]; · iexact G2
  isplitl [G3]; · iexact G3
  isplitl [G4]; · iexact G4
  isplitl [G5]; · iexact G5
  isplitl [G6]; · iexact G6
  iexact G7

/-- info: 'Cert.KernelIdeal.Pf.stage2' depends on axioms: [propext, Classical.choice, Quot.sound] -/
#guard_msgs in #print axioms stage2

end Cert.KernelIdeal.Pf

end
-- ==== Proof.Stage3.lean ====
import proofs.«900778_g7700000000000779_dist_f_of_ar_i_m1024_n512_v7x_i4_f32_1_alg».proof.Proof.Inv
import proofs.«900778_g7700000000000779_dist_f_of_ar_i_m1024_n512_v7x_i4_f32_1_alg».proof.Proof.LibChunks
import proofs.«900778_g7700000000000779_dist_f_of_ar_i_m1024_n512_v7x_i4_f32_1_alg».proof.Proof.Levels

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ)

namespace S3

theorem amount_eq_N (M : M32) (q : DmaSem sig) : M.view.amount (.dma q) = N := rfl

theorem fromCopy_end : fromCopy 48 = ∅ := by
  unfold fromCopy
  exact Finset.filter_eq_empty_iff.mpr (fun i _ h => by have := i.isLt; omega)
theorem Ocopies_end (c : Dev nD) : Ocopies c (fromCopy 48) = 0 := by
  unfold Ocopies; rw [fromCopy_end]; exact Finset.sum_empty

theorem stage_lt (j : Fin 8) (a : ℕ) (ha : 40 ≤ a) : ∀ i' ∈ fromCopy a, stageOf (i24 j) < stageOf i' := by
  intro i' hi'
  have h1 : a ≤ i'.val := (Finset.mem_filter.mp hi').2
  have h2 : stageOf (i24 j) = 2 := by
    unfold stageOf i24
    rw [if_neg (by simp only []; omega), if_neg (by simp only []; omega), if_pos (by simp only []; omega)]
  have h3 : stageOf i' = 3 := by
    unfold stageOf
    rw [if_neg (by omega), if_neg (by omega), if_neg (by omega)]
  omega

theorem sendShare_i40 (j : Fin 8) : sendShare (i40 j) = fullShare.left := by
  unfold sendShare i40
  rw [if_neg (by simp only []; omega), if_neg (by simp only []; omega)]

abbrev cellsOf (c : Dev nD) (i : Fin 48) : sProp 𝕄 :=
  iprop(cellInv ER (Rd m ρ) (K (c, kS i)) (sendCell c i) ∗ cellInv ER (Rd m ρ) (K (c, kR i)) (recvCell c i)
    ∗ cellInv ER (Rd m ρ) (K (tgt c i, kR i)) (recvCell (tgt c i) i)
    ∗ reached ER (sendCell c i) 0 ∗ reached ER (recvCell c i) 0 ∗ reached ER (recvCell (tgt c i) i) 0)

theorem persG_cells (c : Dev nD) (i : Fin 48) : persG m ρ K c ⊢ cellsOf m ρ K c i := by
  unfold persG
  have h : (bigSep Finset.univ (fun i : Fin 48 => cellsOf m ρ K c i) : sProp 𝕄) ⊢ cellsOf m ρ K c i :=
    bigSep_elim (Finset.mem_univ i)
  iintro ⟨#H1, #H2, #H3, #H4, #H5, #Hall⟩
  iapply h
  iexact Hall

theorem mayWait_end (c : Dev nD) (sm : SemLoc sig) :
    (levAts L lv : sProp 𝕄) ⊢ MayWait (c : Thread nD τ) sm () (Ocopies c (fromCopy 48)) := by
  rw [Ocopies_end, MayWait_zero]
  iintro #H
  iempintro

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem wp_wait_recv (c : Dev nD) (i : Fin 48) (S : Finset (Fin 48))
    (hmw : (levAts L lv : sProp 𝕄) ⊢ MayWait (c : Thread nD τ) (.dma (rSem i)) () (Ocopies c S))
    {wsrc wdst : M32} {hws : wsrc.view.WordExact} {hwd : wdst.view.WordExact}
    {α : Type} (k : PUnit → P F α) (Q : α → sProp 𝕄) :
    iprop(pers m ρ K c ∗ owesC c S ∗ recvTok c i)
      ⊢ iprop(((owesC c S ∗ rcvd m ρ c i fullShare) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rSem i) wsrc wdst hws hwd) k) Q) := by
  unfold pers owesC recvTok rcvd
  iintro ⟨⟨#Hg, #Hlev⟩, ⟨%W, HO⟩, Hat, Hc⟩ Hk
  ihave Hcs := (persG_cells m ρ K c i) $$ Hg
  icases Hcs with ⟨#HIs, #HIr, #HIt, #Hrs, #Hrr, #Hrt⟩
  iapply (Rounds.wp_wait_rest_token 𝒱₀ ER (Rd m ρ) (c : Thread nD τ) none (κ := K (c, kR i)) (sm := .dma (rSem i)) (k' := N)
      (wpE_waitDma2_eq 𝒱₀ (c : Thread nD τ) none Set.univ (sem := rSem i) (src := wsrc) (dst := wdst) (hsrc := hws) (hdst := hwd))
      (Set.mem_univ _) () (O := Ocopies c S) (W := W) (R := 0) (m := 0) (T := ∅)
      ((Nat.zero_add N).trans (expect_recv m ρ c i).symm)) $$ [Hc HO Hat]
  · isplitr; · iexact HIr
    isplitl [Hc]; · iexact Hc
    isplitl [HO]; · iexact HO
    isplitr; · iapply hmw; iexact Hlev
    iexact Hat
  iintro ⟨HO, Hat, -, Hpay⟩
  ihave Hp := (Entails.of_eq (rest_recv m ρ c i)) $$ Hpay
  unfold recvPay
  iapply Hk
  isplitl [HO]; · iexists _; iexact HO
  isplitl [Hat]; · iexact Hat
  iexact Hp

abbrev OB : Memref sig .tc .vmem S1024x512 .bf16 := Memref.whole cc0_scratch8

abbrev obAt (c : Dev nD) (o : Fin 2 → ℕ) (inb : ∀ a, o a + S32x512.size a ≤ S1024x512.size a) (q : PosShare TreeShare) (w : B32 F) : sProp 𝕄 :=
  chunkAt (c : Thread nD τ) (OB.access (Rect.unit (s := S1024x512) o S32x512.size inb)) q w
theorem obAt_congr (c : Dev nD) {o o' : Fin 2 → ℕ} (h : o = o') (inb : ∀ a, o a + S32x512.size a ≤ S1024x512.size a)
    (inb' : ∀ a, o' a + S32x512.size a ≤ S1024x512.size a) (q : PosShare TreeShare) (w : B32 F) :
    (obAt c o inb q w : sProp 𝕄) = obAt c o' inb' q w := by subst h; rfl

theorem dst24_src40 (c : Dev nD) (j : Fin 8) (q : PosShare TreeShare) (w : B32 F) :
    (chunkAt (c : Thread nD τ) (DST c (i24 j)) q w : sProp 𝕄) = chunkAt (c : Thread nD τ) (SRC c (i40 j)) q w := by
  fin_cases j
  · exact obAt_congr c ((congrArg (fun d => k0_off17 d 0#32) (Geo.dev_eq_27 c)).trans (Geo.off17_yp_eq_off21 c 0)) (k0_off17_inb _ 0) (k0_off21_inb c 0) q w
  · exact obAt_congr c ((congrArg (fun d => k0_off20 d 0#32) (Geo.dev_eq_29 c)).trans (Geo.off20_xp_eq_off23 c 0)) (k0_off20_inb _ 0) (k0_off23_inb c 0) q w
  · exact obAt_congr c ((congrArg (fun d => k0_off17 d 32#32) (Geo.dev_eq_31 c)).trans (Geo.off17_yp_eq_off21 c 1)) (k0_off17_inb _ 1) (k0_off21_inb c 1) q w
  · exact obAt_congr c ((congrArg (fun d => k0_off20 d 32#32) (Geo.dev_eq_33 c)).trans (Geo.off20_xp_eq_off23 c 1)) (k0_off20_inb _ 1) (k0_off23_inb c 1) q w
  · exact obAt_congr c ((congrArg (fun d => k0_off17 d 64#32) (Geo.dev_eq_35 c)).trans (Geo.off17_yp_eq_off21 c 2)) (k0_off17_inb _ 2) (k0_off21_inb c 2) q w
  · exact obAt_congr c ((congrArg (fun d => k0_off20 d 64#32) (Geo.dev_eq_37 c)).trans (Geo.off20_xp_eq_off23 c 2)) (k0_off20_inb _ 2) (k0_off23_inb c 2) q w
  · exact obAt_congr c ((congrArg (fun d => k0_off17 d 96#32) (Geo.dev_eq_39 c)).trans (Geo.off17_yp_eq_off21 c 3)) (k0_off17_inb _ 3) (k0_off21_inb c 3) q w
  · exact obAt_congr c ((congrArg (fun d => k0_off20 d 96#32) (Geo.dev_eq_41 c)).trans (Geo.off20_xp_eq_off23 c 3)) (k0_off20_inb _ 3) (k0_off23_inb c 3) q w

theorem dst24_obv16 (c : Dev nD) (j : Fin 8) (q : PosShare TreeShare) (w : B32 F) :
    (chunkAt (c : Thread nD τ) (DST c (i24 j)) q w : sProp 𝕄) = chunkAt (c : Thread nD τ) (OBV c (o16 j)) q w := by
  fin_cases j
  · exact obAt_congr c (((congrArg (fun d => k0_off17 d 0#32) (Geo.dev_eq_27 c)).trans (Geo.off17_yp_eq_off21 c 0)).trans (Geo.off22_eq_off21 c 0).symm) (k0_off17_inb _ 0) (k0_off22_inb c 0) q w
  · exact obAt_congr c (((congrArg (fun d => k0_off20 d 0#32) (Geo.dev_eq_29 c)).trans (Geo.off20_xp_eq_off23 c 0)).trans (Geo.off24_eq_off23 c 0).symm) (k0_off20_inb _ 0) (k0_off24_inb c 0) q w
  · exact obAt_congr c (((congrArg (fun d => k0_off17 d 32#32) (Geo.dev_eq_31 c)).trans (Geo.off17_yp_eq_off21 c 1)).trans (Geo.off22_eq_off21 c 1).symm) (k0_off17_inb _ 1) (k0_off22_inb c 1) q w
  · exact obAt_congr c (((congrArg (fun d => k0_off20 d 32#32) (Geo.dev_eq_33 c)).trans (Geo.off20_xp_eq_off23 c 1)).trans (Geo.off24_eq_off23 c 1).symm) (k0_off20_inb _ 1) (k0_off24_inb c 1) q w
  · exact obAt_congr c (((congrArg (fun d => k0_off17 d 64#32) (Geo.dev_eq_35 c)).trans (Geo.off17_yp_eq_off21 c 2)).trans (Geo.off22_eq_off21 c 2).symm) (k0_off17_inb _ 2) (k0_off22_inb c 2) q w
  · exact obAt_congr c (((congrArg (fun d => k0_off20 d 64#32) (Geo.dev_eq_37 c)).trans (Geo.off20_xp_eq_off23 c 2)).trans (Geo.off24_eq_off23 c 2).symm) (k0_off20_inb _ 2) (k0_off24_inb c 2) q w
  · exact obAt_congr c (((congrArg (fun d => k0_off17 d 96#32) (Geo.dev_eq_39 c)).trans (Geo.off17_yp_eq_off21 c 3)).trans (Geo.off22_eq_off21 c 3).symm) (k0_off17_inb _ 3) (k0_off22_inb c 3) q w
  · exact obAt_congr c (((congrArg (fun d => k0_off20 d 96#32) (Geo.dev_eq_41 c)).trans (Geo.off20_xp_eq_off23 c 3)).trans (Geo.off24_eq_off23 c 3).symm) (k0_off20_inb _ 3) (k0_off24_inb c 3) q w

theorem dst25_obv24 (c : Dev nD) (j : Fin 8) (q : PosShare TreeShare) (w : B32 F) :
    (chunkAt (c : Thread nD τ) (DST c (i25 j)) q w : sProp 𝕄) = chunkAt (c : Thread nD τ) (OBV c (o24 j)) q w := by
  fin_cases j
  · exact obAt_congr c ((congrArg (fun d => k0_off17 d 0#32) (Geo.dev_eq_28 c)).trans (Geo.off17_xp_eq_off25 c 0)) (k0_off17_inb _ 0) (k0_off25_inb c 0) q w
  · exact obAt_congr c ((congrArg (fun d => k0_off20 d 0#32) (Geo.dev_eq_30 c)).trans (Geo.off20_yp_eq_off26 c 0)) (k0_off20_inb _ 0) (k0_off26_inb c 0) q w
  · exact obAt_congr c ((congrArg (fun d => k0_off17 d 32#32) (Geo.dev_eq_32 c)).trans (Geo.off17_xp_eq_off25 c 1)) (k0_off17_inb _ 1) (k0_off25_inb c 1) q w
  · exact obAt_congr c ((congrArg (fun d => k0_off20 d 32#32) (Geo.dev_eq_34 c)).trans (Geo.off20_yp_eq_off26 c 1)) (k0_off20_inb _ 1) (k0_off26_inb c 1) q w
  · exact obAt_congr c ((congrArg (fun d => k0_off17 d 64#32) (Geo.dev_eq_36 c)).trans (Geo.off17_xp_eq_off25 c 2)) (k0_off17_inb _ 2) (k0_off25_inb c 2) q w
  · exact obAt_congr c ((congrArg (fun d => k0_off20 d 64#32) (Geo.dev_eq_38 c)).trans (Geo.off20_yp_eq_off26 c 2)) (k0_off20_inb _ 2) (k0_off26_inb c 2) q w
  · exact obAt_congr c ((congrArg (fun d => k0_off17 d 96#32) (Geo.dev_eq_40 c)).trans (Geo.off17_xp_eq_off25 c 3)) (k0_off17_inb _ 3) (k0_off25_inb c 3) q w
  · exact obAt_congr c ((congrArg (fun d => k0_off20 d 96#32) (Geo.dev_eq_42 c)).trans (Geo.off20_yp_eq_off26 c 3)) (k0_off20_inb _ 3) (k0_off26_inb c 3) q w

theorem dst40_obv32 (c : Dev nD) (j : Fin 8) (q : PosShare TreeShare) (w : B32 F) :
    (chunkAt (c : Thread nD τ) (DST c (i40 j)) q w : sProp 𝕄) = chunkAt (c : Thread nD τ) (OBV c (o32 j)) q w := by
  fin_cases j
  · exact obAt_congr c ((congrArg (fun d => k0_off21 d 0#32) (Geo.dev_eq_43 c)).trans (Geo.off21_xp_eq_off27 c 0)) (k0_off21_inb _ 0) (k0_off27_inb c 0) q w
  · exact obAt_congr c ((congrArg (fun d => k0_off23 d 0#32) (Geo.dev_eq_44 c)).trans (Geo.off23_yp_eq_off28 c 0)) (k0_off23_inb _ 0) (k0_off28_inb c 0) q w
  · exact obAt_congr c ((congrArg (fun d => k0_off21 d 32#32) (Geo.dev_eq_45 c)).trans (Geo.off21_xp_eq_off27 c 1)) (k0_off21_inb _ 1) (k0_off27_inb c 1) q w
  · exact obAt_congr c ((congrArg (fun d => k0_off23 d 32#32) (Geo.dev_eq_46 c)).trans (Geo.off23_yp_eq_off28 c 1)) (k0_off23_inb _ 1) (k0_off28_inb c 1) q w
  · exact obAt_congr c ((congrArg (fun d => k0_off21 d 64#32) (Geo.dev_eq_47 c)).trans (Geo.off21_xp_eq_off27 c 2)) (k0_off21_inb _ 2) (k0_off27_inb c 2) q w
  · exact obAt_congr c ((congrArg (fun d => k0_off23 d 64#32) (Geo.dev_eq_48 c)).trans (Geo.off23_yp_eq_off28 c 2)) (k0_off23_inb _ 2) (k0_off28_inb c 2) q w
  · exact obAt_congr c ((congrArg (fun d => k0_off21 d 96#32) (Geo.dev_eq_49 c)).trans (Geo.off21_xp_eq_off27 c 3)) (k0_off21_inb _ 3) (k0_off27_inb c 3) q w
  · exact obAt_congr c ((congrArg (fun d => k0_off23 d 96#32) (Geo.dev_eq_50 c)).trans (Geo.off23_yp_eq_off28 c 3)) (k0_off23_inb _ 3) (k0_off28_inb c 3) q w

theorem wp_load_store_out (c : Dev nD) (o : Fin 32) (x : V32 F)
    {hso : (OUTV c o).Stores Finset.univ} {α : Type} (k : P F α) (Q : α → sProp 𝕄) :
    (chunkAny (c : Thread nD τ) (OUTV c o) fullShare : sProp 𝕄)
      ⊢ iprop((chunkAt (c : Thread nD τ) (OUTV c o) fullShare x -∗ wp frame (wpE (defs₀ (F := F)) 𝒱₀ (c : Thread nD τ) none) Set.univ k Q)
          -∗ wp frame (wpE (defs₀ (F := F)) 𝒱₀ (c : Thread nD τ) none) Set.univ
            (.op (.load (Memref.whole cc0_stg1_0) (Rect.unit (s := S1024x512) (outo c o).1 S32x512.size (outo c o).2).toLoadRect (View.loadsAt_vmem h_S32x512))
              (fun _ => .op (.store (Memref.whole cc0_stg1_0) (Rect.unit (s := S1024x512) (outo c o).1 S32x512.size (outo c o).2) x Finset.univ hso (.inl rfl))
                (fun _ => k))) Q) := by
  iintro Ho Hk
  ihave Ho := chunkAny_elim $$ Ho
  icases Ho with ⟨%fo, Ho⟩
  ihave Ho := (chunkAt_of_pointsTo fo) $$ Ho
  iapply (wp_load_chunk 𝒱₀ (c : Thread nD τ) none Set.univ) $$ Ho
  iintro Ho
  ihave Ho := chunkAt_any $$ Ho
  iapply (wp_store_chunk 𝒱₀ (c : Thread nD τ) none Set.univ) $$ Ho
  iintro Ho
  iapply Hk
  iexact Ho

theorem step3_spec (c : Dev nD) (i : Fin 48) (o : Fin 32) (v : B32 F)
    (hview : ∀ (q : PosShare TreeShare) (w : B32 F),
      (chunkAt (c : Thread nD τ) (DST c i) q w : sProp 𝕄) = chunkAt (c : Thread nD τ) (OBV c o) q w)
    (hWi : Wi m ρ (tgt c i) i = v) (hout : outV m ρ c o = ext v)
    {wsrc wdst : M32} {hws : wsrc.view.WordExact} {hwd : wdst.view.WordExact}
    {hso : (OUTV c o).Stores Finset.univ} {α : Type} (k : P F α) (Q : α → sProp 𝕄) :
    iprop(pers m ρ K c ∗ owesC c (fromCopy 48) ∗ (recvTok c i ∗ chunkAny (c : Thread nD τ) (OUTV c o) fullShare)
        ∗ ((owesC c (fromCopy 48) ∗ (rcvd m ρ c i fullShare ∗ chunkAt (c : Thread nD τ) (OUTV c o) fullShare (outV m ρ c o)))
            -∗ wp frame (wpE (defs₀ (F := F)) 𝒱₀ (c : Thread nD τ) none) Set.univ k Q))
      ⊢ wp frame (wpE (defs₀ (F := F)) 𝒱₀ (c : Thread nD τ) none) Set.univ
          (stepS3 (rSem i) wsrc wdst hws hwd (Memref.whole cc0_stg1_0) (Memref.whole cc0_scratch8) (outo c o).1 (outo c o).2 hso k) Q := by
  unfold stepS3
  simp only [Prog.lift, Prog.bind_op, Prog.bind_ret, Prog.pure_eq_ret]
  iintro ⟨#Hp, HO, ⟨Hrt, Hout⟩, Hk⟩

  iapply (wp_wait_recv m ρ K c i (fromCopy 48) (mayWait_end c _) _ Q) $$ [HO Hrt]
  · isplitr; · iexact Hp
    isplitl [HO]; · iexact HO
    iexact Hrt
  iintro ⟨HO, Hrc⟩
  unfold rcvd
  icases Hrc with ⟨Hat, Hch⟩

  have hconv : (chunkAt (c : Thread nD τ) (DST c i) fullShare (Wi m ρ (tgt c i) i) : sProp 𝕄)
      = chunkAt (c : Thread nD τ) (OBV c o) fullShare v := by rw [hWi]; exact hview fullShare v
  ihave Hch := (Entails.of_eq hconv) $$ Hch
  iapply (wp_load_chunk 𝒱₀ (c : Thread nD τ) none Set.univ) $$ Hch
  iintro Hch

  iapply (wp_load_store_out c o (ext v) k Q) $$ Hout
  iintro Hout
  iapply Hk
  isplitl [HO]; · iexact HO
  isplitl [Hat Hch]
  · isplitl [Hat]; · iexact Hat
    iapply (Entails.of_eq hconv.symm)
    iexact Hch
  · rw [hout]; iexact Hout

theorem step3a_spec (c : Dev nD) (j : Fin 8)
    {wsrc wdst : M32} {hws : wsrc.view.WordExact} {hwd : wdst.view.WordExact}
    {hso : (OUTV c (o24 j)).Stores Finset.univ} {α : Type} (k : P F α) (Q : α → sProp 𝕄) :
    iprop(pers m ρ K c ∗ owesC c (fromCopy 48) ∗ pre3a c j
        ∗ ((owesC c (fromCopy 48) ∗ post3a m ρ c j) -∗ wp frame (wpE (defs₀ (F := F)) 𝒱₀ (c : Thread nD τ) none) Set.univ k Q))
      ⊢ wp frame (wpE (defs₀ (F := F)) 𝒱₀ (c : Thread nD τ) none) Set.univ
          (stepS3 (rSem (i25 j)) wsrc wdst hws hwd (Memref.whole cc0_stg1_0) (Memref.whole cc0_scratch8) (outo c (o24 j)).1 (outo c (o24 j)).2 hso k) Q :=
  step3_spec m ρ K c (i25 j) (o24 j) (W2 m ρ (tgt c (i25 j)) j) (dst25_obv24 c j) (Wi_i25 m ρ _ j) (outV_o24 m ρ c j) k Q

theorem step3c_spec (c : Dev nD) (j : Fin 8)
    {wsrc wdst : M32} {hws : wsrc.view.WordExact} {hwd : wdst.view.WordExact}
    {hso : (OUTV c (o32 j)).Stores Finset.univ} {α : Type} (k : P F α) (Q : α → sProp 𝕄) :
    iprop(pers m ρ K c ∗ owesC c (fromCopy 48) ∗ pre3c c j
        ∗ ((owesC c (fromCopy 48) ∗ post3c m ρ c j) -∗ wp frame (wpE (defs₀ (F := F)) 𝒱₀ (c : Thread nD τ) none) Set.univ k Q))
      ⊢ wp frame (wpE (defs₀ (F := F)) 𝒱₀ (c : Thread nD τ) none) Set.univ
          (stepS3 (rSem (i40 j)) wsrc wdst hws hwd (Memref.whole cc0_stg1_0) (Memref.whole cc0_scratch8) (outo c (o32 j)).1 (outo c (o32 j)).2 hso k) Q :=
  step3_spec m ρ K c (i40 j) (o32 j) (W3 m ρ (tgt c (i40 j)) j) (dst40_obv32 c j) (Wi_i40 m ρ _ j) (outV_o32 m ρ c j) k Q

theorem step3f_spec (c : Dev nD) (j : Fin 8) (a b : ℕ) (ha : a = 40 + j.val) (hb : b = a + 1)
    {wsrc wdst : M32} {hws : wsrc.view.WordExact} {hwd : wdst.view.WordExact}
    {hsc : (dstM c (i40 j)).view.ref.isScScratch = false}
    {hsrc : (srcM c (i40 j)).view.WordExact} {hdst : (dstM c (i40 j)).view.WordExact}
    {hsem : DmaTarget.Typed .vmem (.dma (rSem (i40 j))) (.remote (Dev.tc (tgt c (i40 j)) : Thread nD τ) (dstM c (i40 j)) (.dma (sSem (i40 j))) hsc)}
    {hso : (OUTV c (o16 j)).Stores Finset.univ} {α : Type} (k : P F α) (Q : α → sProp 𝕄) :
    iprop(pers m ρ K c ∗ owesC c (fromCopy a) ∗ pre3f c j
        ∗ ((owesC c (fromCopy b) ∗ post3f m ρ c j) -∗ wp frame (wpE (defs₀ (F := F)) 𝒱₀ (c : Thread nD τ) none) Set.univ k Q))
      ⊢ wp frame (wpE (defs₀ (F := F)) 𝒱₀ (c : Thread nD τ) none) Set.univ
          (stepS3f (rSem (i24 j)) wsrc wdst hws hwd (srcM c (i40 j)) (dstM c (i40 j)) hsc (tgt c (i40 j)) (sSem (i40 j)) (rSem (i40 j)) hsrc hdst hsem
            (Memref.whole cc0_stg1_0) (Memref.whole cc0_scratch8) (outo c (o16 j)).1 (outo c (o16 j)).2 hso k) Q := by
  subst hb; subst ha
  unfold stepS3f
  simp only [Prog.lift, Prog.bind_op, Prog.bind_ret, Prog.pure_eq_ret]
  unfold pre3f post3f sendTok sentTok
  iintro ⟨#Hp, HO, ⟨Hrt, ⟨Hdst, Htr, Hts, Hats⟩, Hout⟩, Hk⟩

  iapply (wp_wait_recv m ρ K c (i24 j) (fromCopy (40 + j.val))
      (mayWait_recv c (i24 j) (fromCopy (40 + j.val)) (stage_lt j (40 + j.val) (Nat.le_add_right 40 j.val))) _ Q) $$ [HO Hrt]
  · isplitr; · iexact Hp
    isplitl [HO]; · iexact HO
    iexact Hrt
  iintro ⟨HO, Hrc⟩
  unfold rcvd owesC pers
  icases Hrc with ⟨Hat, Hch⟩
  icases HO with ⟨%W, HO⟩
  icases Hp with ⟨#Hg, #Hlev⟩
  rw [Wi_i24]

  ihave Hch := (chunkAt_split_share fullShare_halves) $$ Hch
  icases Hch with ⟨HchL, HchR⟩

  ihave HchL := (Entails.of_eq (dst24_src40 c j fullShare.left (W2 m ρ (tgt c (i24 j)) j))) $$ HchL
  ihave HchR := (Entails.of_eq (dst24_obv16 c j fullShare.right (W2 m ρ (tgt c (i24 j)) j))) $$ HchR
  ihave HsL := chunkAt_elim $$ HchL
  icases HsL with ⟨%fs, %hfs, Hsrc⟩
  ihave Hd := chunkAny_elim $$ Hdst
  icases Hd with ⟨%fd, Hdst⟩
  have hw : (srcM c (i40 j)).view.read (Elt F) fs = Wi m ρ c (i40 j) := by rw [Wi_i40]; exact hfs
  ihave Hcs := (persG_cells m ρ K c (i40 j)) $$ Hg
  icases Hcs with ⟨#HIs, #HIr, #HIt, #Hrs, #Hrr, #Hrtt⟩

  iapply (Rounds.wp_send_pointsTo 𝒱₀ ER (Rd m ρ) (c : Thread nD τ) none (c' := ((tgt c (i40 j) : Dev nD) : Thread nD τ))
      (src := srcM c (i40 j)) (dst := dstM c (i40 j)) (q := fullShare.left) (fs := fs) (fd := fd)
      (κ₁ := K (c, kS (i40 j))) (κ₂ := K (tgt c (i40 j), kR (i40 j))) (r₁ := 0) (r₂ := 0) (d₁ := false) (d₂ := false)
      (by rw [duties_send]; exact Finset.mem_singleton_self _) (by rw [duties_recv]; exact Finset.mem_singleton_self _)
      () () N (amount_eq_N _ _) (amount_send m ρ c (i40 j) false) (amount_recv m ρ (tgt c (i40 j)) (i40 j) false)
      (Ocopies c (fromCopy (40 + j.val + 1))) (Ocopies_peel c (40 + j.val) (by omega)) (W := W)
      (by rw [payload_send]; unfold sendPay; rw [sendShare_i40]; exact chunkAny_of_pointsTo fs)
      (by rw [payload_recv]; simp only [recvPay, DST, tgt_tgt]; rw [← hw]; exact chunkAt_write fd))
    $$ [Hsrc Hdst HO Hts Htr]
  · isplitr; · iexact HIs
    isplitr; · iexact HIt
    isplitl [Hsrc]; · iexact Hsrc
    isplitl [Hdst]; · iexact Hdst
    isplitl [HO]; · iexact HO
    isplitl [Hts]; · iexact Hts
    isplitr; · iexact Hrs
    isplitl [Htr]; · iexact Htr
    iexact Hrtt
  iintro ⟨Hcr, HO⟩

  iapply (wp_load_chunk 𝒱₀ (c : Thread nD τ) none Set.univ) $$ HchR
  iintro HchR

  iapply (wp_load_store_out c (o16 j) (ext (W2 m ρ (tgt c (i24 j)) j)) k Q) $$ Hout
  iintro Hout
  iapply Hk
  isplitl [HO]; · iexists W; iexact HO
  isplitl [Hat HchR]
  · isplitl [Hat]; · iexact Hat
    iapply (Entails.of_eq (dst24_obv16 c j fullShare.right (W2 m ρ (tgt c (i24 j)) j)).symm)
    iexact HchR
  isplitl [Hcr Hats]
  · isplitl [Hcr]; · iexact Hcr
    iexact Hats
  · rw [outV_o16]; iexact Hout

end S3

open S3

theorem stage3f (c : Dev nD) {α : Type} (k : P F α) (Q : α → sProp 𝕄) :
    iprop(pers m ρ K c ∗ owesC c (fromCopy 40) ∗ (bigSep Finset.univ fun j : Fin 8 => pre3f c j)
        ∗ ((owesC c (fromCopy 48) ∗ (bigSep Finset.univ fun j : Fin 8 => post3f m ρ c j)) -∗ wp frame (wpE (defs₀ (F := F)) 𝒱₀ (c : Thread nD τ) none) Set.univ k Q))
      ⊢ wp frame (wpE (defs₀ (F := F)) 𝒱₀ (c : Thread nD τ) none) Set.univ (st3f c k) Q := by
  rw [bigSep_fin8, bigSep_fin8]
  unfold st3f
  iintro ⟨#Hp, HO, ⟨H0, H1, H2, H3, H4, H5, H6, H7⟩, Hk⟩
  iapply (step3f_spec m ρ K c 0 40 41 rfl rfl _ Q)
  isplitr; · iexact Hp
  isplitl [HO]; · iexact HO
  isplitl [H0]; · iexact H0
  iintro ⟨HO, H0⟩
  iapply (step3f_spec m ρ K c 1 41 42 rfl rfl _ Q)
  isplitr; · iexact Hp
  isplitl [HO]; · iexact HO
  isplitl [H1]; · iexact H1
  iintro ⟨HO, H1⟩
  iapply (step3f_spec m ρ K c 2 42 43 rfl rfl _ Q)
  isplitr; · iexact Hp
  isplitl [HO]; · iexact HO
  isplitl [H2]; · iexact H2
  iintro ⟨HO, H2⟩
  iapply (step3f_spec m ρ K c 3 43 44 rfl rfl _ Q)
  isplitr; · iexact Hp
  isplitl [HO]; · iexact HO
  isplitl [H3]; · iexact H3
  iintro ⟨HO, H3⟩
  iapply (step3f_spec m ρ K c 4 44 45 rfl rfl _ Q)
  isplitr; · iexact Hp
  isplitl [HO]; · iexact HO
  isplitl [H4]; · iexact H4
  iintro ⟨HO, H4⟩
  iapply (step3f_spec m ρ K c 5 45 46 rfl rfl _ Q)
  isplitr; · iexact Hp
  isplitl [HO]; · iexact HO
  isplitl [H5]; · iexact H5
  iintro ⟨HO, H5⟩
  iapply (step3f_spec m ρ K c 6 46 47 rfl rfl _ Q)
  isplitr; · iexact Hp
  isplitl [HO]; · iexact HO
  isplitl [H6]; · iexact H6
  iintro ⟨HO, H6⟩
  iapply (step3f_spec m ρ K c 7 47 48 rfl rfl _ Q)
  isplitr; · iexact Hp
  isplitl [HO]; · iexact HO
  isplitl [H7]; · iexact H7
  iintro ⟨HO, H7⟩
  iapply Hk
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem stage3a (c : Dev nD) {α : Type} (k : P F α) (Q : α → sProp 𝕄) :
    iprop(pers m ρ K c ∗ owesC c (fromCopy 48) ∗ (bigSep Finset.univ fun j : Fin 8 => pre3a c j)
        ∗ ((owesC c (fromCopy 48) ∗ (bigSep Finset.univ fun j : Fin 8 => post3a m ρ c j)) -∗ wp frame (wpE (defs₀ (F := F)) 𝒱₀ (c : Thread nD τ) none) Set.univ k Q))
      ⊢ wp frame (wpE (defs₀ (F := F)) 𝒱₀ (c : Thread nD τ) none) Set.univ (st3a c k) Q := by
  rw [bigSep_fin8, bigSep_fin8]
  unfold st3a
  iintro ⟨#Hp, HO, ⟨H0, H1, H2, H3, H4, H5, H6, H7⟩, Hk⟩
  iapply (step3a_spec m ρ K c 0 _ Q)
  isplitr; · iexact Hp
  isplitl [HO]; · iexact HO
  isplitl [H0]; · iexact H0
  iintro ⟨HO, H0⟩
  iapply (step3a_spec m ρ K c 1 _ Q)
  isplitr; · iexact Hp
  isplitl [HO]; · iexact HO
  isplitl [H1]; · iexact H1
  iintro ⟨HO, H1⟩
  iapply (step3a_spec m ρ K c 2 _ Q)
  isplitr; · iexact Hp
  isplitl [HO]; · iexact HO
  isplitl [H2]; · iexact H2
  iintro ⟨HO, H2⟩
  iapply (step3a_spec m ρ K c 3 _ Q)
  isplitr; · iexact Hp
  isplitl [HO]; · iexact HO
  isplitl [H3]; · iexact H3
  iintro ⟨HO, H3⟩
  iapply (step3a_spec m ρ K c 4 _ Q)
  isplitr; · iexact Hp
  isplitl [HO]; · iexact HO
  isplitl [H4]; · iexact H4
  iintro ⟨HO, H4⟩
  iapply (step3a_spec m ρ K c 5 _ Q)
  isplitr; · iexact Hp
  isplitl [HO]; · iexact HO
  isplitl [H5]; · iexact H5
  iintro ⟨HO, H5⟩
  iapply (step3a_spec m ρ K c 6 _ Q)
  isplitr; · iexact Hp
  isplitl [HO]; · iexact HO
  isplitl [H6]; · iexact H6
  iintro ⟨HO, H6⟩
  iapply (step3a_spec m ρ K c 7 _ Q)
  isplitr; · iexact Hp
  isplitl [HO]; · iexact HO
  isplitl [H7]; · iexact H7
  iintro ⟨HO, H7⟩
  iapply Hk
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem stage3c (c : Dev nD) {α : Type} (k : P F α) (Q : α → sProp 𝕄) :
    iprop(pers m ρ K c ∗ owesC c (fromCopy 48) ∗ (bigSep Finset.univ fun j : Fin 8 => pre3c c j)
        ∗ ((owesC c (fromCopy 48) ∗ (bigSep Finset.univ fun j : Fin 8 => post3c m ρ c j)) -∗ wp frame (wpE (defs₀ (F := F)) 𝒱₀ (c : Thread nD τ) none) Set.univ k Q))
      ⊢ wp frame (wpE (defs₀ (F := F)) 𝒱₀ (c : Thread nD τ) none) Set.univ (st3c c k) Q := by
  rw [bigSep_fin8, bigSep_fin8]
  unfold st3c
  iintro ⟨#Hp, HO, ⟨H0, H1, H2, H3, H4, H5, H6, H7⟩, Hk⟩
  iapply (step3c_spec m ρ K c 0 _ Q)
  isplitr; · iexact Hp
  isplitl [HO]; · iexact HO
  isplitl [H0]; · iexact H0
  iintro ⟨HO, H0⟩
  iapply (step3c_spec m ρ K c 1 _ Q)
  isplitr; · iexact Hp
  isplitl [HO]; · iexact HO
  isplitl [H1]; · iexact H1
  iintro ⟨HO, H1⟩
  iapply (step3c_spec m ρ K c 2 _ Q)
  isplitr; · iexact Hp
  isplitl [HO]; · iexact HO
  isplitl [H2]; · iexact H2
  iintro ⟨HO, H2⟩
  iapply (step3c_spec m ρ K c 3 _ Q)
  isplitr; · iexact Hp
  isplitl [HO]; · iexact HO
  isplitl [H3]; · iexact H3
  iintro ⟨HO, H3⟩
  iapply (step3c_spec m ρ K c 4 _ Q)
  isplitr; · iexact Hp
  isplitl [HO]; · iexact HO
  isplitl [H4]; · iexact H4
  iintro ⟨HO, H4⟩
  iapply (step3c_spec m ρ K c 5 _ Q)
  isplitr; · iexact Hp
  isplitl [HO]; · iexact HO
  isplitl [H5]; · iexact H5
  iintro ⟨HO, H5⟩
  iapply (step3c_spec m ρ K c 6 _ Q)
  isplitr; · iexact Hp
  isplitl [HO]; · iexact HO
  isplitl [H6]; · iexact H6
  iintro ⟨HO, H6⟩
  iapply (step3c_spec m ρ K c 7 _ Q)
  isplitr; · iexact Hp
  isplitl [HO]; · iexact HO
  isplitl [H7]; · iexact H7
  iintro ⟨HO, H7⟩
  iapply Hk
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Pf

end

/-- info: 'Cert.KernelIdeal.Pf.stage3f' depends on axioms: [propext, Classical.choice, Quot.sound] -/
#guard_msgs in #print axioms Cert.KernelIdeal.Pf.stage3f
/-- info: 'Cert.KernelIdeal.Pf.stage3a' depends on axioms: [propext, Classical.choice, Quot.sound] -/
#guard_msgs in #print axioms Cert.KernelIdeal.Pf.stage3a
/-- info: 'Cert.KernelIdeal.Pf.stage3c' depends on axioms: [propext, Classical.choice, Quot.sound] -/
#guard_msgs in #print axioms Cert.KernelIdeal.Pf.stage3c
-- ==== Proof.StageW.lean ====
import proofs.«900778_g7700000000000779_dist_f_of_ar_i_m1024_n512_v7x_i4_f32_1_alg».proof.Proof.Stage3
import proofs.«900778_g7700000000000779_dist_f_of_ar_i_m1024_n512_v7x_i4_f32_1_alg».proof.Proof.Data

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ)

open S3

namespace SW

theorem stepW_spec (c : Dev nD) (i : Fin 48)
    {wsrc wdst : M32} {hws : wsrc.view.WordExact} {hwd : wdst.view.WordExact} {α : Type} (k : P F α) (Q : α → sProp 𝕄) :
    iprop(pers m ρ K c ∗ owesC c (fromCopy 48) ∗ sentTok c i
        ∗ ((owesC c (fromCopy 48) ∗ sendDone c i) -∗ wp frame (wpE (defs₀ (F := F)) 𝒱₀ (c : Thread nD τ) none) Set.univ k Q))
      ⊢ wp frame (wpE (defs₀ (F := F)) 𝒱₀ (c : Thread nD τ) none) Set.univ (stepW (sSem i) wsrc wdst hws hwd k) Q := by
  unfold stepW
  simp only [Prog.lift, Prog.bind_op, Prog.bind_ret, Prog.pure_eq_ret]
  unfold pers owesC sentTok sendDone
  iintro ⟨⟨#Hg, #Hlev⟩, ⟨%W, HO⟩, ⟨Hc, Hat⟩, Hk⟩
  ihave Hcs := (persG_cells m ρ K c i) $$ Hg
  icases Hcs with ⟨#HIs, #HIr, #HIt, #Hrs, #Hrr, #Hrtt⟩
  iapply (Rounds.wp_wait_rest_token 𝒱₀ ER (Rd m ρ) (c : Thread nD τ) none (κ := K (c, kS i)) (sm := .dma (sSem i)) (k' := N)
      (wpE_waitDma2_eq 𝒱₀ (c : Thread nD τ) none Set.univ (sem := sSem i) (src := wsrc) (dst := wdst) (hsrc := hws) (hdst := hwd))
      (Set.mem_univ _) () (O := Ocopies c (fromCopy 48)) (W := W) (R := 0) (m := 0) (T := ∅)
      ((Nat.zero_add N).trans (expect_send m ρ c i).symm)) $$ [Hc HO Hat]
  · isplitr; · iexact HIs
    isplitl [Hc]; · iexact Hc
    isplitl [HO]; · iexact HO
    isplitr; · iapply (mayWait_end c (.dma (sSem i))); iexact Hlev
    iexact Hat
  iintro ⟨HO, Hat, -, Hpay⟩
  ihave Hp := (Entails.of_eq (rest_send m ρ c i)) $$ Hpay
  unfold sendPay
  iapply Hk
  isplitl [HO]; · iexists _; iexact HO
  isplitl [Hat]; · iexact Hat
  iexact Hp

theorem bigSepL_cons' {ι : Type} (i : ι) (l : List ι) (Φ : ι → sProp 𝕄) :
    bigSepL (i :: l) Φ = iprop(Φ i ∗ bigSepL l Φ) := bigSepL_cons i l Φ
theorem bigSepL_nil' {ι : Type} (Φ : ι → sProp 𝕄) : bigSepL ([] : List ι) Φ = iprop(emp) := rfl

inductive WCh {ι : Type} (f : ι → Fin 48) {α : Type} (k : P F α) : List ι → P F α → Prop
  | nil : WCh f k [] k
  | cons (j : ι) {l : List ι} {p : P F α} {wsrc wdst : M32} {hws : wsrc.view.WordExact} {hwd : wdst.view.WordExact} :
      WCh f k l p → WCh f k (j :: l) (stepW (sSem (f j)) wsrc wdst hws hwd p)

inductive WCh2 {α : Type} (k : P F α) : List (Fin 8) → P F α → Prop
  | nil : WCh2 k [] k
  | cons (j : Fin 8) {l : List (Fin 8)} {p : P F α} {w1 w2 w3 w4 : M32}
      {h1 : w1.view.WordExact} {h2 : w2.view.WordExact} {h3 : w3.view.WordExact} {h4 : w4.view.WordExact} :
      WCh2 k l p → WCh2 k (j :: l) (stepW (sSem (i24 j)) w1 w2 h1 h2 (stepW (sSem (i25 j)) w3 w4 h3 h4 p))

theorem wch_spec {ι : Type} {f : ι → Fin 48} {c : Dev nD} {α : Type} {k : P F α} {l : List ι} {p : P F α}
    (h : WCh f k l p) (Q : α → sProp 𝕄) :
    iprop(pers m ρ K c ∗ owesC c (fromCopy 48) ∗ bigSepL l (fun j => sentTok c (f j))
        ∗ ((owesC c (fromCopy 48) ∗ bigSepL l (fun j => sendDone c (f j))) -∗ wp frame (wpE (defs₀ (F := F)) 𝒱₀ (c : Thread nD τ) none) Set.univ k Q))
      ⊢ wp frame (wpE (defs₀ (F := F)) 𝒱₀ (c : Thread nD τ) none) Set.univ p Q := by
  induction h with
  | nil =>
    rw [bigSepL_nil', bigSepL_nil']
    iintro ⟨#Hp, HO, -, Hk⟩
    iapply Hk
    isplitl [HO]; · iexact HO
    iempintro
  | cons j hl ih =>
    rw [bigSepL_cons', bigSepL_cons']
    iintro ⟨#Hp, HO, ⟨Hj, Hl⟩, Hk⟩
    iapply (stepW_spec m ρ K c (f j) _ Q)
    isplitr; · iexact Hp
    isplitl [HO]; · iexact HO
    isplitl [Hj]; · iexact Hj
    iintro ⟨HO, Hj⟩
    iapply ih
    isplitr; · iexact Hp
    isplitl [HO]; · iexact HO
    isplitl [Hl]; · iexact Hl
    iintro ⟨HO, Hl⟩
    iapply Hk
    isplitl [HO]; · iexact HO
    isplitl [Hj]; · iexact Hj
    iexact Hl

theorem wch2_spec {c : Dev nD} {α : Type} {k : P F α} {l : List (Fin 8)} {p : P F α}
    (h : WCh2 k l p) (Q : α → sProp 𝕄) :
    iprop(pers m ρ K c ∗ owesC c (fromCopy 48) ∗ bigSepL l (fun j => iprop(sentTok c (i24 j) ∗ sentTok c (i25 j)))
        ∗ ((owesC c (fromCopy 48) ∗ bigSepL l (fun j => iprop(sendDone c (i24 j) ∗ sendDone c (i25 j)))) -∗ wp frame (wpE (defs₀ (F := F)) 𝒱₀ (c : Thread nD τ) none) Set.univ k Q))
      ⊢ wp frame (wpE (defs₀ (F := F)) 𝒱₀ (c : Thread nD τ) none) Set.univ p Q := by
  induction h with
  | nil =>
    rw [bigSepL_nil', bigSepL_nil']
    iintro ⟨#Hp, HO, -, Hk⟩
    iapply Hk
    isplitl [HO]; · iexact HO
    iempintro
  | cons j hl ih =>
    rw [bigSepL_cons', bigSepL_cons']
    iintro ⟨#Hp, HO, ⟨⟨Hj, Hj'⟩, Hl⟩, Hk⟩
    iapply (stepW_spec m ρ K c (i24 j) _ Q)
    isplitr; · iexact Hp
    isplitl [HO]; · iexact HO
    isplitl [Hj]; · iexact Hj
    iintro ⟨HO, Hj⟩
    iapply (stepW_spec m ρ K c (i25 j) _ Q)
    isplitr; · iexact Hp
    isplitl [HO]; · iexact HO
    isplitl [Hj']; · iexact Hj'
    iintro ⟨HO, Hj'⟩
    iapply ih
    isplitr; · iexact Hp
    isplitl [HO]; · iexact HO
    isplitl [Hl]; · iexact Hl
    iintro ⟨HO, Hl⟩
    iapply Hk
    isplitl [HO]; · iexact HO
    isplitl [Hj Hj']
    · isplitl [Hj]; · iexact Hj
      iexact Hj'
    iexact Hl

abbrev l16 : List (Fin 16) := [0, 1, 2, 3, 4, 5, 6, 7, 8, 9, 10, 11, 12, 13, 14, 15]
abbrev l8 : List (Fin 8) := [0, 1, 2, 3, 4, 5, 6, 7]

theorem bigSep_l16 (Φ : Fin 16 → sProp 𝕄) : bigSep Finset.univ Φ = bigSepL l16 Φ :=
  bigSep_univ_eq_bigSepL l16 (by decide) (by decide) Φ
theorem bigSep_l8 (Φ : Fin 8 → sProp 𝕄) : bigSep Finset.univ Φ = bigSepL l8 Φ :=
  bigSep_univ_eq_bigSepL l8 (by decide) (by decide) Φ

theorem stW_chain (c : Dev nD) {α : Type} (k : P F α) :
    ∃ k1 k2 k3 : P F α, WCh c16 k1 l16 (stW c k) ∧ WCh i16 k2 l8 k1 ∧ WCh2 k3 l8 k2 ∧ WCh i40 k l8 k3 :=
  ⟨_, _, _,
    .cons 0 <| .cons 1 <| .cons 2 <| .cons 3 <| .cons 4 <| .cons 5 <| .cons 6 <| .cons 7 <| .cons 8 <| .cons 9 <| .cons 10 <| .cons 11 <| .cons 12 <| .cons 13 <| .cons 14 <| .cons 15 <| .nil,
    .cons 0 <| .cons 1 <| .cons 2 <| .cons 3 <| .cons 4 <| .cons 5 <| .cons 6 <| .cons 7 <| .nil,
    .cons 0 <| .cons 1 <| .cons 2 <| .cons 3 <| .cons 4 <| .cons 5 <| .cons 6 <| .cons 7 <| .nil,
    .cons 0 <| .cons 1 <| .cons 2 <| .cons 3 <| .cons 4 <| .cons 5 <| .cons 6 <| .cons 7 <| .nil⟩

end SW

open SW

theorem stageW (c : Dev nD) {α : Type} (k : P F α) (Q : α → sProp 𝕄) :
    iprop(pers m ρ K c ∗ owesC c (fromCopy 48) ∗ sentAll c
        ∗ ((owesC c (fromCopy 48) ∗ doneAll c) -∗ wp frame (wpE (defs₀ (F := F)) 𝒱₀ (c : Thread nD τ) none) Set.univ k Q))
      ⊢ wp frame (wpE (defs₀ (F := F)) 𝒱₀ (c : Thread nD τ) none) Set.univ (stW c k) Q := by
  obtain ⟨k1, k2, k3, h1, h2, h3, h4⟩ := stW_chain (F := F) c k
  unfold sentAll doneAll byStage
  rw [bigSep_l16, bigSep_l16, bigSep_l8, bigSep_l8, bigSep_l8, bigSep_l8, bigSep_l8, bigSep_l8]
  iintro ⟨#Hp, HO, ⟨G1, G2, G3, G4⟩, Hk⟩
  iapply (wch_spec m ρ K h1 Q)
  isplitr; · iexact Hp
  isplitl [HO]; · iexact HO
  isplitl [G1]; · iexact G1
  iintro ⟨HO, G1⟩
  iapply (wch_spec m ρ K h2 Q)
  isplitr; · iexact Hp
  isplitl [HO]; · iexact HO
  isplitl [G2]; · iexact G2
  iintro ⟨HO, G2⟩
  iapply (wch2_spec m ρ K h3 Q)
  isplitr; · iexact Hp
  isplitl [HO]; · iexact HO
  isplitl [G3]; · iexact G3
  iintro ⟨HO, G3⟩
  iapply (wch_spec m ρ K h4 Q)
  isplitr; · iexact Hp
  isplitl [HO]; · iexact HO
  isplitl [G4]; · iexact G4
  iintro ⟨HO, G4⟩
  iapply Hk
  isplitl [HO]; · iexact HO
  isplitl [G1]; · iexact G1
  isplitl [G2]; · iexact G2
  isplitl [G3]; · iexact G3
  iexact G4

end Cert.KernelIdeal.Pf

end

/-- info: 'Cert.KernelIdeal.Pf.stageW' depends on axioms: [propext, Classical.choice, Quot.sound] -/
#guard_msgs in #print axioms Cert.KernelIdeal.Pf.stageW
-- ==== Proof.StageEnd.lean ====
import proofs.«900778_g7700000000000779_dist_f_of_ar_i_m1024_n512_v7x_i4_f32_1_alg».proof.Proof.Inv
import proofs.«900778_g7700000000000779_dist_f_of_ar_i_m1024_n512_v7x_i4_f32_1_alg».proof.Proof.LibChunks
import proofs.«900778_g7700000000000779_dist_f_of_ar_i_m1024_n512_v7x_i4_f32_1_alg».proof.Proof.Data

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 97 → ℕ)

namespace SEnd

section BigSep

variable {M : Type} [URA M]

theorem bs_fin4 (Φ : Fin 4 → sProp M) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

theorem bs_fin8 (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

theorem bs_sum {α β γ : Type} [Fintype α] [Fintype β] [Fintype γ] (f : α ⊕ β → γ) (hf : Function.Bijective f)
    (Φ : γ → sProp M) :
    bigSep Finset.univ Φ
      = iprop(bigSep Finset.univ (fun a => Φ (f (Sum.inl a))) ∗ bigSep Finset.univ (fun b => Φ (f (Sum.inr b)))) :=
  (bigSep_univ_equiv (Equiv.ofBijective f hf) Φ).trans (bigSep_univ_sum (fun x => Φ (Equiv.ofBijective f hf x)))

theorem bs_prod4 {J : Type} [Fintype J] (Ψ : J × Fin 4 → sProp M) :
    bigSep Finset.univ Ψ
      = iprop(bigSep Finset.univ (fun j => Ψ (j, 0)) ∗ bigSep Finset.univ (fun j => Ψ (j, 1))
          ∗ bigSep Finset.univ (fun j => Ψ (j, 2)) ∗ bigSep Finset.univ (fun j => Ψ (j, 3))) := by
  refine (bigSep_univ_prod Ψ).trans ?_
  refine (bigSep_congr (s := Finset.univ) (Ψ := fun j => iprop(Ψ (j, 0) ∗ Ψ (j, 1) ∗ Ψ (j, 2) ∗ Ψ (j, 3)))
    fun j _ => bs_fin4 (fun s => Ψ (j, s))).trans ?_
  refine (bigSep_sep' Finset.univ (fun j => Ψ (j, 0)) (fun j => iprop(Ψ (j, 1) ∗ Ψ (j, 2) ∗ Ψ (j, 3)))).trans ?_
  refine congrArg (BI.sep _) ?_
  refine (bigSep_sep' Finset.univ (fun j => Ψ (j, 1)) (fun j => iprop(Ψ (j, 2) ∗ Ψ (j, 3)))).trans ?_
  refine congrArg (BI.sep _) ?_
  exact bigSep_sep' Finset.univ (fun j => Ψ (j, 2)) (fun j => Ψ (j, 3))

theorem bs_prod2 {J : Type} [Fintype J] (Ψ : Fin 2 × J → sProp M) :
    bigSep Finset.univ Ψ = iprop(bigSep Finset.univ (fun r => Ψ (0, r)) ∗ bigSep Finset.univ (fun r => Ψ (1, r))) :=
  (bigSep_univ_prod Ψ).trans (bigSep_univ_two (fun g => bigSep Finset.univ (fun r => Ψ (g, r))))

theorem bs_prod8 {J : Type} [Fintype J] (Ψ : Fin 8 × J → sProp M) :
    bigSep Finset.univ Ψ
      = iprop(bigSep Finset.univ (fun r => Ψ (0, r)) ∗ bigSep Finset.univ (fun r => Ψ (1, r))
          ∗ bigSep Finset.univ (fun r => Ψ (2, r)) ∗ bigSep Finset.univ (fun r => Ψ (3, r))
          ∗ bigSep Finset.univ (fun r => Ψ (4, r)) ∗ bigSep Finset.univ (fun r => Ψ (5, r))
          ∗ bigSep Finset.univ (fun r => Ψ (6, r)) ∗ bigSep Finset.univ (fun r => Ψ (7, r))) :=
  (bigSep_univ_prod Ψ).trans (bs_fin8 (fun g => bigSep Finset.univ (fun r => Ψ (g, r))))

theorem smono {P P' Q Q' : sProp M} (h1 : P ⊢ P') (h2 : Q ⊢ Q') : iprop(P ∗ Q) ⊢ iprop(P' ∗ Q') :=
  (sep_mono_left h1).trans (sep_mono_right h2)

theorem bs_elim {I : Type} [DecidableEq I] [Fintype I] (Φ : I → sProp M) (i : I) : bigSep Finset.univ Φ ⊢ Φ i :=
  bigSep_elim (Finset.mem_univ i)

end BigSep

def ev (r : Fin 4) : Fin 8 := ⟨2 * r.val, by omega⟩
def od (r : Fin 4) : Fin 8 := ⟨2 * r.val + 1, by omega⟩

theorem evod_bij : Function.Bijective (Sum.elim ev od : Fin 4 ⊕ Fin 4 → Fin 8) := by decide +kernel
theorem n08_bij : Function.Bijective (Sum.elim n0 n8 : Fin 8 ⊕ Fin 8 → Fin 16) := by decide +kernel

def famIx : Fin 8 ⊕ (Fin 8 ⊕ (Fin 8 ⊕ (Fin 8 ⊕ (Fin 8 ⊕ Fin 8)))) → Fin 48 :=
  Sum.elim i0 (Sum.elim i8 (Sum.elim i16 (Sum.elim i24 (Sum.elim i25 i40))))
theorem famIx_bij : Function.Bijective famIx := by decide +kernel

theorem fin4_cases {P : Fin 4 → Prop} (h0 : P 0) (h1 : P 1) (h2 : P 2) (h3 : P 3) (r : Fin 4) : P r := by
  match r with
  | ⟨0, _⟩ => exact h0
  | ⟨1, _⟩ => exact h1
  | ⟨2, _⟩ => exact h2
  | ⟨3, _⟩ => exact h3
  | ⟨n + 4, h⟩ => exact absurd h (by omega)

section Regroup

variable {M : Type} [URA M]

theorem bs_evod (Ψ : Fin 8 → sProp M) :
    bigSep Finset.univ Ψ = iprop(bigSep Finset.univ (fun r => Ψ (ev r)) ∗ bigSep Finset.univ (fun r => Ψ (od r))) :=
  bs_sum (Sum.elim ev od) evod_bij Ψ

theorem bs_n08 (Ψ : Fin 16 → sProp M) :
    bigSep Finset.univ Ψ = iprop(bigSep Finset.univ (fun j => Ψ (n0 j)) ∗ bigSep Finset.univ (fun j => Ψ (n8 j))) :=
  bs_sum (Sum.elim n0 n8) n08_bij Ψ

theorem bs_fam (Φ : Fin 48 → sProp M) :
    bigSep Finset.univ Φ
      = iprop(bigSep Finset.univ (fun j => Φ (i0 j)) ∗ bigSep Finset.univ (fun j => Φ (i8 j)) ∗ bigSep Finset.univ (fun j => Φ (i16 j))
          ∗ bigSep Finset.univ (fun j => Φ (i24 j)) ∗ bigSep Finset.univ (fun j => Φ (i25 j)) ∗ bigSep Finset.univ (fun j => Φ (i40 j))) := by
  refine (bigSep_univ_equiv (Equiv.ofBijective famIx famIx_bij) Φ).trans ?_
  refine (bigSep_univ_sum _).trans ?_
  refine congrArg (BI.sep _) ?_
  refine (bigSep_univ_sum _).trans ?_
  refine congrArg (BI.sep _) ?_
  refine (bigSep_univ_sum _).trans ?_
  refine congrArg (BI.sep _) ?_
  refine (bigSep_univ_sum _).trans ?_
  refine congrArg (BI.sep _) ?_
  exact bigSep_univ_sum _

end Regroup

theorem byStage_fam (Φ : Fin 48 → sProp 𝕄) :
    byStage Φ
      ⊢ iprop(bigSep Finset.univ (fun j => Φ (i0 j)) ∗ bigSep Finset.univ (fun j => Φ (i8 j)) ∗ bigSep Finset.univ (fun j => Φ (i16 j))
          ∗ bigSep Finset.univ (fun j => Φ (i24 j)) ∗ bigSep Finset.univ (fun j => Φ (i25 j)) ∗ bigSep Finset.univ (fun j => Φ (i40 j))) := by
  unfold byStage
  rw [bs_n08 (fun n => Φ (c16 n)), bigSep_sep' Finset.univ (fun j => Φ (i24 j)) (fun j => Φ (i25 j))]
  iintro ⟨⟨H0, H8⟩, H16, ⟨H24, H25⟩, H40⟩
  isplitl [H0]; · iexact H0
  isplitl [H8]; · iexact H8
  isplitl [H16]; · iexact H16
  isplitl [H24]; · iexact H24
  isplitl [H25]; · iexact H25
  iexact H40

theorem sendShare_i0 (j : Fin 8) : sendShare (i0 j) = fullShare := by
  unfold sendShare i0; rw [if_pos (by simp only []; omega)]
theorem sendShare_i8 (j : Fin 8) : sendShare (i8 j) = fullShare := by
  unfold sendShare i8; rw [if_pos (by simp only []; omega)]
theorem sendShare_i16 (j : Fin 8) : sendShare (i16 j) = fullShare := by
  unfold sendShare i16; rw [if_pos (by simp only []; omega)]
theorem sendShare_i24 (j : Fin 8) : sendShare (i24 j) = fullShare.left := by
  unfold sendShare i24
  rw [if_neg (by simp only []; omega), if_pos (by simp only []; omega), if_pos (by simp only []; omega)]
theorem sendShare_i25 (j : Fin 8) : sendShare (i25 j) = fullShare.right := by
  unfold sendShare i25
  rw [if_neg (by simp only []; omega), if_pos (by simp only []; omega), if_neg (by simp only []; omega)]
theorem sendShare_i40 (j : Fin 8) : sendShare (i40 j) = fullShare.left := by
  unfold sendShare i40
  rw [if_neg (by simp only []; omega), if_neg (by simp only []; omega)]

abbrev rowOf {n : ℕ} (base : Fin n → ℕ) (t : Fin n × Fin 4) : ℕ := base t.1 + 32 * t.2.val

def sbA (c : Dev nD) : Fin 2 → ℕ := ![Geo.row3 c, Geo.row9 c]
def sbB (c : Dev nD) : Fin 2 → ℕ := ![Geo.row6 c, Geo.row12 c]

def obB (c : Dev nD) : Fin 8 → ℕ :=
  ![Geo.row17 c, Geo.row20 c, Geo.row21 c, Geo.row23 c, Geo.row17 (Geo.xp c), Geo.row20 (Geo.yp c), Geo.row21 (Geo.xp c), Geo.row23 (Geo.yp c)]

def rows4 (r : Fin 4) : ℕ := 32 * r.val

theorem sbA_in : ∀ (c : Dev nD) (t : Fin 2 × Fin 4), rowOf (sbA c) t + 32 ≤ 256 := by decide +kernel
theorem sbA_disj : ∀ (c : Dev nD) (t t' : Fin 2 × Fin 4), t ≠ t' →
    rowOf (sbA c) t + 32 ≤ rowOf (sbA c) t' ∨ rowOf (sbA c) t' + 32 ≤ rowOf (sbA c) t := by decide +kernel
theorem sbA_onto : ∀ (c : Dev nD) (b : Fin 8), ∃ t, rowOf (sbA c) t = 32 * b.val := by decide +kernel
theorem sbB_in : ∀ (c : Dev nD) (t : Fin 2 × Fin 4), rowOf (sbB c) t + 32 ≤ 256 := by decide +kernel
theorem sbB_disj : ∀ (c : Dev nD) (t t' : Fin 2 × Fin 4), t ≠ t' →
    rowOf (sbB c) t + 32 ≤ rowOf (sbB c) t' ∨ rowOf (sbB c) t' + 32 ≤ rowOf (sbB c) t := by decide +kernel
theorem sbB_onto : ∀ (c : Dev nD) (b : Fin 8), ∃ t, rowOf (sbB c) t = 32 * b.val := by decide +kernel
theorem obB_in : ∀ (c : Dev nD) (t : Fin 8 × Fin 4), rowOf (obB c) t + 32 ≤ 1024 := by decide +kernel
theorem obB_disj : ∀ (c : Dev nD) (t t' : Fin 8 × Fin 4), t ≠ t' →
    rowOf (obB c) t + 32 ≤ rowOf (obB c) t' ∨ rowOf (obB c) t' + 32 ≤ rowOf (obB c) t := by decide +kernel
theorem obB_onto : ∀ (c : Dev nD) (b : Fin 32), ∃ t, rowOf (obB c) t = 32 * b.val := by decide +kernel
theorem rows4_in : ∀ r : Fin 4, rows4 r + 32 ≤ 128 := by decide +kernel
theorem rows4_disj : ∀ r r' : Fin 4, r ≠ r' → rows4 r + 32 ≤ rows4 r' ∨ rows4 r' + 32 ≤ rows4 r := by decide +kernel
theorem rows4_onto : ∀ b : Fin 4, ∃ r, rows4 r = 32 * b.val := by decide +kernel

theorem cover_of_onto {T : Type} {n : ℕ} (rows : T → ℕ) (h : ∀ b : Fin n, ∃ t, rows t = 32 * b.val) :
    ∀ j < 32 * n, ∃ t, rows t ≤ j ∧ j < rows t + 32 := fun j hj => by
  obtain ⟨t, ht⟩ := h ⟨j / 32, by omega⟩
  have ht' : rows t = 32 * (j / 32) := ht
  exact ⟨t, by omega, by omega⟩

theorem off_at {f : Dev nD → BitVec 32 → Fin 2 → ℕ} {d d' : Dev nD} {k : BitVec 32} {v : Fin 2 → ℕ} (hd : d = d')
    (h : f d' k = v) : f d k = v := by
  subst hd; exact h

/-- A chunk named through one spelling of its rows is the chunk named through an equal one. -/
theorem any_off {sp : Space} {s : Shape} {e : EltTy} (c : Dev nD) (B : Memref sig .tc sp s e) {off off' size : Fin s.rank → ℕ} (h : off = off')
    {inb : ∀ a, off a + size a ≤ s.size a} {inb' : ∀ a, off' a + size a ≤ s.size a} {q : PosShare TreeShare} :
    (chunkAny (c : Thread nD τ) (B.access (Rect.unit off size inb)) q : sProp 𝕄) ⊢ chunkAny (c : Thread nD τ) (B.access (Rect.unit off' size inb')) q :=
  Entails.of_eq (chunkAny_congr_off (c := (c : Thread nD τ)) B h _ _ _)

theorem lit4 (r : Fin 4) : (![32 * r.val, 0] : Fin 2 → ℕ) = ![rows4 r, 0] := rfl

abbrev B0 : Memref sig .tc .vmem ⟨2, ![256, 512]⟩ .bf16 := Memref.whole cc0_scratch0
abbrev B1 : Memref sig .tc .vmem ⟨2, ![256, 512]⟩ .bf16 := Memref.whole cc0_scratch1
abbrev B2 : Memref sig .tc .vmem ⟨2, ![256, 512]⟩ .bf16 := Memref.whole cc0_scratch2
abbrev B3 : Memref sig .tc .vmem ⟨2, ![256, 512]⟩ .bf16 := Memref.whole cc0_scratch3
abbrev B4 : Memref sig .tc .vmem ⟨2, ![128, 512]⟩ .bf16 := Memref.whole cc0_scratch4
abbrev B5 : Memref sig .tc .vmem ⟨2, ![128, 512]⟩ .bf16 := Memref.whole cc0_scratch5
abbrev B6 : Memref sig .tc .vmem ⟨2, ![128, 512]⟩ .bf16 := Memref.whole cc0_scratch6
abbrev B7 : Memref sig .tc .vmem ⟨2, ![128, 512]⟩ .bf16 := Memref.whole cc0_scratch7
abbrev B8 : Memref sig .tc .vmem ⟨2, ![1024, 512]⟩ .bf16 := Memref.whole cc0_scratch8
abbrev BO : Memref sig .tc .vmem ⟨2, ![1024, 512]⟩ .f32 := Memref.whole cc0_stg1_0

theorem s0e (c : Dev nD) (r : Fin 4) :
    (chunkAny (c : Thread nD τ) (SRC c (i0 (ev r))) fullShare : sProp 𝕄)
      ⊢ chunkAny (c : Thread nD τ) (B0.access (rowRect 256 512 32 (rowOf (sbA c) (0, r)) (sbA_in c (0, r)))) fullShare := by
  induction r using fin4_cases with
  | h0 => exact any_off c B0 (Geo.off_eq_3 c 0)
  | h1 => exact any_off c B0 (Geo.off_eq_3 c 1)
  | h2 => exact any_off c B0 (Geo.off_eq_3 c 2)
  | h3 => exact any_off c B0 (Geo.off_eq_3 c 3)
theorem s8e (c : Dev nD) (r : Fin 4) :
    (chunkAny (c : Thread nD τ) (SRC c (i8 (ev r))) fullShare : sProp 𝕄)
      ⊢ chunkAny (c : Thread nD τ) (B0.access (rowRect 256 512 32 (rowOf (sbA c) (1, r)) (sbA_in c (1, r)))) fullShare := by
  induction r using fin4_cases with
  | h0 => exact any_off c B0 (Geo.off_eq_9 c 0)
  | h1 => exact any_off c B0 (Geo.off_eq_9 c 1)
  | h2 => exact any_off c B0 (Geo.off_eq_9 c 2)
  | h3 => exact any_off c B0 (Geo.off_eq_9 c 3)
theorem s0o (c : Dev nD) (r : Fin 4) :
    (chunkAny (c : Thread nD τ) (SRC c (i0 (od r))) fullShare : sProp 𝕄)
      ⊢ chunkAny (c : Thread nD τ) (B1.access (rowRect 256 512 32 (rowOf (sbB c) (0, r)) (sbB_in c (0, r)))) fullShare := by
  induction r using fin4_cases with
  | h0 => exact any_off c B1 (Geo.off_eq_6 c 0)
  | h1 => exact any_off c B1 (Geo.off_eq_6 c 1)
  | h2 => exact any_off c B1 (Geo.off_eq_6 c 2)
  | h3 => exact any_off c B1 (Geo.off_eq_6 c 3)
theorem s8o (c : Dev nD) (r : Fin 4) :
    (chunkAny (c : Thread nD τ) (SRC c (i8 (od r))) fullShare : sProp 𝕄)
      ⊢ chunkAny (c : Thread nD τ) (B1.access (rowRect 256 512 32 (rowOf (sbB c) (1, r)) (sbB_in c (1, r)))) fullShare := by
  induction r using fin4_cases with
  | h0 => exact any_off c B1 (Geo.off_eq_12 c 0)
  | h1 => exact any_off c B1 (Geo.off_eq_12 c 1)
  | h2 => exact any_off c B1 (Geo.off_eq_12 c 2)
  | h3 => exact any_off c B1 (Geo.off_eq_12 c 3)
theorem s16e (c : Dev nD) (r : Fin 4) :
    (chunkAny (c : Thread nD τ) (SRC c (i16 (ev r))) fullShare : sProp 𝕄)
      ⊢ chunkAny (c : Thread nD τ) (B6.access (rowRect 128 512 32 (rows4 r) (rows4_in r))) fullShare := by
  induction r using fin4_cases with
  | h0 => exact any_off c B6 (lit4 0)
  | h1 => exact any_off c B6 (lit4 1)
  | h2 => exact any_off c B6 (lit4 2)
  | h3 => exact any_off c B6 (lit4 3)
theorem s16o (c : Dev nD) (r : Fin 4) :
    (chunkAny (c : Thread nD τ) (SRC c (i16 (od r))) fullShare : sProp 𝕄)
      ⊢ chunkAny (c : Thread nD τ) (B7.access (rowRect 128 512 32 (rows4 r) (rows4_in r))) fullShare := by
  induction r using fin4_cases with
  | h0 => exact any_off c B7 (lit4 0)
  | h1 => exact any_off c B7 (lit4 1)
  | h2 => exact any_off c B7 (lit4 2)
  | h3 => exact any_off c B7 (lit4 3)
theorem s24e (c : Dev nD) (r : Fin 4) :
    (chunkAny (c : Thread nD τ) (SRC c (i24 (ev r))) fullShare.left : sProp 𝕄)
      ⊢ chunkAny (c : Thread nD τ) (B8.access (rowRect 1024 512 32 (rowOf (obB c) (0, r)) (obB_in c (0, r)))) fullShare.left := by
  induction r using fin4_cases with
  | h0 => exact any_off c B8 (Geo.off_eq_17 c 0)
  | h1 => exact any_off c B8 (Geo.off_eq_17 c 1)
  | h2 => exact any_off c B8 (Geo.off_eq_17 c 2)
  | h3 => exact any_off c B8 (Geo.off_eq_17 c 3)
theorem s25e (c : Dev nD) (r : Fin 4) :
    (chunkAny (c : Thread nD τ) (SRC c (i25 (ev r))) fullShare.right : sProp 𝕄)
      ⊢ chunkAny (c : Thread nD τ) (B8.access (rowRect 1024 512 32 (rowOf (obB c) (0, r)) (obB_in c (0, r)))) fullShare.right := by
  induction r using fin4_cases with
  | h0 => exact any_off c B8 (Geo.off_eq_17 c 0)
  | h1 => exact any_off c B8 (Geo.off_eq_17 c 1)
  | h2 => exact any_off c B8 (Geo.off_eq_17 c 2)
  | h3 => exact any_off c B8 (Geo.off_eq_17 c 3)
theorem s24o (c : Dev nD) (r : Fin 4) :
    (chunkAny (c : Thread nD τ) (SRC c (i24 (od r))) fullShare.left : sProp 𝕄)
      ⊢ chunkAny (c : Thread nD τ) (B8.access (rowRect 1024 512 32 (rowOf (obB c) (1, r)) (obB_in c (1, r)))) fullShare.left := by
  induction r using fin4_cases with
  | h0 => exact any_off c B8 (Geo.off_eq_20 c 0)
  | h1 => exact any_off c B8 (Geo.off_eq_20 c 1)
  | h2 => exact any_off c B8 (Geo.off_eq_20 c 2)
  | h3 => exact any_off c B8 (Geo.off_eq_20 c 3)
theorem s25o (c : Dev nD) (r : Fin 4) :
    (chunkAny (c : Thread nD τ) (SRC c (i25 (od r))) fullShare.right : sProp 𝕄)
      ⊢ chunkAny (c : Thread nD τ) (B8.access (rowRect 1024 512 32 (rowOf (obB c) (1, r)) (obB_in c (1, r)))) fullShare.right := by
  induction r using fin4_cases with
  | h0 => exact any_off c B8 (Geo.off_eq_20 c 0)
  | h1 => exact any_off c B8 (Geo.off_eq_20 c 1)
  | h2 => exact any_off c B8 (Geo.off_eq_20 c 2)
  | h3 => exact any_off c B8 (Geo.off_eq_20 c 3)
theorem s40e (c : Dev nD) (r : Fin 4) :
    (chunkAny (c : Thread nD τ) (SRC c (i40 (ev r))) fullShare.left : sProp 𝕄)
      ⊢ chunkAny (c : Thread nD τ) (B8.access (rowRect 1024 512 32 (rowOf (obB c) (2, r)) (obB_in c (2, r)))) fullShare.left := by
  induction r using fin4_cases with
  | h0 => exact any_off c B8 (Geo.off_eq_21 c 0)
  | h1 => exact any_off c B8 (Geo.off_eq_21 c 1)
  | h2 => exact any_off c B8 (Geo.off_eq_21 c 2)
  | h3 => exact any_off c B8 (Geo.off_eq_21 c 3)
theorem s40o (c : Dev nD) (r : Fin 4) :
    (chunkAny (c : Thread nD τ) (SRC c (i40 (od r))) fullShare.left : sProp 𝕄)
      ⊢ chunkAny (c : Thread nD τ) (B8.access (rowRect 1024 512 32 (rowOf (obB c) (3, r)) (obB_in c (3, r)))) fullShare.left := by
  induction r using fin4_cases with
  | h0 => exact any_off c B8 (Geo.off_eq_23 c 0)
  | h1 => exact any_off c B8 (Geo.off_eq_23 c 1)
  | h2 => exact any_off c B8 (Geo.off_eq_23 c 2)
  | h3 => exact any_off c B8 (Geo.off_eq_23 c 3)
theorem r0e (c : Dev nD) (r : Fin 4) :
    (chunkAny (c : Thread nD τ) (DST c (i0 (ev r))) fullShare : sProp 𝕄)
      ⊢ chunkAny (c : Thread nD τ) (B2.access (rowRect 256 512 32 (rowOf (sbA (Geo.xp c)) (0, r)) (sbA_in (Geo.xp c) (0, r)))) fullShare := by
  induction r using fin4_cases with
  | h0 => exact any_off c B2 (off_at (f := k0_off3) (tgt_eq c (i0 (ev 0))) (Geo.off_eq_3 (Geo.xp c) 0))
  | h1 => exact any_off c B2 (off_at (f := k0_off3) (tgt_eq c (i0 (ev 1))) (Geo.off_eq_3 (Geo.xp c) 1))
  | h2 => exact any_off c B2 (off_at (f := k0_off3) (tgt_eq c (i0 (ev 2))) (Geo.off_eq_3 (Geo.xp c) 2))
  | h3 => exact any_off c B2 (off_at (f := k0_off3) (tgt_eq c (i0 (ev 3))) (Geo.off_eq_3 (Geo.xp c) 3))
theorem r8e (c : Dev nD) (r : Fin 4) :
    (chunkAny (c : Thread nD τ) (DST c (i8 (ev r))) fullShare : sProp 𝕄)
      ⊢ chunkAny (c : Thread nD τ) (B2.access (rowRect 256 512 32 (rowOf (sbA (Geo.xp c)) (1, r)) (sbA_in (Geo.xp c) (1, r)))) fullShare := by
  induction r using fin4_cases with
  | h0 => exact any_off c B2 (off_at (f := k0_off9) (tgt_eq c (i8 (ev 0))) (Geo.off_eq_9 (Geo.xp c) 0))
  | h1 => exact any_off c B2 (off_at (f := k0_off9) (tgt_eq c (i8 (ev 1))) (Geo.off_eq_9 (Geo.xp c) 1))
  | h2 => exact any_off c B2 (off_at (f := k0_off9) (tgt_eq c (i8 (ev 2))) (Geo.off_eq_9 (Geo.xp c) 2))
  | h3 => exact any_off c B2 (off_at (f := k0_off9) (tgt_eq c (i8 (ev 3))) (Geo.off_eq_9 (Geo.xp c) 3))
theorem r0o (c : Dev nD) (r : Fin 4) :
    (chunkAny (c : Thread nD τ) (DST c (i0 (od r))) fullShare : sProp 𝕄)
      ⊢ chunkAny (c : Thread nD τ) (B3.access (rowRect 256 512 32 (rowOf (sbB (Geo.yp c)) (0, r)) (sbB_in (Geo.yp c) (0, r)))) fullShare := by
  induction r using fin4_cases with
  | h0 => exact any_off c B3 (off_at (f := k0_off6) (tgt_eq c (i0 (od 0))) (Geo.off_eq_6 (Geo.yp c) 0))
  | h1 => exact any_off c B3 (off_at (f := k0_off6) (tgt_eq c (i0 (od 1))) (Geo.off_eq_6 (Geo.yp c) 1))
  | h2 => exact any_off c B3 (off_at (f := k0_off6) (tgt_eq c (i0 (od 2))) (Geo.off_eq_6 (Geo.yp c) 2))
  | h3 => exact any_off c B3 (off_at (f := k0_off6) (tgt_eq c (i0 (od 3))) (Geo.off_eq_6 (Geo.yp c) 3))
theorem r8o (c : Dev nD) (r : Fin 4) :
    (chunkAny (c : Thread nD τ) (DST c (i8 (od r))) fullShare : sProp 𝕄)
      ⊢ chunkAny (c : Thread nD τ) (B3.access (rowRect 256 512 32 (rowOf (sbB (Geo.yp c)) (1, r)) (sbB_in (Geo.yp c) (1, r)))) fullShare := by
  induction r using fin4_cases with
  | h0 => exact any_off c B3 (off_at (f := k0_off12) (tgt_eq c (i8 (od 0))) (Geo.off_eq_12 (Geo.yp c) 0))
  | h1 => exact any_off c B3 (off_at (f := k0_off12) (tgt_eq c (i8 (od 1))) (Geo.off_eq_12 (Geo.yp c) 1))
  | h2 => exact any_off c B3 (off_at (f := k0_off12) (tgt_eq c (i8 (od 2))) (Geo.off_eq_12 (Geo.yp c) 2))
  | h3 => exact any_off c B3 (off_at (f := k0_off12) (tgt_eq c (i8 (od 3))) (Geo.off_eq_12 (Geo.yp c) 3))
theorem r16e (c : Dev nD) (r : Fin 4) :
    (chunkAny (c : Thread nD τ) (DST c (i16 (ev r))) fullShare : sProp 𝕄)
      ⊢ chunkAny (c : Thread nD τ) (B4.access (rowRect 128 512 32 (rows4 r) (rows4_in r))) fullShare := by
  induction r using fin4_cases with
  | h0 => exact any_off c B4 (lit4 0)
  | h1 => exact any_off c B4 (lit4 1)
  | h2 => exact any_off c B4 (lit4 2)
  | h3 => exact any_off c B4 (lit4 3)
theorem r16o (c : Dev nD) (r : Fin 4) :
    (chunkAny (c : Thread nD τ) (DST c (i16 (od r))) fullShare : sProp 𝕄)
      ⊢ chunkAny (c : Thread nD τ) (B5.access (rowRect 128 512 32 (rows4 r) (rows4_in r))) fullShare := by
  induction r using fin4_cases with
  | h0 => exact any_off c B5 (lit4 0)
  | h1 => exact any_off c B5 (lit4 1)
  | h2 => exact any_off c B5 (lit4 2)
  | h3 => exact any_off c B5 (lit4 3)
theorem r24e (c : Dev nD) (r : Fin 4) :
    (chunkAny (c : Thread nD τ) (DST c (i24 (ev r))) fullShare.right : sProp 𝕄)
      ⊢ chunkAny (c : Thread nD τ) (B8.access (rowRect 1024 512 32 (rowOf (obB c) (2, r)) (obB_in c (2, r)))) fullShare.right := by
  induction r using fin4_cases with
  | h0 => exact any_off c B8 (off_at (f := k0_off17) (tgt_eq c (i24 (ev 0))) ((Geo.off17_yp_eq_off21 c 0).trans (Geo.off_eq_21 c 0)))
  | h1 => exact any_off c B8 (off_at (f := k0_off17) (tgt_eq c (i24 (ev 1))) ((Geo.off17_yp_eq_off21 c 1).trans (Geo.off_eq_21 c 1)))
  | h2 => exact any_off c B8 (off_at (f := k0_off17) (tgt_eq c (i24 (ev 2))) ((Geo.off17_yp_eq_off21 c 2).trans (Geo.off_eq_21 c 2)))
  | h3 => exact any_off c B8 (off_at (f := k0_off17) (tgt_eq c (i24 (ev 3))) ((Geo.off17_yp_eq_off21 c 3).trans (Geo.off_eq_21 c 3)))
theorem r24o (c : Dev nD) (r : Fin 4) :
    (chunkAny (c : Thread nD τ) (DST c (i24 (od r))) fullShare.right : sProp 𝕄)
      ⊢ chunkAny (c : Thread nD τ) (B8.access (rowRect 1024 512 32 (rowOf (obB c) (3, r)) (obB_in c (3, r)))) fullShare.right := by
  induction r using fin4_cases with
  | h0 => exact any_off c B8 (off_at (f := k0_off20) (tgt_eq c (i24 (od 0))) ((Geo.off20_xp_eq_off23 c 0).trans (Geo.off_eq_23 c 0)))
  | h1 => exact any_off c B8 (off_at (f := k0_off20) (tgt_eq c (i24 (od 1))) ((Geo.off20_xp_eq_off23 c 1).trans (Geo.off_eq_23 c 1)))
  | h2 => exact any_off c B8 (off_at (f := k0_off20) (tgt_eq c (i24 (od 2))) ((Geo.off20_xp_eq_off23 c 2).trans (Geo.off_eq_23 c 2)))
  | h3 => exact any_off c B8 (off_at (f := k0_off20) (tgt_eq c (i24 (od 3))) ((Geo.off20_xp_eq_off23 c 3).trans (Geo.off_eq_23 c 3)))
theorem r25e (c : Dev nD) (r : Fin 4) :
    (chunkAny (c : Thread nD τ) (DST c (i25 (ev r))) fullShare : sProp 𝕄)
      ⊢ chunkAny (c : Thread nD τ) (B8.access (rowRect 1024 512 32 (rowOf (obB c) (4, r)) (obB_in c (4, r)))) fullShare := by
  induction r using fin4_cases with
  | h0 => exact any_off c B8 (off_at (f := k0_off17) (tgt_eq c (i25 (ev 0))) (Geo.off_eq_17 (Geo.xp c) 0))
  | h1 => exact any_off c B8 (off_at (f := k0_off17) (tgt_eq c (i25 (ev 1))) (Geo.off_eq_17 (Geo.xp c) 1))
  | h2 => exact any_off c B8 (off_at (f := k0_off17) (tgt_eq c (i25 (ev 2))) (Geo.off_eq_17 (Geo.xp c) 2))
  | h3 => exact any_off c B8 (off_at (f := k0_off17) (tgt_eq c (i25 (ev 3))) (Geo.off_eq_17 (Geo.xp c) 3))
theorem r25o (c : Dev nD) (r : Fin 4) :
    (chunkAny (c : Thread nD τ) (DST c (i25 (od r))) fullShare : sProp 𝕄)
      ⊢ chunkAny (c : Thread nD τ) (B8.access (rowRect 1024 512 32 (rowOf (obB c) (5, r)) (obB_in c (5, r)))) fullShare := by
  induction r using fin4_cases with
  | h0 => exact any_off c B8 (off_at (f := k0_off20) (tgt_eq c (i25 (od 0))) (Geo.off_eq_20 (Geo.yp c) 0))
  | h1 => exact any_off c B8 (off_at (f := k0_off20) (tgt_eq c (i25 (od 1))) (Geo.off_eq_20 (Geo.yp c) 1))
  | h2 => exact any_off c B8 (off_at (f := k0_off20) (tgt_eq c (i25 (od 2))) (Geo.off_eq_20 (Geo.yp c) 2))
  | h3 => exact any_off c B8 (off_at (f := k0_off20) (tgt_eq c (i25 (od 3))) (Geo.off_eq_20 (Geo.yp c) 3))
theorem r40e (c : Dev nD) (r : Fin 4) :
    (chunkAny (c : Thread nD τ) (DST c (i40 (ev r))) fullShare : sProp 𝕄)
      ⊢ chunkAny (c : Thread nD τ) (B8.access (rowRect 1024 512 32 (rowOf (obB c) (6, r)) (obB_in c (6, r)))) fullShare := by
  induction r using fin4_cases with
  | h0 => exact any_off c B8 (off_at (f := k0_off21) (tgt_eq c (i40 (ev 0))) (Geo.off_eq_21 (Geo.xp c) 0))
  | h1 => exact any_off c B8 (off_at (f := k0_off21) (tgt_eq c (i40 (ev 1))) (Geo.off_eq_21 (Geo.xp c) 1))
  | h2 => exact any_off c B8 (off_at (f := k0_off21) (tgt_eq c (i40 (ev 2))) (Geo.off_eq_21 (Geo.xp c) 2))
  | h3 => exact any_off c B8 (off_at (f := k0_off21) (tgt_eq c (i40 (ev 3))) (Geo.off_eq_21 (Geo.xp c) 3))
theorem r40o (c : Dev nD) (r : Fin 4) :
    (chunkAny (c : Thread nD τ) (DST c (i40 (od r))) fullShare : sProp 𝕄)
      ⊢ chunkAny (c : Thread nD τ) (B8.access (rowRect 1024 512 32 (rowOf (obB c) (7, r)) (obB_in c (7, r)))) fullShare := by
  induction r using fin4_cases with
  | h0 => exact any_off c B8 (off_at (f := k0_off23) (tgt_eq c (i40 (od 0))) (Geo.off_eq_23 (Geo.yp c) 0))
  | h1 => exact any_off c B8 (off_at (f := k0_off23) (tgt_eq c (i40 (od 1))) (Geo.off_eq_23 (Geo.yp c) 1))
  | h2 => exact any_off c B8 (off_at (f := k0_off23) (tgt_eq c (i40 (od 2))) (Geo.off_eq_23 (Geo.yp c) 2))
  | h3 => exact any_off c B8 (off_at (f := k0_off23) (tgt_eq c (i40 (od 3))) (Geo.off_eq_23 (Geo.yp c) 3))

theorem join_B0 (c : Dev nD) :
    iprop((bigSep Finset.univ fun r : Fin 4 => chunkAny (c : Thread nD τ) (SRC c (i0 (ev r))) fullShare) ∗ (bigSep Finset.univ fun r : Fin 4 => chunkAny (c : Thread nD τ) (SRC c (i8 (ev r))) fullShare))
      ⊢ (iprop(∃ f : Buf (Elt F) ((c : Thread nD τ).loc cc0_scratch0), ((c : Thread nD τ).loc cc0_scratch0) ↦{fullShare} f) : sProp 𝕄) := by
  refine (smono (bigSep_mono fun r _ => s0e c r) (bigSep_mono fun r _ => s8e c r)).trans ?_
  refine (Entails.of_eq (bs_prod2 (fun t : Fin 2 × Fin 4 =>
    chunkAny (c : Thread nD τ) (B0.access (rowRect 256 512 32 (rowOf (sbA c) t) (sbA_in c t))) fullShare)).symm).trans ?_
  refine (rowChunks_any_join (c := (c : Thread nD τ)) B0 (rowOf (sbA c)) (sbA_in c) (sbA_disj c)
    (cover_of_onto (n := 8) (rowOf (sbA c)) (sbA_onto c))).trans ?_
  exact (chunkAny_whole (c := (c : Thread nD τ)) cc0_scratch0).1
theorem join_B1 (c : Dev nD) :
    iprop((bigSep Finset.univ fun r : Fin 4 => chunkAny (c : Thread nD τ) (SRC c (i0 (od r))) fullShare) ∗ (bigSep Finset.univ fun r : Fin 4 => chunkAny (c : Thread nD τ) (SRC c (i8 (od r))) fullShare))
      ⊢ (iprop(∃ f : Buf (Elt F) ((c : Thread nD τ).loc cc0_scratch1), ((c : Thread nD τ).loc cc0_scratch1) ↦{fullShare} f) : sProp 𝕄) := by
  refine (smono (bigSep_mono fun r _ => s0o c r) (bigSep_mono fun r _ => s8o c r)).trans ?_
  refine (Entails.of_eq (bs_prod2 (fun t : Fin 2 × Fin 4 =>
    chunkAny (c : Thread nD τ) (B1.access (rowRect 256 512 32 (rowOf (sbB c) t) (sbB_in c t))) fullShare)).symm).trans ?_
  refine (rowChunks_any_join (c := (c : Thread nD τ)) B1 (rowOf (sbB c)) (sbB_in c) (sbB_disj c)
    (cover_of_onto (n := 8) (rowOf (sbB c)) (sbB_onto c))).trans ?_
  exact (chunkAny_whole (c := (c : Thread nD τ)) cc0_scratch1).1
theorem join_B2 (c : Dev nD) :
    iprop((bigSep Finset.univ fun r : Fin 4 => chunkAny (c : Thread nD τ) (DST c (i0 (ev r))) fullShare) ∗ (bigSep Finset.univ fun r : Fin 4 => chunkAny (c : Thread nD τ) (DST c (i8 (ev r))) fullShare))
      ⊢ (iprop(∃ f : Buf (Elt F) ((c : Thread nD τ).loc cc0_scratch2), ((c : Thread nD τ).loc cc0_scratch2) ↦{fullShare} f) : sProp 𝕄) := by
  refine (smono (bigSep_mono fun r _ => r0e c r) (bigSep_mono fun r _ => r8e c r)).trans ?_
  refine (Entails.of_eq (bs_prod2 (fun t : Fin 2 × Fin 4 =>
    chunkAny (c : Thread nD τ) (B2.access (rowRect 256 512 32 (rowOf (sbA (Geo.xp c)) t) (sbA_in (Geo.xp c) t))) fullShare)).symm).trans ?_
  refine (rowChunks_any_join (c := (c : Thread nD τ)) B2 (rowOf (sbA (Geo.xp c))) (sbA_in (Geo.xp c)) (sbA_disj (Geo.xp c))
    (cover_of_onto (n := 8) (rowOf (sbA (Geo.xp c))) (sbA_onto (Geo.xp c)))).trans ?_
  exact (chunkAny_whole (c := (c : Thread nD τ)) cc0_scratch2).1
theorem join_B3 (c : Dev nD) :
    iprop((bigSep Finset.univ fun r : Fin 4 => chunkAny (c : Thread nD τ) (DST c (i0 (od r))) fullShare) ∗ (bigSep Finset.univ fun r : Fin 4 => chunkAny (c : Thread nD τ) (DST c (i8 (od r))) fullShare))
      ⊢ (iprop(∃ f : Buf (Elt F) ((c : Thread nD τ).loc cc0_scratch3), ((c : Thread nD τ).loc cc0_scratch3) ↦{fullShare} f) : sProp 𝕄) := by
  refine (smono (bigSep_mono fun r _ => r0o c r) (bigSep_mono fun r _ => r8o c r)).trans ?_
  refine (Entails.of_eq (bs_prod2 (fun t : Fin 2 × Fin 4 =>
    chunkAny (c : Thread nD τ) (B3.access (rowRect 256 512 32 (rowOf (sbB (Geo.yp c)) t) (sbB_in (Geo.yp c) t))) fullShare)).symm).trans ?_
  refine (rowChunks_any_join (c := (c : Thread nD τ)) B3 (rowOf (sbB (Geo.yp c))) (sbB_in (Geo.yp c)) (sbB_disj (Geo.yp c))
    (cover_of_onto (n := 8) (rowOf (sbB (Geo.yp c))) (sbB_onto (Geo.yp c)))).trans ?_
  exact (chunkAny_whole (c := (c : Thread nD τ)) cc0_scratch3).1
theorem join_B4 (c : Dev nD) :
    (bigSep Finset.univ fun r : Fin 4 => chunkAny (c : Thread nD τ) (DST c (i16 (ev r))) fullShare)
      ⊢ (iprop(∃ f : Buf (Elt F) ((c : Thread nD τ).loc cc0_scratch4), ((c : Thread nD τ).loc cc0_scratch4) ↦{fullShare} f) : sProp 𝕄) := by
  refine (bigSep_mono fun r _ => r16e c r).trans ?_
  refine (rowChunks_any_join (c := (c : Thread nD τ)) B4 rows4 rows4_in rows4_disj (cover_of_onto (n := 4) rows4 rows4_onto)).trans ?_
  exact (chunkAny_whole (c := (c : Thread nD τ)) cc0_scratch4).1
theorem join_B5 (c : Dev nD) :
    (bigSep Finset.univ fun r : Fin 4 => chunkAny (c : Thread nD τ) (DST c (i16 (od r))) fullShare)
      ⊢ (iprop(∃ f : Buf (Elt F) ((c : Thread nD τ).loc cc0_scratch5), ((c : Thread nD τ).loc cc0_scratch5) ↦{fullShare} f) : sProp 𝕄) := by
  refine (bigSep_mono fun r _ => r16o c r).trans ?_
  refine (rowChunks_any_join (c := (c : Thread nD τ)) B5 rows4 rows4_in rows4_disj (cover_of_onto (n := 4) rows4 rows4_onto)).trans ?_
  exact (chunkAny_whole (c := (c : Thread nD τ)) cc0_scratch5).1
theorem join_B6 (c : Dev nD) :
    (bigSep Finset.univ fun r : Fin 4 => chunkAny (c : Thread nD τ) (SRC c (i16 (ev r))) fullShare)
      ⊢ (iprop(∃ f : Buf (Elt F) ((c : Thread nD τ).loc cc0_scratch6), ((c : Thread nD τ).loc cc0_scratch6) ↦{fullShare} f) : sProp 𝕄) := by
  refine (bigSep_mono fun r _ => s16e c r).trans ?_
  refine (rowChunks_any_join (c := (c : Thread nD τ)) B6 rows4 rows4_in rows4_disj (cover_of_onto (n := 4) rows4 rows4_onto)).trans ?_
  exact (chunkAny_whole (c := (c : Thread nD τ)) cc0_scratch6).1
theorem join_B7 (c : Dev nD) :
    (bigSep Finset.univ fun r : Fin 4 => chunkAny (c : Thread nD τ) (SRC c (i16 (od r))) fullShare)
      ⊢ (iprop(∃ f : Buf (Elt F) ((c : Thread nD τ).loc cc0_scratch7), ((c : Thread nD τ).loc cc0_scratch7) ↦{fullShare} f) : sProp 𝕄) := by
  refine (bigSep_mono fun r _ => s16o c r).trans ?_
  refine (rowChunks_any_join (c := (c : Thread nD τ)) B7 rows4 rows4_in rows4_disj (cover_of_onto (n := 4) rows4 rows4_onto)).trans ?_
  exact (chunkAny_whole (c := (c : Thread nD τ)) cc0_scratch7).1

theorem join_B8 (c : Dev nD) :
    iprop(((bigSep Finset.univ fun r : Fin 4 => chunkAny (c : Thread nD τ) (SRC c (i24 (ev r))) fullShare.left) ∗ (bigSep Finset.univ fun r : Fin 4 => chunkAny (c : Thread nD τ) (SRC c (i25 (ev r))) fullShare.right))
        ∗ ((bigSep Finset.univ fun r : Fin 4 => chunkAny (c : Thread nD τ) (SRC c (i24 (od r))) fullShare.left) ∗ (bigSep Finset.univ fun r : Fin 4 => chunkAny (c : Thread nD τ) (SRC c (i25 (od r))) fullShare.right))
        ∗ ((bigSep Finset.univ fun r : Fin 4 => chunkAny (c : Thread nD τ) (SRC c (i40 (ev r))) fullShare.left) ∗ (bigSep Finset.univ fun r : Fin 4 => chunkAny (c : Thread nD τ) (DST c (i24 (ev r))) fullShare.right))
        ∗ ((bigSep Finset.univ fun r : Fin 4 => chunkAny (c : Thread nD τ) (SRC c (i40 (od r))) fullShare.left) ∗ (bigSep Finset.univ fun r : Fin 4 => chunkAny (c : Thread nD τ) (DST c (i24 (od r))) fullShare.right))
        ∗ (bigSep Finset.univ fun r : Fin 4 => chunkAny (c : Thread nD τ) (DST c (i25 (ev r))) fullShare) ∗ (bigSep Finset.univ fun r : Fin 4 => chunkAny (c : Thread nD τ) (DST c (i25 (od r))) fullShare)
        ∗ (bigSep Finset.univ fun r : Fin 4 => chunkAny (c : Thread nD τ) (DST c (i40 (ev r))) fullShare) ∗ (bigSep Finset.univ fun r : Fin 4 => chunkAny (c : Thread nD τ) (DST c (i40 (od r))) fullShare))
      ⊢ (iprop(∃ f : Buf (Elt F) ((c : Thread nD τ).loc cc0_scratch8), ((c : Thread nD τ).loc cc0_scratch8) ↦{fullShare} f) : sProp 𝕄) := by
  refine (smono (Entails.of_eq (bigSep_sep' _ _ _).symm) (smono (Entails.of_eq (bigSep_sep' _ _ _).symm)
    (smono (Entails.of_eq (bigSep_sep' _ _ _).symm) (smono (Entails.of_eq (bigSep_sep' _ _ _).symm) .rfl)))).trans ?_
  refine (smono (bigSep_mono fun r _ => (smono (s24e c r) (s25e c r)).trans (chunkAny_join_share fullShare_halves))
    (smono (bigSep_mono fun r _ => (smono (s24o c r) (s25o c r)).trans (chunkAny_join_share fullShare_halves))
    (smono (bigSep_mono fun r _ => (smono (s40e c r) (r24e c r)).trans (chunkAny_join_share fullShare_halves))
    (smono (bigSep_mono fun r _ => (smono (s40o c r) (r24o c r)).trans (chunkAny_join_share fullShare_halves))
    (smono (bigSep_mono fun r _ => r25e c r)
    (smono (bigSep_mono fun r _ => r25o c r)
    (smono (bigSep_mono fun r _ => r40e c r) (bigSep_mono fun r _ => r40o c r)))))))).trans ?_
  refine (Entails.of_eq (bs_prod8 (fun t : Fin 8 × Fin 4 =>
    chunkAny (c : Thread nD τ) (B8.access (rowRect 1024 512 32 (rowOf (obB c) t) (obB_in c t))) fullShare)).symm).trans ?_
  refine (rowChunks_any_join (c := (c : Thread nD τ)) B8 (rowOf (obB c)) (obB_in c) (obB_disj c)
    (cover_of_onto (n := 32) (rowOf (obB c)) (obB_onto c))).trans ?_
  exact (chunkAny_whole (c := (c : Thread nD τ)) cc0_scratch8).1

theorem scr_join (c : Dev nD) :
    iprop((bigSep Finset.univ fun j : Fin 8 => chunkAny (c : Thread nD τ) (SRC c (i0 j)) fullShare) ∗ (bigSep Finset.univ fun j : Fin 8 => chunkAny (c : Thread nD τ) (SRC c (i8 j)) fullShare) ∗ (bigSep Finset.univ fun j : Fin 8 => chunkAny (c : Thread nD τ) (SRC c (i16 j)) fullShare)
        ∗ (bigSep Finset.univ fun j : Fin 8 => chunkAny (c : Thread nD τ) (SRC c (i24 j)) fullShare.left) ∗ (bigSep Finset.univ fun j : Fin 8 => chunkAny (c : Thread nD τ) (SRC c (i25 j)) fullShare.right) ∗ (bigSep Finset.univ fun j : Fin 8 => chunkAny (c : Thread nD τ) (SRC c (i40 j)) fullShare.left)
        ∗ (bigSep Finset.univ fun j : Fin 8 => chunkAny (c : Thread nD τ) (DST c (i0 j)) fullShare) ∗ (bigSep Finset.univ fun j : Fin 8 => chunkAny (c : Thread nD τ) (DST c (i8 j)) fullShare) ∗ (bigSep Finset.univ fun j : Fin 8 => chunkAny (c : Thread nD τ) (DST c (i16 j)) fullShare)
        ∗ (bigSep Finset.univ fun j : Fin 8 => chunkAny (c : Thread nD τ) (DST c (i24 j)) fullShare.right) ∗ (bigSep Finset.univ fun j : Fin 8 => chunkAny (c : Thread nD τ) (DST c (i25 j)) fullShare) ∗ (bigSep Finset.univ fun j : Fin 8 => chunkAny (c : Thread nD τ) (DST c (i40 j)) fullShare))
      ⊢ (scr c : sProp 𝕄) := by
  refine ((smono (Entails.of_eq (bs_evod _)) (smono (Entails.of_eq (bs_evod _)) (smono (Entails.of_eq (bs_evod _)) (smono (Entails.of_eq (bs_evod _)) (smono (Entails.of_eq (bs_evod _)) (smono (Entails.of_eq (bs_evod _)) (smono (Entails.of_eq (bs_evod _)) (smono (Entails.of_eq (bs_evod _)) (smono (Entails.of_eq (bs_evod _)) (smono (Entails.of_eq (bs_evod _)) (smono (Entails.of_eq (bs_evod _)) (Entails.of_eq (bs_evod _)))))))))))))).trans ?_
  unfold scr
  iintro ⟨⟨S0e, S0o⟩, ⟨S8e, S8o⟩, ⟨S16e, S16o⟩, ⟨S24e, S24o⟩, ⟨S25e, S25o⟩, ⟨S40e, S40o⟩, ⟨R0e, R0o⟩, ⟨R8e, R8o⟩, ⟨R16e, R16o⟩, ⟨R24e, R24o⟩, ⟨R25e, R25o⟩, ⟨R40e, R40o⟩⟩
  isplitl [S0e S8e]
  · iapply (join_B0 c); isplitl [S0e]; · iexact S0e
    iexact S8e
  isplitl [S0o S8o]
  · iapply (join_B1 c); isplitl [S0o]; · iexact S0o
    iexact S8o
  isplitl [R0e R8e]
  · iapply (join_B2 c); isplitl [R0e]; · iexact R0e
    iexact R8e
  isplitl [R0o R8o]
  · iapply (join_B3 c); isplitl [R0o]; · iexact R0o
    iexact R8o
  isplitl [R16e]
  · iapply (join_B4 c); iexact R16e
  isplitl [R16o]
  · iapply (join_B5 c); iexact R16o
  isplitl [S16e]
  · iapply (join_B6 c); iexact S16e
  isplitl [S16o]
  · iapply (join_B7 c); iexact S16o
  iapply (join_B8 c)
  isplitl [S24e S25e]
  · isplitl [S24e]; · iexact S24e
    iexact S25e
  isplitl [S24o S25o]
  · isplitl [S24o]; · iexact S24o
    iexact S25o
  isplitl [S40e R24e]
  · isplitl [S40e]; · iexact S40e
    iexact R24e
  isplitl [S40o R24o]
  · isplitl [S40o]; · iexact S40o
    iexact R24o
  isplitl [R25e]; · iexact R25e
  isplitl [R25o]; · iexact R25o
  isplitl [R40e]; · iexact R40e
  iexact R40o

theorem out_join (c : Dev nD) :
    iprop((bigSep Finset.univ fun j : Fin 8 => chunkAt (c : Thread nD τ) (OUTV c (o8 j)) fullShare (outV m ρ c (o8 j))) ∗ (bigSep Finset.univ fun j : Fin 8 => chunkAt (c : Thread nD τ) (OUTV c (o16 j)) fullShare (outV m ρ c (o16 j)))
        ∗ (bigSep Finset.univ fun j : Fin 8 => chunkAt (c : Thread nD τ) (OUTV c (o24 j)) fullShare (outV m ρ c (o24 j))) ∗ (bigSep Finset.univ fun j : Fin 8 => chunkAt (c : Thread nD τ) (OUTV c (o32 j)) fullShare (outV m ρ c (o32 j))))
      ⊢ (stg c cc0_stg1_0 (outAt m ρ c) : sProp 𝕄) := by
  have e : ∀ t : Fin 8 × Fin 4,
      (chunkAt (c : Thread nD τ) (OUTV c (oix t)) fullShare (outV m ρ c (oix t)) : sProp 𝕄)
        = chunkAt (c : Thread nD τ) (BO.access (rowRect 1024 512 32 (orow c t) (orow_in c t))) fullShare (outV m ρ c (oix t)) :=
    fun t => chunkAt_congr_off (c := (c : Thread nD τ)) BO (funext (outo_eq c t)) _ _ _ _
  refine (Entails.of_eq (bs_prod4 (fun t : Fin 8 × Fin 4 =>
    chunkAt (c : Thread nD τ) (OUTV c (oix t)) fullShare (outV m ρ c (oix t)))).symm).trans ?_
  refine (bigSep_mono fun t _ => Entails.of_eq (e t)).trans ?_
  refine (rowChunks_at_join (c := (c : Thread nD τ)) BO (orow c) (orow_in c) (orow_disj c) (orow_cover c) (fun t => outV m ρ c (oix t))).trans ?_
  refine ((chunkAt_whole (c := (c : Thread nD τ)) cc0_stg1_0 _).1).trans ?_
  iintro H
  iexists (outAt m ρ c)
  isplitr
  · ipureintro; rfl
  · iexact H

theorem x_exit (c : Dev nD) : xPts m ρ c ⊢ (stg c cc0_stg0_0 (xs m ρ c) : sProp 𝕄) := by
  unfold xPts
  iintro H
  iexists (xs m ρ c)
  isplitr
  · ipureintro; rfl
  · iexact H

theorem fromCopy_48 : fromCopy 48 = ∅ := by decide +kernel

theorem Ocopies_48 (c : Dev nD) : Ocopies c (fromCopy 48) = 0 := by
  unfold Ocopies; rw [fromCopy_48]; exact Finset.sum_empty

theorem owes_exit (c : Dev nD) : owesC c (fromCopy 48) ⊢ ((dats m ρ 0 c).owesAt () t₀.succ : sProp 𝕄) := by
  unfold owesC Dat.owesAt Pipeline.owesWithin
  rw [show (dats m ρ 0 c).owed t₀.succ = 0 from rfl, Ocopies_48]
  iintro ⟨%W, HO⟩
  iexists W
  isplitr
  · ipureintro; exact fun _ _ => Or.inl trivial
  · iexact HO

def fam (Φ : Fin 48 → sProp 𝕄) : sProp 𝕄 :=
  iprop(bigSep Finset.univ (fun j => Φ (i0 j)) ∗ bigSep Finset.univ (fun j => Φ (i8 j)) ∗ bigSep Finset.univ (fun j => Φ (i16 j))
    ∗ bigSep Finset.univ (fun j => Φ (i24 j)) ∗ bigSep Finset.univ (fun j => Φ (i25 j)) ∗ bigSep Finset.univ (fun j => Φ (i40 j)))

theorem fam_eq (Φ : Fin 48 → sProp 𝕄) : bigSep Finset.univ Φ = fam Φ := bs_fam Φ

theorem done_split (X : Fin 8 → Fin 48) (q : PosShare TreeShare) (hq : ∀ j, sendShare (X j) = q) (c : Dev nD) :
    (bigSep Finset.univ fun j : Fin 8 => sendDone c (X j))
      ⊢ (iprop((bigSep Finset.univ fun j : Fin 8 => atPos ER (sendCell c (X j)) 1 ∅ 0)
          ∗ (bigSep Finset.univ fun j : Fin 8 => chunkAny (c : Thread nD τ) (SRC c (X j)) q)) : sProp 𝕄) := by
  refine (bigSep_mono (Ψ := fun j => iprop(atPos ER (sendCell c (X j)) 1 ∅ 0 ∗ chunkAny (c : Thread nD τ) (SRC c (X j)) q))
    fun j _ => ?_).trans (Entails.of_eq (bigSep_sep' _ _ _))
  unfold sendDone
  rw [hq j]
  exact Idealize.SL.BI.Entails.refl _

theorem rcvd_split (X : Fin 8 → Fin 48) (q : PosShare TreeShare) (c : Dev nD) :
    (bigSep Finset.univ fun j : Fin 8 => rcvd m ρ c (X j) q)
      ⊢ (iprop((bigSep Finset.univ fun j : Fin 8 => atPos ER (recvCell c (X j)) 1 ∅ 0)
          ∗ (bigSep Finset.univ fun j : Fin 8 => chunkAny (c : Thread nD τ) (DST c (X j)) q)) : sProp 𝕄) := by
  refine (bigSep_mono (Ψ := fun j => iprop(atPos ER (recvCell c (X j)) 1 ∅ 0 ∗ chunkAny (c : Thread nD τ) (DST c (X j)) q))
    fun j _ => ?_).trans (Entails.of_eq (bigSep_sep' _ _ _))
  unfold rcvd
  exact smono .rfl chunkAt_any

theorem cells_close (c : Dev nD) :
    iprop(pers m ρ K c ∗ fam (fun i => atPos ER (sendCell c i) 1 ∅ 0) ∗ fam (fun i => atPos ER (recvCell c i) 1 ∅ 0))
      ⊢ (|={Set.univ}=> semsZero c : sProp 𝕄) := by
  refine (smono .rfl ((smono (Entails.of_eq (fam_eq _).symm) (Entails.of_eq (fam_eq _).symm)).trans
    (Entails.of_eq (bigSep_sep' _ _ _).symm))).trans ?_
  unfold semsZero
  refine (bigSep_with_persistent
    (Ψ := fun i => iprop(|={Set.univ}=> (semVal (sendCell c i) 0 ∗ semVal (recvCell c i) 0))) fun i _ => ?_).trans (bigSep_fupd _ _)
  unfold pers persG
  iintro ⟨⟨⟨-, -, -, -, -, Hc⟩, -⟩, HatS, HatR⟩
  ihave Hi := (bs_elim _ i) $$ Hc
  icases Hi with ⟨#HiS, #HiR, -, -, -, -⟩
  imod (Rounds.cell_close ER (Rd m ρ) (Set.mem_univ (K (c, kS i))) (fun h => h) (R := 0 + 1) (duties_later m ρ (sendCell c i))) $$ [HatS] with HzS
  · isplitr; · iexact HiS
    iexact HatS
  imod (Rounds.cell_close ER (Rd m ρ) (Set.mem_univ (K (c, kR i))) (fun h => h) (R := 0 + 1) (duties_later m ρ (recvCell c i))) $$ [HatR] with HzR
  · isplitr; · iexact HiR
    iexact HatR
  imodintro
  isplitl [HzS]; · iexact HzS
  iexact HzR

end SEnd

theorem bodyExit (c : Dev nD) :
    iprop(pers m ρ K c ∗ xPts m ρ c ∗ owesC c (fromCopy 48) ∗ allPost m ρ c) ⊢ (|={Set.univ}=> bodyPost m ρ c : sProp 𝕄) := by
  unfold allPost doneAll
  iintro ⟨#Hp, Hx, HO, R0, R8, R16, R24, R25, R40, D, O8, O16, O24, O32⟩
  ihave D := (SEnd.byStage_fam (fun i => sendDone c i)) $$ D
  icases D with ⟨D0, D8, D16, D24, D25, D40⟩
  ihave R0 := (SEnd.rcvd_split m ρ i0 fullShare c) $$ R0
  icases R0 with ⟨A0, C0⟩
  ihave R8 := (SEnd.rcvd_split m ρ i8 fullShare c) $$ R8
  icases R8 with ⟨A8, C8⟩
  ihave R16 := (SEnd.rcvd_split m ρ i16 fullShare c) $$ R16
  icases R16 with ⟨A16, C16⟩
  ihave R24 := (SEnd.rcvd_split m ρ i24 fullShare.right c) $$ R24
  icases R24 with ⟨A24, C24⟩
  ihave R25 := (SEnd.rcvd_split m ρ i25 fullShare c) $$ R25
  icases R25 with ⟨A25, C25⟩
  ihave R40 := (SEnd.rcvd_split m ρ i40 fullShare c) $$ R40
  icases R40 with ⟨A40, C40⟩
  ihave D0 := (SEnd.done_split i0 fullShare SEnd.sendShare_i0 c) $$ D0
  icases D0 with ⟨E0, S0⟩
  ihave D8 := (SEnd.done_split i8 fullShare SEnd.sendShare_i8 c) $$ D8
  icases D8 with ⟨E8, S8⟩
  ihave D16 := (SEnd.done_split i16 fullShare SEnd.sendShare_i16 c) $$ D16
  icases D16 with ⟨E16, S16⟩
  ihave D24 := (SEnd.done_split i24 fullShare.left SEnd.sendShare_i24 c) $$ D24
  icases D24 with ⟨E24, S24⟩
  ihave D25 := (SEnd.done_split i25 fullShare.right SEnd.sendShare_i25 c) $$ D25
  icases D25 with ⟨E25, S25⟩
  ihave D40 := (SEnd.done_split i40 fullShare.left SEnd.sendShare_i40 c) $$ D40
  icases D40 with ⟨E40, S40⟩
  imod (SEnd.cells_close m ρ K c) $$ [A0 A8 A16 A24 A25 A40 E0 E8 E16 E24 E25 E40] with Hz
  · isplitr; · iexact Hp
    unfold SEnd.fam
    isplitl [E0 E8 E16 E24 E25 E40]
    · isplitl [E0]; · iexact E0
      isplitl [E8]; · iexact E8
      isplitl [E16]; · iexact E16
      isplitl [E24]; · iexact E24
      isplitl [E25]; · iexact E25
      iexact E40
    isplitl [A0]; · iexact A0
    isplitl [A8]; · iexact A8
    isplitl [A16]; · iexact A16
    isplitl [A24]; · iexact A24
    isplitl [A25]; · iexact A25
    iexact A40
  imodintro
  unfold bodyPost Φ₁
  isplitl [Hz S0 S8 S16 S24 S25 S40 C0 C8 C16 C24 C25 C40]
  · isplitl [S0 S8 S16 S24 S25 S40 C0 C8 C16 C24 C25 C40]
    · iapply (SEnd.scr_join c)
      isplitl [S0]; · iexact S0
      isplitl [S8]; · iexact S8
      isplitl [S16]; · iexact S16
      isplitl [S24]; · iexact S24
      isplitl [S25]; · iexact S25
      isplitl [S40]; · iexact S40
      isplitl [C0]; · iexact C0
      isplitl [C8]; · iexact C8
      isplitl [C16]; · iexact C16
      isplitl [C24]; · iexact C24
      isplitl [C25]; · iexact C25
      iexact C40
    · iexact Hz
  isplitl [HO]
  · iapply (SEnd.owes_exit m ρ c); iexact HO
  isplitl [Hx]
  · iapply (SEnd.x_exit m ρ c); iexact Hx
  iapply (SEnd.out_join m ρ c)
  isplitl [O8]; · iexact O8
  isplitl [O16]; · iexact O16
  isplitl [O24]; · iexact O24
  iexact O32

end Cert.KernelIdeal.Pf

end

/-- info: 'Cert.KernelIdeal.Pf.bodyExit' depends on axioms: [propext, Classical.choice, Quot.sound] -/
#guard_msgs in #print axioms Cert.KernelIdeal.Pf.bodyExit
-- ==== Proof.Body.lean ====
import proofs.«900778_g7700000000000779_dist_f_of_ar_i_m1024_n512_v7x_i4_f32_1_alg».proof.Proof.Data
import proofs.«900778_g7700000000000779_dist_f_of_ar_i_m1024_n512_v7x_i4_f32_1_alg».proof.Proof.StageBar
import proofs.«900778_g7700000000000779_dist_f_of_ar_i_m1024_n512_v7x_i4_f32_1_alg».proof.Proof.Stage0
import proofs.«900778_g7700000000000779_dist_f_of_ar_i_m1024_n512_v7x_i4_f32_1_alg».proof.Proof.Stage1
import proofs.«900778_g7700000000000779_dist_f_of_ar_i_m1024_n512_v7x_i4_f32_1_alg».proof.Proof.Stage2
import proofs.«900778_g7700000000000779_dist_f_of_ar_i_m1024_n512_v7x_i4_f32_1_alg».proof.Proof.Stage3
import proofs.«900778_g7700000000000779_dist_f_of_ar_i_m1024_n512_v7x_i4_f32_1_alg».proof.Proof.StageW
import proofs.«900778_g7700000000000779_dist_f_of_ar_i_m1024_n512_v7x_i4_f32_1_alg».proof.Proof.StageEnd
import proofs.«900778_g7700000000000779_dist_f_of_ar_i_m1024_n512_v7x_i4_f32_1_alg».proof.Proof.Gen.KernelIdeal.Launch
import proofs.«900778_g7700000000000779_dist_f_of_ar_i_m1024_n512_v7x_i4_f32_1_alg».proof.Proof.Gen.KernelIdeal.Points

set_option maxRecDepth 16384

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 97 → ℕ)

theorem posts1 (c : Dev nD) :
    (bigSep Finset.univ fun j : Fin 8 => post1 m ρ c j)
      = iprop((bigSep Finset.univ fun j : Fin 8 => rcvd m ρ c (i0 j) fullShare) ∗ (bigSep Finset.univ fun j : Fin 8 => sentTok c (i16 j))) := by
  unfold post1; rw [bigSep_sep']

theorem posts2 (c : Dev nD) :
    (bigSep Finset.univ fun j : Fin 8 => post2 m ρ c j)
      = iprop((bigSep Finset.univ fun j : Fin 8 => rcvd m ρ c (i8 j) fullShare) ∗ (bigSep Finset.univ fun j : Fin 8 => rcvd m ρ c (i16 j) fullShare)
          ∗ (bigSep Finset.univ fun j : Fin 8 => chunkAt (c : Thread nD τ) (OUTV c (o8 j)) fullShare (outV m ρ c (o8 j)))
          ∗ (bigSep Finset.univ fun j : Fin 8 => iprop(sentTok c (i24 j) ∗ sentTok c (i25 j)))) := by
  unfold post2; rw [bigSep_sep', bigSep_sep', bigSep_sep']

theorem posts3f (c : Dev nD) :
    (bigSep Finset.univ fun j : Fin 8 => post3f m ρ c j)
      = iprop((bigSep Finset.univ fun j : Fin 8 => rcvd m ρ c (i24 j) fullShare.right) ∗ (bigSep Finset.univ fun j : Fin 8 => sentTok c (i40 j))
          ∗ (bigSep Finset.univ fun j : Fin 8 => chunkAt (c : Thread nD τ) (OUTV c (o16 j)) fullShare (outV m ρ c (o16 j)))) := by
  unfold post3f; rw [bigSep_sep', bigSep_sep']

theorem posts3a (c : Dev nD) :
    (bigSep Finset.univ fun j : Fin 8 => post3a m ρ c j)
      = iprop((bigSep Finset.univ fun j : Fin 8 => rcvd m ρ c (i25 j) fullShare)
          ∗ (bigSep Finset.univ fun j : Fin 8 => chunkAt (c : Thread nD τ) (OUTV c (o24 j)) fullShare (outV m ρ c (o24 j)))) := by
  unfold post3a; rw [bigSep_sep']

theorem posts3c (c : Dev nD) :
    (bigSep Finset.univ fun j : Fin 8 => post3c m ρ c j)
      = iprop((bigSep Finset.univ fun j : Fin 8 => rcvd m ρ c (i40 j) fullShare)
          ∗ (bigSep Finset.univ fun j : Fin 8 => chunkAt (c : Thread nD τ) (OUTV c (o32 j)) fullShare (outV m ρ c (o32 j)))) := by
  unfold post3c; rw [bigSep_sep']

set_option maxHeartbeats 1600000 in

theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) cc0_scratch9 cc0_scratch10) Kt := by
  rw [body_eq]
  simp only [Prog.lift, Prog.bind_op, Prog.bind_ret, Prog.pure_eq_ret, wp_deviceId]
  unfold flat
  iintro ⟨Hpre, Hk⟩
  iapply (stageBar m ρ K c _ Kt)
  isplitl [Hpre]; · iexact Hpre
  iintro ⟨#Hp, Hx, Ho, Hall⟩
  unfold allPre
  icases Hall with ⟨H0, H1, H2, H3f, H3a, H3c⟩

  iapply (stage0 m ρ K c _ Kt)
  isplitr; · iexact Hp
  isplitl [Hx]; · iexact Hx
  isplitl [Ho]; · iexact Ho
  isplitl [H0]; · iexact H0
  iintro ⟨Hx, Ho, S0⟩

  iapply (stage1 m ρ K c _ Kt)
  isplitr; · iexact Hp
  isplitl [Hx]; · iexact Hx
  isplitl [Ho]; · iexact Ho
  isplitl [H1]; · iexact H1
  iintro ⟨Hx, Ho, S1⟩

  iapply (stage2 m ρ K c _ Kt)
  isplitr; · iexact Hp
  isplitl [Hx]; · iexact Hx
  isplitl [Ho]; · iexact Ho
  isplitl [H2]; · iexact H2
  iintro ⟨Hx, Ho, S2⟩

  iapply (stage3f m ρ K c _ Kt)
  isplitr; · iexact Hp
  isplitl [Ho]; · iexact Ho
  isplitl [H3f]; · iexact H3f
  iintro ⟨Ho, S3f⟩
  iapply (stage3a m ρ K c _ Kt)
  isplitr; · iexact Hp
  isplitl [Ho]; · iexact Ho
  isplitl [H3a]; · iexact H3a
  iintro ⟨Ho, S3a⟩
  iapply (stage3c m ρ K c _ Kt)
  isplitr; · iexact Hp
  isplitl [Ho]; · iexact Ho
  isplitl [H3c]; · iexact H3c
  iintro ⟨Ho, S3c⟩

  ihave HS1 := (Entails.of_eq (posts1 m ρ c)) $$ S1
  icases HS1 with ⟨R0, T1⟩
  ihave HS2 := (Entails.of_eq (posts2 m ρ c)) $$ S2
  icases HS2 with ⟨R8, R16, O8, T2⟩
  ihave HS3 := (Entails.of_eq (posts3f m ρ c)) $$ S3f
  icases HS3 with ⟨R24, T3, O16⟩
  ihave HS4 := (Entails.of_eq (posts3a m ρ c)) $$ S3a
  icases HS4 with ⟨R25, O24⟩
  ihave HS5 := (Entails.of_eq (posts3c m ρ c)) $$ S3c
  icases HS5 with ⟨R40, O32⟩

  iapply (stageW m ρ K c _ Kt)
  isplitr; · iexact Hp
  isplitl [Ho]; · iexact Ho
  isplitl [S0 T1 T2 T3]
  · unfold sentAll byStage post0
    isplitl [S0]; · iexact S0
    isplitl [T1]; · iexact T1
    isplitl [T2]; · iexact T2
    iexact T3
  iintro ⟨Ho, Hdone⟩

  imod (bodyExit m ρ K c) $$ [Hx Ho R0 R8 R16 R24 R25 R40 O8 O16 O24 O32 Hdone] with Hpost
  · isplitr; · iexact Hp
    isplitl [Hx]; · iexact Hx
    isplitl [Ho]; · iexact Ho
    unfold allPost
    isplitl [R0]; · iexact R0
    isplitl [R8]; · iexact R8
    isplitl [R16]; · iexact R16
    isplitl [R24]; · iexact R24
    isplitl [R25]; · iexact R25
    isplitl [R40]; · iexact R40
    isplitl [Hdone]; · iexact Hdone
    isplitl [O8]; · iexact O8
    isplitl [O16]; · iexact O16
    isplitl [O24]; · iexact O24
    iexact O32
  rw [Prog.pure_eq_ret, wp_ret]
  imodintro
  iapply Hk
  iexact Hpost

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) cc0_scratch9 cc0_scratch10) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.Pf.body_obligation' depends on axioms: [propext, Classical.choice, Quot.sound] -/
#guard_msgs in #print axioms body_obligation

end Cert.KernelIdeal.Pf

end
-- ==== Proof.Launch.lean ====
import proofs.«900778_g7700000000000779_dist_f_of_ar_i_m1024_n512_v7x_i4_f32_1_alg».proof.Proof.Data
import proofs.«900778_g7700000000000779_dist_f_of_ar_i_m1024_n512_v7x_i4_f32_1_alg».proof.Proof.Levels
import proofs.«900778_g7700000000000779_dist_f_of_ar_i_m1024_n512_v7x_i4_f32_1_alg».proof.Proof.Gen.KernelIdeal.Launch
import proofs.«900778_g7700000000000779_dist_f_of_ar_i_m1024_n512_v7x_i4_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Pf

open Cert.KernelIdeal Cert.KernelIdeal.Gen Cert.Chunks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Lch

instance Rd_payload_storable (g : GSem nD τ sig) (r : ℕ) (d : Bool) :
    BI.Storable (upEmb : UEmb _ 𝕄) ((Rd (F := F) m ρ).payload g r d) := by
  obtain ⟨t, sm⟩ := g
  cases sm with
  | reg s =>
    dsimp only [Rd]
    split
    · unfold barPay; infer_instance
    · infer_instance
  | dma q =>
    dsimp only [Rd]
    split
    · unfold recvPay; infer_instance
    · unfold sendPay; infer_instance
    · infer_instance

theorem k_cases (k : Fin 97) : k = kB ∨ (∃ i, k = kS i) ∨ (∃ i, k = kR i) := by
  by_cases h0 : k.val = 0
  · exact Or.inl (Fin.ext h0)
  · by_cases h1 : k.val < 49
    · exact Or.inr (Or.inl ⟨⟨k.val - 1, by omega⟩, Fin.ext (show k.val = 1 + (k.val - 1) by omega)⟩)
    · exact Or.inr (Or.inr ⟨⟨k.val - 49, by omega⟩, Fin.ext (show k.val = 49 + (k.val - 49) by omega)⟩)

theorem csem_injective : Function.Injective csem := by
  intro k k' h
  rcases k_cases k with rfl | ⟨i, rfl⟩ | ⟨i, rfl⟩ <;> rcases k_cases k' with rfl | ⟨j, rfl⟩ | ⟨j, rfl⟩
  · rfl
  · rw [csem_kB, csem_kS] at h; cases h
  · rw [csem_kB, csem_kR] at h; cases h
  · rw [csem_kS, csem_kB] at h; cases h
  · rw [csem_kS, csem_kS] at h; exact congrArg kS (sSem_inj (SemLoc.dma.inj h))
  · rw [csem_kS, csem_kR] at h; exact absurd (SemLoc.dma.inj h) (sSem_ne_rSem i j)
  · rw [csem_kR, csem_kB] at h; cases h
  · rw [csem_kR, csem_kS] at h; exact absurd (SemLoc.dma.inj h).symm (sSem_ne_rSem j i)
  · rw [csem_kR, csem_kR] at h; exact congrArg kR (rSem_inj (SemLoc.dma.inj h))

theorem kcell_injective : Function.Injective (kcell : Dev nD × Fin 97 → GSem nD τ sig) := by
  rintro ⟨c, k⟩ ⟨c', k'⟩ h
  have h1 : c = c' := by have := congrArg (fun g : GSem nD τ sig => g.1.1) h; exact this
  subst h1
  have h2 : csem k = csem k' := congrArg Prod.snd h
  exact congrArg (Prod.mk c) (csem_injective h2)

def allCells : Finset (GSem nD τ sig) := Finset.univ.map ⟨kcell, kcell_injective⟩

theorem kcell_kB (c : Dev nD) : kcell (c, kB) = barCell c := by
  show ((c : Thread nD τ), csem kB) = barCell c
  rw [csem_kB]
theorem kcell_kS (c : Dev nD) (i : Fin 48) : kcell (c, kS i) = sendCell c i := by
  show ((c : Thread nD τ), csem (kS i)) = sendCell c i
  rw [csem_kS]
theorem kcell_kR (c : Dev nD) (i : Fin 48) : kcell (c, kR i) = recvCell c i := by
  show ((c : Thread nD τ), csem (kR i)) = recvCell c i
  rw [csem_kR]

def kOf : Unit ⊕ (Fin 48 ⊕ Fin 48) → Fin 97
  | .inl _ => kB
  | .inr (.inl i) => kS i
  | .inr (.inr i) => kR i
def kInv (k : Fin 97) : Unit ⊕ (Fin 48 ⊕ Fin 48) :=
  if h : k.val = 0 then .inl ()
  else if h' : k.val < 49 then .inr (.inl ⟨k.val - 1, by omega⟩)
  else .inr (.inr ⟨k.val - 49, by omega⟩)

theorem kInv_kB : kInv kB = .inl () := by unfold kInv kB; exact dif_pos rfl
theorem kInv_kS (i : Fin 48) : kInv (kS i) = .inr (.inl i) := by
  unfold kInv kS; rw [dif_neg (by simp only []; omega), dif_pos (by simp only []; omega)]
  exact congrArg (fun j : Fin 48 => (Sum.inr (Sum.inl j) : Unit ⊕ (Fin 48 ⊕ Fin 48))) (Fin.ext (by simp only []; omega))
theorem kInv_kR (i : Fin 48) : kInv (kR i) = .inr (.inr i) := by
  unfold kInv kR; rw [dif_neg (by simp only []; omega), dif_neg (by simp only []; omega)]
  exact congrArg (fun j : Fin 48 => (Sum.inr (Sum.inr j) : Unit ⊕ (Fin 48 ⊕ Fin 48))) (Fin.ext (by simp only []; omega))

theorem kInv_kOf (a : Unit ⊕ (Fin 48 ⊕ Fin 48)) : kInv (kOf a) = a := by
  rcases a with u | i | i
  · exact kInv_kB
  · exact kInv_kS i
  · exact kInv_kR i
theorem kOf_kInv (k : Fin 97) : kOf (kInv k) = k := by
  rcases k_cases k with rfl | ⟨i, rfl⟩ | ⟨i, rfl⟩
  · exact congrArg kOf kInv_kB
  · exact congrArg kOf (kInv_kS i)
  · exact congrArg kOf (kInv_kR i)

def kEquiv : Unit ⊕ (Fin 48 ⊕ Fin 48) ≃ Fin 97 := ⟨kOf, kInv, kInv_kOf, kOf_kInv⟩

theorem bigSep_fin97 (Φ : Fin 97 → sProp 𝕄) :
    bigSep Finset.univ Φ
      = iprop(Φ kB ∗ (bigSep Finset.univ fun i : Fin 48 => Φ (kS i)) ∗ bigSep Finset.univ fun i : Fin 48 => Φ (kR i)) := by
  rw [bigSep_univ_equiv kEquiv Φ, bigSep_univ_sum, bigSep_univ_sum, bigSep_univ_of_subsingleton ()]
  rfl

theorem bigSep_cells (c : Dev nD) (Φ : GSem nD τ sig → sProp 𝕄) :
    (bigSep Finset.univ fun k : Fin 97 => Φ (kcell (c, k)))
      = iprop(Φ (barCell c) ∗ (bigSep Finset.univ fun i : Fin 48 => Φ (sendCell c i)) ∗ bigSep Finset.univ fun i : Fin 48 => Φ (recvCell c i)) := by
  rw [bigSep_fin97 (fun k => Φ (kcell (c, k))), kcell_kB,
    bigSep_congr (s := Finset.univ) (fun (i : Fin 48) _ => congrArg Φ (kcell_kS c i)),
    bigSep_congr (s := Finset.univ) (fun (i : Fin 48) _ => congrArg Φ (kcell_kR c i))]

theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

abbrev osem : Fin 48 ⊕ Fin 48 → SemLoc sig
  | .inl i => .dma (sSem i)
  | .inr i => .dma (rSem i)

theorem ownSemFacts : Pipeline.OwnSemFacts cfg0.spec osem where
  isScoped := by decide +kernel
  inj := by
    rintro (i | i) (j | j) h
    · exact congrArg Sum.inl (sSem_inj (SemLoc.dma.inj h))
    · exact absurd (SemLoc.dma.inj h) (sSem_ne_rSem i j)
    · exact absurd (SemLoc.dma.inj h).symm (sSem_ne_rSem j i)
    · exact congrArg Sum.inr (rSem_inj (SemLoc.dma.inj h))
  disj := by decide +kernel

theorem share_eq (c : Dev nD) (w : Fin cfg0.W) : (dats m ρ 0 c).share w = fullShare := by unfold Dat.share; split <;> rfl

theorem ownSems0_eq (c : Dev nD) :
    (Pipeline.ownSems0 (Ix := Unit) (Name := ℕ) (U := UU) (Lvl := ℕ) (Val := Elt F) (τ := τ) osem c : sProp 𝕄) = semsZero c := by
  unfold Pipeline.ownSems0 semsZero
  rw [bigSep_sep']
  exact bigSep_univ_sum _

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 97 => semVal (kcell (c, k)) 0 : sProp 𝕄) := by
  rw [ownSems0_eq, unscopedSems0_eq, bigSep_cells c (fun g => semVal g 0)]
  unfold semsZero
  rw [bigSep_sep']
  iintro ⟨⟨HS, HV⟩, HB⟩
  isplitl [HB]; · iexact HB
  isplitl [HS] <;> iassumption

abbrev TokIx : Type := Bool ⊕ (Fin 48 ⊕ Fin 48)

def tokOf (cj : Dev nD × TokIx) : GSem nD τ sig × ℕ × Bool := match cj.2 with
  | .inl b => (barCell cj.1, 0, b)
  | .inr (.inl i) => (sendCell cj.1 i, 0, false)
  | .inr (.inr i) => (recvCell cj.1 i, 0, false)

theorem tokOf_injective : Function.Injective (tokOf : Dev nD × TokIx → GSem nD τ sig × ℕ × Bool) := by
  rintro ⟨c, j⟩ ⟨c', j'⟩ h
  have h1 : c = c' := by
    have := congrArg (fun x : GSem nD τ sig × ℕ × Bool => x.1.1.1) h
    rcases j with b | i | i <;> rcases j' with b' | i' | i' <;> exact this
  subst h1
  have hs := congrArg (fun x : GSem nD τ sig × ℕ × Bool => x.1.2) h
  have hb := congrArg (fun x : GSem nD τ sig × ℕ × Bool => x.2.2) h
  rcases j with b | i | i <;> rcases j' with b' | i' | i'
  · exact congrArg (fun b : Bool => (c, (Sum.inl b : TokIx))) (show b = b' from hb)
  · exact absurd (show (SemLoc.reg barS : SemLoc sig) = SemLoc.dma (sSem i') from hs) (fun h => by cases h)
  · exact absurd (show (SemLoc.reg barS : SemLoc sig) = SemLoc.dma (rSem i') from hs) (fun h => by cases h)
  · exact absurd (show (SemLoc.dma (sSem i) : SemLoc sig) = SemLoc.reg barS from hs) (fun h => by cases h)
  · exact congrArg (fun i : Fin 48 => (c, (Sum.inr (Sum.inl i) : TokIx)))
      (sSem_inj (SemLoc.dma.inj (show (SemLoc.dma (sSem i) : SemLoc sig) = SemLoc.dma (sSem i') from hs)))
  · exact absurd (SemLoc.dma.inj (show (SemLoc.dma (sSem i) : SemLoc sig) = SemLoc.dma (rSem i') from hs)) (sSem_ne_rSem i i')
  · exact absurd (show (SemLoc.dma (rSem i) : SemLoc sig) = SemLoc.reg barS from hs) (fun h => by cases h)
  · exact absurd (SemLoc.dma.inj (show (SemLoc.dma (rSem i) : SemLoc sig) = SemLoc.dma (sSem i') from hs)).symm (sSem_ne_rSem i' i)
  · exact congrArg (fun i : Fin 48 => (c, (Sum.inr (Sum.inr i) : TokIx)))
      (rSem_inj (SemLoc.dma.inj (show (SemLoc.dma (rSem i) : SemLoc sig) = SemLoc.dma (rSem i') from hs)))

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop((dutyTok ER (barCell c) 0 false ∗ dutyTok ER (barCell c) 0 true)
    ∗ (bigSep Finset.univ fun i : Fin 48 => dutyTok ER (sendCell c i) 0 false)
    ∗ (bigSep Finset.univ fun i : Fin 48 => dutyTok ER (recvCell c i) 0 false))

def G (c : Dev nD) : sProp 𝕄 :=
  iprop((bigSep Finset.univ fun k : Fin 97 => roundState ER (Rd m ρ) (kcell (c, k)) 0)
    ∗ (bigSep Finset.univ fun k : Fin 97 => iprop(atPos ER (kcell (c, k)) 0 ∅ 0 ∗ reached ER (kcell (c, k)) 0)) ∗ toks c)

def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 97 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [bigSep_univ_sum, bigSep_univ_sum, bigSep_bool]
      rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 97 => iprop(∃ κ : ℕ, cellInv ER (Rd m ρ) κ (kcell (c, k))))
          ∗ (bigSep Finset.univ fun k : Fin 97 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 97 => semVal (kcell (c, k)) 0) ∗ bigSep Finset.univ fun k : Fin 97 => roundState ER (Rd m ρ) (kcell (c, k)) 0)
      ⊢ (|={Set.univ}=> bigSep Finset.univ fun k : Fin 97 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 97 → ℕ) : sProp 𝕄 :=
  iprop((bigSep Finset.univ fun ck : Dev nD × Fin 97 => cellInv ER (Rd m ρ) (K ck) (kcell ck))
    ∗ bigSep Finset.univ fun ck : Dev nD × Fin 97 => reached ER (kcell ck) 0)

instance records_persistent (K : Dev nD × Fin 97 → ℕ) : BI.Persistent (records m ρ K) := by unfold records; infer_instance

theorem inv_at (K : Dev nD × Fin 97 → ℕ) (ck : Dev nD × Fin 97) :
    (bigSep Finset.univ fun ck : Dev nD × Fin 97 => (cellInv ER (Rd m ρ) (K ck) (kcell ck) : sProp 𝕄)) ⊢ cellInv ER (Rd m ρ) (K ck) (kcell ck) :=
  bigSep_elim (Finset.mem_univ ck)
theorem reached_at (ck : Dev nD × Fin 97) :
    (bigSep Finset.univ fun ck : Dev nD × Fin 97 => (reached ER (kcell ck) 0 : sProp 𝕄)) ⊢ reached ER (kcell ck) 0 :=
  bigSep_elim (Finset.mem_univ ck)

theorem rec_inv_bar (K : Dev nD × Fin 97 → ℕ) (d : Dev nD) : records m ρ K ⊢ cellInv ER (Rd m ρ) (K (d, kB)) (barCell d) := by
  have h := inv_at m ρ K (d, kB)
  rw [kcell_kB] at h
  unfold records
  iintro ⟨#HI, -⟩
  iapply h; iexact HI
theorem rec_inv_send (K : Dev nD × Fin 97 → ℕ) (d : Dev nD) (i : Fin 48) : records m ρ K ⊢ cellInv ER (Rd m ρ) (K (d, kS i)) (sendCell d i) := by
  have h := inv_at m ρ K (d, kS i)
  rw [kcell_kS] at h
  unfold records
  iintro ⟨#HI, -⟩
  iapply h; iexact HI
theorem rec_inv_recv (K : Dev nD × Fin 97 → ℕ) (d : Dev nD) (i : Fin 48) : records m ρ K ⊢ cellInv ER (Rd m ρ) (K (d, kR i)) (recvCell d i) := by
  have h := inv_at m ρ K (d, kR i)
  rw [kcell_kR] at h
  unfold records
  iintro ⟨#HI, -⟩
  iapply h; iexact HI
theorem rec_reached_bar (K : Dev nD × Fin 97 → ℕ) (d : Dev nD) : records m ρ K ⊢ reached ER (barCell d) 0 := by
  have h := reached_at (F := F) (d, kB)
  rw [kcell_kB] at h
  unfold records
  iintro ⟨-, #HR⟩
  iapply h; iexact HR
theorem rec_reached_send (K : Dev nD × Fin 97 → ℕ) (d : Dev nD) (i : Fin 48) : records m ρ K ⊢ reached ER (sendCell d i) 0 := by
  have h := reached_at (F := F) (d, kS i)
  rw [kcell_kS] at h
  unfold records
  iintro ⟨-, #HR⟩
  iapply h; iexact HR
theorem rec_reached_recv (K : Dev nD × Fin 97 → ℕ) (d : Dev nD) (i : Fin 48) : records m ρ K ⊢ reached ER (recvCell d i) 0 := by
  have h := reached_at (F := F) (d, kR i)
  rw [kcell_kR] at h
  unfold records
  iintro ⟨-, #HR⟩
  iapply h; iexact HR

theorem rec_copies (K : Dev nD × Fin 97 → ℕ) (c : Dev nD) :
    records m ρ K ⊢ bigSep Finset.univ fun i : Fin 48 =>
      iprop(cellInv ER (Rd m ρ) (K (c, kS i)) (sendCell c i) ∗ cellInv ER (Rd m ρ) (K (c, kR i)) (recvCell c i)
        ∗ cellInv ER (Rd m ρ) (K (tgt c i, kR i)) (recvCell (tgt c i) i)
        ∗ reached ER (sendCell c i) 0 ∗ reached ER (recvCell c i) 0 ∗ reached ER (recvCell (tgt c i) i) 0) :=
  BI.bigSep_intro_persistent fun i _ => by
    iintro #H
    isplitr; · iapply (rec_inv_send m ρ K c i); iexact H
    isplitr; · iapply (rec_inv_recv m ρ K c i); iexact H
    isplitr; · iapply (rec_inv_recv m ρ K (tgt c i) i); iexact H
    isplitr; · iapply (rec_reached_send m ρ K c i); iexact H
    isplitr; · iapply (rec_reached_recv m ρ K c i); iexact H
    iapply (rec_reached_recv m ρ K (tgt c i) i); iexact H

theorem persG_intro (K : Dev nD × Fin 97 → ℕ) (c : Dev nD) : records m ρ K ⊢ persG m ρ K c := by
  unfold persG
  iintro #H
  isplitr; · iapply (rec_inv_bar m ρ K c); iexact H
  isplitr; · iapply (rec_inv_bar m ρ K (Geo.xp c)); iexact H
  isplitr; · iapply (rec_inv_bar m ρ K (Geo.yp c)); iexact H
  isplitr; · iapply (rec_reached_bar m ρ K (Geo.xp c)); iexact H
  isplitr; · iapply (rec_reached_bar m ρ K (Geo.yp c)); iexact H
  iapply (rec_copies m ρ K c); iexact H

def payToks (c : Dev nD) : sProp 𝕄 :=
  iprop(dutyTok ER (barCell (Geo.xp c)) 0 true ∗ dutyTok ER (barCell (Geo.yp c)) 0 false
    ∗ (bigSep Finset.univ fun i : Fin 48 => dutyTok ER (recvCell (tgt c i) i) 0 false)
    ∗ (bigSep Finset.univ fun i : Fin 48 => dutyTok ER (sendCell c i) 0 false))

def linear (c : Dev nD) : sProp 𝕄 :=
  iprop((atPos ER (barCell c) 0 ∅ 0 ∗ (bigSep Finset.univ fun i : Fin 48 => atPos ER (sendCell c i) 0 ∅ 0)
      ∗ (bigSep Finset.univ fun i : Fin 48 => atPos ER (recvCell c i) 0 ∅ 0)) ∗ payToks c)

theorem ghost_intro (K : Dev nD × Fin 97 → ℕ) (c : Dev nD) : iprop(records m ρ K ∗ linear c) ⊢ G' m ρ c := by
  unfold linear payToks G' ghost
  iintro ⟨#H, ⟨HaB, HaS, HaR⟩, HtX, HtY, HtR, HtS⟩
  iexists K
  isplitr; · iapply (persG_intro m ρ K c); iexact H
  isplitl [HaB]; · iexact HaB
  isplitl [HaS HaR]
  · rw [bigSep_sep']
    isplitl [HaS] <;> iassumption
  isplitl [HtX]; · iexact HtX
  isplitl [HtY]; · iexact HtY
  rw [bigSep_sep']
  isplitl [HtR] <;> iassumption

def xpEquiv : Dev nD ≃ Dev nD := ⟨Geo.xp, Geo.xp, Geo.xp_xp, Geo.xp_xp⟩
def ypEquiv : Dev nD ≃ Dev nD := ⟨Geo.yp, Geo.yp, Geo.yp_yp, Geo.yp_yp⟩

def tgtEquiv (i : Fin 48) : Dev nD ≃ Dev nD := ⟨fun c => tgt c i, fun c => tgt c i, fun c => tgt_tgt c i, fun c => tgt_tgt c i⟩

theorem recv_around :
    (bigSep Finset.univ fun c : Dev nD => bigSep Finset.univ fun i : Fin 48 => (dutyTok ER (recvCell c i) 0 false : sProp 𝕄))
      = bigSep Finset.univ fun c : Dev nD => bigSep Finset.univ fun i : Fin 48 => (dutyTok ER (recvCell (tgt c i) i) 0 false : sProp 𝕄) :=
  (bigSep_univ_comm (fun (c : Dev nD) (i : Fin 48) => (dutyTok ER (recvCell c i) 0 false : sProp 𝕄))).trans
    ((bigSep_congr fun (i : Fin 48) _ => bigSep_univ_equiv (tgtEquiv i) (fun c : Dev nD => (dutyTok ER (recvCell c i) 0 false : sProp 𝕄))).trans
      (bigSep_univ_comm (fun (c : Dev nD) (i : Fin 48) => (dutyTok ER (recvCell (tgt c i) i) 0 false : sProp 𝕄))).symm)

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ypEquiv (fun c : Dev nD => (dutyTok ER (barCell c) 0 false : sProp 𝕄)),
    bigSep_univ_equiv xpEquiv (fun c : Dev nD => (dutyTok ER (barCell c) 0 true : sProp 𝕄)),
    recv_around]
  iintro ⟨⟨HF, HT⟩, HS, HR⟩
  isplitl [HT]; · iexact HT
  isplitl [HF]; · iexact HF
  isplitl [HR]; · iexact HR
  iexact HS

theorem regroup :
    (bigSep Finset.univ fun c : Dev nD => iprop((bigSep Finset.univ fun k : Fin 97 => iprop(∃ κ : ℕ, cellInv ER (Rd m ρ) κ (kcell (c, k))))
          ∗ (bigSep Finset.univ fun k : Fin 97 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 97 => iprop(∃ κ : ℕ, cellInv ER (Rd m ρ) κ (kcell ck))),
    bigSep_congr (s := Finset.univ) (fun (c : Dev nD) _ => bigSep_sep' Finset.univ (fun k : Fin 97 => (atPos ER (kcell (c, k)) 0 ∅ 0 : sProp 𝕄)) (fun k => reached ER (kcell (c, k)) 0)),
    bigSep_sep', ← bigSep_univ_prod (fun ck : Dev nD × Fin 97 => (reached ER (kcell ck) 0 : sProp 𝕄))]
  iintro ⟨HI, ⟨Hat, #HR⟩, Htok⟩
  ihave HK := (BI.bigSep_exists_pi Finset.univ (fun (ck : Dev nD × Fin 97) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 97 => (atPos ER (kcell (c, k)) 0 ∅ 0 : sProp 𝕄)) payToks).symm).trans
      (bigSep_mono fun c _ => show _ ⊢ linear c from Entails.of_eq (by unfold linear; rw [bigSep_cells c (fun g => atPos ER g 0 ∅ 0)])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage (F := F) c _ (by fin_cases w <;> fin_cases s <;> decide) _ (by
      rcases t with ⟨_ | _, ht⟩
      · exact Or.inl rfl
      · exact Or.inr rfl)

end Lch

open Lch

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in

theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Pf.run_main' depends on axioms: [propext, Classical.choice, Quot.sound] -/
#guard_msgs in #print axioms run_main

theorem finalA_x (c : Dev nD) : finalA m ρ c (0 : Fin 2) = (s₀ m ρ).mem (win0_0.arr.view.loc (c : Thread nD τ)) :=
  (dats (F := F) m ρ 0 c).arrAt_in (0 : Fin 2) rfl _

/-- info: 'Cert.KernelIdeal.Pf.finalA_x' depends on axioms: [propext, Classical.choice, Quot.sound] -/
#guard_msgs in #print axioms finalA_x

theorem finalA_out (c : Dev nD) : finalA m ρ c (1 : Fin 2) = outAt m ρ c := by
  unfold finalA
  rw [show cfg0.N = (t₀ : Fin cfg0.N).val + 1 from rfl, (dats (F := F) m ρ 0 c).arrAt_succ (1 : Fin 2) t₀,
    if_pos (flush0_1 t₀)]
  have hz : (fun a => (win0_1.index t₀) a * main_v1.ty.shape.size a) = fun _ => 0 := funext fun a => by fin_cases a <;> decide
  exact Memref.write_access_unit_zero_univ (Elt F) main_v1 hz (fun a => by fin_cases a <;> decide) _ _

/-- info: 'Cert.KernelIdeal.Pf.finalA_out' depends on axioms: [propext, Classical.choice, Quot.sound] -/
#guard_msgs in #print axioms finalA_out

end Cert.KernelIdeal.Pf

end
-- ==== Proof.Spec.lean ====
import Idealize.ShloMosaic.PureOps.Ideal
import Idealize.ShloMosaic.Lib.ValueIdx
import Idealize.ShloMosaic.Lib.Layout

noncomputable section

namespace Cert.Spec

open Idealize.ShloMosaic

abbrev S4096x512 : Shape := ⟨2, ![4096, 512]⟩

abbrev S1024x512 : Shape := ⟨2, ![1024, 512]⟩

def fpt (s : EReal) : EReal :=
  Ideal.tanh s * s * s + max s 0 * max s 0 * max s 0

theorem fpt_def' (s : EReal) : fpt s = Ideal.tanh s * s * s + max s 0 * max s 0 * max s 0 := rfl

def row (d : Fin 4) (i : S1024x512.Idx) : S4096x512.Idx :=
  ValueIdx.ix2 (n0 := 4096) (n1 := 512)
    ⟨d.val * 1024 + (i 0).val, by have h0 : (i 0).val < 1024 := (i 0).isLt; have hd : d.val < 4 := d.isLt; omega⟩ (i 1)

def G (X : S4096x512.Idx → EReal) : S1024x512.Idx → EReal :=
  fun i => fpt (X (row 0 i) + X (row 1 i) + X (row 2 i) + X (row 3 i))

theorem G_apply (X : S4096x512.Idx → EReal) (i : S1024x512.Idx) :
    G X i = fpt (X (row 0 i) + X (row 1 i) + X (row 2 i) + X (row 3 i)) := rfl

theorem tiles_idx (h : Layout.Tiles ⟨2, ![1024, 512]⟩ ⟨2, ![4096, 512]⟩ 0 4) (c : Fin 4) (i : S1024x512.Idx) :
    h.idx c i = row c i := by
  funext b
  refine Fin.ext ?_
  match b with
  | ⟨0, _⟩ => rfl
  | ⟨1, _⟩ => rfl

theorem block_apply {α : Type} (c : Fin 4) (X : S4096x512.Idx → α) (i : S1024x512.Idx)
    (h : Layout.Tiles ⟨2, ![1024, 512]⟩ ⟨2, ![4096, 512]⟩ 0 4) :
    Layout.block ⟨2, ![1024, 512]⟩ ⟨2, ![4096, 512]⟩ 0 4 c X h i = X (row c i) := by
  rw [Layout.block_apply, tiles_idx]

theorem of_block {α : Type} (c : Fin 4) (X : S4096x512.Idx → α) (B : S1024x512.Idx → α)
    (hB : B = Layout.block ⟨2, ![1024, 512]⟩ ⟨2, ![4096, 512]⟩ 0 4 c X) (i : S1024x512.Idx) :
    B i = X (row c i) := by
  rw [hB]; exact block_apply c X i _

/-- info: 'Cert.Spec.G_apply' depends on axioms: [propext, Classical.choice, Quot.sound] -/
#guard_msgs in #print axioms G_apply

end Cert.Spec

end
-- ==== Proof.Value.lean ====
import proofs.«900778_g7700000000000779_dist_f_of_ar_i_m1024_n512_v7x_i4_f32_1_alg».proof.Proof.Data
import proofs.«900778_g7700000000000779_dist_f_of_ar_i_m1024_n512_v7x_i4_f32_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.Layout
import Idealize.ShloMosaic.Lib.Decide
import Mathlib.Algebra.BigOperators.Fin
import Mathlib.Data.Fintype.Card

noncomputable section

namespace Cert.KernelIdeal.Pf

open Cert.KernelIdeal Cert.KernelIdeal.Gen Cert.Chunks

open Idealize.ShloMosaic
open Idealize.ShloMosaic.TcCoe
open Idealize.SL.Sem

namespace Val

theorem tr_ideal (x : V32 Ideal) : tr (F := Ideal) x = x := by
  unfold tr
  rw [shapeCast_self, shapeCast_self] <;> rfl

theorem ext_ideal (b : B32 Ideal) : ext (F := Ideal) b = b := rfl

theorem addtr_ideal (x : V32 Ideal) (r : B32 Ideal) (y : S32x512.Idx) :
    (addtr (F := Ideal) x r y : EReal) = (x y : EReal) + (r y : EReal) := by
  unfold addtr
  rw [shapeCast_self, shapeCast_self] <;> rfl

theorem fpt_ideal (s : V32 Ideal) (y : S32x512.Idx) :
    (fpt (F := Ideal) s y : EReal) = Cert.Spec.fpt (s y : EReal) := by
  have hz : Ideal.ofBits .f32 0x00000000#32 = 0 := Ideal.ofBits_zero_f32
  show Ideal.tanh (s y : EReal) * (s y : EReal) * (s y : EReal)
      + max (s y : EReal) (Ideal.ofBits .f32 0x00000000#32) * max (s y : EReal) (Ideal.ofBits .f32 0x00000000#32)
        * max (s y : EReal) (Ideal.ofBits .f32 0x00000000#32) = Cert.Spec.fpt (s y : EReal)
  rw [hz] <;> rfl

theorem fval_ideal (x : V32 Ideal) (r1 r2 : B32 Ideal) (y : S32x512.Idx) :
    (fval (F := Ideal) x r1 r2 y : EReal) = Cert.Spec.fpt ((x y : EReal) + (r1 y : EReal) + (r2 y : EReal)) := by
  unfold fval ssum
  rw [shapeCast_self]
  exact fpt_ideal _ y

theorem W2_ideal (m : (ℓ : Loc nD τ sig) → Buf (Elt Ideal) ℓ) (ρ : Dev nD → PrngReg) (d : Dev nD) (j : Fin 8) :
    W2 (F := Ideal) m ρ d j = O2 (F := Ideal) m ρ d j := by
  unfold W2 O2 fvalb
  rw [shapeCast_self] <;> rfl

theorem xs_eq (m : (ℓ : Loc nD τ sig) → Buf (Elt Ideal) ℓ) (ρ : Dev nD → PrngReg) (c : Dev nD) :
    xs (F := Ideal) m ρ c = m ((c : Thread nD τ).loc main_arg0) := by
  unfold xs
  exact Memref.read_access_unit_zero (Elt Ideal) main_arg0 (funext fun a => Nat.zero_mul _) _ _

theorem xrd_apply (m : (ℓ : Loc nD τ sig) → Buf (Elt Ideal) ℓ) (ρ : Dev nD → PrngReg) (c : Dev nD)
    (o : { o : Fin 2 → ℕ // ∀ a, o a + S32x512.size a ≤ S1024x512.size a }) (y : S32x512.Idx) :
    xrd (F := Ideal) m ρ c o y
      = m ((c : Thread nD τ).loc main_arg0) ((Rect.unit (s := S1024x512) o.1 S32x512.size o.2).emb y) := by
  unfold xrd
  rw [xs_eq] <;> rfl

theorem xrd_X (m : (ℓ : Loc nD τ sig) → Buf (Elt Ideal) ℓ) (ρ : Dev nD → PrngReg) (X : Cert.Spec.S4096x512.Idx → EReal)
    (hX : ∀ c : Dev nD, m ((c.tc : Thread nD τ).loc main_arg0) = Layout.block ⟨2, ![1024, 512]⟩ ⟨2, ![4096, 512]⟩ 0 4 c X)
    (u : Dev nD) (o : { o : Fin 2 → ℕ // ∀ a, o a + S32x512.size a ≤ S1024x512.size a })
    (a : ℕ) (ha : a + 32 ≤ 1024) (h0 : o.1 0 = a) (h1 : o.1 1 = 0) (y : S32x512.Idx) :
    (xrd (F := Ideal) m ρ u o y : EReal) = X (Cert.Spec.row u ((rowRect 1024 512 32 a ha).emb y)) := by
  have e : (Rect.unit (s := S1024x512) o.1 S32x512.size o.2).emb y = (rowRect 1024 512 32 a ha).emb y := by
    funext b
    apply Fin.ext
    match b with
    | ⟨0, hb⟩ => exact congrArg (fun k => k + 1 * (y ⟨0, hb⟩).val) h0
    | ⟨1, hb⟩ => exact congrArg (fun k => k + 1 * (y ⟨1, hb⟩).val) h1
  rw [xrd_apply, e]
  exact Cert.Spec.of_block u X (m ((u.tc : Thread nD τ).loc main_arg0)) (hX u) ((rowRect 1024 512 32 a ha).emb y)

theorem W0_X (m : (ℓ : Loc nD τ sig) → Buf (Elt Ideal) ℓ) (ρ : Dev nD → PrngReg) (X : Cert.Spec.S4096x512.Idx → EReal)
    (hX : ∀ c : Dev nD, m ((c.tc : Thread nD τ).loc main_arg0) = Layout.block ⟨2, ![1024, 512]⟩ ⟨2, ![4096, 512]⟩ 0 4 c X)
    (d : Dev nD) (n : Fin 16) (a : ℕ) (ha : a + 32 ≤ 1024) (h0 : (x0o d n).1 0 = a) (h1 : (x0o d n).1 1 = 0)
    (y : S32x512.Idx) :
    (W0 (F := Ideal) m ρ d n y : EReal) = X (Cert.Spec.row d ((rowRect 1024 512 32 a ha).emb y)) := by
  unfold W0
  rw [tr_ideal]
  exact xrd_X m ρ X hX d (x0o d n) a ha h0 h1 y

theorem W1_X (m : (ℓ : Loc nD τ sig) → Buf (Elt Ideal) ℓ) (ρ : Dev nD → PrngReg) (X : Cert.Spec.S4096x512.Idx → EReal)
    (hX : ∀ c : Dev nD, m ((c.tc : Thread nD τ).loc main_arg0) = Layout.block ⟨2, ![1024, 512]⟩ ⟨2, ![4096, 512]⟩ 0 4 c X)
    (b : Dev nD) (j : Fin 8) (a : ℕ) (ha : a + 32 ≤ 1024) (h0 : (x1o b j).1 0 = a) (h1 : (x1o b j).1 1 = 0)
    (g0 : (x0o (tgt b (i0 j)) (n0 j)).1 0 = a) (g1 : (x0o (tgt b (i0 j)) (n0 j)).1 1 = 0) (y : S32x512.Idx) :
    (W1 (F := Ideal) m ρ b j y : EReal)
      = X (Cert.Spec.row b ((rowRect 1024 512 32 a ha).emb y))
        + X (Cert.Spec.row (tgt b (i0 j)) ((rowRect 1024 512 32 a ha).emb y)) := by
  have e1 := xrd_X m ρ X hX b (x1o b j) a ha h0 h1 y
  have e2 := W0_X m ρ X hX (tgt b (i0 j)) (n0 j) a ha g0 g1 y
  unfold W1
  rw [addtr_ideal, e1, e2]

theorem rows_in : ∀ (d : Dev nD) (j : Fin 8),
    (x2o d j).1 1 = 0
    ∧ (x0o (tgt d (i8 j)) (n8 j)).1 0 = (x2o d j).1 0 ∧ (x0o (tgt d (i8 j)) (n8 j)).1 1 = 0
    ∧ (x1o (tgt d (i16 j)) j).1 0 = (x2o d j).1 0 ∧ (x1o (tgt d (i16 j)) j).1 1 = 0
    ∧ (x0o (tgt (tgt d (i16 j)) (i0 j)) (n0 j)).1 0 = (x2o d j).1 0
    ∧ (x0o (tgt (tgt d (i16 j)) (i0 j)) (n0 j)).1 1 = 0 := by decide +kernel

theorem rows_out : ∀ (c : Dev nD) (j : Fin 8),
    orow c (j, 0) = (x2o c j).1 0
    ∧ orow c (j, 1) = (x2o (tgt c (i24 j)) j).1 0
    ∧ orow c (j, 2) = (x2o (tgt c (i25 j)) j).1 0
    ∧ orow c (j, 3) = (x2o (tgt (tgt c (i40 j)) (i24 j)) j).1 0 := by decide +kernel

def dv (d : Dev nD) (j : Fin 8) : Fin 4 → Dev nD
  | ⟨0, _⟩ => d
  | ⟨1, _⟩ => tgt d (i8 j)
  | ⟨2, _⟩ => tgt d (i16 j)
  | ⟨3, _⟩ => tgt (tgt d (i16 j)) (i0 j)

theorem dv_inj : ∀ (d : Dev nD) (j : Fin 8) (a b : Fin 4), dv d j a = dv d j b → a = b := by decide +kernel

theorem sum4 (f : Fin 4 → EReal) (p : Fin 4 → Fin 4) (hp : ∀ a b, p a = p b → a = b) :
    f (p 0) + f (p 1) + (f (p 2) + f (p 3)) = f 0 + f 1 + f 2 + f 3 := by
  have hb : Function.Bijective p := Finite.injective_iff_bijective.mp fun a b h => hp a b h
  have h := hb.sum_comp f
  rw [Fin.sum_univ_four, Fin.sum_univ_four] at h
  exact (add_assoc _ _ _).symm.trans h

theorem O2_X (m : (ℓ : Loc nD τ sig) → Buf (Elt Ideal) ℓ) (ρ : Dev nD → PrngReg) (X : Cert.Spec.S4096x512.Idx → EReal)
    (hX : ∀ c : Dev nD, m ((c.tc : Thread nD τ).loc main_arg0) = Layout.block ⟨2, ![1024, 512]⟩ ⟨2, ![4096, 512]⟩ 0 4 c X)
    (d : Dev nD) (j : Fin 8) (a : ℕ) (ha : a + 32 ≤ 1024) (hrow : (x2o d j).1 0 = a) (y : S32x512.Idx) :
    (O2 (F := Ideal) m ρ d j y : EReal) = Cert.Spec.G X ((rowRect 1024 512 32 a ha).emb y) := by
  obtain ⟨r1, r2, r3, r4, r5, r6, r7⟩ := rows_in d j
  have e1 := xrd_X m ρ X hX d (x2o d j) a ha hrow r1 y
  have e2 := W0_X m ρ X hX (tgt d (i8 j)) (n8 j) a ha (r2.trans hrow) r3 y
  have e3 := W1_X m ρ X hX (tgt d (i16 j)) j a ha (r4.trans hrow) r5 (r6.trans hrow) r7 y
  unfold O2
  rw [fval_ideal, e1, e2, e3, Cert.Spec.G_apply]
  exact congrArg Cert.Spec.fpt
    (sum4 (fun k => X (Cert.Spec.row k ((rowRect 1024 512 32 a ha).emb y))) (dv d j) (dv_inj d j))

theorem outV_X (m : (ℓ : Loc nD τ sig) → Buf (Elt Ideal) ℓ) (ρ : Dev nD → PrngReg) (X : Cert.Spec.S4096x512.Idx → EReal)
    (hX : ∀ c : Dev nD, m ((c.tc : Thread nD τ).loc main_arg0) = Layout.block ⟨2, ![1024, 512]⟩ ⟨2, ![4096, 512]⟩ 0 4 c X)
    (c : Dev nD) (j : Fin 8) (s : Fin 4) (y : S32x512.Idx) :
    (outV (F := Ideal) m ρ c (oix (j, s)) y : EReal)
      = Cert.Spec.G X ((rowRect 1024 512 32 (orow c (j, s)) (orow_in c (j, s))).emb y) := by
  obtain ⟨o1, o2, o3, o4⟩ := rows_out c j
  match s with
  | ⟨0, hs⟩ =>
    have e : outV (F := Ideal) m ρ c (oix (j, ⟨0, hs⟩)) = O2 (F := Ideal) m ρ c j := outV_o8 m ρ c j
    rw [e]
    exact O2_X m ρ X hX c j (orow c (j, ⟨0, hs⟩)) (orow_in c (j, ⟨0, hs⟩)) o1.symm y
  | ⟨1, hs⟩ =>
    have e : outV (F := Ideal) m ρ c (oix (j, ⟨1, hs⟩)) = O2 (F := Ideal) m ρ (tgt c (i24 j)) j :=
      (outV_o16 m ρ c j).trans ((ext_ideal _).trans (W2_ideal m ρ (tgt c (i24 j)) j))
    rw [e]
    exact O2_X m ρ X hX (tgt c (i24 j)) j (orow c (j, ⟨1, hs⟩)) (orow_in c (j, ⟨1, hs⟩)) o2.symm y
  | ⟨2, hs⟩ =>
    have e : outV (F := Ideal) m ρ c (oix (j, ⟨2, hs⟩)) = O2 (F := Ideal) m ρ (tgt c (i25 j)) j :=
      (outV_o24 m ρ c j).trans ((ext_ideal _).trans (W2_ideal m ρ (tgt c (i25 j)) j))
    rw [e]
    exact O2_X m ρ X hX (tgt c (i25 j)) j (orow c (j, ⟨2, hs⟩)) (orow_in c (j, ⟨2, hs⟩)) o3.symm y
  | ⟨3, hs⟩ =>
    have e : outV (F := Ideal) m ρ c (oix (j, ⟨3, hs⟩)) = O2 (F := Ideal) m ρ (tgt (tgt c (i40 j)) (i24 j)) j :=
      (outV_o32 m ρ c j).trans ((ext_ideal _).trans (W2_ideal m ρ (tgt (tgt c (i40 j)) (i24 j)) j))
    rw [e]
    exact O2_X m ρ X hX (tgt (tgt c (i40 j)) (i24 j)) j (orow c (j, ⟨3, hs⟩)) (orow_in c (j, ⟨3, hs⟩)) o4.symm y

theorem outAt_apply (m : (ℓ : Loc nD τ sig) → Buf (Elt Ideal) ℓ) (ρ : Dev nD → PrngReg) (X : Cert.Spec.S4096x512.Idx → EReal)
    (hX : ∀ c : Dev nD, m ((c.tc : Thread nD τ).loc main_arg0) = Layout.block ⟨2, ![1024, 512]⟩ ⟨2, ![4096, 512]⟩ 0 4 c X)
    (c : Dev nD) (i : Cert.Spec.S1024x512.Idx) :
    (outAt (F := Ideal) m ρ c i : EReal) = Cert.Spec.G X i := by
  obtain ⟨⟨j, s⟩, ht⟩ := rowRect_cover (R := 1024) (C := 512) (h := 32) (orow c) (orow_in c) (orow_cover c) i
  obtain ⟨y, rfl⟩ := (rowRect 1024 512 32 (orow c (j, s)) (orow_in c (j, s))).exists_idx_of_mem ht
  show (outAt (F := Ideal) m ρ c ((rowRect 1024 512 32 (orow c (j, s)) (orow_in c (j, s))).emb y) : EReal)
      = Cert.Spec.G X ((rowRect 1024 512 32 (orow c (j, s)) (orow_in c (j, s))).emb y)
  have hg : outAt (F := Ideal) m ρ c ((rowRect 1024 512 32 (orow c (j, s)) (orow_in c (j, s))).emb y)
      = outV (F := Ideal) m ρ c (oix (j, s)) y :=
    rowGlue_apply (Val := Elt Ideal) (R := 1024) (C := 512) (h := 32) (e := .f32) (orow c) (orow_in c) (orow_disj c)
      (orow_cover c) (fun t => outV (F := Ideal) m ρ c (oix t)) (j, s) y
  rw [hg]
  exact outV_X m ρ X hX c j s y

end Val

theorem outAt_eq_G (m : (ℓ : Loc nD τ sig) → Buf (Elt Ideal) ℓ) (ρ : Dev nD → PrngReg) (X : Cert.Spec.S4096x512.Idx → EReal)
    (hX : ∀ c : Dev nD, m ((c.tc : Thread nD τ).loc main_arg0) = Layout.block ⟨2, ![1024, 512]⟩ ⟨2, ![4096, 512]⟩ 0 4 c X) (c : Dev nD) :
    outAt (F := Ideal) m ρ c = Cert.Spec.G X :=
  funext fun i => Val.outAt_apply m ρ X hX c i

/-- info: 'Cert.KernelIdeal.Pf.outAt_eq_G' depends on axioms: [propext, Classical.choice, Quot.sound] -/
#guard_msgs in #print axioms outAt_eq_G

end Cert.KernelIdeal.Pf

end
-- ==== Proof.RefValue.lean ====
import proofs.«900778_g7700000000000779_dist_f_of_ar_i_m1024_n512_v7x_i4_f32_1_alg».proof.Defs
import proofs.«900778_g7700000000000779_dist_f_of_ar_i_m1024_n512_v7x_i4_f32_1_alg».proof.Proof.Gen.ReferenceIdeal
import proofs.«900778_g7700000000000779_dist_f_of_ar_i_m1024_n512_v7x_i4_f32_1_alg».proof.Proof.Gen.Pre_finite_inputs_ReferenceIdeal
import proofs.«900778_g7700000000000779_dist_f_of_ar_i_m1024_n512_v7x_i4_f32_1_alg».proof.Proof.Gen.ReferenceIdeal.Run
import proofs.«900778_g7700000000000779_dist_f_of_ar_i_m1024_n512_v7x_i4_f32_1_alg».proof.Proof.Gen.ReferenceIdeal.Read
import proofs.«900778_g7700000000000779_dist_f_of_ar_i_m1024_n512_v7x_i4_f32_1_alg».proof.Proof.Spec

noncomputable section

namespace Cert.RefValue

open Idealize.ShloMosaic Idealize.SL.Sem Cert.ReferenceIdeal

theorem idx_row (i : S1024x512.Idx) (k : Fin 4) :
    Read.idx_main_v0 (Read.idx_main_v1 i k) = Cert.Spec.row k i := by
  funext a
  refine Fin.ext ?_
  match a with
  | ⟨0, _⟩ =>
    show ((k.val * 1024 + (i 0).val) * 512 + (i 1).val) / 512 = k.val * 1024 + (i 0).val
    have h1 : (i 1).val < 512 := (i 1).isLt
    omega
  | ⟨1, _⟩ =>
    show ((k.val * 1024 + (i 0).val) * 512 + (i 1).val) % 512 = (i 1).val
    have h1 : (i 1).val < 512 := (i 1).isLt
    omega

theorem sum_at (x0 : (⟨S4096x512, .f32⟩ : BufTy).Contents (Elt Ideal)) (i : S1024x512.Idx) :
    Read.val_main_v1 (F := Ideal) x0 i
      = x0 (Cert.Spec.row 0 i) + x0 (Cert.Spec.row 1 i) + x0 (Cert.Spec.row 2 i) + x0 (Cert.Spec.row 3 i) := by
  rw [Read.val_main_v1_apply, Read.val_main_cst_apply, Fin.sum_univ_four,
    Read.val_main_v0_apply, Read.val_main_v0_apply, Read.val_main_v0_apply, Read.val_main_v0_apply,
    idx_row, idx_row, idx_row, idx_row, Ideal.ofBits_def, Ideal.ofBits_zero_f32, zero_add]

theorem ref_eq_G (x0 : (⟨S4096x512, .f32⟩ : BufTy).Contents (Elt Ideal)) :
    Read.val_main_v9 (F := Ideal) x0 = Cert.Spec.G x0 := by
  funext i
  rw [Read.val_main_v9_apply, Read.val_main_v6_apply, Read.val_main_v8_apply, Read.val_main_v5_apply,
    Read.val_main_v7_apply, Read.val_main_v4_apply, Read.val_main_v3_apply, Read.val_main_v2_apply,
    Read.val_main_cst_0_apply, sum_at]
  simp only [Ideal.addf_def, Ideal.mulf_def, Ideal.maximumf_def, Ideal.hostUnary_tanh_def, Ideal.ofBits_def,
    Ideal.ofBits_zero_f32, Cert.Spec.G_apply, Cert.Spec.fpt_def']

theorem frame_ri : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v9) = Cert.Spec.G (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨((h 0).1.trans (Read.val_main_v9_eq _)).trans (ref_eq_G _), (h 0).2⟩)
    (Cert.ReferenceIdeal.Value.run (F := Ideal) m' ρ')

/-- info: 'Cert.RefValue.ref_run' depends on axioms: [propext, Classical.choice, Quot.sound] -/
#guard_msgs in #print axioms ref_run

end Cert.RefValue

end
-- ==== Proof.lean ====
import proofs.«900778_g7700000000000779_dist_f_of_ar_i_m1024_n512_v7x_i4_f32_1_alg».proof.Defs
import proofs.«900778_g7700000000000779_dist_f_of_ar_i_m1024_n512_v7x_i4_f32_1_alg».proof.Proof.Gen.Kernel
import proofs.«900778_g7700000000000779_dist_f_of_ar_i_m1024_n512_v7x_i4_f32_1_alg».proof.Proof.Gen.KernelIdeal
import proofs.«900778_g7700000000000779_dist_f_of_ar_i_m1024_n512_v7x_i4_f32_1_alg».proof.Proof.Gen.ReferenceIdeal
import proofs.«900778_g7700000000000779_dist_f_of_ar_i_m1024_n512_v7x_i4_f32_1_alg».proof.Proof.Gen.Pre_finite_inputs_Kernel
import proofs.«900778_g7700000000000779_dist_f_of_ar_i_m1024_n512_v7x_i4_f32_1_alg».proof.Proof.Gen.Pre_finite_inputs_ReferenceIdeal
import proofs.«900778_g7700000000000779_dist_f_of_ar_i_m1024_n512_v7x_i4_f32_1_alg».proof.Proof.Body
import proofs.«900778_g7700000000000779_dist_f_of_ar_i_m1024_n512_v7x_i4_f32_1_alg».proof.Proof.Launch
import proofs.«900778_g7700000000000779_dist_f_of_ar_i_m1024_n512_v7x_i4_f32_1_alg».proof.Proof.Value
import proofs.«900778_g7700000000000779_dist_f_of_ar_i_m1024_n512_v7x_i4_f32_1_alg».proof.Proof.RefValue
import Idealize.ShloMosaic.Adequacy
import Idealize.ShloMosaic.Init

noncomputable section

namespace Cert.Proof

open Idealize.ShloMosaic Idealize.ShloMosaic.TcCoe Idealize.SL.Sem
open Cert.KernelIdeal

variable {F : FTy → Type} [FloatOps F]

/-- The word-level program is the idealized program's own text: at every float instance they have one body table. -/
theorem defs_eq [Cert.Kernel.Facts] : Cert.Kernel.defs (F := F) = defs (F := F) :=
  congrArg (Pipeline.defs pcfgs) <| congrArg Defs.onTc <| funext fun l => funext fun a =>
    match l, a with
    | 0, (_, _) => rfl
    | ⟨_ + 1, h⟩, _ => absurd h (by omega)

/-- At any float instance the kernel runs; each device's argument block ends as it began and its result ends at `outAt`. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = Pf.outAt m ρ c
      ∧ r.2.mem ((c.tc : Thread nD τ).loc main_arg0) = m ((c.tc : Thread nD τ).loc main_arg0)) :=
  (θ_run _ _ _).mono
    (fun _ h c => ⟨(h c (1 : Fin 2)).trans (Pf.finalA_out m ρ c), (h c (0 : Fin 2)).trans (Pf.finalA_x m ρ c)⟩)
    (Pf.run_main m ρ (Pf.body_obligation m ρ))

theorem frame_ki : Cert.frame_KernelIdeal := fun m ρ _ => (θ_run _ _ _).mono (fun _ h c => (h c).2) (run m ρ)

theorem frame_k : Cert.frame_Kernel := fun m ρ _ =>
  defs_eq (F := Bits) ▸ (θ_run _ _ _).mono (fun _ h c => (h c).2) (run (F := Bits) m ρ)

/-- Both sides end at the specification `G` of the reference's whole argument array. -/
theorem algebraic : Cert.algebraic_KernelIdeal_ReferenceIdeal := fun m ρ m' ρ' _ hagree =>
  ⟨Cert.Spec.G (m' (((0 : Dev Cert.ReferenceIdeal.nD).tc : Thread Cert.ReferenceIdeal.nD Cert.ReferenceIdeal.τ).loc Cert.ReferenceIdeal.main_arg0)),
    (θ_run _ _ _).mono (fun _ h c => ⟨(h c).1.trans (Pf.outAt_eq_G m ρ _ hagree c), (h c).2⟩) (run m ρ),
    Cert.RefValue.ref_run m' ρ'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.RefValue.frame_ri, trivial, algebraic⟩

end Cert.Proof

end
